-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v376)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v376) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v427) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S2x2x128x128 : Shape := ⟨4, ![2, 2, 128, 128]⟩
abbrev S2x2x256x1 : Shape := ⟨4, ![2, 2, 256, 1]⟩
abbrev S2x2x1 : Shape := ⟨3, ![2, 2, 1]⟩
abbrev S2x2x128 : Shape := ⟨3, ![2, 2, 128]⟩
abbrev S2x128x128 : Shape := ⟨3, ![2, 128, 128]⟩
abbrev S2x128 : Shape := ⟨2, ![2, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x2x128x128 : S_.BroadcastsInDim S2x2x128x128 (![] : Fin 0 → Fin S2x2x128x128.rank)
  reducesTo_S2x2x128x128_S_d0_1_2_3 : S2x2x128x128.ReducesTo [0, 1, 2, 3] S_
  bcast_S_S2x2x256x1 : S_.BroadcastsInDim S2x2x256x1 (![] : Fin 0 → Fin S2x2x256x1.rank)
  reducesTo_S2x2x256x1_S_d0_1_2_3 : S2x2x256x1.ReducesTo [0, 1, 2, 3] S_
  bcast_S_S2x2x1 : S_.BroadcastsInDim S2x2x1 (![] : Fin 0 → Fin S2x2x1.rank)
  reducesTo_S2x2x1_S_d0_1_2 : S2x2x1.ReducesTo [0, 1, 2] S_
  bcast_S_S2x2x128 : S_.BroadcastsInDim S2x2x128 (![] : Fin 0 → Fin S2x2x128.rank)
  reducesTo_S2x2x128_S_d0_1_2 : S2x2x128.ReducesTo [0, 1, 2] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S128 .f32) (main_arg17 : FVec F S128x64 .f32) (main_arg18 : FVec F S64 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg17
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg13 : FVec F S128x128 .f32) (main_arg14 : FVec F S128 .f32) (main_arg15 : FVec F S128 .f32) (main_arg16 : FVec F S128 .f32) (main_arg17 : FVec F S128x64 .f32) (main_arg18 : FVec F S64 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_v63 main_v67

def fn_part2 {F : FTy → Type} [FloatOps F] (main_arg9 : FVec F S2x128x128 .f32) (main_arg10 : FVec F S2x128 .f32) (main_arg11 : FVec F S2x128 .f32) (main_arg12 : FVec F S2x128 .f32) (main_arg13 : FVec F S128x128 .f32) (main_arg14 : FVec F S128 .f32) (main_arg15 : FVec F S128 .f32) (main_arg16 : FVec F S128 .f32) (main_arg17 : FVec F S128x64 .f32) (main_arg18 : FVec F S64 .f32) (main_v33 : IVec S_ 1) : IVec S_ 1 :=
  let main_v34 : FVec F S2x128x128 .f32 := Host.absf main_arg9
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg10
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg11
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg12
  let main_cst_18 : FVec F S_ .f32 := constant S_ .f32 0x7F800000#32
  let main_v50 : FVec F S2x128 .f32 := broadcastInDim S2x128 ![] bcast_S_S2x128 main_cst_18
  fn_part3 (F := F) main_arg13 main_arg14 main_arg15 main_arg16 main_arg17 main_arg18 main_v48 main_v49 main_v50

def fn_part1 {F : FTy → Type} [FloatOps F] (main_arg6 : FVec F S2x2x1 .f32) (main_arg7 : FVec F S2x2x128x128 .f32) (main_arg8 : FVec F S2x2x128 .f32) (main_arg9 : FVec F S2x128x128 .f32) (main_arg10 : FVec F S2x128 .f32) (main_arg11 : FVec F S2x128 .f32) (main_arg12 : FVec F S2x128 .f32) (main_arg13 : FVec F S128x128 .f32) (main_arg14 : FVec F S128 .f32) (main_arg15 : FVec F S128 .f32) (main_arg16 : FVec F S128 .f32) (main_arg17 : FVec F S128x64 .f32) (main_arg18 : FVec F S64 .f32) (main_v13 : IVec S_ 1) (main_v16 : IVec S2x2x256x1 1) : IVec S_ 1 :=
  let main_c_5 : IVec S_ 1 := constantI S_ 1 1#1
  let main_v17 : IVec S_ 1 := (fun x v => Host.reduce IntOp.andi x v reducesTo_S2x2x256x1_S_d0_1_2_3 h_S_) main_v16 main_c_5
  let main_v18 : IVec S_ 1 := andi main_v13 main_v17
  let main_v19 : FVec F S2x2x1 .f32 := Host.absf main_arg6
  let main_cst_6 : FVec F S_ .f32 := constant S_ .f32 0x7F800000#32
  let main_v20 : FVec F S2x2x1 .f32 := broadcastInDim S2x2x1 ![] bcast_S_S2x2x1 main_cst_6
  let main_v21 : IVec S2x2x1 1 := cmpf .olt main_v19 main_v20
  let main_c_7 : IVec S_ 1 := constantI S_ 1 1#1
  let main_v22 : IVec S_ 1 := (fun x v => Host.reduce IntOp.andi x v reducesTo_S2x2x1_S_d0_1_2 h_S_) main_v21 main_c_7
  let main_v23 : IVec S_ 1 := andi main_v18 main_v22
  let main_v24 : FVec F S2x2x128x128 .f32 := Host.absf main_arg7
  let main_cst_8 : FVec F S_ .f32 := constant S_ .f32 0x7F800000#32
  let main_v25 : FVec F S2x2x128x128 .f32 := broadcastInDim S2x2x128x128 ![] bcast_S_S2x2x128x128 main_cst_8
  let main_v26 : IVec S2x2x128x128 1 := cmpf .olt main_v24 main_v25
  let main_c_9 : IVec S_ 1 := constantI S_ 1 1#1
  let main_v27 : IVec S_ 1 := (fun x v => Host.reduce IntOp.andi x v reducesTo_S2x2x128x128_S_d0_1_2_3 h_S_) main_v26 main_c_9
  let main_v28 : IVec S_ 1 := andi main_v23 main_v27
  let main_v29 : FVec F S2x2x128 .f32 := Host.absf main_arg8
  let main_cst_10 : FVec F S_ .f32 := constant S_ .f32 0x7F800000#32
  let main_v30 : FVec F S2x2x128 .f32 := broadcastInDim S2x2x128 ![] bcast_S_S2x2x128 main_cst_10
  let main_v31 : IVec S2x2x128 1 := cmpf .olt main_v29 main_v30
  let main_c_11 : IVec S_ 1 := constantI S_ 1 1#1
  let main_v32 : IVec S_ 1 := (fun x v => Host.reduce IntOp.andi x v reducesTo_S2x2x128_S_d0_1_2 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x128 .f32) (main_arg1 : FVec F S100000x128 .f32) (main_arg2 : IVec S2x500000 32) (main_arg3 : IVec S2x500000 32) (main_arg4 : FVec F S2x2x128x128 .f32) (main_arg5 : FVec F S2x2x256x1 .f32) (main_arg6 : FVec F S2x2x1 .f32) (main_arg7 : FVec F S2x2x128x128 .f32) (main_arg8 : FVec F S2x2x128 .f32) (main_arg9 : FVec F S2x128x128 .f32) (main_arg10 : FVec F S2x128 .f32) (main_arg11 : FVec F S2x128 .f32) (main_arg12 : FVec F S2x128 .f32) (main_arg13 : FVec F S128x128 .f32) (main_arg14 : FVec F S128 .f32) (main_arg15 : FVec F S128 .f32) (main_arg16 : FVec F S128 .f32) (main_arg17 : FVec F S128x64 .f32) (main_arg18 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S2x2x128x128 .f32 := Host.absf main_arg4
  let main_cst_2 : FVec F S_ .f32 := constant S_ .f32 0x7F800000#32
  let main_v10 : FVec F S2x2x128x128 .f32 := broadcastInDim S2x2x128x128 ![] bcast_S_S2x2x128x128 main_cst_2
  let main_v11 : IVec S2x2x128x128 1 := cmpf .olt main_v9 main_v10
  let main_c_3 : IVec S_ 1 := constantI S_ 1 1#1
  let main_v12 : IVec S_ 1 := (fun x v => Host.reduce IntOp.andi x v reducesTo_S2x2x128x128_S_d0_1_2_3 h_S_) main_v11 main_c_3
  let main_v13 : IVec S_ 1 := andi main_v8 main_v12
  let main_v14 : FVec F S2x2x256x1 .f32 := Host.absf main_arg5
  let main_cst_4 : FVec F S_ .f32 := constant S_ .f32 0x7F800000#32
  let main_v15 : FVec F S2x2x256x1 .f32 := broadcastInDim S2x2x256x1 ![] bcast_S_S2x2x256x1 main_cst_4
  let main_v16 : IVec S2x2x256x1 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x500000 : Shape := ⟨2, ![2, 500000]⟩
abbrev S2x2x128x128 : Shape := ⟨4, ![2, 2, 128, 128]⟩
abbrev S2x2x256x1 : Shape := ⟨4, ![2, 2, 256, 1]⟩
abbrev S2x2x1 : Shape := ⟨3, ![2, 2, 1]⟩
abbrev S2x2x128 : Shape := ⟨3, ![2, 2, 128]⟩
abbrev S2x128x128 : Shape := ⟨3, ![2, 128, 128]⟩
abbrev S2x128 : Shape := ⟨2, ![2, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S1x128x128 : Shape := ⟨3, ![1, 128, 128]⟩
abbrev S1x128 : Shape := ⟨2, ![1, 128]⟩
abbrev S10000x128 : Shape := ⟨2, ![10000, 128]⟩
abbrev S1x1x128x128 : Shape := ⟨4, ![1, 1, 128, 128]⟩
abbrev S1x1x256x1 : Shape := ⟨4, ![1, 1, 256, 1]⟩
abbrev S256x1 : Shape := ⟨2, ![256, 1]⟩
abbrev S1x1x1 : Shape := ⟨3, ![1, 1, 1]⟩
abbrev S1 : Shape := ⟨1, ![1]⟩
abbrev S1x1x128 : Shape := ⟨3, ![1, 1, 128]⟩
abbrev S128x1 : Shape := ⟨2, ![128, 1]⟩
abbrev S_ : Shape := ⟨0, ![]⟩
abbrev S1x1 : Shape := ⟨2, ![1, 1]⟩
abbrev S100000x1 : Shape := ⟨2, ![100000, 1]⟩
abbrev S10000x1 : Shape := ⟨2, ![10000, 1]⟩
abbrev S5000x128 : Shape := ⟨2, ![5000, 128]⟩
abbrev S5000x1 : Shape := ⟨2, ![5000, 1]⟩
abbrev S500000x1 : Shape := ⟨2, ![500000, 1]⟩
abbrev S500000x128 : Shape := ⟨2, ![500000, 128]⟩
abbrev S1x64 : Shape := ⟨2, ![1, 64]⟩
abbrev S100000x64 : Shape := ⟨2, ![100000, 64]⟩
abbrev S10000x64 : Shape := ⟨2, ![10000, 64]⟩

abbrev nBuf : Space → Nat
  | .hbm => 576
  | .vmem => 164
  | .smem => 0
  | _ => 0

abbrev hbmTy0_0 (i : Nat) : BufTy := match i % 128 with
  | 0 => ⟨S100000x128, .f32⟩
  | 1 => ⟨S100000x128, .f32⟩
  | 2 => ⟨S2x500000, .i32⟩
  | 3 => ⟨S2x500000, .i32⟩
  | 4 => ⟨S2x2x128x128, .f32⟩
  | 5 => ⟨S2x2x256x1, .f32⟩
  | 6 => ⟨S2x2x1, .f32⟩
  | 7 => ⟨S2x2x128x128, .f32⟩
  | 8 => ⟨S2x2x128, .f32⟩
  | 9 => ⟨S2x128x128, .f32⟩
  | 10 => ⟨S2x128, .f32⟩
  | 11 => ⟨S2x128, .f32⟩
  | 12 => ⟨S2x128, .f32⟩
  | 13 => ⟨S128x128, .f32⟩
  | 14 => ⟨S128, .f32⟩
  | 15 => ⟨S128, .f32⟩
  | 16 => ⟨S128, .f32⟩
  | 17 => ⟨S128x64, .f32⟩
  | 18 => ⟨S64, .f32⟩
  | 19 => ⟨S1x500000, .i32⟩
  | 20 => ⟨S500000, .i32⟩
  | 21 => ⟨S1x500000, .i32⟩
  | 22 => ⟨S500000, .i32⟩
  | 23 => ⟨S1x500000, .i32⟩
  | 24 => ⟨S500000, .i32⟩
  | 25 => ⟨S1x500000, .i32⟩
  | 26 => ⟨S500000, .i32⟩
  | 27 => ⟨S1x128x128, .f32⟩
  | 28 => ⟨S128x128, .f32⟩
  | 29 => ⟨S1x128, .f32⟩
  | 30 => ⟨S128, .f32⟩
  | 31 => ⟨S1x128, .f32⟩
  | 32 => ⟨S100000x128, .f32⟩
  | 33 => ⟨S1x128x128, .f32⟩
  | 34 => ⟨S128x128, .f32⟩
  | 35 => ⟨S1x128, .f32⟩
  | 36 => ⟨S128, .f32⟩
  | 37 => ⟨S1x128, .f32⟩
  | 38 => ⟨S100000x128, .f32⟩
  | 39 => ⟨S1x1x128x128, .f32⟩
  | 40 => ⟨S128x128, .f32⟩
  | 41 => ⟨S1x1x256x1, .f32⟩
  | 42 => ⟨S256x1, .f32⟩
  | 43 => ⟨S1x1x1, .f32⟩
  | 44 => ⟨S1, .f32⟩
  | 45 => ⟨S1x1x128x128, .f32⟩
  | 46 => ⟨S128x128, .f32⟩
  | 47 => ⟨S1x1x128, .f32⟩
  | 48 => ⟨S128, .f32⟩
  | 49 => ⟨S128x1, .f32⟩
  | 50 => ⟨S128x1, .f32⟩
  | 51 => ⟨S128x1, .f32⟩
  | 52 => ⟨S128x1, .f32⟩
  | 53 => ⟨S_, .f32⟩
  | 54 => ⟨S1, .f32⟩
  | 55 => ⟨S1x1, .f32⟩
  | 56 => ⟨S100000x1, .f32⟩
  | 57 => ⟨S100000x128, .f32⟩
  | 58 => ⟨S100000x1, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x1, .f32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S500000x1, .f32⟩
  | 77 => ⟨S500000x1, .f32⟩
  | 78 => ⟨S1x1, .f32⟩
  | 79 => ⟨S500000x1, .f32⟩
  | 80 => ⟨S500000x1, .f32⟩
  | 81 => ⟨S_, .f32⟩
  | 82 => ⟨S500000x1, .f32⟩
  | 83 => ⟨S500000x1, .i1⟩
  | 84 => ⟨S_, .f32⟩
  | 85 => ⟨S500000x1, .f32⟩
  | 86 => ⟨S500000x1, .f32⟩
  | 87 => ⟨S500000x1, .f32⟩
  | 88 => ⟨S500000x1, .f32⟩
  | 89 => ⟨S_, .f32⟩
  | 90 => ⟨S100000x1, .f32⟩
  | 91 => ⟨S500000x1, .i32⟩
  | 92 => ⟨S100000x1, .f32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000x1, .f32⟩
  | 102 => ⟨S_, .f32⟩
  | 103 => ⟨S500000x1, .f32⟩
  | 104 => ⟨S500000x1, .f32⟩
  | 105 => ⟨S500000x1, .f32⟩
  | 106 => ⟨S_, .i32⟩
  | 107 => ⟨S500000, .i32⟩
  | 108 => ⟨S500000, .i1⟩
  | 109 => ⟨S_, .i32⟩
  | 110 => ⟨S500000, .i32⟩
  | 111 => ⟨S500000, .i32⟩
  | 112 => ⟨S500000, .i32⟩
  | 113 => ⟨S500000x1, .i32⟩
  | 114 => ⟨S500000x128, .f32⟩
  | 115 => ⟨S500000x128, .f32⟩
  | 116 => ⟨S500000x128, .f32⟩
  | 117 => ⟨S_, .f32⟩
  | 118 => ⟨S100000x128, .f32⟩
  | 119 => ⟨S500000x1, .i32⟩
  | 120 => ⟨S100000x128, .f32⟩
  | 121 => ⟨S100000x128, .f32⟩
  | 122 => ⟨S1x128, .f32⟩
  | 123 => ⟨S100000x128, .f32⟩
  | 124 => ⟨S1x1x128x128, .f32⟩
  | 125 => ⟨S128x128, .f32⟩
  | 126 => ⟨S1x1x256x1, .f32⟩
  | 127 => ⟨S256x1, .f32⟩
  | _ => ⟨S100000x128, .f32⟩

abbrev hbmTy0_1 (i : Nat) : BufTy := match i % 128 with
  | 0 => ⟨S1x1x1, .f32⟩
  | 1 => ⟨S1, .f32⟩
  | 2 => ⟨S1x1x128x128, .f32⟩
  | 3 => ⟨S128x128, .f32⟩
  | 4 => ⟨S1x1x128, .f32⟩
  | 5 => ⟨S128, .f32⟩
  | 6 => ⟨S128x1, .f32⟩
  | 7 => ⟨S128x1, .f32⟩
  | 8 => ⟨S128x1, .f32⟩
  | 9 => ⟨S128x1, .f32⟩
  | 10 => ⟨S_, .f32⟩
  | 11 => ⟨S1, .f32⟩
  | 12 => ⟨S1x1, .f32⟩
  | 13 => ⟨S100000x1, .f32⟩
  | 14 => ⟨S100000x128, .f32⟩
  | 15 => ⟨S100000x1, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x1, .f32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x1, .f32⟩
  | 34 => ⟨S500000x1, .f32⟩
  | 35 => ⟨S1x1, .f32⟩
  | 36 => ⟨S500000x1, .f32⟩
  | 37 => ⟨S500000x1, .f32⟩
  | 38 => ⟨S_, .f32⟩
  | 39 => ⟨S500000x1, .f32⟩
  | 40 => ⟨S500000x1, .i1⟩
  | 41 => ⟨S_, .f32⟩
  | 42 => ⟨S500000x1, .f32⟩
  | 43 => ⟨S500000x1, .f32⟩
  | 44 => ⟨S500000x1, .f32⟩
  | 45 => ⟨S500000x1, .f32⟩
  | 46 => ⟨S_, .f32⟩
  | 47 => ⟨S100000x1, .f32⟩
  | 48 => ⟨S500000x1, .i32⟩
  | 49 => ⟨S100000x1, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x1, .f32⟩
  | 59 => ⟨S_, .f32⟩
  | 60 => ⟨S500000x1, .f32⟩
  | 61 => ⟨S500000x1, .f32⟩
  | 62 => ⟨S500000x1, .f32⟩
  | 63 => ⟨S_, .i32⟩
  | 64 => ⟨S500000, .i32⟩
  | 65 => ⟨S500000, .i1⟩
  | 66 => ⟨S_, .i32⟩
  | 67 => ⟨S500000, .i32⟩
  | 68 => ⟨S500000, .i32⟩
  | 69 => ⟨S500000, .i32⟩
  | 70 => ⟨S500000x1, .i32⟩
  | 71 => ⟨S500000x128, .f32⟩
  | 72 => ⟨S500000x128, .f32⟩
  | 73 => ⟨S500000x128, .f32⟩
  | 74 => ⟨S_, .f32⟩
  | 75 => ⟨S100000x128, .f32⟩
  | 76 => ⟨S500000x1, .i32⟩
  | 77 => ⟨S100000x128, .f32⟩
  | 78 => ⟨S100000x128, .f32⟩
  | 79 => ⟨S1x128, .f32⟩
  | 80 => ⟨S100000x128, .f32⟩
  | 81 => ⟨S_, .f32⟩
  | 82 => ⟨S128, .f32⟩
  | 83 => ⟨S_, .f32⟩
  | 84 => ⟨S128, .f32⟩
  | 85 => ⟨S128, .f32⟩
  | 86 => ⟨S_, .i32⟩
  | 87 => ⟨S_, .f32⟩
  | 88 => ⟨S128, .f32⟩
  | 89 => ⟨S1x128, .f32⟩
  | 90 => ⟨S_, .f32⟩
  | 91 => ⟨S1x128, .f32⟩
  | 92 => ⟨S1x128, .f32⟩
  | 93 => ⟨S100000x128, .f32⟩
  | 94 => ⟨S100000x128, .f32⟩
  | 95 => ⟨S100000x128, .f32⟩
  | 96 => ⟨S_, .f32⟩
  | 97 => ⟨S_, .f32⟩
  | 98 => ⟨S_, .f32⟩
  | 99 => ⟨S_, .f32⟩
  | 100 => ⟨S128, .f32⟩
  | 101 => ⟨S128, .f32⟩
  | 102 => ⟨S128, .f32⟩
  | 103 => ⟨S_, .f32⟩
  | 104 => ⟨S_, .i1⟩
  | 105 => ⟨S_, .f32⟩
  | 106 => ⟨S_, .f32⟩
  | 107 => ⟨S128, .f32⟩
  | 108 => ⟨S128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S1x128, .f32⟩
  | 115 => ⟨S1x128, .f32⟩
  | 116 => ⟨S1x128, .f32⟩
  | 117 => ⟨S100000x128, .f32⟩
  | 118 => ⟨S_, .f32⟩
  | 119 => ⟨S128, .f32⟩
  | 120 => ⟨S_, .f32⟩
  | 121 => ⟨S128, .f32⟩
  | 122 => ⟨S128, .f32⟩
  | 123 => ⟨S_, .i32⟩
  | 124 => ⟨S_, .f32⟩
  | 125 => ⟨S128, .f32⟩
  | 126 => ⟨S1x128, .f32⟩
  | 127 => ⟨S_, .f32⟩
  | _ => ⟨S100000x128, .f32⟩

abbrev hbmTy0_2 (i : Nat) : BufTy := match i % 128 with
  | 0 => ⟨S1x128, .f32⟩
  | 1 => ⟨S1x128, .f32⟩
  | 2 => ⟨S100000x128, .f32⟩
  | 3 => ⟨S100000x128, .f32⟩
  | 4 => ⟨S100000x128, .f32⟩
  | 5 => ⟨S_, .f32⟩
  | 6 => ⟨S_, .f32⟩
  | 7 => ⟨S_, .f32⟩
  | 8 => ⟨S_, .f32⟩
  | 9 => ⟨S128, .f32⟩
  | 10 => ⟨S128, .f32⟩
  | 11 => ⟨S128, .f32⟩
  | 12 => ⟨S_, .f32⟩
  | 13 => ⟨S_, .i1⟩
  | 14 => ⟨S_, .f32⟩
  | 15 => ⟨S_, .f32⟩
  | 16 => ⟨S128, .f32⟩
  | 17 => ⟨S128, .f32⟩
  | 18 => ⟨S1x128, .f32⟩
  | 19 => ⟨S128, .f32⟩
  | 20 => ⟨S1x128, .f32⟩
  | 21 => ⟨S128, .f32⟩
  | 22 => ⟨S1x128, .f32⟩
  | 23 => ⟨S1x128, .f32⟩
  | 24 => ⟨S1x128, .f32⟩
  | 25 => ⟨S1x128, .f32⟩
  | 26 => ⟨S100000x128, .f32⟩
  | 27 => ⟨S1x128x128, .f32⟩
  | 28 => ⟨S128x128, .f32⟩
  | 29 => ⟨S1x128, .f32⟩
  | 30 => ⟨S128, .f32⟩
  | 31 => ⟨S1x128, .f32⟩
  | 32 => ⟨S100000x128, .f32⟩
  | 33 => ⟨S1x128x128, .f32⟩
  | 34 => ⟨S128x128, .f32⟩
  | 35 => ⟨S1x128, .f32⟩
  | 36 => ⟨S128, .f32⟩
  | 37 => ⟨S1x128, .f32⟩
  | 38 => ⟨S100000x128, .f32⟩
  | 39 => ⟨S1x1x128x128, .f32⟩
  | 40 => ⟨S128x128, .f32⟩
  | 41 => ⟨S1x1x256x1, .f32⟩
  | 42 => ⟨S256x1, .f32⟩
  | 43 => ⟨S1x1x1, .f32⟩
  | 44 => ⟨S1, .f32⟩
  | 45 => ⟨S1x1x128x128, .f32⟩
  | 46 => ⟨S128x128, .f32⟩
  | 47 => ⟨S1x1x128, .f32⟩
  | 48 => ⟨S128, .f32⟩
  | 49 => ⟨S128x1, .f32⟩
  | 50 => ⟨S128x1, .f32⟩
  | 51 => ⟨S128x1, .f32⟩
  | 52 => ⟨S128x1, .f32⟩
  | 53 => ⟨S_, .f32⟩
  | 54 => ⟨S1, .f32⟩
  | 55 => ⟨S1x1, .f32⟩
  | 56 => ⟨S100000x1, .f32⟩
  | 57 => ⟨S100000x128, .f32⟩
  | 58 => ⟨S100000x1, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x1, .f32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S500000x1, .f32⟩
  | 77 => ⟨S500000x1, .f32⟩
  | 78 => ⟨S1x1, .f32⟩
  | 79 => ⟨S500000x1, .f32⟩
  | 80 => ⟨S500000x1, .f32⟩
  | 81 => ⟨S_, .f32⟩
  | 82 => ⟨S500000x1, .f32⟩
  | 83 => ⟨S500000x1, .i1⟩
  | 84 => ⟨S_, .f32⟩
  | 85 => ⟨S500000x1, .f32⟩
  | 86 => ⟨S500000x1, .f32⟩
  | 87 => ⟨S500000x1, .f32⟩
  | 88 => ⟨S500000x1, .f32⟩
  | 89 => ⟨S_, .f32⟩
  | 90 => ⟨S100000x1, .f32⟩
  | 91 => ⟨S500000x1, .i32⟩
  | 92 => ⟨S100000x1, .f32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000x1, .f32⟩
  | 102 => ⟨S_, .f32⟩
  | 103 => ⟨S500000x1, .f32⟩
  | 104 => ⟨S500000x1, .f32⟩
  | 105 => ⟨S500000x1, .f32⟩
  | 106 => ⟨S_, .i32⟩
  | 107 => ⟨S500000, .i32⟩
  | 108 => ⟨S500000, .i1⟩
  | 109 => ⟨S_, .i32⟩
  | 110 => ⟨S500000, .i32⟩
  | 111 => ⟨S500000, .i32⟩
  | 112 => ⟨S500000, .i32⟩
  | 113 => ⟨S500000x1, .i32⟩
  | 114 => ⟨S500000x128, .f32⟩
  | 115 => ⟨S500000x128, .f32⟩
  | 116 => ⟨S500000x128, .f32⟩
  | 117 => ⟨S_, .f32⟩
  | 118 => ⟨S100000x128, .f32⟩
  | 119 => ⟨S500000x1, .i32⟩
  | 120 => ⟨S100000x128, .f32⟩
  | 121 => ⟨S100000x128, .f32⟩
  | 122 => ⟨S1x128, .f32⟩
  | 123 => ⟨S100000x128, .f32⟩
  | 124 => ⟨S1x1x128x128, .f32⟩
  | 125 => ⟨S128x128, .f32⟩
  | 126 => ⟨S1x1x256x1, .f32⟩
  | 127 => ⟨S256x1, .f32⟩
  | _ => ⟨S100000x128, .f32⟩

abbrev hbmTy0_3 (i : Nat) : BufTy := match i % 128 with
  | 0 => ⟨S1x1x1, .f32⟩
  | 1 => ⟨S1, .f32⟩
  | 2 => ⟨S1x1x128x128, .f32⟩
  | 3 => ⟨S128x128, .f32⟩
  | 4 => ⟨S1x1x128, .f32⟩
  | 5 => ⟨S128, .f32⟩
  | 6 => ⟨S128x1, .f32⟩
  | 7 => ⟨S128x1, .f32⟩
  | 8 => ⟨S128x1, .f32⟩
  | 9 => ⟨S128x1, .f32⟩
  | 10 => ⟨S_, .f32⟩
  | 11 => ⟨S1, .f32⟩
  | 12 => ⟨S1x1, .f32⟩
  | 13 => ⟨S100000x1, .f32⟩
  | 14 => ⟨S100000x128, .f32⟩
  | 15 => ⟨S100000x1, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x1, .f32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x1, .f32⟩
  | 34 => ⟨S500000x1, .f32⟩
  | 35 => ⟨S1x1, .f32⟩
  | 36 => ⟨S500000x1, .f32⟩
  | 37 => ⟨S500000x1, .f32⟩
  | 38 => ⟨S_, .f32⟩
  | 39 => ⟨S500000x1, .f32⟩
  | 40 => ⟨S500000x1, .i1⟩
  | 41 => ⟨S_, .f32⟩
  | 42 => ⟨S500000x1, .f32⟩
  | 43 => ⟨S500000x1, .f32⟩
  | 44 => ⟨S500000x1, .f32⟩
  | 45 => ⟨S500000x1, .f32⟩
  | 46 => ⟨S_, .f32⟩
  | 47 => ⟨S100000x1, .f32⟩
  | 48 => ⟨S500000x1, .i32⟩
  | 49 => ⟨S100000x1, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x1, .f32⟩
  | 59 => ⟨S_, .f32⟩
  | 60 => ⟨S500000x1, .f32⟩
  | 61 => ⟨S500000x1, .f32⟩
  | 62 => ⟨S500000x1, .f32⟩
  | 63 => ⟨S_, .i32⟩
  | 64 => ⟨S500000, .i32⟩
  | 65 => ⟨S500000, .i1⟩
  | 66 => ⟨S_, .i32⟩
  | 67 => ⟨S500000, .i32⟩
  | 68 => ⟨S500000, .i32⟩
  | 69 => ⟨S500000, .i32⟩
  | 70 => ⟨S500000x1, .i32⟩
  | 71 => ⟨S500000x128, .f32⟩
  | 72 => ⟨S500000x128, .f32⟩
  | 73 => ⟨S500000x128, .f32⟩
  | 74 => ⟨S_, .f32⟩
  | 75 => ⟨S100000x128, .f32⟩
  | 76 => ⟨S500000x1, .i32⟩
  | 77 => ⟨S100000x128, .f32⟩
  | 78 => ⟨S100000x128, .f32⟩
  | 79 => ⟨S1x128, .f32⟩
  | 80 => ⟨S100000x128, .f32⟩
  | 81 => ⟨S_, .f32⟩
  | 82 => ⟨S128, .f32⟩
  | 83 => ⟨S_, .f32⟩
  | 84 => ⟨S128, .f32⟩
  | 85 => ⟨S128, .f32⟩
  | 86 => ⟨S_, .i32⟩
  | 87 => ⟨S_, .f32⟩
  | 88 => ⟨S128, .f32⟩
  | 89 => ⟨S1x128, .f32⟩
  | 90 => ⟨S_, .f32⟩
  | 91 => ⟨S1x128, .f32⟩
  | 92 => ⟨S1x128, .f32⟩
  | 93 => ⟨S100000x128, .f32⟩
  | 94 => ⟨S100000x128, .f32⟩
  | 95 => ⟨S100000x128, .f32⟩
  | 96 => ⟨S_, .f32⟩
  | 97 => ⟨S_, .f32⟩
  | 98 => ⟨S_, .f32⟩
  | 99 => ⟨S_, .f32⟩
  | 100 => ⟨S128, .f32⟩
  | 101 => ⟨S128, .f32⟩
  | 102 => ⟨S128, .f32⟩
  | 103 => ⟨S_, .f32⟩
  | 104 => ⟨S_, .i1⟩
  | 105 => ⟨S_, .f32⟩
  | 106 => ⟨S_, .f32⟩
  | 107 => ⟨S128, .f32⟩
  | 108 => ⟨S128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S1x128, .f32⟩
  | 115 => ⟨S1x128, .f32⟩
  | 116 => ⟨S1x128, .f32⟩
  | 117 => ⟨S100000x128, .f32⟩
  | 118 => ⟨S_, .f32⟩
  | 119 => ⟨S128, .f32⟩
  | 120 => ⟨S_, .f32⟩
  | 121 => ⟨S128, .f32⟩
  | 122 => ⟨S128, .f32⟩
  | 123 => ⟨S_, .i32⟩
  | 124 => ⟨S_, .f32⟩
  | 125 => ⟨S128, .f32⟩
  | 126 => ⟨S1x128, .f32⟩
  | 127 => ⟨S_, .f32⟩
  | _ => ⟨S100000x128, .f32⟩

abbrev hbmTy0_4 (i : Nat) : BufTy := match i % 128 with
  | 0 => ⟨S1x128, .f32⟩
  | 1 => ⟨S1x128, .f32⟩
  | 2 => ⟨S100000x128, .f32⟩
  | 3 => ⟨S100000x128, .f32⟩
  | 4 => ⟨S100000x128, .f32⟩
  | 5 => ⟨S_, .f32⟩
  | 6 => ⟨S_, .f32⟩
  | 7 => ⟨S_, .f32⟩
  | 8 => ⟨S_, .f32⟩
  | 9 => ⟨S128, .f32⟩
  | 10 => ⟨S128, .f32⟩
  | 11 => ⟨S128, .f32⟩
  | 12 => ⟨S_, .f32⟩
  | 13 => ⟨S_, .i1⟩
  | 14 => ⟨S_, .f32⟩
  | 15 => ⟨S_, .f32⟩
  | 16 => ⟨S128, .f32⟩
  | 17 => ⟨S128, .f32⟩
  | 18 => ⟨S1x128, .f32⟩
  | 19 => ⟨S128, .f32⟩
  | 20 => ⟨S1x128, .f32⟩
  | 21 => ⟨S128, .f32⟩
  | 22 => ⟨S1x128, .f32⟩
  | 23 => ⟨S1x128, .f32⟩
  | 24 => ⟨S1x128, .f32⟩
  | 25 => ⟨S1x128, .f32⟩
  | 26 => ⟨S100000x128, .f32⟩
  | 27 => ⟨S1x128, .f32⟩
  | 28 => ⟨S100000x128, .f32⟩
  | 29 => ⟨S_, .f32⟩
  | 30 => ⟨S128, .f32⟩
  | 31 => ⟨S_, .f32⟩
  | 32 => ⟨S128, .f32⟩
  | 33 => ⟨S128, .f32⟩
  | 34 => ⟨S_, .i32⟩
  | 35 => ⟨S_, .f32⟩
  | 36 => ⟨S128, .f32⟩
  | 37 => ⟨S1x128, .f32⟩
  | 38 => ⟨S_, .f32⟩
  | 39 => ⟨S1x128, .f32⟩
  | 40 => ⟨S1x128, .f32⟩
  | 41 => ⟨S100000x128, .f32⟩
  | 42 => ⟨S100000x128, .f32⟩
  | 43 => ⟨S100000x128, .f32⟩
  | 44 => ⟨S_, .f32⟩
  | 45 => ⟨S_, .f32⟩
  | 46 => ⟨S_, .f32⟩
  | 47 => ⟨S_, .f32⟩
  | 48 => ⟨S128, .f32⟩
  | 49 => ⟨S128, .f32⟩
  | 50 => ⟨S128, .f32⟩
  | 51 => ⟨S_, .f32⟩
  | 52 => ⟨S_, .i1⟩
  | 53 => ⟨S_, .f32⟩
  | 54 => ⟨S_, .f32⟩
  | 55 => ⟨S128, .f32⟩
  | 56 => ⟨S128, .f32⟩
  | 57 => ⟨S1x128, .f32⟩
  | 58 => ⟨S1x128, .f32⟩
  | 59 => ⟨S1x128, .f32⟩
  | 60 => ⟨S1x128, .f32⟩
  | 61 => ⟨S100000x128, .f32⟩
  | 62 => ⟨S1x64, .f32⟩
  | 63 => ⟨S100000x64, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev vmemTy0_0 (i : Nat) : BufTy := match i % 128 with
  | 0 => ⟨S10000x128, .f32⟩
  | 1 => ⟨S10000x128, .f32⟩
  | 2 => ⟨S128x128, .f32⟩
  | 3 => ⟨S1x128, .f32⟩
  | 4 => ⟨S10000x128, .f32⟩
  | 5 => ⟨S10000x128, .f32⟩
  | 6 => ⟨S10000x128, .f32⟩
  | 7 => ⟨S10000x128, .f32⟩
  | 8 => ⟨S128x128, .f32⟩
  | 9 => ⟨S1x128, .f32⟩
  | 10 => ⟨S10000x128, .f32⟩
  | 11 => ⟨S10000x128, .f32⟩
  | 12 => ⟨S10000x128, .f32⟩
  | 13 => ⟨S10000x128, .f32⟩
  | 14 => ⟨S128x1, .f32⟩
  | 15 => ⟨S1x1, .f32⟩
  | 16 => ⟨S10000x1, .f32⟩
  | 17 => ⟨S10000x1, .f32⟩
  | 18 => ⟨S5000x128, .f32⟩
  | 19 => ⟨S5000x128, .f32⟩
  | 20 => ⟨S128x128, .f32⟩
  | 21 => ⟨S128x1, .f32⟩
  | 22 => ⟨S5000x128, .f32⟩
  | 23 => ⟨S5000x128, .f32⟩
  | 24 => ⟨S5000x1, .f32⟩
  | 25 => ⟨S5000x1, .f32⟩
  | 26 => ⟨S10000x128, .f32⟩
  | 27 => ⟨S10000x128, .f32⟩
  | 28 => ⟨S128x128, .f32⟩
  | 29 => ⟨S1x128, .f32⟩
  | 30 => ⟨S10000x128, .f32⟩
  | 31 => ⟨S10000x128, .f32⟩
  | 32 => ⟨S10000x128, .f32⟩
  | 33 => ⟨S10000x128, .f32⟩
  | 34 => ⟨S10000x128, .f32⟩
  | 35 => ⟨S10000x128, .f32⟩
  | 36 => ⟨S128x1, .f32⟩
  | 37 => ⟨S1x1, .f32⟩
  | 38 => ⟨S10000x1, .f32⟩
  | 39 => ⟨S10000x1, .f32⟩
  | 40 => ⟨S5000x128, .f32⟩
  | 41 => ⟨S5000x128, .f32⟩
  | 42 => ⟨S128x128, .f32⟩
  | 43 => ⟨S128x1, .f32⟩
  | 44 => ⟨S5000x128, .f32⟩
  | 45 => ⟨S5000x128, .f32⟩
  | 46 => ⟨S5000x1, .f32⟩
  | 47 => ⟨S5000x1, .f32⟩
  | 48 => ⟨S10000x128, .f32⟩
  | 49 => ⟨S10000x128, .f32⟩
  | 50 => ⟨S128x128, .f32⟩
  | 51 => ⟨S1x128, .f32⟩
  | 52 => ⟨S10000x128, .f32⟩
  | 53 => ⟨S10000x128, .f32⟩
  | 54 => ⟨S10000x128, .f32⟩
  | 55 => ⟨S10000x128, .f32⟩
  | 56 => ⟨S10000x128, .f32⟩
  | 57 => ⟨S10000x128, .f32⟩
  | 58 => ⟨S1x128, .f32⟩
  | 59 => ⟨S1x128, .f32⟩
  | 60 => ⟨S1x128, .f32⟩
  | 61 => ⟨S1x128, .f32⟩
  | 62 => ⟨S10000x128, .f32⟩
  | 63 => ⟨S10000x128, .f32⟩
  | 64 => ⟨S10000x128, .f32⟩
  | 65 => ⟨S10000x128, .f32⟩
  | 66 => ⟨S1x128, .f32⟩
  | 67 => ⟨S1x128, .f32⟩
  | 68 => ⟨S1x128, .f32⟩
  | 69 => ⟨S1x128, .f32⟩
  | 70 => ⟨S10000x128, .f32⟩
  | 71 => ⟨S10000x128, .f32⟩
  | 72 => ⟨S10000x128, .f32⟩
  | 73 => ⟨S10000x128, .f32⟩
  | 74 => ⟨S128x128, .f32⟩
  | 75 => ⟨S1x128, .f32⟩
  | 76 => ⟨S10000x128, .f32⟩
  | 77 => ⟨S10000x128, .f32⟩
  | 78 => ⟨S10000x128, .f32⟩
  | 79 => ⟨S10000x128, .f32⟩
  | 80 => ⟨S128x128, .f32⟩
  | 81 => ⟨S1x128, .f32⟩
  | 82 => ⟨S10000x128, .f32⟩
  | 83 => ⟨S10000x128, .f32⟩
  | 84 => ⟨S10000x128, .f32⟩
  | 85 => ⟨S10000x128, .f32⟩
  | 86 => ⟨S128x1, .f32⟩
  | 87 => ⟨S1x1, .f32⟩
  | 88 => ⟨S10000x1, .f32⟩
  | 89 => ⟨S10000x1, .f32⟩
  | 90 => ⟨S5000x128, .f32⟩
  | 91 => ⟨S5000x128, .f32⟩
  | 92 => ⟨S128x128, .f32⟩
  | 93 => ⟨S128x1, .f32⟩
  | 94 => ⟨S5000x128, .f32⟩
  | 95 => ⟨S5000x128, .f32⟩
  | 96 => ⟨S5000x1, .f32⟩
  | 97 => ⟨S5000x1, .f32⟩
  | 98 => ⟨S10000x128, .f32⟩
  | 99 => ⟨S10000x128, .f32⟩
  | 100 => ⟨S128x128, .f32⟩
  | 101 => ⟨S1x128, .f32⟩
  | 102 => ⟨S10000x128, .f32⟩
  | 103 => ⟨S10000x128, .f32⟩
  | 104 => ⟨S10000x128, .f32⟩
  | 105 => ⟨S10000x128, .f32⟩
  | 106 => ⟨S10000x128, .f32⟩
  | 107 => ⟨S10000x128, .f32⟩
  | 108 => ⟨S128x1, .f32⟩
  | 109 => ⟨S1x1, .f32⟩
  | 110 => ⟨S10000x1, .f32⟩
  | 111 => ⟨S10000x1, .f32⟩
  | 112 => ⟨S5000x128, .f32⟩
  | 113 => ⟨S5000x128, .f32⟩
  | 114 => ⟨S128x128, .f32⟩
  | 115 => ⟨S128x1, .f32⟩
  | 116 => ⟨S5000x128, .f32⟩
  | 117 => ⟨S5000x128, .f32⟩
  | 118 => ⟨S5000x1, .f32⟩
  | 119 => ⟨S5000x1, .f32⟩
  | 120 => ⟨S10000x128, .f32⟩
  | 121 => ⟨S10000x128, .f32⟩
  | 122 => ⟨S128x128, .f32⟩
  | 123 => ⟨S1x128, .f32⟩
  | 124 => ⟨S10000x128, .f32⟩
  | 125 => ⟨S10000x128, .f32⟩
  | 126 => ⟨S10000x128, .f32⟩
  | 127 => ⟨S10000x128, .f32⟩
  | _ => ⟨S100000x128, .f32⟩

abbrev vmemTy0_1 (i : Nat) : BufTy := match i % 128 with
  | 0 => ⟨S10000x128, .f32⟩
  | 1 => ⟨S10000x128, .f32⟩
  | 2 => ⟨S1x128, .f32⟩
  | 3 => ⟨S1x128, .f32⟩
  | 4 => ⟨S1x128, .f32⟩
  | 5 => ⟨S1x128, .f32⟩
  | 6 => ⟨S10000x128, .f32⟩
  | 7 => ⟨S10000x128, .f32⟩
  | 8 => ⟨S10000x128, .f32⟩
  | 9 => ⟨S10000x128, .f32⟩
  | 10 => ⟨S1x128, .f32⟩
  | 11 => ⟨S1x128, .f32⟩
  | 12 => ⟨S1x128, .f32⟩
  | 13 => ⟨S1x128, .f32⟩
  | 14 => ⟨S10000x128, .f32⟩
  | 15 => ⟨S10000x128, .f32⟩
  | 16 => ⟨S10000x128, .f32⟩
  | 17 => ⟨S10000x128, .f32⟩
  | 18 => ⟨S128x128, .f32⟩
  | 19 => ⟨S1x128, .f32⟩
  | 20 => ⟨S10000x128, .f32⟩
  | 21 => ⟨S10000x128, .f32⟩
  | 22 => ⟨S10000x128, .f32⟩
  | 23 => ⟨S10000x128, .f32⟩
  | 24 => ⟨S1x128, .f32⟩
  | 25 => ⟨S1x128, .f32⟩
  | 26 => ⟨S1x128, .f32⟩
  | 27 => ⟨S1x128, .f32⟩
  | 28 => ⟨S10000x128, .f32⟩
  | 29 => ⟨S10000x128, .f32⟩
  | 30 => ⟨S10000x128, .f32⟩
  | 31 => ⟨S10000x128, .f32⟩
  | 32 => ⟨S128x64, .f32⟩
  | 33 => ⟨S1x64, .f32⟩
  | 34 => ⟨S10000x64, .f32⟩
  | 35 => ⟨S10000x64, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 164 → Bool
  | ⟨i, _⟩ => dmaSemScopedAt i

abbrev sig : RefSig :=
  ofTc nBuf bufTy 0 164 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩
abbrev main_c : Ref sig .tc := ⟨.hbm, 59, rfl⟩
abbrev main_v38 : Ref sig .tc := ⟨.hbm, 60, rfl⟩
abbrev main_v39 : Ref sig .tc := ⟨.hbm, 61, rfl⟩
abbrev main_c_0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_1 : Ref sig .tc := ⟨.hbm, 68, rfl⟩
abbrev main_v45 : Ref sig .tc := ⟨.hbm, 69, rfl⟩
abbrev main_v46 : Ref sig .tc := ⟨.hbm, 70, rfl⟩
abbrev main_c_2 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_3 : Ref sig .tc := ⟨.hbm, 81, rfl⟩
abbrev main_v56 : Ref sig .tc := ⟨.hbm, 82, rfl⟩
abbrev main_v57 : Ref sig .tc := ⟨.hbm, 83, rfl⟩
abbrev main_cst_4 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_5 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_6 : Ref sig .tc := ⟨.hbm, 93, rfl⟩
abbrev main_v65 : Ref sig .tc := ⟨.hbm, 94, rfl⟩
abbrev main_v66 : Ref sig .tc := ⟨.hbm, 95, rfl⟩
abbrev main_c_7 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_8 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_9 : Ref sig .tc := ⟨.hbm, 106, rfl⟩
abbrev main_v75 : Ref sig .tc := ⟨.hbm, 107, rfl⟩
abbrev main_v76 : Ref sig .tc := ⟨.hbm, 108, rfl⟩
abbrev main_c_10 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_11 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_12 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107_0 : Ref sig .tc := ⟨.hbm, 142, rfl⟩
abbrev main_v107_1 : Ref sig .tc := ⟨.hbm, 143, rfl⟩
abbrev main_c_13 : Ref sig .tc := ⟨.hbm, 144, rfl⟩
abbrev main_v108 : Ref sig .tc := ⟨.hbm, 145, rfl⟩
abbrev main_v109 : Ref sig .tc := ⟨.hbm, 146, rfl⟩
abbrev main_c_14 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_c_15 : Ref sig .tc := ⟨.hbm, 153, rfl⟩
abbrev main_v115 : Ref sig .tc := ⟨.hbm, 154, rfl⟩
abbrev main_v116 : Ref sig .tc := ⟨.hbm, 155, rfl⟩
abbrev main_c_16 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_17 : Ref sig .tc := ⟨.hbm, 166, rfl⟩
abbrev main_v126 : Ref sig .tc := ⟨.hbm, 167, rfl⟩
abbrev main_v127 : Ref sig .tc := ⟨.hbm, 168, rfl⟩
abbrev main_cst_18 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_19 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_c_20 : Ref sig .tc := ⟨.hbm, 178, rfl⟩
abbrev main_v135 : Ref sig .tc := ⟨.hbm, 179, rfl⟩
abbrev main_v136 : Ref sig .tc := ⟨.hbm, 180, rfl⟩
abbrev main_c_21 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_22 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_c_23 : Ref sig .tc := ⟨.hbm, 191, rfl⟩
abbrev main_v145 : Ref sig .tc := ⟨.hbm, 192, rfl⟩
abbrev main_v146 : Ref sig .tc := ⟨.hbm, 193, rfl⟩
abbrev main_c_24 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_cst_25 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_cst_26 : Ref sig .tc := ⟨.hbm, 209, rfl⟩
abbrev main_v160 : Ref sig .tc := ⟨.hbm, 210, rfl⟩
abbrev main_cst_27 : Ref sig .tc := ⟨.hbm, 211, rfl⟩
abbrev main_v161 : Ref sig .tc := ⟨.hbm, 212, rfl⟩
abbrev main_v162 : Ref sig .tc := ⟨.hbm, 213, rfl⟩
abbrev main_c_28 : Ref sig .tc := ⟨.hbm, 214, rfl⟩
abbrev main_call2_cst : Ref sig .tc := ⟨.hbm, 215, rfl⟩
abbrev main_call2_v0 : Ref sig .tc := ⟨.hbm, 216, rfl⟩
abbrev main_call2_v1 : Ref sig .tc := ⟨.hbm, 217, rfl⟩
abbrev main_call2_cst_0 : Ref sig .tc := ⟨.hbm, 218, rfl⟩
abbrev main_call2_v2 : Ref sig .tc := ⟨.hbm, 219, rfl⟩
abbrev main_call2_v3 : Ref sig .tc := ⟨.hbm, 220, rfl⟩
abbrev main_call2_v4 : Ref sig .tc := ⟨.hbm, 221, rfl⟩
abbrev main_call2_v5 : Ref sig .tc := ⟨.hbm, 222, rfl⟩
abbrev main_call2_v6 : Ref sig .tc := ⟨.hbm, 223, rfl⟩
abbrev main_call2_v7 : Ref sig .tc := ⟨.hbm, 224, rfl⟩
abbrev main_call2_cst_1 : Ref sig .tc := ⟨.hbm, 225, rfl⟩
abbrev main_call2_v8 : Ref sig .tc := ⟨.hbm, 226, rfl⟩
abbrev main_call2_cst_2 : Ref sig .tc := ⟨.hbm, 227, rfl⟩
abbrev main_call2_v9 : Ref sig .tc := ⟨.hbm, 228, rfl⟩
abbrev main_call2_v10 : Ref sig .tc := ⟨.hbm, 229, rfl⟩
abbrev main_call2_v11 : Ref sig .tc := ⟨.hbm, 230, rfl⟩
abbrev main_call2_cst_3 : Ref sig .tc := ⟨.hbm, 231, rfl⟩
abbrev main_call2_v12 : Ref sig .tc := ⟨.hbm, 232, rfl⟩
abbrev main_call2_cst_4 : Ref sig .tc := ⟨.hbm, 233, rfl⟩
abbrev main_call2_call0_v0 : Ref sig .tc := ⟨.hbm, 234, rfl⟩
abbrev main_call2_call0_v1 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_cst_29 : Ref sig .tc := ⟨.hbm, 246, rfl⟩
abbrev main_v173 : Ref sig .tc := ⟨.hbm, 247, rfl⟩
abbrev main_cst_30 : Ref sig .tc := ⟨.hbm, 248, rfl⟩
abbrev main_v174 : Ref sig .tc := ⟨.hbm, 249, rfl⟩
abbrev main_v175 : Ref sig .tc := ⟨.hbm, 250, rfl⟩
abbrev main_c_31 : Ref sig .tc := ⟨.hbm, 251, rfl⟩
abbrev main_call3_cst : Ref sig .tc := ⟨.hbm, 252, rfl⟩
abbrev main_call3_v0 : Ref sig .tc := ⟨.hbm, 253, rfl⟩
abbrev main_call3_v1 : Ref sig .tc := ⟨.hbm, 254, rfl⟩
abbrev main_call3_cst_0 : Ref sig .tc := ⟨.hbm, 255, rfl⟩
abbrev main_call3_v2 : Ref sig .tc := ⟨.hbm, 256, rfl⟩
abbrev main_call3_v3 : Ref sig .tc := ⟨.hbm, 257, rfl⟩
abbrev main_call3_v4 : Ref sig .tc := ⟨.hbm, 258, rfl⟩
abbrev main_call3_v5 : Ref sig .tc := ⟨.hbm, 259, rfl⟩
abbrev main_call3_v6 : Ref sig .tc := ⟨.hbm, 260, rfl⟩
abbrev main_call3_v7 : Ref sig .tc := ⟨.hbm, 261, rfl⟩
abbrev main_call3_cst_1 : Ref sig .tc := ⟨.hbm, 262, rfl⟩
abbrev main_call3_v8 : Ref sig .tc := ⟨.hbm, 263, rfl⟩
abbrev main_call3_cst_2 : Ref sig .tc := ⟨.hbm, 264, rfl⟩
abbrev main_call3_v9 : Ref sig .tc := ⟨.hbm, 265, rfl⟩
abbrev main_call3_v10 : Ref sig .tc := ⟨.hbm, 266, rfl⟩
abbrev main_call3_v11 : Ref sig .tc := ⟨.hbm, 267, rfl⟩
abbrev main_call3_cst_3 : Ref sig .tc := ⟨.hbm, 268, rfl⟩
abbrev main_call3_v12 : Ref sig .tc := ⟨.hbm, 269, rfl⟩
abbrev main_call3_cst_4 : Ref sig .tc := ⟨.hbm, 270, rfl⟩
abbrev main_call3_call0_v0 : Ref sig .tc := ⟨.hbm, 271, rfl⟩
abbrev main_call3_call0_v1 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_v206 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_v211 : Ref sig .tc := ⟨.hbm, 308, rfl⟩
abbrev main_cst_32 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_v215_0 : Ref sig .tc := ⟨.hbm, 313, rfl⟩
abbrev main_v215_1 : Ref sig .tc := ⟨.hbm, 314, rfl⟩
abbrev main_c_33 : Ref sig .tc := ⟨.hbm, 315, rfl⟩
abbrev main_v216 : Ref sig .tc := ⟨.hbm, 316, rfl⟩
abbrev main_v217 : Ref sig .tc := ⟨.hbm, 317, rfl⟩
abbrev main_c_34 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_c_35 : Ref sig .tc := ⟨.hbm, 324, rfl⟩
abbrev main_v223 : Ref sig .tc := ⟨.hbm, 325, rfl⟩
abbrev main_v224 : Ref sig .tc := ⟨.hbm, 326, rfl⟩
abbrev main_c_36 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_v233 : Ref sig .tc := ⟨.hbm, 336, rfl⟩
abbrev main_cst_37 : Ref sig .tc := ⟨.hbm, 337, rfl⟩
abbrev main_v234 : Ref sig .tc := ⟨.hbm, 338, rfl⟩
abbrev main_v235 : Ref sig .tc := ⟨.hbm, 339, rfl⟩
abbrev main_cst_38 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩
abbrev main_v239 : Ref sig .tc := ⟨.hbm, 344, rfl⟩
abbrev main_cst_39 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_c_40 : Ref sig .tc := ⟨.hbm, 349, rfl⟩
abbrev main_v243 : Ref sig .tc := ⟨.hbm, 350, rfl⟩
abbrev main_v244 : Ref sig .tc := ⟨.hbm, 351, rfl⟩
abbrev main_c_41 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_v249 : Ref sig .tc := ⟨.hbm, 357, rfl⟩
abbrev main_cst_42 : Ref sig .tc := ⟨.hbm, 358, rfl⟩
abbrev main_v250 : Ref sig .tc := ⟨.hbm, 359, rfl⟩
abbrev main_v251 : Ref sig .tc := ⟨.hbm, 360, rfl⟩
abbrev main_v252 : Ref sig .tc := ⟨.hbm, 361, rfl⟩
abbrev main_c_43 : Ref sig .tc := ⟨.hbm, 362, rfl⟩
abbrev main_v253 : Ref sig .tc := ⟨.hbm, 363, rfl⟩
abbrev main_v254 : Ref sig .tc := ⟨.hbm, 364, rfl⟩
abbrev main_c_44 : Ref sig .tc := ⟨.hbm, 365, rfl⟩
abbrev main_v255 : Ref sig .tc := ⟨.hbm, 366, rfl⟩
abbrev main_v256 : Ref sig .tc := ⟨.hbm, 367, rfl⟩
abbrev main_v257 : Ref sig .tc := ⟨.hbm, 368, rfl⟩
abbrev main_v258 : Ref sig .tc := ⟨.hbm, 369, rfl⟩
abbrev main_v259 : Ref sig .tc := ⟨.hbm, 370, rfl⟩
abbrev main_v260 : Ref sig .tc := ⟨.hbm, 371, rfl⟩
abbrev main_v261 : Ref sig .tc := ⟨.hbm, 372, rfl⟩
abbrev main_cst_45 : Ref sig .tc := ⟨.hbm, 373, rfl⟩
abbrev main_v262 : Ref sig .tc := ⟨.hbm, 374, rfl⟩
abbrev main_v263 : Ref sig .tc := ⟨.hbm, 375, rfl⟩
abbrev main_v264 : Ref sig .tc := ⟨.hbm, 376, rfl⟩
abbrev main_v265 : Ref sig .tc := ⟨.hbm, 377, rfl⟩
abbrev main_v266 : Ref sig .tc := ⟨.hbm, 378, rfl⟩
abbrev main_v267 : Ref sig .tc := ⟨.hbm, 379, rfl⟩
abbrev main_v268 : Ref sig .tc := ⟨.hbm, 380, rfl⟩
abbrev main_v269 : Ref sig .tc := ⟨.hbm, 381, rfl⟩
abbrev main_v270 : Ref sig .tc := ⟨.hbm, 382, rfl⟩
abbrev main_v271 : Ref sig .tc := ⟨.hbm, 383, rfl⟩
abbrev main_v272 : Ref sig .tc := ⟨.hbm, 384, rfl⟩
abbrev main_v273 : Ref sig .tc := ⟨.hbm, 385, rfl⟩
abbrev main_v274 : Ref sig .tc := ⟨.hbm, 386, rfl⟩
abbrev main_v275 : Ref sig .tc := ⟨.hbm, 387, rfl⟩
abbrev main_v276 : Ref sig .tc := ⟨.hbm, 388, rfl⟩
abbrev main_v277 : Ref sig .tc := ⟨.hbm, 389, rfl⟩
abbrev main_v278 : Ref sig .tc := ⟨.hbm, 390, rfl⟩
abbrev main_v279 : Ref sig .tc := ⟨.hbm, 391, rfl⟩
abbrev main_v280 : Ref sig .tc := ⟨.hbm, 392, rfl⟩
abbrev main_v281 : Ref sig .tc := ⟨.hbm, 393, rfl⟩
abbrev main_cst_46 : Ref sig .tc := ⟨.hbm, 394, rfl⟩
abbrev main_v282 : Ref sig .tc := ⟨.hbm, 395, rfl⟩
abbrev main_v283 : Ref sig .tc := ⟨.hbm, 396, rfl⟩
abbrev main_v284 : Ref sig .tc := ⟨.hbm, 397, rfl⟩
abbrev main_v285_0 : Ref sig .tc := ⟨.hbm, 398, rfl⟩
abbrev main_v285_1 : Ref sig .tc := ⟨.hbm, 399, rfl⟩
abbrev main_c_47 : Ref sig .tc := ⟨.hbm, 400, rfl⟩
abbrev main_v286 : Ref sig .tc := ⟨.hbm, 401, rfl⟩
abbrev main_v287 : Ref sig .tc := ⟨.hbm, 402, rfl⟩
abbrev main_c_48 : Ref sig .tc := ⟨.hbm, 403, rfl⟩
abbrev main_v288 : Ref sig .tc := ⟨.hbm, 404, rfl⟩
abbrev main_v289 : Ref sig .tc := ⟨.hbm, 405, rfl⟩
abbrev main_v290 : Ref sig .tc := ⟨.hbm, 406, rfl⟩
abbrev main_v291 : Ref sig .tc := ⟨.hbm, 407, rfl⟩
abbrev main_v292 : Ref sig .tc := ⟨.hbm, 408, rfl⟩
abbrev main_c_49 : Ref sig .tc := ⟨.hbm, 409, rfl⟩
abbrev main_v293 : Ref sig .tc := ⟨.hbm, 410, rfl⟩
abbrev main_v294 : Ref sig .tc := ⟨.hbm, 411, rfl⟩
abbrev main_c_50 : Ref sig .tc := ⟨.hbm, 412, rfl⟩
abbrev main_v295 : Ref sig .tc := ⟨.hbm, 413, rfl⟩
abbrev main_v296 : Ref sig .tc := ⟨.hbm, 414, rfl⟩
abbrev main_v297 : Ref sig .tc := ⟨.hbm, 415, rfl⟩
abbrev main_v298 : Ref sig .tc := ⟨.hbm, 416, rfl⟩
abbrev main_v299 : Ref sig .tc := ⟨.hbm, 417, rfl⟩
abbrev main_v300 : Ref sig .tc := ⟨.hbm, 418, rfl⟩
abbrev main_v301 : Ref sig .tc := ⟨.hbm, 419, rfl⟩
abbrev main_v302 : Ref sig .tc := ⟨.hbm, 420, rfl⟩
abbrev main_v303 : Ref sig .tc := ⟨.hbm, 421, rfl⟩
abbrev main_cst_51 : Ref sig .tc := ⟨.hbm, 422, rfl⟩
abbrev main_v304 : Ref sig .tc := ⟨.hbm, 423, rfl⟩
abbrev main_v305 : Ref sig .tc := ⟨.hbm, 424, rfl⟩
abbrev main_cst_52 : Ref sig .tc := ⟨.hbm, 425, rfl⟩
abbrev main_v306 : Ref sig .tc := ⟨.hbm, 426, rfl⟩
abbrev main_v307 : Ref sig .tc := ⟨.hbm, 427, rfl⟩
abbrev main_v308 : Ref sig .tc := ⟨.hbm, 428, rfl⟩
abbrev main_v309 : Ref sig .tc := ⟨.hbm, 429, rfl⟩
abbrev main_cst_53 : Ref sig .tc := ⟨.hbm, 430, rfl⟩
abbrev main_v310 : Ref sig .tc := ⟨.hbm, 431, rfl⟩
abbrev main_v311 : Ref sig .tc := ⟨.hbm, 432, rfl⟩
abbrev main_v312 : Ref sig .tc := ⟨.hbm, 433, rfl⟩
abbrev main_c_54 : Ref sig .tc := ⟨.hbm, 434, rfl⟩
abbrev main_v313 : Ref sig .tc := ⟨.hbm, 435, rfl⟩
abbrev main_v314 : Ref sig .tc := ⟨.hbm, 436, rfl⟩
abbrev main_c_55 : Ref sig .tc := ⟨.hbm, 437, rfl⟩
abbrev main_v315 : Ref sig .tc := ⟨.hbm, 438, rfl⟩
abbrev main_v316 : Ref sig .tc := ⟨.hbm, 439, rfl⟩
abbrev main_v317 : Ref sig .tc := ⟨.hbm, 440, rfl⟩
abbrev main_v318 : Ref sig .tc := ⟨.hbm, 441, rfl⟩
abbrev main_v319 : Ref sig .tc := ⟨.hbm, 442, rfl⟩
abbrev main_cst_56 : Ref sig .tc := ⟨.hbm, 443, rfl⟩
abbrev main_v320 : Ref sig .tc := ⟨.hbm, 444, rfl⟩
abbrev main_v321 : Ref sig .tc := ⟨.hbm, 445, rfl⟩
abbrev main_v322 : Ref sig .tc := ⟨.hbm, 446, rfl⟩
abbrev main_c_57 : Ref sig .tc := ⟨.hbm, 447, rfl⟩
abbrev main_v323 : Ref sig .tc := ⟨.hbm, 448, rfl⟩
abbrev main_v324 : Ref sig .tc := ⟨.hbm, 449, rfl⟩
abbrev main_c_58 : Ref sig .tc := ⟨.hbm, 450, rfl⟩
abbrev main_v325 : Ref sig .tc := ⟨.hbm, 451, rfl⟩
abbrev main_v326 : Ref sig .tc := ⟨.hbm, 452, rfl⟩
abbrev main_v327 : Ref sig .tc := ⟨.hbm, 453, rfl⟩
abbrev main_v328 : Ref sig .tc := ⟨.hbm, 454, rfl⟩
abbrev main_v329 : Ref sig .tc := ⟨.hbm, 455, rfl⟩
abbrev main_v330 : Ref sig .tc := ⟨.hbm, 456, rfl⟩
abbrev main_v331 : Ref sig .tc := ⟨.hbm, 457, rfl⟩
abbrev main_cst_59 : Ref sig .tc := ⟨.hbm, 458, rfl⟩
abbrev main_v332 : Ref sig .tc := ⟨.hbm, 459, rfl⟩
abbrev main_v333 : Ref sig .tc := ⟨.hbm, 460, rfl⟩
abbrev main_v334 : Ref sig .tc := ⟨.hbm, 461, rfl⟩
abbrev main_v335 : Ref sig .tc := ⟨.hbm, 462, rfl⟩
abbrev main_v336 : Ref sig .tc := ⟨.hbm, 463, rfl⟩
abbrev main_v337 : Ref sig .tc := ⟨.hbm, 464, rfl⟩
abbrev main_cst_60 : Ref sig .tc := ⟨.hbm, 465, rfl⟩
abbrev main_v338 : Ref sig .tc := ⟨.hbm, 466, rfl⟩
abbrev main_cst_61 : Ref sig .tc := ⟨.hbm, 467, rfl⟩
abbrev main_v339 : Ref sig .tc := ⟨.hbm, 468, rfl⟩
abbrev main_v340 : Ref sig .tc := ⟨.hbm, 469, rfl⟩
abbrev main_c_62 : Ref sig .tc := ⟨.hbm, 470, rfl⟩
abbrev main_call6_cst : Ref sig .tc := ⟨.hbm, 471, rfl⟩
abbrev main_call6_v0 : Ref sig .tc := ⟨.hbm, 472, rfl⟩
abbrev main_call6_v1 : Ref sig .tc := ⟨.hbm, 473, rfl⟩
abbrev main_call6_cst_0 : Ref sig .tc := ⟨.hbm, 474, rfl⟩
abbrev main_call6_v2 : Ref sig .tc := ⟨.hbm, 475, rfl⟩
abbrev main_call6_v3 : Ref sig .tc := ⟨.hbm, 476, rfl⟩
abbrev main_call6_v4 : Ref sig .tc := ⟨.hbm, 477, rfl⟩
abbrev main_call6_v5 : Ref sig .tc := ⟨.hbm, 478, rfl⟩
abbrev main_call6_v6 : Ref sig .tc := ⟨.hbm, 479, rfl⟩
abbrev main_call6_v7 : Ref sig .tc := ⟨.hbm, 480, rfl⟩
abbrev main_call6_cst_1 : Ref sig .tc := ⟨.hbm, 481, rfl⟩
abbrev main_call6_v8 : Ref sig .tc := ⟨.hbm, 482, rfl⟩
abbrev main_call6_cst_2 : Ref sig .tc := ⟨.hbm, 483, rfl⟩
abbrev main_call6_v9 : Ref sig .tc := ⟨.hbm, 484, rfl⟩
abbrev main_call6_v10 : Ref sig .tc := ⟨.hbm, 485, rfl⟩
abbrev main_call6_v11 : Ref sig .tc := ⟨.hbm, 486, rfl⟩
abbrev main_call6_cst_3 : Ref sig .tc := ⟨.hbm, 487, rfl⟩
abbrev main_call6_v12 : Ref sig .tc := ⟨.hbm, 488, rfl⟩
abbrev main_call6_cst_4 : Ref sig .tc := ⟨.hbm, 489, rfl⟩
abbrev main_call6_call0_v0 : Ref sig .tc := ⟨.hbm, 490, rfl⟩
abbrev main_call6_call0_v1 : Ref sig .tc := ⟨.hbm, 491, rfl⟩
abbrev main_v341 : Ref sig .tc := ⟨.hbm, 492, rfl⟩
abbrev main_v342 : Ref sig .tc := ⟨.hbm, 493, rfl⟩
abbrev main_v343 : Ref sig .tc := ⟨.hbm, 494, rfl⟩
abbrev main_v344 : Ref sig .tc := ⟨.hbm, 495, rfl⟩
abbrev main_v345 : Ref sig .tc := ⟨.hbm, 496, rfl⟩
abbrev main_v346 : Ref sig .tc := ⟨.hbm, 497, rfl⟩
abbrev main_v347 : Ref sig .tc := ⟨.hbm, 498, rfl⟩
abbrev main_v348 : Ref sig .tc := ⟨.hbm, 499, rfl⟩
abbrev main_v349 : Ref sig .tc := ⟨.hbm, 500, rfl⟩
abbrev main_v350 : Ref sig .tc := ⟨.hbm, 501, rfl⟩
abbrev main_cst_63 : Ref sig .tc := ⟨.hbm, 502, rfl⟩
abbrev main_v351 : Ref sig .tc := ⟨.hbm, 503, rfl⟩
abbrev main_cst_64 : Ref sig .tc := ⟨.hbm, 504, rfl⟩
abbrev main_v352 : Ref sig .tc := ⟨.hbm, 505, rfl⟩
abbrev main_v353 : Ref sig .tc := ⟨.hbm, 506, rfl⟩
abbrev main_c_65 : Ref sig .tc := ⟨.hbm, 507, rfl⟩
abbrev main_call7_cst : Ref sig .tc := ⟨.hbm, 508, rfl⟩
abbrev main_call7_v0 : Ref sig .tc := ⟨.hbm, 509, rfl⟩
abbrev main_call7_v1 : Ref sig .tc := ⟨.hbm, 510, rfl⟩
abbrev main_call7_cst_0 : Ref sig .tc := ⟨.hbm, 511, rfl⟩
abbrev main_call7_v2 : Ref sig .tc := ⟨.hbm, 512, rfl⟩
abbrev main_call7_v3 : Ref sig .tc := ⟨.hbm, 513, rfl⟩
abbrev main_call7_v4 : Ref sig .tc := ⟨.hbm, 514, rfl⟩
abbrev main_call7_v5 : Ref sig .tc := ⟨.hbm, 515, rfl⟩
abbrev main_call7_v6 : Ref sig .tc := ⟨.hbm, 516, rfl⟩
abbrev main_call7_v7 : Ref sig .tc := ⟨.hbm, 517, rfl⟩
abbrev main_call7_cst_1 : Ref sig .tc := ⟨.hbm, 518, rfl⟩
abbrev main_call7_v8 : Ref sig .tc := ⟨.hbm, 519, rfl⟩
abbrev main_call7_cst_2 : Ref sig .tc := ⟨.hbm, 520, rfl⟩
abbrev main_call7_v9 : Ref sig .tc := ⟨.hbm, 521, rfl⟩
abbrev main_call7_v10 : Ref sig .tc := ⟨.hbm, 522, rfl⟩
abbrev main_call7_v11 : Ref sig .tc := ⟨.hbm, 523, rfl⟩
abbrev main_call7_cst_3 : Ref sig .tc := ⟨.hbm, 524, rfl⟩
abbrev main_call7_v12 : Ref sig .tc := ⟨.hbm, 525, rfl⟩
abbrev main_call7_cst_4 : Ref sig .tc := ⟨.hbm, 526, rfl⟩
abbrev main_call7_call0_v0 : Ref sig .tc := ⟨.hbm, 527, rfl⟩
abbrev main_call7_call0_v1 : Ref sig .tc := ⟨.hbm, 528, rfl⟩
abbrev main_v354 : Ref sig .tc := ⟨.hbm, 529, rfl⟩
abbrev main_v355 : Ref sig .tc := ⟨.hbm, 530, rfl⟩
abbrev main_v356 : Ref sig .tc := ⟨.hbm, 531, rfl⟩
abbrev main_v357 : Ref sig .tc := ⟨.hbm, 532, rfl⟩
abbrev main_v358 : Ref sig .tc := ⟨.hbm, 533, rfl⟩
abbrev main_v359 : Ref sig .tc := ⟨.hbm, 534, rfl⟩
abbrev main_v360 : Ref sig .tc := ⟨.hbm, 535, rfl⟩
abbrev main_v361 : Ref sig .tc := ⟨.hbm, 536, rfl⟩
abbrev main_v362 : Ref sig .tc := ⟨.hbm, 537, rfl⟩
abbrev main_v363 : Ref sig .tc := ⟨.hbm, 538, rfl⟩
abbrev main_v364 : Ref sig .tc := ⟨.hbm, 539, rfl⟩
abbrev main_v365 : Ref sig .tc := ⟨.hbm, 540, rfl⟩
abbrev main_cst_66 : Ref sig .tc := ⟨.hbm, 541, rfl⟩
abbrev main_v366 : Ref sig .tc := ⟨.hbm, 542, rfl⟩
abbrev main_cst_67 : Ref sig .tc := ⟨.hbm, 543, rfl⟩
abbrev main_v367 : Ref sig .tc := ⟨.hbm, 544, rfl⟩
abbrev main_v368 : Ref sig .tc := ⟨.hbm, 545, rfl⟩
abbrev main_c_68 : Ref sig .tc := ⟨.hbm, 546, rfl⟩
abbrev main_call8_cst : Ref sig .tc := ⟨.hbm, 547, rfl⟩
abbrev main_call8_v0 : Ref sig .tc := ⟨.hbm, 548, rfl⟩
abbrev main_call8_v1 : Ref sig .tc := ⟨.hbm, 549, rfl⟩
abbrev main_call8_cst_0 : Ref sig .tc := ⟨.hbm, 550, rfl⟩
abbrev main_call8_v2 : Ref sig .tc := ⟨.hbm, 551, rfl⟩
abbrev main_call8_v3 : Ref sig .tc := ⟨.hbm, 552, rfl⟩
abbrev main_call8_v4 : Ref sig .tc := ⟨.hbm, 553, rfl⟩
abbrev main_call8_v5 : Ref sig .tc := ⟨.hbm, 554, rfl⟩
abbrev main_call8_v6 : Ref sig .tc := ⟨.hbm, 555, rfl⟩
abbrev main_call8_v7 : Ref sig .tc := ⟨.hbm, 556, rfl⟩
abbrev main_call8_cst_1 : Ref sig .tc := ⟨.hbm, 557, rfl⟩
abbrev main_call8_v8 : Ref sig .tc := ⟨.hbm, 558, rfl⟩
abbrev main_call8_cst_2 : Ref sig .tc := ⟨.hbm, 559, rfl⟩
abbrev main_call8_v9 : Ref sig .tc := ⟨.hbm, 560, rfl⟩
abbrev main_call8_v10 : Ref sig .tc := ⟨.hbm, 561, rfl⟩
abbrev main_call8_v11 : Ref sig .tc := ⟨.hbm, 562, rfl⟩
abbrev main_call8_cst_3 : Ref sig .tc := ⟨.hbm, 563, rfl⟩
abbrev main_call8_v12 : Ref sig .tc := ⟨.hbm, 564, rfl⟩
abbrev main_call8_cst_4 : Ref sig .tc := ⟨.hbm, 565, rfl⟩
abbrev main_call8_call0_v0 : Ref sig .tc := ⟨.hbm, 566, rfl⟩
abbrev main_call8_call0_v1 : Ref sig .tc := ⟨.hbm, 567, rfl⟩
abbrev main_v369 : Ref sig .tc := ⟨.hbm, 568, rfl⟩
abbrev main_v370 : Ref sig .tc := ⟨.hbm, 569, rfl⟩
abbrev main_v371 : Ref sig .tc := ⟨.hbm, 570, rfl⟩
abbrev main_v372 : Ref sig .tc := ⟨.hbm, 571, rfl⟩
abbrev main_v373 : Ref sig .tc := ⟨.hbm, 572, rfl⟩
abbrev main_v374 : Ref sig .tc := ⟨.hbm, 573, rfl⟩
abbrev main_v375 : Ref sig .tc := ⟨.hbm, 574, rfl⟩
abbrev main_v376 : Ref sig .tc := ⟨.hbm, 575, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc6_stg4_0 : Ref sig .tc := ⟨.vmem, 46, rfl⟩
abbrev cc6_stg4_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg3_1 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg3_0 : Ref sig .tc := ⟨.vmem, 60, rfl⟩
abbrev cc8_stg4_0 : Ref sig .tc := ⟨.vmem, 61, rfl⟩
abbrev cc8_stg5_0 : Ref sig .tc := ⟨.vmem, 62, rfl⟩
abbrev cc8_stg5_1 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg4_0 : Ref sig .tc := ⟨.vmem, 69, rfl⟩
abbrev cc9_stg5_0 : Ref sig .tc := ⟨.vmem, 70, rfl⟩
abbrev cc9_stg5_1 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg2_0 : Ref sig .tc := ⟨.vmem, 75, rfl⟩
abbrev cc10_stg3_0 : Ref sig .tc := ⟨.vmem, 76, rfl⟩
abbrev cc10_stg3_1 : Ref sig .tc := ⟨.vmem, 77, rfl⟩
abbrev cc11_stg0_0 : Ref sig .tc := ⟨.vmem, 78, rfl⟩
abbrev cc11_stg0_1 : Ref sig .tc := ⟨.vmem, 79, rfl⟩
abbrev cc11_stg1_0 : Ref sig .tc := ⟨.vmem, 80, rfl⟩
abbrev cc11_stg2_0 : Ref sig .tc := ⟨.vmem, 81, rfl⟩
abbrev cc11_stg3_0 : Ref sig .tc := ⟨.vmem, 82, rfl⟩
abbrev cc11_stg3_1 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg2_0 : Ref sig .tc := ⟨.vmem, 87, rfl⟩
abbrev cc12_stg3_0 : Ref sig .tc := ⟨.vmem, 88, rfl⟩
abbrev cc12_stg3_1 : Ref sig .tc := ⟨.vmem, 89, rfl⟩
abbrev cc13_stg0_0 : Ref sig .tc := ⟨.vmem, 90, rfl⟩
abbrev cc13_stg0_1 : Ref sig .tc := ⟨.vmem, 91, rfl⟩
abbrev cc13_stg1_0 : Ref sig .tc := ⟨.vmem, 92, rfl⟩
abbrev cc13_stg2_0 : Ref sig .tc := ⟨.vmem, 93, rfl⟩
abbrev cc13_stg3_0 : Ref sig .tc := ⟨.vmem, 94, rfl⟩
abbrev cc13_stg3_1 : Ref sig .tc := ⟨.vmem, 95, rfl⟩
abbrev cc13_stg4_0 : Ref sig .tc := ⟨.vmem, 96, rfl⟩
abbrev cc13_stg4_1 : Ref sig .tc := ⟨.vmem, 97, rfl⟩
abbrev cc14_stg0_0 : Ref sig .tc := ⟨.vmem, 98, rfl⟩
abbrev cc14_stg0_1 : Ref sig .tc := ⟨.vmem, 99, rfl⟩
abbrev cc14_stg1_0 : Ref sig .tc := ⟨.vmem, 100, rfl⟩
abbrev cc14_stg2_0 : Ref sig .tc := ⟨.vmem, 101, rfl⟩
abbrev cc14_stg3_0 : Ref sig .tc := ⟨.vmem, 102, rfl⟩
abbrev cc14_stg3_1 : Ref sig .tc := ⟨.vmem, 103, rfl⟩
abbrev cc14_stg4_0 : Ref sig .tc := ⟨.vmem, 104, rfl⟩
abbrev cc14_stg4_1 : Ref sig .tc := ⟨.vmem, 105, rfl⟩
abbrev cc15_stg0_0 : Ref sig .tc := ⟨.vmem, 106, rfl⟩
abbrev cc15_stg0_1 : Ref sig .tc := ⟨.vmem, 107, rfl⟩
abbrev cc15_stg1_0 : Ref sig .tc := ⟨.vmem, 108, rfl⟩
abbrev cc15_stg2_0 : Ref sig .tc := ⟨.vmem, 109, rfl⟩
abbrev cc15_stg3_0 : Ref sig .tc := ⟨.vmem, 110, rfl⟩
abbrev cc15_stg3_1 : Ref sig .tc := ⟨.vmem, 111, rfl⟩
abbrev cc16_stg0_0 : Ref sig .tc := ⟨.vmem, 112, rfl⟩
abbrev cc16_stg0_1 : Ref sig .tc := ⟨.vmem, 113, rfl⟩
abbrev cc16_stg1_0 : Ref sig .tc := ⟨.vmem, 114, rfl⟩
abbrev cc16_stg2_0 : Ref sig .tc := ⟨.vmem, 115, rfl⟩
abbrev cc16_stg3_0 : Ref sig .tc := ⟨.vmem, 116, rfl⟩
abbrev cc16_stg3_1 : Ref sig .tc := ⟨.vmem, 117, rfl⟩
abbrev cc16_stg4_0 : Ref sig .tc := ⟨.vmem, 118, rfl⟩
abbrev cc16_stg4_1 : Ref sig .tc := ⟨.vmem, 119, rfl⟩
abbrev cc17_stg0_0 : Ref sig .tc := ⟨.vmem, 120, rfl⟩
abbrev cc17_stg0_1 : Ref sig .tc := ⟨.vmem, 121, rfl⟩
abbrev cc17_stg1_0 : Ref sig .tc := ⟨.vmem, 122, rfl⟩
abbrev cc17_stg2_0 : Ref sig .tc := ⟨.vmem, 123, rfl⟩
abbrev cc17_stg3_0 : Ref sig .tc := ⟨.vmem, 124, rfl⟩
abbrev cc17_stg3_1 : Ref sig .tc := ⟨.vmem, 125, rfl⟩
abbrev cc17_stg4_0 : Ref sig .tc := ⟨.vmem, 126, rfl⟩
abbrev cc17_stg4_1 : Ref sig .tc := ⟨.vmem, 127, rfl⟩
abbrev cc18_stg0_0 : Ref sig .tc := ⟨.vmem, 128, rfl⟩
abbrev cc18_stg0_1 : Ref sig .tc := ⟨.vmem, 129, rfl⟩
abbrev cc18_stg1_0 : Ref sig .tc := ⟨.vmem, 130, rfl⟩
abbrev cc18_stg2_0 : Ref sig .tc := ⟨.vmem, 131, rfl⟩
abbrev cc18_stg3_0 : Ref sig .tc := ⟨.vmem, 132, rfl⟩
abbrev cc18_stg4_0 : Ref sig .tc := ⟨.vmem, 133, rfl⟩
abbrev cc18_stg5_0 : Ref sig .tc := ⟨.vmem, 134, rfl⟩
abbrev cc18_stg5_1 : Ref sig .tc := ⟨.vmem, 135, rfl⟩
abbrev cc19_stg0_0 : Ref sig .tc := ⟨.vmem, 136, rfl⟩
abbrev cc19_stg0_1 : Ref sig .tc := ⟨.vmem, 137, rfl⟩
abbrev cc19_stg1_0 : Ref sig .tc := ⟨.vmem, 138, rfl⟩
abbrev cc19_stg2_0 : Ref sig .tc := ⟨.vmem, 139, rfl⟩
abbrev cc19_stg3_0 : Ref sig .tc := ⟨.vmem, 140, rfl⟩
abbrev cc19_stg4_0 : Ref sig .tc := ⟨.vmem, 141, rfl⟩
abbrev cc19_stg5_0 : Ref sig .tc := ⟨.vmem, 142, rfl⟩
abbrev cc19_stg5_1 : Ref sig .tc := ⟨.vmem, 143, rfl⟩
abbrev cc20_stg0_0 : Ref sig .tc := ⟨.vmem, 144, rfl⟩
abbrev cc20_stg0_1 : Ref sig .tc := ⟨.vmem, 145, rfl⟩
abbrev cc20_stg1_0 : Ref sig .tc := ⟨.vmem, 146, rfl⟩
abbrev cc20_stg2_0 : Ref sig .tc := ⟨.vmem, 147, rfl⟩
abbrev cc20_stg3_0 : Ref sig .tc := ⟨.vmem, 148, rfl⟩
abbrev cc20_stg3_1 : Ref sig .tc := ⟨.vmem, 149, rfl⟩
abbrev cc21_stg0_0 : Ref sig .tc := ⟨.vmem, 150, rfl⟩
abbrev cc21_stg0_1 : Ref sig .tc := ⟨.vmem, 151, rfl⟩
abbrev cc21_stg1_0 : Ref sig .tc := ⟨.vmem, 152, rfl⟩
abbrev cc21_stg2_0 : Ref sig .tc := ⟨.vmem, 153, rfl⟩
abbrev cc21_stg3_0 : Ref sig .tc := ⟨.vmem, 154, rfl⟩
abbrev cc21_stg4_0 : Ref sig .tc := ⟨.vmem, 155, rfl⟩
abbrev cc21_stg5_0 : Ref sig .tc := ⟨.vmem, 156, rfl⟩
abbrev cc21_stg5_1 : Ref sig .tc := ⟨.vmem, 157, rfl⟩
abbrev cc22_stg0_0 : Ref sig .tc := ⟨.vmem, 158, rfl⟩
abbrev cc22_stg0_1 : Ref sig .tc := ⟨.vmem, 159, rfl⟩
abbrev cc22_stg1_0 : Ref sig .tc := ⟨.vmem, 160, rfl⟩
abbrev cc22_stg2_0 : Ref sig .tc := ⟨.vmem, 161, rfl⟩
abbrev cc22_stg3_0 : Ref sig .tc := ⟨.vmem, 162, rfl⟩
abbrev cc22_stg3_1 : Ref sig .tc := ⟨.vmem, 163, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc4_sem4_0 : DmaSem sig := 32
abbrev cc4_sem4_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45
abbrev cc6_sem4_0 : DmaSem sig := 46
abbrev cc6_sem4_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem3_1 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem3_0 : DmaSem sig := 60
abbrev cc8_sem4_0 : DmaSem sig := 61
abbrev cc8_sem5_0 : DmaSem sig := 62
abbrev cc8_sem5_1 : DmaSem sig := 63
abbrev cc9_sem0_0 : DmaSem sig := 64
abbrev cc9_sem0_1 : DmaSem sig := 65
abbrev cc9_sem1_0 : DmaSem sig := 66
abbrev cc9_sem2_0 : DmaSem sig := 67
abbrev cc9_sem3_0 : DmaSem sig := 68
abbrev cc9_sem4_0 : DmaSem sig := 69
abbrev cc9_sem5_0 : DmaSem sig := 70
abbrev cc9_sem5_1 : DmaSem sig := 71
abbrev cc10_sem0_0 : DmaSem sig := 72
abbrev cc10_sem0_1 : DmaSem sig := 73
abbrev cc10_sem1_0 : DmaSem sig := 74
abbrev cc10_sem2_0 : DmaSem sig := 75
abbrev cc10_sem3_0 : DmaSem sig := 76
abbrev cc10_sem3_1 : DmaSem sig := 77
abbrev cc11_sem0_0 : DmaSem sig := 78
abbrev cc11_sem0_1 : DmaSem sig := 79
abbrev cc11_sem1_0 : DmaSem sig := 80
abbrev cc11_sem2_0 : DmaSem sig := 81
abbrev cc11_sem3_0 : DmaSem sig := 82
abbrev cc11_sem3_1 : DmaSem sig := 83
abbrev cc12_sem0_0 : DmaSem sig := 84
abbrev cc12_sem0_1 : DmaSem sig := 85
abbrev cc12_sem1_0 : DmaSem sig := 86
abbrev cc12_sem2_0 : DmaSem sig := 87
abbrev cc12_sem3_0 : DmaSem sig := 88
abbrev cc12_sem3_1 : DmaSem sig := 89
abbrev cc13_sem0_0 : DmaSem sig := 90
abbrev cc13_sem0_1 : DmaSem sig := 91
abbrev cc13_sem1_0 : DmaSem sig := 92
abbrev cc13_sem2_0 : DmaSem sig := 93
abbrev cc13_sem3_0 : DmaSem sig := 94
abbrev cc13_sem3_1 : DmaSem sig := 95
abbrev cc13_sem4_0 : DmaSem sig := 96
abbrev cc13_sem4_1 : DmaSem sig := 97
abbrev cc14_sem0_0 : DmaSem sig := 98
abbrev cc14_sem0_1 : DmaSem sig := 99
abbrev cc14_sem1_0 : DmaSem sig := 100
abbrev cc14_sem2_0 : DmaSem sig := 101
abbrev cc14_sem3_0 : DmaSem sig := 102
abbrev cc14_sem3_1 : DmaSem sig := 103
abbrev cc14_sem4_0 : DmaSem sig := 104
abbrev cc14_sem4_1 : DmaSem sig := 105
abbrev cc15_sem0_0 : DmaSem sig := 106
abbrev cc15_sem0_1 : DmaSem sig := 107
abbrev cc15_sem1_0 : DmaSem sig := 108
abbrev cc15_sem2_0 : DmaSem sig := 109
abbrev cc15_sem3_0 : DmaSem sig := 110
abbrev cc15_sem3_1 : DmaSem sig := 111
abbrev cc16_sem0_0 : DmaSem sig := 112
abbrev cc16_sem0_1 : DmaSem sig := 113
abbrev cc16_sem1_0 : DmaSem sig := 114
abbrev cc16_sem2_0 : DmaSem sig := 115
abbrev cc16_sem3_0 : DmaSem sig := 116
abbrev cc16_sem3_1 : DmaSem sig := 117
abbrev cc16_sem4_0 : DmaSem sig := 118
abbrev cc16_sem4_1 : DmaSem sig := 119
abbrev cc17_sem0_0 : DmaSem sig := 120
abbrev cc17_sem0_1 : DmaSem sig := 121
abbrev cc17_sem1_0 : DmaSem sig := 122
abbrev cc17_sem2_0 : DmaSem sig := 123
abbrev cc17_sem3_0 : DmaSem sig := 124
abbrev cc17_sem3_1 : DmaSem sig := 125
abbrev cc17_sem4_0 : DmaSem sig := 126
abbrev cc17_sem4_1 : DmaSem sig := 127
abbrev cc18_sem0_0 : DmaSem sig := 128
abbrev cc18_sem0_1 : DmaSem sig := 129
abbrev cc18_sem1_0 : DmaSem sig := 130
abbrev cc18_sem2_0 : DmaSem sig := 131
abbrev cc18_sem3_0 : DmaSem sig := 132
abbrev cc18_sem4_0 : DmaSem sig := 133
abbrev cc18_sem5_0 : DmaSem sig := 134
abbrev cc18_sem5_1 : DmaSem sig := 135
abbrev cc19_sem0_0 : DmaSem sig := 136
abbrev cc19_sem0_1 : DmaSem sig := 137
abbrev cc19_sem1_0 : DmaSem sig := 138
abbrev cc19_sem2_0 : DmaSem sig := 139
abbrev cc19_sem3_0 : DmaSem sig := 140
abbrev cc19_sem4_0 : DmaSem sig := 141
abbrev cc19_sem5_0 : DmaSem sig := 142
abbrev cc19_sem5_1 : DmaSem sig := 143
abbrev cc20_sem0_0 : DmaSem sig := 144
abbrev cc20_sem0_1 : DmaSem sig := 145
abbrev cc20_sem1_0 : DmaSem sig := 146
abbrev cc20_sem2_0 : DmaSem sig := 147
abbrev cc20_sem3_0 : DmaSem sig := 148
abbrev cc20_sem3_1 : DmaSem sig := 149
abbrev cc21_sem0_0 : DmaSem sig := 150
abbrev cc21_sem0_1 : DmaSem sig := 151
abbrev cc21_sem1_0 : DmaSem sig := 152
abbrev cc21_sem2_0 : DmaSem sig := 153
abbrev cc21_sem3_0 : DmaSem sig := 154
abbrev cc21_sem4_0 : DmaSem sig := 155
abbrev cc21_sem5_0 : DmaSem sig := 156
abbrev cc21_sem5_1 : DmaSem sig := 157
abbrev cc22_sem0_0 : DmaSem sig := 158
abbrev cc22_sem0_1 : DmaSem sig := 159
abbrev cc22_sem1_0 : DmaSem sig := 160
abbrev cc22_sem2_0 : DmaSem sig := 161
abbrev cc22_sem3_0 : DmaSem sig := 162
abbrev cc22_sem3_1 : DmaSem sig := 163

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S10000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S10000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S10000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S10000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S10000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x1 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x1 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S10000x1 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S128x1 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S5000x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 2 → Memref sig .tc .vmem S5000x1 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S10000x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 2 → Memref sig .tc .vmem S10000x128 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S10000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S128x1 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x1 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S10000x1 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![20], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S128x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S128x1 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S5000x128 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 2 → Memref sig .tc .vmem S5000x1 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_4 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S10000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S128x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S10000x128 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev stage17_4 : Fin 2 → Memref sig .tc .vmem S10000x128 .f32 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![true]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S10000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S1x128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S1x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x128 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 2 → Memref sig .tc .vmem S10000x128 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

abbrev grid19 : Pipeline.Grid := ⟨1, ![10], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S10000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x128 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x128 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S1x128 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x128 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 2 → Memref sig .tc .vmem S10000x128 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

abbrev grid20 : Pipeline.Grid := ⟨1, ![10], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S10000x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S128x128 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S1x128 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 2 → Memref sig .tc .vmem S10000x128 .f32 := fun | 0 => Memref.whole cc20_stg3_0 | 1 => Memref.whole cc20_stg3_1 | ⟨_ + 2, h⟩ => absurd h (Nat.not_lt.2 (Nat.le_add_left _ _))
abbrev sem20_3 : Fin 2 → DmaSem sig := fun | 0 => cc20_sem3_0 | 1 => cc20_sem3_1 | ⟨_ + 2, h⟩ => absurd h (Nat.not_lt.2 (Nat.le_add_left _ _))
abbrev reads20_3 : Fin grid20.rank → Bool := ![true]

abbrev grid21 : Pipeline.Grid := ⟨1, ![10], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_4 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_5 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S10000x128 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S1x128 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S1x128 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 1 → Memref sig .tc .vmem S1x128 .f32 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))
abbrev reads21_3 : Fin grid21.rank → Bool := ![false]

abbrev stage21_4 : Fin 1 → Memref sig .tc .vmem S1x128 .f32 := fun | 0 => Memref.whole cc21_stg4_0 | ⟨_ + 1, h⟩ => absurd h (Nat.not_lt.2 (Nat.le_add_left _ _))
abbrev sem21_4 : Fin 1 → DmaSem sig := fun | 0 => cc21_sem4_0 | ⟨_ + 1, h⟩ => absurd h (Nat.not_lt.2 (Nat.le_add_left _ _))
abbrev reads21_4 : Fin grid21.rank → Bool := ![false]

abbrev stage21_5 : Fin 2 → Memref sig .tc .vmem S10000x128 .f32 := fun | 0 => Memref.whole cc21_stg5_0 | 1 => Memref.whole cc21_stg5_1 | ⟨_ + 2, h⟩ => absurd h (Nat.not_lt.2 (Nat.le_add_left _ _))
abbrev sem21_5 : Fin 2 → DmaSem sig := fun | 0 => cc21_sem5_0 | 1 => cc21_sem5_1 | ⟨_ + 2, h⟩ => absurd h (Nat.not_lt.2 (Nat.le_add_left _ _))
abbrev reads21_5 : Fin grid21.rank → Bool := ![true]

abbrev grid22 : Pipeline.Grid := ⟨1, ![10], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S10000x128 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S128x64 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 1 → Memref sig .tc .vmem S1x64 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 2 → Memref sig .tc .vmem S10000x64 .f32 := fun | 0 => Memref.whole cc22_stg3_0 | 1 => Memref.whole cc22_stg3_1 | ⟨_ + 2, h⟩ => absurd h (Nat.not_lt.2 (Nat.le_add_left _ _))
abbrev sem22_3 : Fin 2 → DmaSem sig := fun | 0 => cc22_sem3_0 | 1 => cc22_sem3_1 | ⟨_ + 2, h⟩ => absurd h (Nat.not_lt.2 (Nat.le_add_left _ _))
abbrev reads22_3 : Fin grid22.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S2x2x128x128_S1x1x128x128_0_0_0_0 : S2x2x128x128.Slices ![0, 0, 0, 0] S1x1x128x128
  shapeCasts_S1x1x128x128_S128x128 : S1x1x128x128.ShapeCasts S128x128
  slices_S2x2x256x1_S1x1x256x1_0_0_0_0 : S2x2x256x1.Slices ![0, 0, 0, 0] S1x1x256x1
  shapeCasts_S1x1x256x1_S256x1 : S1x1x256x1.ShapeCasts S256x1
  slices_S2x2x1_S1x1x1_0_0_0 : S2x2x1.Slices ![0, 0, 0] S1x1x1
  shapeCasts_S1x1x1_S1 : S1x1x1.ShapeCasts S1
  slices_S2x2x128_S1x1x128_0_0_0 : S2x2x128.Slices ![0, 0, 0] S1x1x128
  shapeCasts_S1x1x128_S128 : S1x1x128.ShapeCasts S128
  slices_S256x1_S128x1_0_0 : S256x1.Slices ![0, 0] S128x1
  slices_S256x1_S128x1_128_0 : S256x1.Slices ![128, 0] S128x1
  bcast_S_S1 : S_.BroadcastsInDim S1 (![] : Fin 0 → Fin S1.rank)
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  bcast_S_S500000 : S_.BroadcastsInDim S500000 (![] : Fin 0 → Fin S500000.rank)
  bcast_S500000_S500000x1_0 : S500000.BroadcastsInDim S500000x1 (![0] : Fin 1 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  bcast_S_S100000x1 : S_.BroadcastsInDim S100000x1 (![] : Fin 0 → Fin S100000x1.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  shapeCasts_S10000x128_S10000x128 : S10000x128.ShapeCasts S10000x128
  slices_S2x2x128x128_S1x1x128x128_0_1_0_0 : S2x2x128x128.Slices ![0, 1, 0, 0] S1x1x128x128
  slices_S2x2x256x1_S1x1x256x1_0_1_0_0 : S2x2x256x1.Slices ![0, 1, 0, 0] S1x1x256x1
  slices_S2x2x1_S1x1x1_0_1_0 : S2x2x1.Slices ![0, 1, 0] S1x1x1
  slices_S2x2x128_S1x1x128_0_1_0 : S2x2x128.Slices ![0, 1, 0] S1x1x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  slices_S2x128x128_S1x128x128_1_0_0 : S2x128x128.Slices ![1, 0, 0] S1x128x128
  slices_S2x128_S1x128_1_0 : S2x128.Slices ![1, 0] S1x128
  slices_S2x2x128x128_S1x1x128x128_1_0_0_0 : S2x2x128x128.Slices ![1, 0, 0, 0] S1x1x128x128
  slices_S2x2x256x1_S1x1x256x1_1_0_0_0 : S2x2x256x1.Slices ![1, 0, 0, 0] S1x1x256x1
  slices_S2x2x1_S1x1x1_1_0_0 : S2x2x1.Slices ![1, 0, 0] S1x1x1
  slices_S2x2x128_S1x1x128_1_0_0 : S2x2x128.Slices ![1, 0, 0] S1x1x128
  shapeCasts_S5000x128_S5000x128 : S5000x128.ShapeCasts S5000x128
  slices_S2x2x128x128_S1x1x128x128_1_1_0_0 : S2x2x128x128.Slices ![1, 1, 0, 0] S1x1x128x128
  slices_S2x2x256x1_S1x1x256x1_1_1_0_0 : S2x2x256x1.Slices ![1, 1, 0, 0] S1x1x256x1
  slices_S2x2x1_S1x1x1_1_1_0 : S2x2x1.Slices ![1, 1, 0] S1x1x1
  slices_S2x2x128_S1x1x128_1_1_0 : S2x2x128.Slices ![1, 1, 0] S1x1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  dot_S10000x128_S128x128_S10000x128_1_0_0_1_n_n_wf : DotDims.WF S10000x128 S128x128 S10000x128 [1] [0] [0] [1] [] []
  dot_S128x128_S128x1_S128x1_1_0_0_1_n_n_wf : DotDims.WF S128x128 S128x1 S128x1 [1] [0] [0] [1] [] []
  dot_S10000x128_S128x1_S10000x1_1_0_0_1_n_n_wf : DotDims.WF S10000x128 S128x1 S10000x1 [1] [0] [0] [1] [] []
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  gather_S100000x1_S500000x1_S500000x1_1_0_n_n_0_1_11_wf : GatherDims.WF S100000x1 S500000x1 S500000x1 [1] [0] [] [0] [] 1 ![1, 1]
  scatter_S100000x1_S500000x1_S500000x1_1_0_0_1_wf : ScatterDims.WF S100000x1 S500000x1 S500000x1 [1] [0] [0] 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x1.size a ≤ S128x1.size a
  hwx3_2 : ∀ i : grid3.Coords, EltTy.bits .f32 = 32 ∨ (Rect.block (s := S128x1) S128x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S100000x1.size a
  hwx3_4 : ∀ i : grid3.Coords, EltTy.bits .f32 = 32 ∨ (Rect.block (s := S100000x1) S5000x1.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x128.size a ≤ S100000x128.size a
  hwx4_3 : ∀ i : grid4.Coords, EltTy.bits .f32 = 32 ∨ (Rect.block (s := S100000x128) S10000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x128.size a ≤ S100000x128.size a
  hwx4_4 : ∀ i : grid4.Coords, EltTy.bits .f32 = 32 ∨ (Rect.block (s := S100000x128) S10000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x1.size a ≤ S128x1.size a
  hwx5_1 : ∀ i : grid5.Coords, EltTy.bits .f32 = 32 ∨ (Rect.block (s := S128x1) S128x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x1.size a ≤ S100000x1.size a
  hwx5_3 : ∀ i : grid5.Coords, EltTy.bits .f32 = 32 ∨ (Rect.block (s := S100000x1) S10000x1.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x1.size a ≤ S128x1.size a
  hwx6_2 : ∀ i : grid6.Coords, EltTy.bits .f32 = 32 ∨ (Rect.block (s := S128x1) S128x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x1.size a ≤ S100000x1.size a
  hwx6_4 : ∀ i : grid6.Coords, EltTy.bits .f32 = 32 ∨ (Rect.block (s := S100000x1) S5000x1.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x128.size a ≤ S100000x128.size a
  hwx7_3 : ∀ i : grid7.Coords, EltTy.bits .f32 = 32 ∨ (Rect.block (s := S100000x128) S10000x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x128.size a ≤ S100000x128.size a
  hwx7_4 : ∀ i : grid7.Coords, EltTy.bits .f32 = 32 ∨ (Rect.block (s := S100000x128) S10000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x128.size a ≤ S100000x128.size a
  hwx8_5 : ∀ i : grid8.Coords, EltTy.bits .f32 = 32 ∨ (Rect.block (s := S100000x128) S10000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x128.size a ≤ S100000x128.size a
  hwx9_0 : ∀ i : grid9.Coords, EltTy.bits .f32 = 32 ∨ (Rect.block (s := S100000x128) S10000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S10000x128.size a ≤ S100000x128.size a
  hwx9_5 : ∀ i : grid9.Coords, EltTy.bits .f32 = 32 ∨ (Rect.block (s := S100000x128) S10000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x128.size a ≤ S100000x128.size a
  hwx10_0 : ∀ i : grid10.Coords, EltTy.bits .f32 = 32 ∨ (Rect.block (s := S100000x128) S10000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S10000x128.size a ≤ S100000x128.size a
  hwx10_3 : ∀ i : grid10.Coords, EltTy.bits .f32 = 32 ∨ (Rect.block (s := S100000x128) S10000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x128.size a ≤ S100000x128.size a
  hwx11_0 : ∀ i : grid11.Coords, EltTy.bits .f32 = 32 ∨ (Rect.block (s := S100000x128) S10000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S10000x128.size a ≤ S100000x128.size a
  hwx11_3 : ∀ i : grid11.Coords, EltTy.bits .f32 = 32 ∨ (Rect.block (s := S100000x128) S10000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x128.size a ≤ S100000x128.size a
  hwx12_0 : ∀ i : grid12.Coords, EltTy.bits .f32 = 32 ∨ (Rect.block (s := S100000x128) S10000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x1.size a ≤ S128x1.size a
  hwx12_1 : ∀ i : grid12.Coords, EltTy.bits .f32 = 32 ∨ (Rect.block (s := S128x1) S128x1.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x1.size a ≤ S1x1.size a
  hwx12_2 : ∀ i : grid12.Coords, EltTy.bits .f32 = 32 ∨ (Rect.block (s := S1x1) S1x1.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S10000x1.size a ≤ S100000x1.size a
  hwx12_3 : ∀ i : grid12.Coords, EltTy.bits .f32 = 32 ∨ (Rect.block (s := S100000x1) S10000x1.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S100000x128.size a
  hwx13_0 : ∀ i : grid13.Coords, EltTy.bits .f32 = 32 ∨ (Rect.block (s := S100000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x128.size a ≤ S128x128.size a
  hwx13_1 : ∀ i : grid13.Coords, EltTy.bits .f32 = 32 ∨ (Rect.block (s := S128x128) S128x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S128x1.size a ≤ S128x1.size a
  hwx13_2 : ∀ i : grid13.Coords, EltTy.bits .f32 = 32 ∨ (Rect.block (s := S128x1) S128x1.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S5000x128.size a ≤ S100000x128.size a
  hwx13_3 : ∀ i : grid13.Coords, EltTy.bits .f32 = 32 ∨ (Rect.block (s := S100000x128) S5000x128.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S5000x1.size a ≤ S100000x1.size a
  hwx13_4 : ∀ i : grid13.Coords, EltTy.bits .f32 = 32 ∨ (Rect.block (s := S100000x1) S5000x1.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x128.size a ≤ S100000x128.size a
  hwx14_0 : ∀ i : grid14.Coords, EltTy.bits .f32 = 32 ∨ (Rect.block (s := S100000x128) S10000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x128.size a ≤ S128x128.size a
  hwx14_1 : ∀ i : grid14.Coords, EltTy.bits .f32 = 32 ∨ (Rect.block (s := S128x128) S128x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S10000x128.size a ≤ S100000x128.size a
  hwx14_3 : ∀ i : grid14.Coords, EltTy.bits .f32 = 32 ∨ (Rect.block (s := S100000x128) S10000x128.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S10000x128.size a ≤ S100000x128.size a
  hwx14_4 : ∀ i : grid14.Coords, EltTy.bits .f32 = 32 ∨ (Rect.block (s := S100000x128) S10000x128.size (cc14_transform_4 i) (hinb14_4 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x128.size a ≤ S100000x128.size a
  hwx15_0 : ∀ i : grid15.Coords, EltTy.bits .f32 = 32 ∨ (Rect.block (s := S100000x128) S10000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S128x1.size a ≤ S128x1.size a
  hwx15_1 : ∀ i : grid15.Coords, EltTy.bits .f32 = 32 ∨ (Rect.block (s := S128x1) S128x1.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x1.size a ≤ S1x1.size a
  hwx15_2 : ∀ i : grid15.Coords, EltTy.bits .f32 = 32 ∨ (Rect.block (s := S1x1) S1x1.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S10000x1.size a ≤ S100000x1.size a
  hwx15_3 : ∀ i : grid15.Coords, EltTy.bits .f32 = 32 ∨ (Rect.block (s := S100000x1) S10000x1.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S100000x128.size a
  hwx16_0 : ∀ i : grid16.Coords, EltTy.bits .f32 = 32 ∨ (Rect.block (s := S100000x128) S5000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S128x128.size a ≤ S128x128.size a
  hwx16_1 : ∀ i : grid16.Coords, EltTy.bits .f32 = 32 ∨ (Rect.block (s := S128x128) S128x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S128x1.size a ≤ S128x1.size a
  hwx16_2 : ∀ i : grid16.Coords, EltTy.bits .f32 = 32 ∨ (Rect.block (s := S128x1) S128x1.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S5000x128.size a ≤ S100000x128.size a
  hwx16_3 : ∀ i : grid16.Coords, EltTy.bits .f32 = 32 ∨ (Rect.block (s := S100000x128) S5000x128.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S5000x1.size a ≤ S100000x1.size a
  hwx16_4 : ∀ i : grid16.Coords, EltTy.bits .f32 = 32 ∨ (Rect.block (s := S100000x1) S5000x1.size (cc16_transform_4 i) (hinb16_4 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S10000x128.size a ≤ S100000x128.size a
  hwx17_0 : ∀ i : grid17.Coords, EltTy.bits .f32 = 32 ∨ (Rect.block (s := S100000x128) S10000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S128x128.size a ≤ S128x128.size a
  hwx17_1 : ∀ i : grid17.Coords, EltTy.bits .f32 = 32 ∨ (Rect.block (s := S128x128) S128x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S10000x128.size a ≤ S100000x128.size a
  hwx17_3 : ∀ i : grid17.Coords, EltTy.bits .f32 = 32 ∨ (Rect.block (s := S100000x128) S10000x128.size (cc17_transform_3 i) (hinb17_3 i)).WholeWords (EltTy.packing .f32)
  hstage17_4 : ∀ j, (stage17_4 j).IsWhole
  nbuf17_4 : grid17.bufCount reads17_4 false = 2
  hreads17_4 : ∀ i i' : grid17.Coords, (∀ a, reads17_4 a = true → i a = i' a) → cc17_transform_4 i = cc17_transform_4 i'
  hinb17_4 : ∀ (i : grid17.Coords) a, (cc17_transform_4 i a + 1) * S10000x128.size a ≤ S100000x128.size a
  hwx17_4 : ∀ i : grid17.Coords, EltTy.bits .f32 = 32 ∨ (Rect.block (s := S100000x128) S10000x128.size (cc17_transform_4 i) (hinb17_4 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S10000x128.size a ≤ S100000x128.size a
  hwx18_0 : ∀ i : grid18.Coords, EltTy.bits .f32 = 32 ∨ (Rect.block (s := S100000x128) S10000x128.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S1x128.size a ≤ S1x128.size a
  hwx18_1 : ∀ i : grid18.Coords, EltTy.bits .f32 = 32 ∨ (Rect.block (s := S1x128) S1x128.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x128.size a ≤ S1x128.size a
  hwx18_2 : ∀ i : grid18.Coords, EltTy.bits .f32 = 32 ∨ (Rect.block (s := S1x128) S1x128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x128.size a ≤ S1x128.size a
  hwx18_3 : ∀ i : grid18.Coords, EltTy.bits .f32 = 32 ∨ (Rect.block (s := S1x128) S1x128.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x128.size a ≤ S1x128.size a
  hwx18_4 : ∀ i : grid18.Coords, EltTy.bits .f32 = 32 ∨ (Rect.block (s := S1x128) S1x128.size (cc18_transform_4 i) (hinb18_4 i)).WholeWords (EltTy.packing .f32)
  hstage18_5 : ∀ j, (stage18_5 j).IsWhole
  nbuf18_5 : grid18.bufCount reads18_5 false = 2
  hreads18_5 : ∀ i i' : grid18.Coords, (∀ a, reads18_5 a = true → i a = i' a) → cc18_transform_5 i = cc18_transform_5 i'
  hinb18_5 : ∀ (i : grid18.Coords) a, (cc18_transform_5 i a + 1) * S10000x128.size a ≤ S100000x128.size a
  hwx18_5 : ∀ i : grid18.Coords, EltTy.bits .f32 = 32 ∨ (Rect.block (s := S100000x128) S10000x128.size (cc18_transform_5 i) (hinb18_5 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S10000x128.size a ≤ S100000x128.size a
  hwx19_0 : ∀ i : grid19.Coords, EltTy.bits .f32 = 32 ∨ (Rect.block (s := S100000x128) S10000x128.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x128.size a ≤ S1x128.size a
  hwx19_1 : ∀ i : grid19.Coords, EltTy.bits .f32 = 32 ∨ (Rect.block (s := S1x128) S1x128.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x128.size a ≤ S1x128.size a
  hwx19_2 : ∀ i : grid19.Coords, EltTy.bits .f32 = 32 ∨ (Rect.block (s := S1x128) S1x128.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S1x128.size a ≤ S1x128.size a
  hwx19_3 : ∀ i : grid19.Coords, EltTy.bits .f32 = 32 ∨ (Rect.block (s := S1x128) S1x128.size (cc19_transform_3 i) (hinb19_3 i)).WholeWords (EltTy.packing .f32)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S1x128.size a ≤ S1x128.size a
  hwx19_4 : ∀ i : grid19.Coords, EltTy.bits .f32 = 32 ∨ (Rect.block (s := S1x128) S1x128.size (cc19_transform_4 i) (hinb19_4 i)).WholeWords (EltTy.packing .f32)
  hstage19_5 : ∀ j, (stage19_5 j).IsWhole
  nbuf19_5 : grid19.bufCount reads19_5 false = 2
  hreads19_5 : ∀ i i' : grid19.Coords, (∀ a, reads19_5 a = true → i a = i' a) → cc19_transform_5 i = cc19_transform_5 i'
  hinb19_5 : ∀ (i : grid19.Coords) a, (cc19_transform_5 i a + 1) * S10000x128.size a ≤ S100000x128.size a
  hwx19_5 : ∀ i : grid19.Coords, EltTy.bits .f32 = 32 ∨ (Rect.block (s := S100000x128) S10000x128.size (cc19_transform_5 i) (hinb19_5 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S10000x128.size a ≤ S100000x128.size a
  hwx20_0 : ∀ i : grid20.Coords, EltTy.bits .f32 = 32 ∨ (Rect.block (s := S100000x128) S10000x128.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S128x128.size a ≤ S128x128.size a
  hwx20_1 : ∀ i : grid20.Coords, EltTy.bits .f32 = 32 ∨ (Rect.block (s := S128x128) S128x128.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x128.size a ≤ S1x128.size a
  hwx20_2 : ∀ i : grid20.Coords, EltTy.bits .f32 = 32 ∨ (Rect.block (s := S1x128) S1x128.size (cc20_transform_2 i) (hinb20_2 i)).WholeWords (EltTy.packing .f32)
  hstage20_3 : ∀ j, (stage20_3 j).IsWhole
  nbuf20_3 : grid20.bufCount reads20_3 false = 2
  hreads20_3 : ∀ i i' : grid20.Coords, (∀ a, reads20_3 a = true → i a = i' a) → cc20_transform_3 i = cc20_transform_3 i'
  hinb20_3 : ∀ (i : grid20.Coords) a, (cc20_transform_3 i a + 1) * S10000x128.size a ≤ S100000x128.size a
  hwx20_3 : ∀ i : grid20.Coords, EltTy.bits .f32 = 32 ∨ (Rect.block (s := S100000x128) S10000x128.size (cc20_transform_3 i) (hinb20_3 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S10000x128.size a ≤ S100000x128.size a
  hwx21_0 : ∀ i : grid21.Coords, EltTy.bits .f32 = 32 ∨ (Rect.block (s := S100000x128) S10000x128.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S1x128.size a ≤ S1x128.size a
  hwx21_1 : ∀ i : grid21.Coords, EltTy.bits .f32 = 32 ∨ (Rect.block (s := S1x128) S1x128.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x128.size a ≤ S1x128.size a
  hwx21_2 : ∀ i : grid21.Coords, EltTy.bits .f32 = 32 ∨ (Rect.block (s := S1x128) S1x128.size (cc21_transform_2 i) (hinb21_2 i)).WholeWords (EltTy.packing .f32)
  hstage21_3 : ∀ j, (stage21_3 j).IsWhole
  nbuf21_3 : grid21.bufCount reads21_3 true = 1
  hreads21_3 : ∀ i i' : grid21.Coords, (∀ a, reads21_3 a = true → i a = i' a) → cc21_transform_3 i = cc21_transform_3 i'
  hinb21_3 : ∀ (i : grid21.Coords) a, (cc21_transform_3 i a + 1) * S1x128.size a ≤ S1x128.size a
  hwx21_3 : ∀ i : grid21.Coords, EltTy.bits .f32 = 32 ∨ (Rect.block (s := S1x128) S1x128.size (cc21_transform_3 i) (hinb21_3 i)).WholeWords (EltTy.packing .f32)
  hstage21_4 : ∀ j, (stage21_4 j).IsWhole
  nbuf21_4 : grid21.bufCount reads21_4 true = 1
  hreads21_4 : ∀ i i' : grid21.Coords, (∀ a, reads21_4 a = true → i a = i' a) → cc21_transform_4 i = cc21_transform_4 i'
  hinb21_4 : ∀ (i : grid21.Coords) a, (cc21_transform_4 i a + 1) * S1x128.size a ≤ S1x128.size a
  hwx21_4 : ∀ i : grid21.Coords, EltTy.bits .f32 = 32 ∨ (Rect.block (s := S1x128) S1x128.size (cc21_transform_4 i) (hinb21_4 i)).WholeWords (EltTy.packing .f32)
  hstage21_5 : ∀ j, (stage21_5 j).IsWhole
  nbuf21_5 : grid21.bufCount reads21_5 false = 2
  hreads21_5 : ∀ i i' : grid21.Coords, (∀ a, reads21_5 a = true → i a = i' a) → cc21_transform_5 i = cc21_transform_5 i'
  hinb21_5 : ∀ (i : grid21.Coords) a, (cc21_transform_5 i a + 1) * S10000x128.size a ≤ S100000x128.size a
  hwx21_5 : ∀ i : grid21.Coords, EltTy.bits .f32 = 32 ∨ (Rect.block (s := S100000x128) S10000x128.size (cc21_transform_5 i) (hinb21_5 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S10000x128.size a ≤ S100000x128.size a
  hwx22_0 : ∀ i : grid22.Coords, EltTy.bits .f32 = 32 ∨ (Rect.block (s := S100000x128) S10000x128.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S128x64.size a ≤ S128x64.size a
  hwx22_1 : ∀ i : grid22.Coords, EltTy.bits .f32 = 32 ∨ (Rect.block (s := S128x64) S128x64.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S1x64.size a ≤ S1x64.size a
  hwx22_2 : ∀ i : grid22.Coords, EltTy.bits .f32 = 32 ∨ (Rect.block (s := S1x64) S1x64.size (cc22_transform_2 i) (hinb22_2 i)).WholeWords (EltTy.packing .f32)
  hstage22_3 : ∀ j, (stage22_3 j).IsWhole
  nbuf22_3 : grid22.bufCount reads22_3 false = 2
  hreads22_3 : ∀ i i' : grid22.Coords, (∀ a, reads22_3 a = true → i a = i' a) → cc22_transform_3 i = cc22_transform_3 i'
  hinb22_3 : ∀ (i : grid22.Coords) a, (cc22_transform_3 i a + 1) * S10000x64.size a ≤ S100000x64.size a
  hwx22_3 : ∀ i : grid22.Coords, EltTy.bits .f32 = 32 ∨ (Rect.block (s := S100000x64) S10000x64.size (cc22_transform_3 i) (hinb22_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S500000x1_S500000x1_1_0_n_n_0_1_11 : GatherDims S100000x1 S500000x1 S500000x1 where
  offsetDims := [1]
  collapsedSliceDims := [0]
  operandBatchingDims := []
  startIndicesBatchingDims := []
  startIndexMap := [0]
  indexVectorDim := 1
  sliceSizes := ![1, 1]
  wf := gather_S100000x1_S500000x1_S500000x1_1_0_n_n_0_1_11_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S128x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37_0) S5000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v37_1) S5000x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg1) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87) S10000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v89) S10000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_arg0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v102) S128x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v105) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v106) S10000x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_arg1) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v91) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v103) S128x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v107_0) S5000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v107_1) S5000x1.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_arg0) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v97) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v158) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v157) S10000x128.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v159) S10000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v159) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v168) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v169) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v170) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v171) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v172) S10000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v89) S10000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v181) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v182) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v183) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v184) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v185) S10000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v172) S10000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v187) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v190) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v191) S10000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v185) S10000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v193) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v196) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v197) S10000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v185) S10000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v210) S128x1.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v213) S1x1.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v214) S10000x1.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v172) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v199) S128x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v211) S128x1.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v215_0) S5000x128.size cc13_transform_3 reads13_3 true false 2 stage13_3 sem13_3
    hrank13 hreads13_3 hinb13_3 nbuf13_3 (Memref.isWhole_whole _) hwx13_3 hstage13_3

abbrev win13_4 : Pipeline.Window sig grid13 :=
  Pipeline.Window.ofSpec (Memref.whole main_v215_1) S5000x1.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v185) S10000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v205) S128x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v266) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v265) S10000x128.size cc14_transform_3 reads14_3 false false 2 stage14_3 sem14_3
    hrank14 hreads14_3 hinb14_3 nbuf14_3 (Memref.isWhole_whole _) hwx14_3 hstage14_3

abbrev win14_4 : Pipeline.Window sig grid14 :=
  Pipeline.Window.ofSpec (Memref.whole main_v267) S10000x128.size cc14_transform_4 reads14_4 true false 2 stage14_4 sem14_4
    hrank14 hreads14_4 hinb14_4 nbuf14_4 (Memref.isWhole_whole _) hwx14_4 hstage14_4

abbrev win14 : Fin 5 → Pipeline.Window sig grid14 := fun | 0 => win14_0 | 1 => win14_1 | 2 => win14_2 | 3 => win14_3 | 4 => win14_4 | ⟨_ + 5, h⟩ => absurd h (Nat.not_lt.2 (Nat.le_add_left _ _))
abbrev spec14 : Fin 5 → Pipeline.WinSpec sig grid14.rank := fun w => (win14 w).toWinSpec

abbrev win15_0 : Pipeline.Window sig grid15 :=
  Pipeline.Window.ofSpec (Memref.whole main_v172) S10000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v280) S128x1.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v283) S1x1.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v284) S10000x1.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v185) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v269) S128x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v281) S128x1.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v285_0) S5000x128.size cc16_transform_3 reads16_3 true false 2 stage16_3 sem16_3
    hrank16 hreads16_3 hinb16_3 nbuf16_3 (Memref.isWhole_whole _) hwx16_3 hstage16_3

abbrev win16_4 : Pipeline.Window sig grid16 :=
  Pipeline.Window.ofSpec (Memref.whole main_v285_1) S5000x1.size cc16_transform_4 reads16_4 true false 2 stage16_4 sem16_4
    hrank16 hreads16_4 hinb16_4 nbuf16_4 (Memref.isWhole_whole _) hwx16_4 hstage16_4

abbrev win16 : Fin 5 → Pipeline.Window sig grid16 := fun | 0 => win16_0 | 1 => win16_1 | 2 => win16_2 | 3 => win16_3 | 4 => win16_4 | ⟨_ + 5, h⟩ => absurd h (Nat.not_lt.2 (Nat.le_add_left _ _))
abbrev spec16 : Fin 5 → Pipeline.WinSpec sig grid16.rank := fun w => (win16 w).toWinSpec

abbrev win17_0 : Pipeline.Window sig grid17 :=
  Pipeline.Window.ofSpec (Memref.whole main_v172) S10000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v275) S128x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v336) S1x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v335) S10000x128.size cc17_transform_3 reads17_3 false false 2 stage17_3 sem17_3
    hrank17 hreads17_3 hinb17_3 nbuf17_3 (Memref.isWhole_whole _) hwx17_3 hstage17_3

abbrev win17_4 : Pipeline.Window sig grid17 :=
  Pipeline.Window.ofSpec (Memref.whole main_v337) S10000x128.size cc17_transform_4 reads17_4 true false 2 stage17_4 sem17_4
    hrank17 hreads17_4 hinb17_4 nbuf17_4 (Memref.isWhole_whole _) hwx17_4 hstage17_4

abbrev win17 : Fin 5 → Pipeline.Window sig grid17 := fun | 0 => win17_0 | 1 => win17_1 | 2 => win17_2 | 3 => win17_3 | 4 => win17_4 | ⟨_ + 5, h⟩ => absurd h (Nat.not_lt.2 (Nat.le_add_left _ _))
abbrev spec17 : Fin 5 → Pipeline.WinSpec sig grid17.rank := fun w => (win17 w).toWinSpec

abbrev win18_0 : Pipeline.Window sig grid18 :=
  Pipeline.Window.ofSpec (Memref.whole main_v337) S10000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v346) S1x128.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v347) S1x128.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v348) S1x128.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v349) S1x128.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v350) S10000x128.size cc18_transform_5 reads18_5 true false 2 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

abbrev win19_0 : Pipeline.Window sig grid19 :=
  Pipeline.Window.ofSpec (Memref.whole main_v267) S10000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v359) S1x128.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v360) S1x128.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v361) S1x128.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v362) S1x128.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v363) S10000x128.size cc19_transform_5 reads19_5 true false 2 stage19_5 sem19_5
    hrank19 hreads19_5 hinb19_5 nbuf19_5 (Memref.isWhole_whole _) hwx19_5 hstage19_5

abbrev win19 : Fin 6 → Pipeline.Window sig grid19 := fun | 0 => win19_0 | 1 => win19_1 | 2 => win19_2 | 3 => win19_3 | 4 => win19_4 | 5 => win19_5 | ⟨_ + 6, h⟩ => absurd h (Nat.not_lt.2 (Nat.le_add_left _ _))
abbrev spec19 : Fin 6 → Pipeline.WinSpec sig grid19.rank := fun w => (win19 w).toWinSpec

abbrev win20_0 : Pipeline.Window sig grid20 :=
  Pipeline.Window.ofSpec (Memref.whole main_v350) S10000x128.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_arg13) S128x128.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v364) S1x128.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v365) S10000x128.size cc20_transform_3 reads20_3 true false 2 stage20_3 sem20_3
    hrank20 hreads20_3 hinb20_3 nbuf20_3 (Memref.isWhole_whole _) hwx20_3 hstage20_3

abbrev win20 : Fin 4 → Pipeline.Window sig grid20 := fun | 0 => win20_0 | 1 => win20_1 | 2 => win20_2 | 3 => win20_3 | ⟨_ + 4, h⟩ => absurd h (Nat.not_lt.2 (Nat.le_add_left _ _))
abbrev spec20 : Fin 4 → Pipeline.WinSpec sig grid20.rank := fun w => (win20 w).toWinSpec

abbrev win21_0 : Pipeline.Window sig grid21 :=
  Pipeline.Window.ofSpec (Memref.whole main_v365) S10000x128.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v370) S1x128.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v371) S1x128.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v372) S1x128.size cc21_transform_3 reads21_3 false true 1 stage21_3 sem21_3
    hrank21 hreads21_3 hinb21_3 nbuf21_3 (Memref.isWhole_whole _) hwx21_3 hstage21_3

abbrev win21_4 : Pipeline.Window sig grid21 :=
  Pipeline.Window.ofSpec (Memref.whole main_v373) S1x128.size cc21_transform_4 reads21_4 false true 1 stage21_4 sem21_4
    hrank21 hreads21_4 hinb21_4 nbuf21_4 (Memref.isWhole_whole _) hwx21_4 hstage21_4

abbrev win21_5 : Pipeline.Window sig grid21 :=
  Pipeline.Window.ofSpec (Memref.whole main_v374) S10000x128.size cc21_transform_5 reads21_5 true false 2 stage21_5 sem21_5
    hrank21 hreads21_5 hinb21_5 nbuf21_5 (Memref.isWhole_whole _) hwx21_5 hstage21_5

abbrev win21 : Fin 6 → Pipeline.Window sig grid21 := fun | 0 => win21_0 | 1 => win21_1 | 2 => win21_2 | 3 => win21_3 | 4 => win21_4 | 5 => win21_5 | ⟨_ + 6, h⟩ => absurd h (Nat.not_lt.2 (Nat.le_add_left _ _))
abbrev spec21 : Fin 6 → Pipeline.WinSpec sig grid21.rank := fun w => (win21 w).toWinSpec

abbrev win22_0 : Pipeline.Window sig grid22 :=
  Pipeline.Window.ofSpec (Memref.whole main_v374) S10000x128.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_arg17) S128x64.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v375) S1x64.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_v376) S10000x64.size cc22_transform_3 reads22_3 true false 2 stage22_3 sem22_3
    hrank22 hreads22_3 hinb22_3 nbuf22_3 (Memref.isWhole_whole _) hwx22_3 hstage22_3

abbrev win22 : Fin 4 → Pipeline.Window sig grid22 := fun | 0 => win22_0 | 1 => win22_1 | 2 => win22_2 | 3 => win22_3 | ⟨_ + 4, h⟩ => absurd h (Nat.not_lt.2 (Nat.le_add_left _ _))
abbrev spec22 : Fin 4 → Pipeline.WinSpec sig grid22.rank := fun w => (win22 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S2x2x128x128 : Shape := ⟨4, ![2, 2, 128, 128]⟩
abbrev S2x2x256x1 : Shape := ⟨4, ![2, 2, 256, 1]⟩
abbrev S2x2x1 : Shape := ⟨3, ![2, 2, 1]⟩
abbrev S2x2x128 : Shape := ⟨3, ![2, 2, 128]⟩
abbrev S2x128x128 : Shape := ⟨3, ![2, 128, 128]⟩
abbrev S2x128 : Shape := ⟨2, ![2, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128x128 : Shape := ⟨3, ![1, 128, 128]⟩
abbrev S1x128 : Shape := ⟨2, ![1, 128]⟩
abbrev S1x500000 : Shape := ⟨2, ![1, 500000]⟩
abbrev S500000 : Shape := ⟨1, ![500000]⟩
abbrev S1x1x128x128 : Shape := ⟨4, ![1, 1, 128, 128]⟩
abbrev S1x1x256x1 : Shape := ⟨4, ![1, 1, 256, 1]⟩
abbrev S256x1 : Shape := ⟨2, ![256, 1]⟩
abbrev S1x1x1 : Shape := ⟨3, ![1, 1, 1]⟩
abbrev S1 : Shape := ⟨1, ![1]⟩
abbrev S1x1x128 : Shape := ⟨3, ![1, 1, 128]⟩
abbrev S_ : Shape := ⟨0, ![]⟩
abbrev S500000x1 : Shape := ⟨2, ![500000, 1]⟩
abbrev S500000x128 : Shape := ⟨2, ![500000, 128]⟩
abbrev S128x1 : Shape := ⟨2, ![128, 1]⟩
abbrev S1x1 : Shape := ⟨2, ![1, 1]⟩
abbrev S100000x1 : Shape := ⟨2, ![100000, 1]⟩
abbrev S100000x64 : Shape := ⟨2, ![100000, 64]⟩
abbrev S1x64 : Shape := ⟨2, ![1, 64]⟩

abbrev nBuf : Space → Nat
  | .hbm => 626
  | .vmem => 0
  | .smem => 0
  | _ => 0

abbrev hbmTy0_0 (i : Nat) : BufTy := match i % 128 with
  | 0 => ⟨S100000x128, .f32⟩
  | 1 => ⟨S100000x128, .f32⟩
  | 2 => ⟨S2x500000, .i32⟩
  | 3 => ⟨S2x500000, .i32⟩
  | 4 => ⟨S2x2x128x128, .f32⟩
  | 5 => ⟨S2x2x256x1, .f32⟩
  | 6 => ⟨S2x2x1, .f32⟩
  | 7 => ⟨S2x2x128x128, .f32⟩
  | 8 => ⟨S2x2x128, .f32⟩
  | 9 => ⟨S2x128x128, .f32⟩
  | 10 => ⟨S2x128, .f32⟩
  | 11 => ⟨S2x128, .f32⟩
  | 12 => ⟨S2x128, .f32⟩
  | 13 => ⟨S128x128, .f32⟩
  | 14 => ⟨S128, .f32⟩
  | 15 => ⟨S128, .f32⟩
  | 16 => ⟨S128, .f32⟩
  | 17 => ⟨S128x64, .f32⟩
  | 18 => ⟨S64, .f32⟩
  | 19 => ⟨S1x128x128, .f32⟩
  | 20 => ⟨S128x128, .f32⟩
  | 21 => ⟨S100000x128, .f32⟩
  | 22 => ⟨S1x128, .f32⟩
  | 23 => ⟨S128, .f32⟩
  | 24 => ⟨S1x128, .f32⟩
  | 25 => ⟨S100000x128, .f32⟩
  | 26 => ⟨S100000x128, .f32⟩
  | 27 => ⟨S1x128x128, .f32⟩
  | 28 => ⟨S128x128, .f32⟩
  | 29 => ⟨S100000x128, .f32⟩
  | 30 => ⟨S1x128, .f32⟩
  | 31 => ⟨S128, .f32⟩
  | 32 => ⟨S1x128, .f32⟩
  | 33 => ⟨S100000x128, .f32⟩
  | 34 => ⟨S100000x128, .f32⟩
  | 35 => ⟨S1x500000, .i32⟩
  | 36 => ⟨S500000, .i32⟩
  | 37 => ⟨S1x500000, .i32⟩
  | 38 => ⟨S500000, .i32⟩
  | 39 => ⟨S1x1x128x128, .f32⟩
  | 40 => ⟨S128x128, .f32⟩
  | 41 => ⟨S1x1x256x1, .f32⟩
  | 42 => ⟨S256x1, .f32⟩
  | 43 => ⟨S1x1x1, .f32⟩
  | 44 => ⟨S1, .f32⟩
  | 45 => ⟨S1x1x128x128, .f32⟩
  | 46 => ⟨S128x128, .f32⟩
  | 47 => ⟨S1x1x128, .f32⟩
  | 48 => ⟨S128, .f32⟩
  | 49 => ⟨S100000x128, .f32⟩
  | 50 => ⟨S100000x128, .f32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x128, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x128, .f32⟩
  | 69 => ⟨S128x1, .f32⟩
  | 70 => ⟨S500000x1, .f32⟩
  | 71 => ⟨S128x1, .f32⟩
  | 72 => ⟨S500000x1, .f32⟩
  | 73 => ⟨S500000x1, .f32⟩
  | 74 => ⟨S1x1, .f32⟩
  | 75 => ⟨S500000x1, .f32⟩
  | 76 => ⟨S500000x1, .f32⟩
  | 77 => ⟨S_, .f32⟩
  | 78 => ⟨S500000x1, .f32⟩
  | 79 => ⟨S500000x1, .i1⟩
  | 80 => ⟨S_, .f32⟩
  | 81 => ⟨S500000x1, .f32⟩
  | 82 => ⟨S500000x1, .f32⟩
  | 83 => ⟨S500000x1, .f32⟩
  | 84 => ⟨S500000x1, .f32⟩
  | 85 => ⟨S_, .f32⟩
  | 86 => ⟨S100000x1, .f32⟩
  | 87 => ⟨S500000x1, .i32⟩
  | 88 => ⟨S100000x1, .f32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S500000x1, .f32⟩
  | 98 => ⟨S_, .f32⟩
  | 99 => ⟨S500000x1, .f32⟩
  | 100 => ⟨S500000x1, .f32⟩
  | 101 => ⟨S500000x1, .f32⟩
  | 102 => ⟨S500000x128, .f32⟩
  | 103 => ⟨S500000x128, .f32⟩
  | 104 => ⟨S_, .f32⟩
  | 105 => ⟨S100000x128, .f32⟩
  | 106 => ⟨S500000x1, .i32⟩
  | 107 => ⟨S100000x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S100000x128, .f32⟩
  | 114 => ⟨S1x500000, .i32⟩
  | 115 => ⟨S500000, .i32⟩
  | 116 => ⟨S1x500000, .i32⟩
  | 117 => ⟨S500000, .i32⟩
  | 118 => ⟨S1x1x128x128, .f32⟩
  | 119 => ⟨S128x128, .f32⟩
  | 120 => ⟨S1x1x256x1, .f32⟩
  | 121 => ⟨S256x1, .f32⟩
  | 122 => ⟨S1x1x1, .f32⟩
  | 123 => ⟨S1, .f32⟩
  | 124 => ⟨S1x1x128x128, .f32⟩
  | 125 => ⟨S128x128, .f32⟩
  | 126 => ⟨S1x1x128, .f32⟩
  | 127 => ⟨S128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .i32⟩
  | 3 => ⟨S500000, .i32⟩
  | 4 => ⟨S500000, .i1⟩
  | 5 => ⟨S_, .i32⟩
  | 6 => ⟨S500000, .i32⟩
  | 7 => ⟨S500000, .i32⟩
  | 8 => ⟨S500000, .i32⟩
  | 9 => ⟨S500000x1, .i32⟩
  | 10 => ⟨S500000x128, .f32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S500000x128, .f32⟩
  | 20 => ⟨S128x1, .f32⟩
  | 21 => ⟨S500000x1, .f32⟩
  | 22 => ⟨S128x1, .f32⟩
  | 23 => ⟨S500000x1, .f32⟩
  | 24 => ⟨S500000x1, .f32⟩
  | 25 => ⟨S1x1, .f32⟩
  | 26 => ⟨S500000x1, .f32⟩
  | 27 => ⟨S500000x1, .f32⟩
  | 28 => ⟨S_, .f32⟩
  | 29 => ⟨S500000x1, .f32⟩
  | 30 => ⟨S500000x1, .i1⟩
  | 31 => ⟨S_, .f32⟩
  | 32 => ⟨S500000x1, .f32⟩
  | 33 => ⟨S500000x1, .f32⟩
  | 34 => ⟨S500000x1, .f32⟩
  | 35 => ⟨S500000x1, .f32⟩
  | 36 => ⟨S_, .f32⟩
  | 37 => ⟨S100000x1, .f32⟩
  | 38 => ⟨S500000x1, .i32⟩
  | 39 => ⟨S100000x1, .f32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x1, .f32⟩
  | 49 => ⟨S_, .f32⟩
  | 50 => ⟨S500000x1, .f32⟩
  | 51 => ⟨S500000x1, .f32⟩
  | 52 => ⟨S500000x1, .f32⟩
  | 53 => ⟨S500000x128, .f32⟩
  | 54 => ⟨S500000x128, .f32⟩
  | 55 => ⟨S_, .f32⟩
  | 56 => ⟨S100000x128, .f32⟩
  | 57 => ⟨S500000x1, .i32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S100000x128, .f32⟩
  | 65 => ⟨S1x128, .f32⟩
  | 66 => ⟨S128, .f32⟩
  | 67 => ⟨S1x128, .f32⟩
  | 68 => ⟨S128, .f32⟩
  | 69 => ⟨S_, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S_, .f32⟩
  | 86 => ⟨S_, .f32⟩
  | 87 => ⟨S_, .f32⟩
  | 88 => ⟨S128, .f32⟩
  | 89 => ⟨S128, .f32⟩
  | 90 => ⟨S128, .f32⟩
  | 91 => ⟨S_, .f32⟩
  | 92 => ⟨S_, .i1⟩
  | 93 => ⟨S_, .f32⟩
  | 94 => ⟨S_, .f32⟩
  | 95 => ⟨S128, .f32⟩
  | 96 => ⟨S128, .f32⟩
  | 97 => ⟨S1x128, .f32⟩
  | 98 => ⟨S100000x128, .f32⟩
  | 99 => ⟨S100000x128, .f32⟩
  | 100 => ⟨S_, .f32⟩
  | 101 => ⟨S128, .f32⟩
  | 102 => ⟨S128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S1x128, .f32⟩
  | 117 => ⟨S128, .f32⟩
  | 118 => ⟨S1x128, .f32⟩
  | 119 => ⟨S128, .f32⟩
  | 120 => ⟨S_, .f32⟩
  | 121 => ⟨S128, .f32⟩
  | 122 => ⟨S_, .f32⟩
  | 123 => ⟨S128, .f32⟩
  | 124 => ⟨S128, .f32⟩
  | 125 => ⟨S_, .i32⟩
  | 126 => ⟨S_, .f32⟩
  | 127 => ⟨S128, .f32⟩
  | _ => ⟨S100000x128, .f32⟩

abbrev hbmTy0_2 (i : Nat) : BufTy := match i % 128 with
  | 0 => ⟨S1x128, .f32⟩
  | 1 => ⟨S_, .f32⟩
  | 2 => ⟨S1x128, .f32⟩
  | 3 => ⟨S1x128, .f32⟩
  | 4 => ⟨S100000x128, .f32⟩
  | 5 => ⟨S100000x128, .f32⟩
  | 6 => ⟨S100000x128, .f32⟩
  | 7 => ⟨S_, .f32⟩
  | 8 => ⟨S_, .f32⟩
  | 9 => ⟨S_, .f32⟩
  | 10 => ⟨S_, .f32⟩
  | 11 => ⟨S128, .f32⟩
  | 12 => ⟨S128, .f32⟩
  | 13 => ⟨S128, .f32⟩
  | 14 => ⟨S_, .f32⟩
  | 15 => ⟨S_, .i1⟩
  | 16 => ⟨S_, .f32⟩
  | 17 => ⟨S_, .f32⟩
  | 18 => ⟨S128, .f32⟩
  | 19 => ⟨S128, .f32⟩
  | 20 => ⟨S1x128, .f32⟩
  | 21 => ⟨S100000x128, .f32⟩
  | 22 => ⟨S100000x128, .f32⟩
  | 23 => ⟨S_, .f32⟩
  | 24 => ⟨S128, .f32⟩
  | 25 => ⟨S128, .f32⟩
  | 26 => ⟨S128, .f32⟩
  | 27 => ⟨S1x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S1x128x128, .f32⟩
  | 40 => ⟨S128x128, .f32⟩
  | 41 => ⟨S100000x128, .f32⟩
  | 42 => ⟨S1x128, .f32⟩
  | 43 => ⟨S128, .f32⟩
  | 44 => ⟨S1x128, .f32⟩
  | 45 => ⟨S100000x128, .f32⟩
  | 46 => ⟨S100000x128, .f32⟩
  | 47 => ⟨S1x128x128, .f32⟩
  | 48 => ⟨S128x128, .f32⟩
  | 49 => ⟨S100000x128, .f32⟩
  | 50 => ⟨S1x128, .f32⟩
  | 51 => ⟨S128, .f32⟩
  | 52 => ⟨S1x128, .f32⟩
  | 53 => ⟨S100000x128, .f32⟩
  | 54 => ⟨S100000x128, .f32⟩
  | 55 => ⟨S1x500000, .i32⟩
  | 56 => ⟨S500000, .i32⟩
  | 57 => ⟨S1x500000, .i32⟩
  | 58 => ⟨S500000, .i32⟩
  | 59 => ⟨S1x1x128x128, .f32⟩
  | 60 => ⟨S128x128, .f32⟩
  | 61 => ⟨S1x1x256x1, .f32⟩
  | 62 => ⟨S256x1, .f32⟩
  | 63 => ⟨S1x1x1, .f32⟩
  | 64 => ⟨S1, .f32⟩
  | 65 => ⟨S1x1x128x128, .f32⟩
  | 66 => ⟨S128x128, .f32⟩
  | 67 => ⟨S1x1x128, .f32⟩
  | 68 => ⟨S128, .f32⟩
  | 69 => ⟨S100000x128, .f32⟩
  | 70 => ⟨S100000x128, .f32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000x128, .f32⟩
  | 80 => ⟨S_, .i32⟩
  | 81 => ⟨S500000, .i32⟩
  | 82 => ⟨S500000, .i1⟩
  | 83 => ⟨S_, .i32⟩
  | 84 => ⟨S500000, .i32⟩
  | 85 => ⟨S500000, .i32⟩
  | 86 => ⟨S500000, .i32⟩
  | 87 => ⟨S500000x1, .i32⟩
  | 88 => ⟨S500000x128, .f32⟩
  | 89 => ⟨S128x1, .f32⟩
  | 90 => ⟨S500000x1, .f32⟩
  | 91 => ⟨S128x1, .f32⟩
  | 92 => ⟨S500000x1, .f32⟩
  | 93 => ⟨S500000x1, .f32⟩
  | 94 => ⟨S1x1, .f32⟩
  | 95 => ⟨S500000x1, .f32⟩
  | 96 => ⟨S500000x1, .f32⟩
  | 97 => ⟨S_, .f32⟩
  | 98 => ⟨S500000x1, .f32⟩
  | 99 => ⟨S500000x1, .i1⟩
  | 100 => ⟨S_, .f32⟩
  | 101 => ⟨S500000x1, .f32⟩
  | 102 => ⟨S500000x1, .f32⟩
  | 103 => ⟨S500000x1, .f32⟩
  | 104 => ⟨S500000x1, .f32⟩
  | 105 => ⟨S_, .f32⟩
  | 106 => ⟨S100000x1, .f32⟩
  | 107 => ⟨S500000x1, .i32⟩
  | 108 => ⟨S100000x1, .f32⟩
  | 109 => ⟨S_, .i32⟩
  | 110 => ⟨S500000, .i32⟩
  | 111 => ⟨S500000, .i1⟩
  | 112 => ⟨S_, .i32⟩
  | 113 => ⟨S500000, .i32⟩
  | 114 => ⟨S500000, .i32⟩
  | 115 => ⟨S500000, .i32⟩
  | 116 => ⟨S500000x1, .i32⟩
  | 117 => ⟨S500000x1, .f32⟩
  | 118 => ⟨S_, .f32⟩
  | 119 => ⟨S500000x1, .f32⟩
  | 120 => ⟨S500000x1, .f32⟩
  | 121 => ⟨S500000x1, .f32⟩
  | 122 => ⟨S500000x128, .f32⟩
  | 123 => ⟨S500000x128, .f32⟩
  | 124 => ⟨S_, .f32⟩
  | 125 => ⟨S100000x128, .f32⟩
  | 126 => ⟨S500000x1, .i32⟩
  | 127 => ⟨S100000x128, .f32⟩
  | _ => ⟨S100000x128, .f32⟩

abbrev hbmTy0_3 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S100000x128, .f32⟩
  | 6 => ⟨S1x500000, .i32⟩
  | 7 => ⟨S500000, .i32⟩
  | 8 => ⟨S1x500000, .i32⟩
  | 9 => ⟨S500000, .i32⟩
  | 10 => ⟨S1x1x128x128, .f32⟩
  | 11 => ⟨S128x128, .f32⟩
  | 12 => ⟨S1x1x256x1, .f32⟩
  | 13 => ⟨S256x1, .f32⟩
  | 14 => ⟨S1x1x1, .f32⟩
  | 15 => ⟨S1, .f32⟩
  | 16 => ⟨S1x1x128x128, .f32⟩
  | 17 => ⟨S128x128, .f32⟩
  | 18 => ⟨S1x1x128, .f32⟩
  | 19 => ⟨S128, .f32⟩
  | 20 => ⟨S100000x128, .f32⟩
  | 21 => ⟨S100000x128, .f32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x128, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x128, .f32⟩
  | 40 => ⟨S128x1, .f32⟩
  | 41 => ⟨S500000x1, .f32⟩
  | 42 => ⟨S128x1, .f32⟩
  | 43 => ⟨S500000x1, .f32⟩
  | 44 => ⟨S500000x1, .f32⟩
  | 45 => ⟨S1x1, .f32⟩
  | 46 => ⟨S500000x1, .f32⟩
  | 47 => ⟨S500000x1, .f32⟩
  | 48 => ⟨S_, .f32⟩
  | 49 => ⟨S500000x1, .f32⟩
  | 50 => ⟨S500000x1, .i1⟩
  | 51 => ⟨S_, .f32⟩
  | 52 => ⟨S500000x1, .f32⟩
  | 53 => ⟨S500000x1, .f32⟩
  | 54 => ⟨S500000x1, .f32⟩
  | 55 => ⟨S500000x1, .f32⟩
  | 56 => ⟨S_, .f32⟩
  | 57 => ⟨S100000x1, .f32⟩
  | 58 => ⟨S500000x1, .i32⟩
  | 59 => ⟨S100000x1, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x1, .f32⟩
  | 69 => ⟨S_, .f32⟩
  | 70 => ⟨S500000x1, .f32⟩
  | 71 => ⟨S500000x1, .f32⟩
  | 72 => ⟨S500000x1, .f32⟩
  | 73 => ⟨S500000x128, .f32⟩
  | 74 => ⟨S500000x128, .f32⟩
  | 75 => ⟨S_, .f32⟩
  | 76 => ⟨S100000x128, .f32⟩
  | 77 => ⟨S500000x1, .i32⟩
  | 78 => ⟨S100000x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S100000x128, .f32⟩
  | 85 => ⟨S1x128, .f32⟩
  | 86 => ⟨S128, .f32⟩
  | 87 => ⟨S1x128, .f32⟩
  | 88 => ⟨S128, .f32⟩
  | 89 => ⟨S_, .f32⟩
  | 90 => ⟨S128, .f32⟩
  | 91 => ⟨S_, .f32⟩
  | 92 => ⟨S128, .f32⟩
  | 93 => ⟨S128, .f32⟩
  | 94 => ⟨S_, .i32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S100000x128, .f32⟩
  | 102 => ⟨S100000x128, .f32⟩
  | 103 => ⟨S100000x128, .f32⟩
  | 104 => ⟨S_, .f32⟩
  | 105 => ⟨S_, .f32⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S_, .i1⟩
  | 113 => ⟨S_, .f32⟩
  | 114 => ⟨S_, .f32⟩
  | 115 => ⟨S128, .f32⟩
  | 116 => ⟨S128, .f32⟩
  | 117 => ⟨S1x128, .f32⟩
  | 118 => ⟨S100000x128, .f32⟩
  | 119 => ⟨S100000x128, .f32⟩
  | 120 => ⟨S_, .f32⟩
  | 121 => ⟨S128, .f32⟩
  | 122 => ⟨S128, .f32⟩
  | 123 => ⟨S128, .f32⟩
  | 124 => ⟨S1x128, .f32⟩
  | 125 => ⟨S100000x128, .f32⟩
  | 126 => ⟨S100000x128, .f32⟩
  | 127 => ⟨S1x128, .f32⟩
  | _ => ⟨S100000x128, .f32⟩

abbrev hbmTy0_4 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S1x128, .f32⟩
  | 9 => ⟨S128, .f32⟩
  | 10 => ⟨S1x128, .f32⟩
  | 11 => ⟨S128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S100000x128, .f32⟩
  | 25 => ⟨S100000x128, .f32⟩
  | 26 => ⟨S100000x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S100000x128, .f32⟩
  | 42 => ⟨S100000x128, .f32⟩
  | 43 => ⟨S_, .f32⟩
  | 44 => ⟨S128, .f32⟩
  | 45 => ⟨S128, .f32⟩
  | 46 => ⟨S128, .f32⟩
  | 47 => ⟨S1x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S_, .f32⟩
  | 66 => ⟨S128, .f32⟩
  | 67 => ⟨S128, .f32⟩
  | 68 => ⟨S_, .i32⟩
  | 69 => ⟨S_, .f32⟩
  | 70 => ⟨S128, .f32⟩
  | 71 => ⟨S1x128, .f32⟩
  | 72 => ⟨S_, .f32⟩
  | 73 => ⟨S1x128, .f32⟩
  | 74 => ⟨S1x128, .f32⟩
  | 75 => ⟨S100000x128, .f32⟩
  | 76 => ⟨S100000x128, .f32⟩
  | 77 => ⟨S100000x128, .f32⟩
  | 78 => ⟨S_, .f32⟩
  | 79 => ⟨S_, .f32⟩
  | 80 => ⟨S_, .f32⟩
  | 81 => ⟨S_, .f32⟩
  | 82 => ⟨S128, .f32⟩
  | 83 => ⟨S128, .f32⟩
  | 84 => ⟨S128, .f32⟩
  | 85 => ⟨S_, .f32⟩
  | 86 => ⟨S_, .i1⟩
  | 87 => ⟨S_, .f32⟩
  | 88 => ⟨S_, .f32⟩
  | 89 => ⟨S128, .f32⟩
  | 90 => ⟨S128, .f32⟩
  | 91 => ⟨S1x128, .f32⟩
  | 92 => ⟨S100000x128, .f32⟩
  | 93 => ⟨S100000x128, .f32⟩
  | 94 => ⟨S_, .f32⟩
  | 95 => ⟨S128, .f32⟩
  | 96 => ⟨S128, .f32⟩
  | 97 => ⟨S128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S100000x64, .f32⟩
  | 111 => ⟨S1x64, .f32⟩
  | 112 => ⟨S100000x64, .f32⟩
  | 113 => ⟨S100000x64, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c : Ref sig .tc := ⟨.hbm, 51, rfl⟩
abbrev main_v32 : Ref sig .tc := ⟨.hbm, 52, rfl⟩
abbrev main_v33 : Ref sig .tc := ⟨.hbm, 53, rfl⟩
abbrev main_c_0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_1 : Ref sig .tc := ⟨.hbm, 60, rfl⟩
abbrev main_v39 : Ref sig .tc := ⟨.hbm, 61, rfl⟩
abbrev main_v40 : Ref sig .tc := ⟨.hbm, 62, rfl⟩
abbrev main_c_2 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst : Ref sig .tc := ⟨.hbm, 77, rfl⟩
abbrev main_v54 : Ref sig .tc := ⟨.hbm, 78, rfl⟩
abbrev main_v55 : Ref sig .tc := ⟨.hbm, 79, rfl⟩
abbrev main_cst_3 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_4 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_5 : Ref sig .tc := ⟨.hbm, 89, rfl⟩
abbrev main_v63 : Ref sig .tc := ⟨.hbm, 90, rfl⟩
abbrev main_v64 : Ref sig .tc := ⟨.hbm, 91, rfl⟩
abbrev main_c_6 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_7 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_8 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_c_9 : Ref sig .tc := ⟨.hbm, 130, rfl⟩
abbrev main_v100 : Ref sig .tc := ⟨.hbm, 131, rfl⟩
abbrev main_v101 : Ref sig .tc := ⟨.hbm, 132, rfl⟩
abbrev main_c_10 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_c_11 : Ref sig .tc := ⟨.hbm, 139, rfl⟩
abbrev main_v107 : Ref sig .tc := ⟨.hbm, 140, rfl⟩
abbrev main_v108 : Ref sig .tc := ⟨.hbm, 141, rfl⟩
abbrev main_c_12 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_13 : Ref sig .tc := ⟨.hbm, 156, rfl⟩
abbrev main_v122 : Ref sig .tc := ⟨.hbm, 157, rfl⟩
abbrev main_v123 : Ref sig .tc := ⟨.hbm, 158, rfl⟩
abbrev main_cst_14 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_15 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_c_16 : Ref sig .tc := ⟨.hbm, 168, rfl⟩
abbrev main_v131 : Ref sig .tc := ⟨.hbm, 169, rfl⟩
abbrev main_v132 : Ref sig .tc := ⟨.hbm, 170, rfl⟩
abbrev main_c_17 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_18 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_19 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_20 : Ref sig .tc := ⟨.hbm, 197, rfl⟩
abbrev main_v156 : Ref sig .tc := ⟨.hbm, 198, rfl⟩
abbrev main_cst_21 : Ref sig .tc := ⟨.hbm, 199, rfl⟩
abbrev main_v157 : Ref sig .tc := ⟨.hbm, 200, rfl⟩
abbrev main_v158 : Ref sig .tc := ⟨.hbm, 201, rfl⟩
abbrev main_c_22 : Ref sig .tc := ⟨.hbm, 202, rfl⟩
abbrev main_call2_cst : Ref sig .tc := ⟨.hbm, 203, rfl⟩
abbrev main_call2_v0 : Ref sig .tc := ⟨.hbm, 204, rfl⟩
abbrev main_call2_v1 : Ref sig .tc := ⟨.hbm, 205, rfl⟩
abbrev main_call2_cst_0 : Ref sig .tc := ⟨.hbm, 206, rfl⟩
abbrev main_call2_v2 : Ref sig .tc := ⟨.hbm, 207, rfl⟩
abbrev main_call2_v3 : Ref sig .tc := ⟨.hbm, 208, rfl⟩
abbrev main_call2_v4 : Ref sig .tc := ⟨.hbm, 209, rfl⟩
abbrev main_call2_v5 : Ref sig .tc := ⟨.hbm, 210, rfl⟩
abbrev main_call2_v6 : Ref sig .tc := ⟨.hbm, 211, rfl⟩
abbrev main_call2_v7 : Ref sig .tc := ⟨.hbm, 212, rfl⟩
abbrev main_call2_cst_1 : Ref sig .tc := ⟨.hbm, 213, rfl⟩
abbrev main_call2_v8 : Ref sig .tc := ⟨.hbm, 214, rfl⟩
abbrev main_call2_cst_2 : Ref sig .tc := ⟨.hbm, 215, rfl⟩
abbrev main_call2_v9 : Ref sig .tc := ⟨.hbm, 216, rfl⟩
abbrev main_call2_v10 : Ref sig .tc := ⟨.hbm, 217, rfl⟩
abbrev main_call2_v11 : Ref sig .tc := ⟨.hbm, 218, rfl⟩
abbrev main_call2_cst_3 : Ref sig .tc := ⟨.hbm, 219, rfl⟩
abbrev main_call2_v12 : Ref sig .tc := ⟨.hbm, 220, rfl⟩
abbrev main_call2_cst_4 : Ref sig .tc := ⟨.hbm, 221, rfl⟩
abbrev main_call2_call0_v0 : Ref sig .tc := ⟨.hbm, 222, rfl⟩
abbrev main_call2_call0_v1 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_cst_23 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_call3_cst : Ref sig .tc := ⟨.hbm, 241, rfl⟩
abbrev main_call3_v0 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_cst_24 : Ref sig .tc := ⟨.hbm, 248, rfl⟩
abbrev main_v180 : Ref sig .tc := ⟨.hbm, 249, rfl⟩
abbrev main_cst_25 : Ref sig .tc := ⟨.hbm, 250, rfl⟩
abbrev main_v181 : Ref sig .tc := ⟨.hbm, 251, rfl⟩
abbrev main_v182 : Ref sig .tc := ⟨.hbm, 252, rfl⟩
abbrev main_c_26 : Ref sig .tc := ⟨.hbm, 253, rfl⟩
abbrev main_call4_cst : Ref sig .tc := ⟨.hbm, 254, rfl⟩
abbrev main_call4_v0 : Ref sig .tc := ⟨.hbm, 255, rfl⟩
abbrev main_call4_v1 : Ref sig .tc := ⟨.hbm, 256, rfl⟩
abbrev main_call4_cst_0 : Ref sig .tc := ⟨.hbm, 257, rfl⟩
abbrev main_call4_v2 : Ref sig .tc := ⟨.hbm, 258, rfl⟩
abbrev main_call4_v3 : Ref sig .tc := ⟨.hbm, 259, rfl⟩
abbrev main_call4_v4 : Ref sig .tc := ⟨.hbm, 260, rfl⟩
abbrev main_call4_v5 : Ref sig .tc := ⟨.hbm, 261, rfl⟩
abbrev main_call4_v6 : Ref sig .tc := ⟨.hbm, 262, rfl⟩
abbrev main_call4_v7 : Ref sig .tc := ⟨.hbm, 263, rfl⟩
abbrev main_call4_cst_1 : Ref sig .tc := ⟨.hbm, 264, rfl⟩
abbrev main_call4_v8 : Ref sig .tc := ⟨.hbm, 265, rfl⟩
abbrev main_call4_cst_2 : Ref sig .tc := ⟨.hbm, 266, rfl⟩
abbrev main_call4_v9 : Ref sig .tc := ⟨.hbm, 267, rfl⟩
abbrev main_call4_v10 : Ref sig .tc := ⟨.hbm, 268, rfl⟩
abbrev main_call4_v11 : Ref sig .tc := ⟨.hbm, 269, rfl⟩
abbrev main_call4_cst_3 : Ref sig .tc := ⟨.hbm, 270, rfl⟩
abbrev main_call4_v12 : Ref sig .tc := ⟨.hbm, 271, rfl⟩
abbrev main_call4_cst_4 : Ref sig .tc := ⟨.hbm, 272, rfl⟩
abbrev main_call4_call0_v0 : Ref sig .tc := ⟨.hbm, 273, rfl⟩
abbrev main_call4_call0_v1 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_cst_27 : Ref sig .tc := ⟨.hbm, 279, rfl⟩
abbrev main_v187 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_call5_cst : Ref sig .tc := ⟨.hbm, 292, rfl⟩
abbrev main_call5_v0 : Ref sig .tc := ⟨.hbm, 293, rfl⟩
abbrev main_v199 : Ref sig .tc := ⟨.hbm, 294, rfl⟩
abbrev main_v200 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_v204 : Ref sig .tc := ⟨.hbm, 299, rfl⟩
abbrev main_v205 : Ref sig .tc := ⟨.hbm, 300, rfl⟩
abbrev main_v206 : Ref sig .tc := ⟨.hbm, 301, rfl⟩
abbrev main_v207 : Ref sig .tc := ⟨.hbm, 302, rfl⟩
abbrev main_v208 : Ref sig .tc := ⟨.hbm, 303, rfl⟩
abbrev main_v209 : Ref sig .tc := ⟨.hbm, 304, rfl⟩
abbrev main_v210 : Ref sig .tc := ⟨.hbm, 305, rfl⟩
abbrev main_v211 : Ref sig .tc := ⟨.hbm, 306, rfl⟩
abbrev main_v212 : Ref sig .tc := ⟨.hbm, 307, rfl⟩
abbrev main_v213 : Ref sig .tc := ⟨.hbm, 308, rfl⟩
abbrev main_v214 : Ref sig .tc := ⟨.hbm, 309, rfl⟩
abbrev main_v215 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_v221 : Ref sig .tc := ⟨.hbm, 316, rfl⟩
abbrev main_v222 : Ref sig .tc := ⟨.hbm, 317, rfl⟩
abbrev main_v223 : Ref sig .tc := ⟨.hbm, 318, rfl⟩
abbrev main_v224 : Ref sig .tc := ⟨.hbm, 319, rfl⟩
abbrev main_v225 : Ref sig .tc := ⟨.hbm, 320, rfl⟩
abbrev main_v226 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_c_28 : Ref sig .tc := ⟨.hbm, 327, rfl⟩
abbrev main_v232 : Ref sig .tc := ⟨.hbm, 328, rfl⟩
abbrev main_v233 : Ref sig .tc := ⟨.hbm, 329, rfl⟩
abbrev main_c_29 : Ref sig .tc := ⟨.hbm, 330, rfl⟩
abbrev main_v234 : Ref sig .tc := ⟨.hbm, 331, rfl⟩
abbrev main_v235 : Ref sig .tc := ⟨.hbm, 332, rfl⟩
abbrev main_v236 : Ref sig .tc := ⟨.hbm, 333, rfl⟩
abbrev main_v237 : Ref sig .tc := ⟨.hbm, 334, rfl⟩
abbrev main_v238 : Ref sig .tc := ⟨.hbm, 335, rfl⟩
abbrev main_c_30 : Ref sig .tc := ⟨.hbm, 336, rfl⟩
abbrev main_v239 : Ref sig .tc := ⟨.hbm, 337, rfl⟩
abbrev main_v240 : Ref sig .tc := ⟨.hbm, 338, rfl⟩
abbrev main_c_31 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_v245 : Ref sig .tc := ⟨.hbm, 344, rfl⟩
abbrev main_v246 : Ref sig .tc := ⟨.hbm, 345, rfl⟩
abbrev main_v247 : Ref sig .tc := ⟨.hbm, 346, rfl⟩
abbrev main_v248 : Ref sig .tc := ⟨.hbm, 347, rfl⟩
abbrev main_v249 : Ref sig .tc := ⟨.hbm, 348, rfl⟩
abbrev main_v250 : Ref sig .tc := ⟨.hbm, 349, rfl⟩
abbrev main_v251 : Ref sig .tc := ⟨.hbm, 350, rfl⟩
abbrev main_v252 : Ref sig .tc := ⟨.hbm, 351, rfl⟩
abbrev main_v253 : Ref sig .tc := ⟨.hbm, 352, rfl⟩
abbrev main_cst_32 : Ref sig .tc := ⟨.hbm, 353, rfl⟩
abbrev main_v254 : Ref sig .tc := ⟨.hbm, 354, rfl⟩
abbrev main_v255 : Ref sig .tc := ⟨.hbm, 355, rfl⟩
abbrev main_cst_33 : Ref sig .tc := ⟨.hbm, 356, rfl⟩
abbrev main_v256 : Ref sig .tc := ⟨.hbm, 357, rfl⟩
abbrev main_v257 : Ref sig .tc := ⟨.hbm, 358, rfl⟩
abbrev main_v258 : Ref sig .tc := ⟨.hbm, 359, rfl⟩
abbrev main_v259 : Ref sig .tc := ⟨.hbm, 360, rfl⟩
abbrev main_cst_34 : Ref sig .tc := ⟨.hbm, 361, rfl⟩
abbrev main_v260 : Ref sig .tc := ⟨.hbm, 362, rfl⟩
abbrev main_v261 : Ref sig .tc := ⟨.hbm, 363, rfl⟩
abbrev main_v262 : Ref sig .tc := ⟨.hbm, 364, rfl⟩
abbrev main_c_35 : Ref sig .tc := ⟨.hbm, 365, rfl⟩
abbrev main_v263 : Ref sig .tc := ⟨.hbm, 366, rfl⟩
abbrev main_v264 : Ref sig .tc := ⟨.hbm, 367, rfl⟩
abbrev main_c_36 : Ref sig .tc := ⟨.hbm, 368, rfl⟩
abbrev main_v265 : Ref sig .tc := ⟨.hbm, 369, rfl⟩
abbrev main_v266 : Ref sig .tc := ⟨.hbm, 370, rfl⟩
abbrev main_v267 : Ref sig .tc := ⟨.hbm, 371, rfl⟩
abbrev main_v268 : Ref sig .tc := ⟨.hbm, 372, rfl⟩
abbrev main_v269 : Ref sig .tc := ⟨.hbm, 373, rfl⟩
abbrev main_cst_37 : Ref sig .tc := ⟨.hbm, 374, rfl⟩
abbrev main_v270 : Ref sig .tc := ⟨.hbm, 375, rfl⟩
abbrev main_v271 : Ref sig .tc := ⟨.hbm, 376, rfl⟩
abbrev main_v272 : Ref sig .tc := ⟨.hbm, 377, rfl⟩
abbrev main_v273 : Ref sig .tc := ⟨.hbm, 378, rfl⟩
abbrev main_v274 : Ref sig .tc := ⟨.hbm, 379, rfl⟩
abbrev main_cst_38 : Ref sig .tc := ⟨.hbm, 380, rfl⟩
abbrev main_v275 : Ref sig .tc := ⟨.hbm, 381, rfl⟩
abbrev main_v276 : Ref sig .tc := ⟨.hbm, 382, rfl⟩
abbrev main_v277 : Ref sig .tc := ⟨.hbm, 383, rfl⟩
abbrev main_v278 : Ref sig .tc := ⟨.hbm, 384, rfl⟩
abbrev main_v279 : Ref sig .tc := ⟨.hbm, 385, rfl⟩
abbrev main_v280 : Ref sig .tc := ⟨.hbm, 386, rfl⟩
abbrev main_v281 : Ref sig .tc := ⟨.hbm, 387, rfl⟩
abbrev main_v282 : Ref sig .tc := ⟨.hbm, 388, rfl⟩
abbrev main_v283 : Ref sig .tc := ⟨.hbm, 389, rfl⟩
abbrev main_v284 : Ref sig .tc := ⟨.hbm, 390, rfl⟩
abbrev main_v285 : Ref sig .tc := ⟨.hbm, 391, rfl⟩
abbrev main_v286 : Ref sig .tc := ⟨.hbm, 392, rfl⟩
abbrev main_v287 : Ref sig .tc := ⟨.hbm, 393, rfl⟩
abbrev main_v288 : Ref sig .tc := ⟨.hbm, 394, rfl⟩
abbrev main_v289 : Ref sig .tc := ⟨.hbm, 395, rfl⟩
abbrev main_v290 : Ref sig .tc := ⟨.hbm, 396, rfl⟩
abbrev main_v291 : Ref sig .tc := ⟨.hbm, 397, rfl⟩
abbrev main_v292 : Ref sig .tc := ⟨.hbm, 398, rfl⟩
abbrev main_v293 : Ref sig .tc := ⟨.hbm, 399, rfl⟩
abbrev main_v294 : Ref sig .tc := ⟨.hbm, 400, rfl⟩
abbrev main_v295 : Ref sig .tc := ⟨.hbm, 401, rfl⟩
abbrev main_v296 : Ref sig .tc := ⟨.hbm, 402, rfl⟩
abbrev main_v297 : Ref sig .tc := ⟨.hbm, 403, rfl⟩
abbrev main_v298 : Ref sig .tc := ⟨.hbm, 404, rfl⟩
abbrev main_v299 : Ref sig .tc := ⟨.hbm, 405, rfl⟩
abbrev main_c_39 : Ref sig .tc := ⟨.hbm, 406, rfl⟩
abbrev main_v300 : Ref sig .tc := ⟨.hbm, 407, rfl⟩
abbrev main_v301 : Ref sig .tc := ⟨.hbm, 408, rfl⟩
abbrev main_c_40 : Ref sig .tc := ⟨.hbm, 409, rfl⟩
abbrev main_v302 : Ref sig .tc := ⟨.hbm, 410, rfl⟩
abbrev main_v303 : Ref sig .tc := ⟨.hbm, 411, rfl⟩
abbrev main_v304 : Ref sig .tc := ⟨.hbm, 412, rfl⟩
abbrev main_v305 : Ref sig .tc := ⟨.hbm, 413, rfl⟩
abbrev main_v306 : Ref sig .tc := ⟨.hbm, 414, rfl⟩
abbrev main_c_41 : Ref sig .tc := ⟨.hbm, 415, rfl⟩
abbrev main_v307 : Ref sig .tc := ⟨.hbm, 416, rfl⟩
abbrev main_v308 : Ref sig .tc := ⟨.hbm, 417, rfl⟩
abbrev main_c_42 : Ref sig .tc := ⟨.hbm, 418, rfl⟩
abbrev main_v309 : Ref sig .tc := ⟨.hbm, 419, rfl⟩
abbrev main_v310 : Ref sig .tc := ⟨.hbm, 420, rfl⟩
abbrev main_v311 : Ref sig .tc := ⟨.hbm, 421, rfl⟩
abbrev main_v312 : Ref sig .tc := ⟨.hbm, 422, rfl⟩
abbrev main_v313 : Ref sig .tc := ⟨.hbm, 423, rfl⟩
abbrev main_v314 : Ref sig .tc := ⟨.hbm, 424, rfl⟩
abbrev main_v315 : Ref sig .tc := ⟨.hbm, 425, rfl⟩
abbrev main_v316 : Ref sig .tc := ⟨.hbm, 426, rfl⟩
abbrev main_v317 : Ref sig .tc := ⟨.hbm, 427, rfl⟩
abbrev main_v318 : Ref sig .tc := ⟨.hbm, 428, rfl⟩
abbrev main_v319 : Ref sig .tc := ⟨.hbm, 429, rfl⟩
abbrev main_v320 : Ref sig .tc := ⟨.hbm, 430, rfl⟩
abbrev main_v321 : Ref sig .tc := ⟨.hbm, 431, rfl⟩
abbrev main_cst_43 : Ref sig .tc := ⟨.hbm, 432, rfl⟩
abbrev main_v322 : Ref sig .tc := ⟨.hbm, 433, rfl⟩
abbrev main_v323 : Ref sig .tc := ⟨.hbm, 434, rfl⟩
abbrev main_cst_44 : Ref sig .tc := ⟨.hbm, 435, rfl⟩
abbrev main_v324 : Ref sig .tc := ⟨.hbm, 436, rfl⟩
abbrev main_v325 : Ref sig .tc := ⟨.hbm, 437, rfl⟩
abbrev main_v326 : Ref sig .tc := ⟨.hbm, 438, rfl⟩
abbrev main_v327 : Ref sig .tc := ⟨.hbm, 439, rfl⟩
abbrev main_cst_45 : Ref sig .tc := ⟨.hbm, 440, rfl⟩
abbrev main_v328 : Ref sig .tc := ⟨.hbm, 441, rfl⟩
abbrev main_v329 : Ref sig .tc := ⟨.hbm, 442, rfl⟩
abbrev main_v330 : Ref sig .tc := ⟨.hbm, 443, rfl⟩
abbrev main_c_46 : Ref sig .tc := ⟨.hbm, 444, rfl⟩
abbrev main_v331 : Ref sig .tc := ⟨.hbm, 445, rfl⟩
abbrev main_v332 : Ref sig .tc := ⟨.hbm, 446, rfl⟩
abbrev main_c_47 : Ref sig .tc := ⟨.hbm, 447, rfl⟩
abbrev main_v333 : Ref sig .tc := ⟨.hbm, 448, rfl⟩
abbrev main_v334 : Ref sig .tc := ⟨.hbm, 449, rfl⟩
abbrev main_v335 : Ref sig .tc := ⟨.hbm, 450, rfl⟩
abbrev main_v336 : Ref sig .tc := ⟨.hbm, 451, rfl⟩
abbrev main_v337 : Ref sig .tc := ⟨.hbm, 452, rfl⟩
abbrev main_cst_48 : Ref sig .tc := ⟨.hbm, 453, rfl⟩
abbrev main_v338 : Ref sig .tc := ⟨.hbm, 454, rfl⟩
abbrev main_v339 : Ref sig .tc := ⟨.hbm, 455, rfl⟩
abbrev main_v340 : Ref sig .tc := ⟨.hbm, 456, rfl⟩
abbrev main_v341 : Ref sig .tc := ⟨.hbm, 457, rfl⟩
abbrev main_v342 : Ref sig .tc := ⟨.hbm, 458, rfl⟩
abbrev main_cst_49 : Ref sig .tc := ⟨.hbm, 459, rfl⟩
abbrev main_v343 : Ref sig .tc := ⟨.hbm, 460, rfl⟩
abbrev main_v344 : Ref sig .tc := ⟨.hbm, 461, rfl⟩
abbrev main_v345 : Ref sig .tc := ⟨.hbm, 462, rfl⟩
abbrev main_v346 : Ref sig .tc := ⟨.hbm, 463, rfl⟩
abbrev main_v347 : Ref sig .tc := ⟨.hbm, 464, rfl⟩
abbrev main_v348 : Ref sig .tc := ⟨.hbm, 465, rfl⟩
abbrev main_v349 : Ref sig .tc := ⟨.hbm, 466, rfl⟩
abbrev main_v350 : Ref sig .tc := ⟨.hbm, 467, rfl⟩
abbrev main_v351 : Ref sig .tc := ⟨.hbm, 468, rfl⟩
abbrev main_v352 : Ref sig .tc := ⟨.hbm, 469, rfl⟩
abbrev main_v353 : Ref sig .tc := ⟨.hbm, 470, rfl⟩
abbrev main_v354 : Ref sig .tc := ⟨.hbm, 471, rfl⟩
abbrev main_v355 : Ref sig .tc := ⟨.hbm, 472, rfl⟩
abbrev main_cst_50 : Ref sig .tc := ⟨.hbm, 473, rfl⟩
abbrev main_v356 : Ref sig .tc := ⟨.hbm, 474, rfl⟩
abbrev main_cst_51 : Ref sig .tc := ⟨.hbm, 475, rfl⟩
abbrev main_v357 : Ref sig .tc := ⟨.hbm, 476, rfl⟩
abbrev main_v358 : Ref sig .tc := ⟨.hbm, 477, rfl⟩
abbrev main_c_52 : Ref sig .tc := ⟨.hbm, 478, rfl⟩
abbrev main_call8_cst : Ref sig .tc := ⟨.hbm, 479, rfl⟩
abbrev main_call8_v0 : Ref sig .tc := ⟨.hbm, 480, rfl⟩
abbrev main_call8_v1 : Ref sig .tc := ⟨.hbm, 481, rfl⟩
abbrev main_call8_cst_0 : Ref sig .tc := ⟨.hbm, 482, rfl⟩
abbrev main_call8_v2 : Ref sig .tc := ⟨.hbm, 483, rfl⟩
abbrev main_call8_v3 : Ref sig .tc := ⟨.hbm, 484, rfl⟩
abbrev main_call8_v4 : Ref sig .tc := ⟨.hbm, 485, rfl⟩
abbrev main_call8_v5 : Ref sig .tc := ⟨.hbm, 486, rfl⟩
abbrev main_call8_v6 : Ref sig .tc := ⟨.hbm, 487, rfl⟩
abbrev main_call8_v7 : Ref sig .tc := ⟨.hbm, 488, rfl⟩
abbrev main_call8_cst_1 : Ref sig .tc := ⟨.hbm, 489, rfl⟩
abbrev main_call8_v8 : Ref sig .tc := ⟨.hbm, 490, rfl⟩
abbrev main_call8_cst_2 : Ref sig .tc := ⟨.hbm, 491, rfl⟩
abbrev main_call8_v9 : Ref sig .tc := ⟨.hbm, 492, rfl⟩
abbrev main_call8_v10 : Ref sig .tc := ⟨.hbm, 493, rfl⟩
abbrev main_call8_v11 : Ref sig .tc := ⟨.hbm, 494, rfl⟩
abbrev main_call8_cst_3 : Ref sig .tc := ⟨.hbm, 495, rfl⟩
abbrev main_call8_v12 : Ref sig .tc := ⟨.hbm, 496, rfl⟩
abbrev main_call8_cst_4 : Ref sig .tc := ⟨.hbm, 497, rfl⟩
abbrev main_call8_call0_v0 : Ref sig .tc := ⟨.hbm, 498, rfl⟩
abbrev main_call8_call0_v1 : Ref sig .tc := ⟨.hbm, 499, rfl⟩
abbrev main_v359 : Ref sig .tc := ⟨.hbm, 500, rfl⟩
abbrev main_v360 : Ref sig .tc := ⟨.hbm, 501, rfl⟩
abbrev main_v361 : Ref sig .tc := ⟨.hbm, 502, rfl⟩
abbrev main_v362 : Ref sig .tc := ⟨.hbm, 503, rfl⟩
abbrev main_cst_53 : Ref sig .tc := ⟨.hbm, 504, rfl⟩
abbrev main_v363 : Ref sig .tc := ⟨.hbm, 505, rfl⟩
abbrev main_v364 : Ref sig .tc := ⟨.hbm, 506, rfl⟩
abbrev main_v365 : Ref sig .tc := ⟨.hbm, 507, rfl⟩
abbrev main_v366 : Ref sig .tc := ⟨.hbm, 508, rfl⟩
abbrev main_v367 : Ref sig .tc := ⟨.hbm, 509, rfl⟩
abbrev main_v368 : Ref sig .tc := ⟨.hbm, 510, rfl⟩
abbrev main_v369 : Ref sig .tc := ⟨.hbm, 511, rfl⟩
abbrev main_v370 : Ref sig .tc := ⟨.hbm, 512, rfl⟩
abbrev main_v371 : Ref sig .tc := ⟨.hbm, 513, rfl⟩
abbrev main_v372 : Ref sig .tc := ⟨.hbm, 514, rfl⟩
abbrev main_v373 : Ref sig .tc := ⟨.hbm, 515, rfl⟩
abbrev main_v374 : Ref sig .tc := ⟨.hbm, 516, rfl⟩
abbrev main_call9_cst : Ref sig .tc := ⟨.hbm, 517, rfl⟩
abbrev main_call9_v0 : Ref sig .tc := ⟨.hbm, 518, rfl⟩
abbrev main_v375 : Ref sig .tc := ⟨.hbm, 519, rfl⟩
abbrev main_v376 : Ref sig .tc := ⟨.hbm, 520, rfl⟩
abbrev main_v377 : Ref sig .tc := ⟨.hbm, 521, rfl⟩
abbrev main_v378 : Ref sig .tc := ⟨.hbm, 522, rfl⟩
abbrev main_v379 : Ref sig .tc := ⟨.hbm, 523, rfl⟩
abbrev main_cst_54 : Ref sig .tc := ⟨.hbm, 524, rfl⟩
abbrev main_v380 : Ref sig .tc := ⟨.hbm, 525, rfl⟩
abbrev main_cst_55 : Ref sig .tc := ⟨.hbm, 526, rfl⟩
abbrev main_v381 : Ref sig .tc := ⟨.hbm, 527, rfl⟩
abbrev main_v382 : Ref sig .tc := ⟨.hbm, 528, rfl⟩
abbrev main_c_56 : Ref sig .tc := ⟨.hbm, 529, rfl⟩
abbrev main_call10_cst : Ref sig .tc := ⟨.hbm, 530, rfl⟩
abbrev main_call10_v0 : Ref sig .tc := ⟨.hbm, 531, rfl⟩
abbrev main_call10_v1 : Ref sig .tc := ⟨.hbm, 532, rfl⟩
abbrev main_call10_cst_0 : Ref sig .tc := ⟨.hbm, 533, rfl⟩
abbrev main_call10_v2 : Ref sig .tc := ⟨.hbm, 534, rfl⟩
abbrev main_call10_v3 : Ref sig .tc := ⟨.hbm, 535, rfl⟩
abbrev main_call10_v4 : Ref sig .tc := ⟨.hbm, 536, rfl⟩
abbrev main_call10_v5 : Ref sig .tc := ⟨.hbm, 537, rfl⟩
abbrev main_call10_v6 : Ref sig .tc := ⟨.hbm, 538, rfl⟩
abbrev main_call10_v7 : Ref sig .tc := ⟨.hbm, 539, rfl⟩
abbrev main_call10_cst_1 : Ref sig .tc := ⟨.hbm, 540, rfl⟩
abbrev main_call10_v8 : Ref sig .tc := ⟨.hbm, 541, rfl⟩
abbrev main_call10_cst_2 : Ref sig .tc := ⟨.hbm, 542, rfl⟩
abbrev main_call10_v9 : Ref sig .tc := ⟨.hbm, 543, rfl⟩
abbrev main_call10_v10 : Ref sig .tc := ⟨.hbm, 544, rfl⟩
abbrev main_call10_v11 : Ref sig .tc := ⟨.hbm, 545, rfl⟩
abbrev main_call10_cst_3 : Ref sig .tc := ⟨.hbm, 546, rfl⟩
abbrev main_call10_v12 : Ref sig .tc := ⟨.hbm, 547, rfl⟩
abbrev main_call10_cst_4 : Ref sig .tc := ⟨.hbm, 548, rfl⟩
abbrev main_call10_call0_v0 : Ref sig .tc := ⟨.hbm, 549, rfl⟩
abbrev main_call10_call0_v1 : Ref sig .tc := ⟨.hbm, 550, rfl⟩
abbrev main_v383 : Ref sig .tc := ⟨.hbm, 551, rfl⟩
abbrev main_v384 : Ref sig .tc := ⟨.hbm, 552, rfl⟩
abbrev main_v385 : Ref sig .tc := ⟨.hbm, 553, rfl⟩
abbrev main_v386 : Ref sig .tc := ⟨.hbm, 554, rfl⟩
abbrev main_cst_57 : Ref sig .tc := ⟨.hbm, 555, rfl⟩
abbrev main_v387 : Ref sig .tc := ⟨.hbm, 556, rfl⟩
abbrev main_v388 : Ref sig .tc := ⟨.hbm, 557, rfl⟩
abbrev main_v389 : Ref sig .tc := ⟨.hbm, 558, rfl⟩
abbrev main_v390 : Ref sig .tc := ⟨.hbm, 559, rfl⟩
abbrev main_v391 : Ref sig .tc := ⟨.hbm, 560, rfl⟩
abbrev main_v392 : Ref sig .tc := ⟨.hbm, 561, rfl⟩
abbrev main_v393 : Ref sig .tc := ⟨.hbm, 562, rfl⟩
abbrev main_v394 : Ref sig .tc := ⟨.hbm, 563, rfl⟩
abbrev main_v395 : Ref sig .tc := ⟨.hbm, 564, rfl⟩
abbrev main_v396 : Ref sig .tc := ⟨.hbm, 565, rfl⟩
abbrev main_v397 : Ref sig .tc := ⟨.hbm, 566, rfl⟩
abbrev main_v398 : Ref sig .tc := ⟨.hbm, 567, rfl⟩
abbrev main_call11_cst : Ref sig .tc := ⟨.hbm, 568, rfl⟩
abbrev main_call11_v0 : Ref sig .tc := ⟨.hbm, 569, rfl⟩
abbrev main_v399 : Ref sig .tc := ⟨.hbm, 570, rfl⟩
abbrev main_v400 : Ref sig .tc := ⟨.hbm, 571, rfl⟩
abbrev main_v401 : Ref sig .tc := ⟨.hbm, 572, rfl⟩
abbrev main_v402 : Ref sig .tc := ⟨.hbm, 573, rfl⟩
abbrev main_v403 : Ref sig .tc := ⟨.hbm, 574, rfl⟩
abbrev main_cst_58 : Ref sig .tc := ⟨.hbm, 575, rfl⟩
abbrev main_v404 : Ref sig .tc := ⟨.hbm, 576, rfl⟩
abbrev main_cst_59 : Ref sig .tc := ⟨.hbm, 577, rfl⟩
abbrev main_v405 : Ref sig .tc := ⟨.hbm, 578, rfl⟩
abbrev main_v406 : Ref sig .tc := ⟨.hbm, 579, rfl⟩
abbrev main_c_60 : Ref sig .tc := ⟨.hbm, 580, rfl⟩
abbrev main_call12_cst : Ref sig .tc := ⟨.hbm, 581, rfl⟩
abbrev main_call12_v0 : Ref sig .tc := ⟨.hbm, 582, rfl⟩
abbrev main_call12_v1 : Ref sig .tc := ⟨.hbm, 583, rfl⟩
abbrev main_call12_cst_0 : Ref sig .tc := ⟨.hbm, 584, rfl⟩
abbrev main_call12_v2 : Ref sig .tc := ⟨.hbm, 585, rfl⟩
abbrev main_call12_v3 : Ref sig .tc := ⟨.hbm, 586, rfl⟩
abbrev main_call12_v4 : Ref sig .tc := ⟨.hbm, 587, rfl⟩
abbrev main_call12_v5 : Ref sig .tc := ⟨.hbm, 588, rfl⟩
abbrev main_call12_v6 : Ref sig .tc := ⟨.hbm, 589, rfl⟩
abbrev main_call12_v7 : Ref sig .tc := ⟨.hbm, 590, rfl⟩
abbrev main_call12_cst_1 : Ref sig .tc := ⟨.hbm, 591, rfl⟩
abbrev main_call12_v8 : Ref sig .tc := ⟨.hbm, 592, rfl⟩
abbrev main_call12_cst_2 : Ref sig .tc := ⟨.hbm, 593, rfl⟩
abbrev main_call12_v9 : Ref sig .tc := ⟨.hbm, 594, rfl⟩
abbrev main_call12_v10 : Ref sig .tc := ⟨.hbm, 595, rfl⟩
abbrev main_call12_v11 : Ref sig .tc := ⟨.hbm, 596, rfl⟩
abbrev main_call12_cst_3 : Ref sig .tc := ⟨.hbm, 597, rfl⟩
abbrev main_call12_v12 : Ref sig .tc := ⟨.hbm, 598, rfl⟩
abbrev main_call12_cst_4 : Ref sig .tc := ⟨.hbm, 599, rfl⟩
abbrev main_call12_call0_v0 : Ref sig .tc := ⟨.hbm, 600, rfl⟩
abbrev main_call12_call0_v1 : Ref sig .tc := ⟨.hbm, 601, rfl⟩
abbrev main_v407 : Ref sig .tc := ⟨.hbm, 602, rfl⟩
abbrev main_v408 : Ref sig .tc := ⟨.hbm, 603, rfl⟩
abbrev main_v409 : Ref sig .tc := ⟨.hbm, 604, rfl⟩
abbrev main_v410 : Ref sig .tc := ⟨.hbm, 605, rfl⟩
abbrev main_cst_61 : Ref sig .tc := ⟨.hbm, 606, rfl⟩
abbrev main_v411 : Ref sig .tc := ⟨.hbm, 607, rfl⟩
abbrev main_v412 : Ref sig .tc := ⟨.hbm, 608, rfl⟩
abbrev main_v413 : Ref sig .tc := ⟨.hbm, 609, rfl⟩
abbrev main_v414 : Ref sig .tc := ⟨.hbm, 610, rfl⟩
abbrev main_v415 : Ref sig .tc := ⟨.hbm, 611, rfl⟩
abbrev main_v416 : Ref sig .tc := ⟨.hbm, 612, rfl⟩
abbrev main_v417 : Ref sig .tc := ⟨.hbm, 613, rfl⟩
abbrev main_v418 : Ref sig .tc := ⟨.hbm, 614, rfl⟩
abbrev main_v419 : Ref sig .tc := ⟨.hbm, 615, rfl⟩
abbrev main_v420 : Ref sig .tc := ⟨.hbm, 616, rfl⟩
abbrev main_v421 : Ref sig .tc := ⟨.hbm, 617, rfl⟩
abbrev main_v422 : Ref sig .tc := ⟨.hbm, 618, rfl⟩
abbrev main_call13_cst : Ref sig .tc := ⟨.hbm, 619, rfl⟩
abbrev main_call13_v0 : Ref sig .tc := ⟨.hbm, 620, rfl⟩
abbrev main_v423 : Ref sig .tc := ⟨.hbm, 621, rfl⟩
abbrev main_v424 : Ref sig .tc := ⟨.hbm, 622, rfl⟩
abbrev main_v425 : Ref sig .tc := ⟨.hbm, 623, rfl⟩
abbrev main_v426 : Ref sig .tc := ⟨.hbm, 624, rfl⟩
abbrev main_v427 : Ref sig .tc := ⟨.hbm, 625, rfl⟩

abbrev nD : Nat := 1
abbrev τ : Topo := Topo.v7x

variable {F : FTy → Type} [FloatOps F]

class Facts₀ : Prop where
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S2x2x128x128_S1x1x128x128_0_0_0_0 : S2x2x128x128.Slices ![0, 0, 0, 0] S1x1x128x128
  shapeCasts_S1x1x128x128_S128x128 : S1x1x128x128.ShapeCasts S128x128
  slices_S2x2x256x1_S1x1x256x1_0_0_0_0 : S2x2x256x1.Slices ![0, 0, 0, 0] S1x1x256x1
  shapeCasts_S1x1x256x1_S256x1 : S1x1x256x1.ShapeCasts S256x1
  slices_S2x2x1_S1x1x1_0_0_0 : S2x2x1.Slices ![0, 0, 0] S1x1x1
  shapeCasts_S1x1x1_S1 : S1x1x1.ShapeCasts S1
  slices_S2x2x128_S1x1x128_0_0_0 : S2x2x128.Slices ![0, 0, 0] S1x1x128
  shapeCasts_S1x1x128_S128 : S1x1x128.ShapeCasts S128
  bcast_S_S500000 : S_.BroadcastsInDim S500000 (![] : Fin 0 → Fin S500000.rank)
  bcast_S500000_S500000x1_0 : S500000.BroadcastsInDim S500000x1 (![0] : Fin 1 → Fin S500000x1.rank)
  slices_S256x1_S128x1_0_0 : S256x1.Slices ![0, 0] S128x1
  slices_S256x1_S128x1_128_0 : S256x1.Slices ![128, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  bcast_S_S100000x1 : S_.BroadcastsInDim S100000x1 (![] : Fin 0 → Fin S100000x1.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  slices_S2x2x128x128_S1x1x128x128_0_1_0_0 : S2x2x128x128.Slices ![0, 1, 0, 0] S1x1x128x128
  slices_S2x2x256x1_S1x1x256x1_0_1_0_0 : S2x2x256x1.Slices ![0, 1, 0, 0] S1x1x256x1
  slices_S2x2x1_S1x1x1_0_1_0 : S2x2x1.Slices ![0, 1, 0] S1x1x1
  slices_S2x2x128_S1x1x128_0_1_0 : S2x2x128.Slices ![0, 1, 0] S1x1x128
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S2x128x128_S1x128x128_1_0_0 : S2x128x128.Slices ![1, 0, 0] S1x128x128
  slices_S2x128_S1x128_1_0 : S2x128.Slices ![1, 0] S1x128
  slices_S2x2x128x128_S1x1x128x128_1_0_0_0 : S2x2x128x128.Slices ![1, 0, 0, 0] S1x1x128x128
  slices_S2x2x256x1_S1x1x256x1_1_0_0_0 : S2x2x256x1.Slices ![1, 0, 0, 0] S1x1x256x1
  slices_S2x2x1_S1x1x1_1_0_0 : S2x2x1.Slices ![1, 0, 0] S1x1x1
  slices_S2x2x128_S1x1x128_1_0_0 : S2x2x128.Slices ![1, 0, 0] S1x1x128
  slices_S2x2x128x128_S1x1x128x128_1_1_0_0 : S2x2x128x128.Slices ![1, 1, 0, 0] S1x1x128x128
  slices_S2x2x256x1_S1x1x256x1_1_1_0_0 : S2x2x256x1.Slices ![1, 1, 0, 0] S1x1x256x1
  slices_S2x2x1_S1x1x1_1_1_0 : S2x2x1.Slices ![1, 1, 0] S1x1x1
  slices_S2x2x128_S1x1x128_1_1_0 : S2x2x128.Slices ![1, 1, 0] S1x1x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  dot_S500000x128_S128x1_S500000x1_1_0_0_1_n_n_wf : DotDims.WF S500000x128 S128x1 S500000x1 [1] [0] [0] [1] [] []
  scatter_S100000x1_S500000x1_S500000x1_1_0_0_1_wf : ScatterDims.WF S100000x1 S500000x1 S500000x1 [1] [0] [0] 1
  gather_S100000x1_S500000x1_S500000x1_1_0_n_n_0_1_11_wf : GatherDims.WF S100000x1 S500000x1 S500000x1 [1] [0] [] [0] [] 1 ![1, 1]
  scatter_S100000x128_S500000x1_S500000x128_1_0_0_1_wf : ScatterDims.WF S100000x128 S500000x1 S500000x128 [1] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def gather_S100000x1_S500000x1_S500000x1_1_0_n_n_0_1_11 : GatherDims S100000x1 S500000x1 S500000x1 where
  offsetDims := [1]
  collapsedSliceDims := [0]
  operandBatchingDims := []
  startIndicesBatchingDims := []
  startIndexMap := [0]
  indexVectorDim := 1
  sliceSizes := ![1, 1]
  wf := gather_S100000x1_S500000x1_S500000x1_1_0_n_n_0_1_11_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
import Idealize.ShloMosaic.PureOps
import Idealize.ShloMosaic.Lib.ValueIdx

noncomputable section

namespace Cert.Spec

open Idealize.ShloMosaic

variable {F : FTy → Type} [FloatOps F]

abbrev SN128 : Shape := ⟨2, ![100000, 128]⟩
abbrev SN1 : Shape := ⟨2, ![100000, 1]⟩
abbrev SN64 : Shape := ⟨2, ![100000, 64]⟩
abbrev SE128 : Shape := ⟨2, ![500000, 128]⟩
abbrev SE1 : Shape := ⟨2, ![500000, 1]⟩
abbrev SE : Shape := ⟨1, ![500000]⟩
abbrev S128x128 : Shape := ⟨2, ![128, 128]⟩
abbrev S128x64 : Shape := ⟨2, ![128, 64]⟩
abbrev S128x1 : Shape := ⟨2, ![128, 1]⟩
abbrev S256x1 : Shape := ⟨2, ![256, 1]⟩
abbrev S1x128 : Shape := ⟨2, ![1, 128]⟩
abbrev S1x64 : Shape := ⟨2, ![1, 64]⟩
abbrev S1x1 : Shape := ⟨2, ![1, 1]⟩
abbrev S128 : Shape := ⟨1, ![128]⟩
abbrev S64 : Shape := ⟨1, ![64]⟩
abbrev S1 : Shape := ⟨1, ![1]⟩
abbrev S_ : Shape := ⟨0, ![]⟩

theorem bc_S_SE : S_.BroadcastsInDim SE (![] : Fin 0 → Fin SE.rank) := by decide
theorem bc_SE_SE1 : SE.BroadcastsInDim SE1 (![0] : Fin 1 → Fin SE1.rank) := by decide
theorem bc_S_SE1 : S_.BroadcastsInDim SE1 (![] : Fin 0 → Fin SE1.rank) := by decide
theorem bc_S_SN1 : S_.BroadcastsInDim SN1 (![] : Fin 0 → Fin SN1.rank) := by decide
theorem bc_S_SN128 : S_.BroadcastsInDim SN128 (![] : Fin 0 → Fin SN128.rank) := by decide
theorem bc_SE1_SE128 : SE1.BroadcastsInDim SE128 (![0, 1] : Fin 2 → Fin SE128.rank) := by decide
theorem bc_S1_S1x1 : S1.BroadcastsInDim S1x1 (![1] : Fin 1 → Fin S1x1.rank) := by decide
theorem bc_S1x1_SE1 : S1x1.BroadcastsInDim SE1 (![0, 1] : Fin 2 → Fin SE1.rank) := by decide
theorem bc_S1x1_SN1 : S1x1.BroadcastsInDim SN1 (![0, 1] : Fin 2 → Fin SN1.rank) := by decide
theorem bc_S128_S1x128 : S128.BroadcastsInDim S1x128 (![1] : Fin 1 → Fin S1x128.rank) := by decide
theorem bc_S1x128_SN128 : S1x128.BroadcastsInDim SN128 (![0, 1] : Fin 2 → Fin SN128.rank) := by decide
theorem bc_S64_S1x64 : S64.BroadcastsInDim S1x64 (![1] : Fin 1 → Fin S1x64.rank) := by decide
theorem bc_S1x64_SN64 : S1x64.BroadcastsInDim SN64 (![0, 1] : Fin 2 → Fin SN64.rank) := by decide
theorem bc_S_S128 : S_.BroadcastsInDim S128 (![] : Fin 0 → Fin S128.rank) := by decide
theorem bc_S_S1x128 : S_.BroadcastsInDim S1x128 (![] : Fin 0 → Fin S1x128.rank) := by decide
theorem sl_S256x1_lo : S256x1.Slices ![0, 0] S128x1 := by decide
theorem sl_S256x1_hi : S256x1.Slices ![128, 0] S128x1 := by decide
theorem red_SN128_S128 : SN128.ReducesTo [0] S128 := by decide
theorem h_S_ : 0 < S_.numel := by decide
theorem sc_S128_S1x128 : S128.ShapeCasts S1x128 := by decide
theorem sc_S64_S1x64 : S64.ShapeCasts S1x64 := by decide
theorem sc_S1_S1x1 : S1.ShapeCasts S1x1 := by decide
theorem gRow_wf : GatherDims.WF SN128 SE1 SE128 [1] [0] [] [0] [] 1 ![1, 128] := by decide
theorem gCol_wf : GatherDims.WF SN1 SE1 SE1 [1] [0] [] [0] [] 1 ![1, 1] := by decide
theorem sRow_wf : ScatterDims.WF SN128 SE1 SE128 [1] [0] [0] 1 := by decide
theorem sCol_wf : ScatterDims.WF SN1 SE1 SE1 [1] [0] [0] 1 := by decide

def gRow : GatherDims SN128 SE1 SE128 where
  offsetDims := [1]
  collapsedSliceDims := [0]
  operandBatchingDims := []
  startIndicesBatchingDims := []
  startIndexMap := [0]
  indexVectorDim := 1
  sliceSizes := ![1, 128]
  wf := gRow_wf

def gCol : GatherDims SN1 SE1 SE1 where
  offsetDims := [1]
  collapsedSliceDims := [0]
  operandBatchingDims := []
  startIndicesBatchingDims := []
  startIndexMap := [0]
  indexVectorDim := 1
  sliceSizes := ![1, 1]
  wf := gCol_wf
def sRow : ScatterDims SN128 SE1 SE128 where
  updateWindowDims := [1]
  insertedWindowDims := [0]
  scatterDimsToOperandDims := [0]
  indexVectorDim := 1
  wf := sRow_wf
def sCol : ScatterDims SN1 SE1 SE1 where
  updateWindowDims := [1]
  insertedWindowDims := [0]
  scatterDimsToOperandDims := [0]
  indexVectorDim := 1
  wf := sCol_wf

def normIdx (e : IVec SE 32) : IVec SE1 32 :=
  broadcastInDim SE1 ![0] bc_SE_SE1
    (select (cmpi .slt e (broadcastInDim SE ![] bc_S_SE (constantI S_ 32 0#32)))
      (addi e (broadcastInDim SE ![] bc_S_SE (constantI S_ 32 100000#32))) e)

def rows128 (b : FVec F S128 .f32) : FVec F SN128 .f32 :=
  broadcastInDim SN128 ![0, 1] bc_S1x128_SN128 (broadcastInDim S1x128 ![1] bc_S128_S1x128 b)
def rows64 (b : FVec F S64 .f32) : FVec F SN64 .f32 :=
  broadcastInDim SN64 ![0, 1] bc_S1x64_SN64 (broadcastInDim S1x64 ![1] bc_S64_S1x64 b)

def dense (x : FVec F SN128 .f32) (w : FVec F S128x128 .f32) (b : FVec F S128 .f32) : FVec F SN128 .f32 :=
  addf (Host.dotGeneral (DotDims.plain 100000 128 128) none x w) (rows128 b)
def dense64 (x : FVec F SN128 .f32) (w : FVec F S128x64 .f32) (b : FVec F S64 .f32) : FVec F SN64 .f32 :=
  addf (Host.dotGeneral (DotDims.plain 100000 128 64) none x w) (rows64 b)

def scoreR (xd xs : FVec F SN128 .f32) (src dst : IVec SE 32) (cw : FVec F S128x128 .f32) (pw : FVec F S256x1 .f32)
    (pb : FVec F S1 .f32) : FVec F SE1 .f32 :=
  addf (addf
      (Host.dotGeneral (DotDims.plain 500000 128 1) none
        (Host.gather gRow (Host.dotGeneral (DotDims.plain 100000 128 128) none xd cw) (normIdx dst))
        (extractStridedSlice S128x1 ![0, 0] pw sl_S256x1_lo))
      (Host.dotGeneral (DotDims.plain 500000 128 1) none
        (Host.gather gRow (Host.dotGeneral (DotDims.plain 100000 128 128) none xs cw) (normIdx src))
        (extractStridedSlice S128x1 ![128, 0] pw sl_S256x1_hi)))
    (broadcastInDim SE1 ![0, 1] bc_S1x1_SE1 (broadcastInDim S1x1 ![1] bc_S1_S1x1 pb))

def scoreK (ai aj : FVec F SN1 .f32) (src dst : IVec SE 32) (pb : FVec F S1 .f32) : FVec F SE1 .f32 :=
  addf (addf (Host.gather gCol ai (normIdx dst)) (Host.gather gCol aj (normIdx src)))
    (broadcastInDim SE1 ![0, 1] bc_S1x1_SE1 (broadcastInDim S1x1 ![1] bc_S1_S1x1 pb))

def edgeAgg (s : FVec F SE1 .f32) (hj : FVec F SN128 .f32) (src dst : IVec SE 32) : FVec F SN128 .f32 :=
  Host.scatterAdd sRow (broadcastInDim SN128 ![] bc_S_SN128 (constant S_ .f32 0x00000000#32))
    (broadcastInDim SE1 ![0] bc_SE_SE1 dst)
    (mulf (Host.gather gRow hj (normIdx src))
      (broadcastInDim SE128 ![0, 1] bc_SE1_SE128
        (Host.divf
          (Host.exp (select (cmpf .ogt s (broadcastInDim SE1 ![] bc_S_SE1 (constant S_ .f32 0x00000000#32))) s
            (mulf (broadcastInDim SE1 ![] bc_S_SE1 (constant S_ .f32 0x3E4CCCCD#32)) s)))
          (addf
            (Host.gather gCol
              (Host.scatterAdd sCol (broadcastInDim SN1 ![] bc_S_SN1 (constant S_ .f32 0x00000000#32))
                (broadcastInDim SE1 ![0] bc_SE_SE1 dst)
                (Host.exp (select (cmpf .ogt s (broadcastInDim SE1 ![] bc_S_SE1 (constant S_ .f32 0x00000000#32))) s
                  (mulf (broadcastInDim SE1 ![] bc_S_SE1 (constant S_ .f32 0x3E4CCCCD#32)) s))))
              (normIdx src))
            (broadcastInDim SE1 ![] bc_S_SE1 (constant S_ .f32 0x24E69595#32))))))

def gatR (xd xs : FVec F SN128 .f32) (src dst : IVec SE 32) (cw : FVec F S128x128 .f32) (pw : FVec F S256x1 .f32)
    (pb : FVec F S1 .f32) (rw : FVec F S128x128 .f32) (bias : FVec F S128 .f32) : FVec F SN128 .f32 :=
  addf (addf (edgeAgg (scoreR xd xs src dst cw pw pb) (Host.dotGeneral (DotDims.plain 100000 128 128) none xs cw) src dst)
      (Host.dotGeneral (DotDims.plain 100000 128 128) none xd rw))
    (rows128 bias)

def meanOf (t : FVec F SN128 .f32) : FVec F S128 .f32 :=
  Host.divf (Host.reduceAdd t (constant S_ .f32 0x00000000#32) red_SN128_S128 h_S_)
    (broadcastInDim S128 ![] bc_S_S128 (constant S_ .f32 0x47C35000#32))

def varOf (t : FVec F SN128 .f32) : FVec F S128 .f32 :=
  select
    (broadcastInDim S128 ![] bc_S_S128
      (cmpf (F := F) .ogt (subf (constant S_ .f32 0x47C35000#32) (sitofp (F := F) .f32 (constantI S_ 32 0#32))) (constant S_ .f32 0x00000000#32)))
    (Host.divf
      (Host.reduceAdd
        (mulf
          (subf t (broadcastInDim SN128 ![0, 1] bc_S1x128_SN128
            (Host.divf (broadcastInDim S1x128 ![1] bc_S128_S1x128 (Host.reduceAdd t (constant S_ .f32 0x00000000#32) red_SN128_S128 h_S_))
              (broadcastInDim S1x128 ![] bc_S_S1x128 (constant S_ .f32 0x47C35000#32)))))
          (subf t (broadcastInDim SN128 ![0, 1] bc_S1x128_SN128
            (Host.divf (broadcastInDim S1x128 ![1] bc_S128_S1x128 (Host.reduceAdd t (constant S_ .f32 0x00000000#32) red_SN128_S128 h_S_))
              (broadcastInDim S1x128 ![] bc_S_S1x128 (constant S_ .f32 0x47C35000#32))))))
        (constant S_ .f32 0x00000000#32) red_SN128_S128 h_S_)
      (broadcastInDim S128 ![] bc_S_S128 (subf (constant (F := F) S_ .f32 0x47C35000#32) (sitofp (F := F) .f32 (constantI S_ 32 0#32)))))
    (broadcastInDim S128 ![] bc_S_S128 (constant S_ .f32 0x7FC00000#32))

def bnRelu (t : FVec F SN128 .f32) (mean var g b : FVec F S128 .f32) : FVec F SN128 .f32 :=
  maximumf
    (addf (mulf (mulf (subf t (rows128 mean))
        (rows128 (Host.rsqrt (addf var (broadcastInDim S128 ![] bc_S_S128 (constant S_ .f32 0x3727C5AC#32))))))
      (rows128 g)) (rows128 b))
    (broadcastInDim SN128 ![] bc_S_SN128 (constant S_ .f32 0x00000000#32))

def kdense (x : FVec F SN128 .f32) (w : FVec F S128x128 .f32) (b2 : FVec F S1x128 .f32) : FVec F SN128 .f32 :=
  addf (Host.dotGeneral (DotDims.plain 100000 128 128) none x w) (broadcastInDim SN128 ![0, 1] bc_S1x128_SN128 b2)
def kdense1 (x : FVec F SN128 .f32) (w : FVec F S128x1 .f32) (b2 : FVec F S1x1 .f32) : FVec F SN1 .f32 :=
  addf (Host.dotGeneral (DotDims.plain 100000 128 1) none x w) (broadcastInDim SN1 ![0, 1] bc_S1x1_SN1 b2)
def kdense64 (x : FVec F SN128 .f32) (w : FVec F S128x64 .f32) (b2 : FVec F S1x64 .f32) : FVec F SN64 .f32 :=
  addf (Host.dotGeneral (DotDims.plain 100000 128 64) none x w) (broadcastInDim SN64 ![0, 1] bc_S1x64_SN64 b2)

def kfeat (x : FVec F SN128 .f32) (w : FVec F S128x128 .f32) : FVec F SN128 .f32 :=
  Host.dotGeneral (DotDims.plain 100000 128 128) none x w
def kscore (x : FVec F SN128 .f32) (ws : FVec F S128x1 .f32) : FVec F SN1 .f32 :=
  Host.dotGeneral (DotDims.plain 100000 128 1) none x ws

def kaddend (x : FVec F SN128 .f32) (w : FVec F S128x128 .f32) (b2 : FVec F S1x128 .f32) (a : FVec F SN128 .f32) :
    FVec F SN128 .f32 :=
  addf (addf (Host.dotGeneral (DotDims.plain 100000 128 128) none x w) (broadcastInDim SN128 ![0, 1] bc_S1x128_SN128 b2)) a

def kbn (x : FVec F SN128 .f32) (mean2 var2 g2 b2 : FVec F S1x128 .f32) : FVec F SN128 .f32 :=
  maximumf
    (addf (mulf (mulf (subf x (broadcastInDim SN128 ![0, 1] bc_S1x128_SN128 mean2))
        (broadcastInDim SN128 ![0, 1] bc_S1x128_SN128
          (Host.rsqrt (addf var2 (broadcastInDim S1x128 ![] bc_S_S1x128 (constant S_ .f32 0x3727C5AC#32))))))
      (broadcastInDim SN128 ![0, 1] bc_S1x128_SN128 g2)) (broadcastInDim SN128 ![0, 1] bc_S1x128_SN128 b2))
    (broadcastInDim SN128 ![] bc_S_SN128 (constant S_ .f32 0x00000000#32))

theorem bc_S_S1 : S_.BroadcastsInDim S1 (![] : Fin 0 → Fin S1.rank) := by decide

def kzero11 : FVec F S1x1 .f32 :=
  shapeCast S1x1 (broadcastInDim S1 ![] bc_S_S1 (constant (F := F) S_ .f32 0x00000000#32)) sc_S1_S1x1

def row128 (b : FVec F S128 .f32) : FVec F S1x128 .f32 := shapeCast S1x128 b sc_S128_S1x128
def row64 (b : FVec F S64 .f32) : FVec F S1x64 .f32 := shapeCast S1x64 b sc_S64_S1x64

def wsLo (cw : FVec F S128x128 .f32) (pw : FVec F S256x1 .f32) : FVec F S128x1 .f32 :=
  Host.dotGeneral (DotDims.plain 128 128 1) none cw (extractStridedSlice S128x1 ![0, 0] pw sl_S256x1_lo)
def wsHi (cw : FVec F S128x128 .f32) (pw : FVec F S256x1 .f32) : FVec F S128x1 .f32 :=
  Host.dotGeneral (DotDims.plain 128 128 1) none cw (extractStridedSlice S128x1 ![128, 0] pw sl_S256x1_hi)

def kaddendOf (xd xs : FVec F SN128 .f32) (src dst : IVec SE 32) (cw : FVec F S128x128 .f32) (pw : FVec F S256x1 .f32)
    (pb : FVec F S1 .f32) (temp : FVec F SN128 .f32) : FVec F SN128 .f32 :=
  addf temp (edgeAgg (scoreK (kdense1 xd (wsLo cw pw) kzero11) (kscore xs (wsHi cw pw)) src dst pb) (kfeat xs cw) src dst)

def kgat (xd xs : FVec F SN128 .f32) (src dst : IVec SE 32) (cw : FVec F S128x128 .f32) (pw : FVec F S256x1 .f32)
    (pb : FVec F S1 .f32) (rw : FVec F S128x128 .f32) (bias : FVec F S128 .f32) (temp : FVec F SN128 .f32) : FVec F SN128 .f32 :=
  kaddend xd rw (row128 bias) (kaddendOf xd xs src dst cw pw pb temp)

def kbnOf (t : FVec F SN128 .f32) (g b : FVec F S128 .f32) : FVec F SN128 .f32 :=
  kbn t (row128 (meanOf t)) (row128 (varOf t)) (row128 g) (row128 b)
def rbnOf (t : FVec F SN128 .f32) (g b : FVec F S128 .f32) : FVec F SN128 .f32 :=
  bnRelu t (meanOf t) (varOf t) g b

def klayer (xd xs : FVec F SN128 .f32) (src dst : IVec SE 32) (sw : FVec F S128x128 .f32) (sb : FVec F S128 .f32)
    (cw : FVec F S128x128 .f32) (pw : FVec F S256x1 .f32) (pb : FVec F S1 .f32) (rw : FVec F S128x128 .f32)
    (bias g b : FVec F S128 .f32) : FVec F SN128 .f32 :=
  kbnOf (kgat xd xs src dst cw pw pb rw bias (kdense xd sw (row128 sb))) g b
def rlayer (xd xs : FVec F SN128 .f32) (src dst : IVec SE 32) (sw : FVec F S128x128 .f32) (sb : FVec F S128 .f32)
    (cw : FVec F S128x128 .f32) (pw : FVec F S256x1 .f32) (pb : FVec F S1 .f32) (rw : FVec F S128x128 .f32)
    (bias g b : FVec F S128 .f32) : FVec F SN128 .f32 :=
  rbnOf (addf (dense xd sw sb) (gatR xd xs src dst cw pw pb rw bias)) g b

def kmlp (o : FVec F SN128 .f32) (w1 : FVec F S128x128 .f32) (b1 g b : FVec F S128 .f32) (w2 : FVec F S128x64 .f32)
    (b2 : FVec F S64 .f32) : FVec F SN64 .f32 :=
  kdense64 (kbnOf (kdense o w1 (row128 b1)) g b) w2 (row64 b2)
def rmlp (o : FVec F SN128 .f32) (w1 : FVec F S128x128 .f32) (b1 g b : FVec F S128 .f32) (w2 : FVec F S128x64 .f32)
    (b2 : FVec F S64 .f32) : FVec F SN64 .f32 :=
  dense64 (rbnOf (dense o w1 b1) g b) w2 b2

def IsReal {s : Shape} (x : s.Idx → EReal) : Prop := ∀ i, ∃ r : ℝ, x i = (r : EReal)

end Cert.Spec

end
-- ==== Proof.Net.lean ====
import proofs.«112494_j53025666237105_2_alg».proof.Proof.Spec

noncomputable section

namespace Cert.Spec

open Idealize.ShloMosaic

variable {F : FTy → Type} [FloatOps F]

abbrev S2xE : Shape := ⟨2, ![2, 500000]⟩
abbrev S1xE : Shape := ⟨2, ![1, 500000]⟩
abbrev S2x2x128x128 : Shape := ⟨4, ![2, 2, 128, 128]⟩
abbrev S1x1x128x128 : Shape := ⟨4, ![1, 1, 128, 128]⟩
abbrev S2x2x256x1 : Shape := ⟨4, ![2, 2, 256, 1]⟩
abbrev S1x1x256x1 : Shape := ⟨4, ![1, 1, 256, 1]⟩
abbrev S2x2x1 : Shape := ⟨3, ![2, 2, 1]⟩
abbrev S1x1x1 : Shape := ⟨3, ![1, 1, 1]⟩
abbrev S2x2x128 : Shape := ⟨3, ![2, 2, 128]⟩
abbrev S1x1x128 : Shape := ⟨3, ![1, 1, 128]⟩
abbrev S2x128x128 : Shape := ⟨3, ![2, 128, 128]⟩
abbrev S1x128x128 : Shape := ⟨3, ![1, 128, 128]⟩
abbrev S2x128 : Shape := ⟨2, ![2, 128]⟩

theorem sc_S1xE_SE : S1xE.ShapeCasts SE := by decide
theorem sc_S1x1x128x128 : S1x1x128x128.ShapeCasts S128x128 := by decide
theorem sc_S1x1x256x1 : S1x1x256x1.ShapeCasts S256x1 := by decide
theorem sc_S1x1x1 : S1x1x1.ShapeCasts S1 := by decide
theorem sc_S1x1x128 : S1x1x128.ShapeCasts S128 := by decide
theorem sc_S1x128x128 : S1x128x128.ShapeCasts S128x128 := by decide
theorem sc_S1x128_S128 : S1x128.ShapeCasts S128 := by decide

def edgeRow (r : Nat) (h : S2xE.Slices ![r, 0] S1xE) (e : IVec S2xE 32) : IVec SE 32 :=
  shapeCast SE (extractStridedSlice S1xE ![r, 0] e h) sc_S1xE_SE

def p4 (i j : Nat) (h : S2x2x128x128.Slices ![i, j, 0, 0] S1x1x128x128) (a : FVec F S2x2x128x128 .f32) : FVec F S128x128 .f32 :=
  shapeCast S128x128 (extractStridedSlice S1x1x128x128 ![i, j, 0, 0] a h) sc_S1x1x128x128
def p5 (i j : Nat) (h : S2x2x256x1.Slices ![i, j, 0, 0] S1x1x256x1) (a : FVec F S2x2x256x1 .f32) : FVec F S256x1 .f32 :=
  shapeCast S256x1 (extractStridedSlice S1x1x256x1 ![i, j, 0, 0] a h) sc_S1x1x256x1
def p6 (i j : Nat) (h : S2x2x1.Slices ![i, j, 0] S1x1x1) (a : FVec F S2x2x1 .f32) : FVec F S1 .f32 :=
  shapeCast S1 (extractStridedSlice S1x1x1 ![i, j, 0] a h) sc_S1x1x1
def p8 (i j : Nat) (h : S2x2x128.Slices ![i, j, 0] S1x1x128) (a : FVec F S2x2x128 .f32) : FVec F S128 .f32 :=
  shapeCast S128 (extractStridedSlice S1x1x128 ![i, j, 0] a h) sc_S1x1x128

def p9 (i : Nat) (h : S2x128x128.Slices ![i, 0, 0] S1x128x128) (a : FVec F S2x128x128 .f32) : FVec F S128x128 .f32 :=
  shapeCast S128x128 (extractStridedSlice S1x128x128 ![i, 0, 0] a h) sc_S1x128x128
def p10 (i : Nat) (h : S2x128.Slices ![i, 0] S1x128) (a : FVec F S2x128 .f32) : FVec F S128 .f32 :=
  shapeCast S128 (extractStridedSlice S1x128 ![i, 0] a h) sc_S1x128_S128

theorem e_0 : S2xE.Slices ![0, 0] S1xE := by decide
theorem e_1 : S2xE.Slices ![1, 0] S1xE := by decide
theorem h4_00 : S2x2x128x128.Slices ![0, 0, 0, 0] S1x1x128x128 := by decide
theorem h4_01 : S2x2x128x128.Slices ![0, 1, 0, 0] S1x1x128x128 := by decide
theorem h4_10 : S2x2x128x128.Slices ![1, 0, 0, 0] S1x1x128x128 := by decide
theorem h4_11 : S2x2x128x128.Slices ![1, 1, 0, 0] S1x1x128x128 := by decide
theorem h5_00 : S2x2x256x1.Slices ![0, 0, 0, 0] S1x1x256x1 := by decide
theorem h5_01 : S2x2x256x1.Slices ![0, 1, 0, 0] S1x1x256x1 := by decide
theorem h5_10 : S2x2x256x1.Slices ![1, 0, 0, 0] S1x1x256x1 := by decide
theorem h5_11 : S2x2x256x1.Slices ![1, 1, 0, 0] S1x1x256x1 := by decide
theorem h6_00 : S2x2x1.Slices ![0, 0, 0] S1x1x1 := by decide
theorem h6_01 : S2x2x1.Slices ![0, 1, 0] S1x1x1 := by decide
theorem h6_10 : S2x2x1.Slices ![1, 0, 0] S1x1x1 := by decide
theorem h6_11 : S2x2x1.Slices ![1, 1, 0] S1x1x1 := by decide
theorem h8_00 : S2x2x128.Slices ![0, 0, 0] S1x1x128 := by decide
theorem h8_01 : S2x2x128.Slices ![0, 1, 0] S1x1x128 := by decide
theorem h8_10 : S2x2x128.Slices ![1, 0, 0] S1x1x128 := by decide
theorem h8_11 : S2x2x128.Slices ![1, 1, 0] S1x1x128 := by decide
theorem h9_0 : S2x128x128.Slices ![0, 0, 0] S1x128x128 := by decide
theorem h9_1 : S2x128x128.Slices ![1, 0, 0] S1x128x128 := by decide
theorem h10_0 : S2x128.Slices ![0, 0] S1x128 := by decide
theorem h10_1 : S2x128.Slices ![1, 0] S1x128 := by decide

structure Inputs (F : FTy → Type) [FloatOps F] where
  x0 : FVec F SN128 .f32
  x1 : FVec F SN128 .f32
  e0 : IVec S2xE 32
  e1 : IVec S2xE 32
  convW : FVec F S2x2x128x128 .f32
  projW : FVec F S2x2x256x1 .f32
  projB : FVec F S2x2x1 .f32
  resW : FVec F S2x2x128x128 .f32
  gatB : FVec F S2x2x128 .f32
  skipW : FVec F S2x128x128 .f32
  skipB : FVec F S2x128 .f32
  bnG : FVec F S2x128 .f32
  bnB : FVec F S2x128 .f32
  w1 : FVec F S128x128 .f32
  b1 : FVec F S128 .f32
  mG : FVec F S128 .f32
  mB : FVec F S128 .f32
  w2 : FVec F S128x64 .f32
  b2 : FVec F S64 .f32

variable (I : Inputs F)

def kA0 : FVec F SN128 .f32 :=
  klayer I.x0 I.x1 (edgeRow 0 e_0 I.e1) (edgeRow 1 e_1 I.e1) (p9 0 h9_0 I.skipW) (p10 0 h10_0 I.skipB)
    (p4 0 1 h4_01 I.convW) (p5 0 1 h5_01 I.projW) (p6 0 1 h6_01 I.projB) (p4 0 1 h4_01 I.resW) (p8 0 1 h8_01 I.gatB)
    (p10 0 h10_0 I.bnG) (p10 0 h10_0 I.bnB)

def kA1 : FVec F SN128 .f32 :=
  klayer I.x1 I.x0 (edgeRow 0 e_0 I.e0) (edgeRow 1 e_1 I.e0) (p9 0 h9_0 I.skipW) (p10 0 h10_0 I.skipB)
    (p4 0 0 h4_00 I.convW) (p5 0 0 h5_00 I.projW) (p6 0 0 h6_00 I.projB) (p4 0 0 h4_00 I.resW) (p8 0 0 h8_00 I.gatB)
    (p10 0 h10_0 I.bnG) (p10 0 h10_0 I.bnB)

def kB0 : FVec F SN128 .f32 :=
  klayer (kA0 I) (kA1 I) (edgeRow 0 e_0 I.e1) (edgeRow 1 e_1 I.e1) (p9 1 h9_1 I.skipW) (p10 1 h10_1 I.skipB)
    (p4 1 1 h4_11 I.convW) (p5 1 1 h5_11 I.projW) (p6 1 1 h6_11 I.projB) (p4 1 1 h4_11 I.resW) (p8 1 1 h8_11 I.gatB)
    (p10 1 h10_1 I.bnG) (p10 1 h10_1 I.bnB)

def knet : FVec F SN64 .f32 := kmlp (kB0 I) I.w1 I.b1 I.mG I.mB I.w2 I.b2

def rA0 : FVec F SN128 .f32 :=
  rlayer I.x0 I.x1 (edgeRow 0 e_0 I.e1) (edgeRow 1 e_1 I.e1) (p9 0 h9_0 I.skipW) (p10 0 h10_0 I.skipB)
    (p4 0 1 h4_01 I.convW) (p5 0 1 h5_01 I.projW) (p6 0 1 h6_01 I.projB) (p4 0 1 h4_01 I.resW) (p8 0 1 h8_01 I.gatB)
    (p10 0 h10_0 I.bnG) (p10 0 h10_0 I.bnB)
def rA1 : FVec F SN128 .f32 :=
  rlayer I.x1 I.x0 (edgeRow 0 e_0 I.e0) (edgeRow 1 e_1 I.e0) (p9 0 h9_0 I.skipW) (p10 0 h10_0 I.skipB)
    (p4 0 0 h4_00 I.convW) (p5 0 0 h5_00 I.projW) (p6 0 0 h6_00 I.projB) (p4 0 0 h4_00 I.resW) (p8 0 0 h8_00 I.gatB)
    (p10 0 h10_0 I.bnG) (p10 0 h10_0 I.bnB)
def rB0 : FVec F SN128 .f32 :=
  rlayer (rA0 I) (rA1 I) (edgeRow 0 e_0 I.e1) (edgeRow 1 e_1 I.e1) (p9 1 h9_1 I.skipW) (p10 1 h10_1 I.skipB)
    (p4 1 1 h4_11 I.convW) (p5 1 1 h5_11 I.projW) (p6 1 1 h6_11 I.projB) (p4 1 1 h4_11 I.resW) (p8 1 1 h8_11 I.gatB)
    (p10 1 h10_1 I.bnG) (p10 1 h10_1 I.bnB)

def rnet : FVec F SN64 .f32 := rmlp (rB0 I) I.w1 I.b1 I.mG I.mB I.w2 I.b2

end Cert.Spec

end
-- ==== Proof.KHostA0.lean ====
import proofs.«112494_j53025666237105_2_alg».proof.Proof.Gen.KernelIdeal.Launch
import proofs.«112494_j53025666237105_2_alg».proof.Proof.Net
import Idealize.ShloMosaic.Lib.StableHlo.Run

set_option maxRecDepth 16384

noncomputable section

namespace Cert.KernelIdeal.KVal.A0

open Cert.KernelIdeal Cert.KernelIdeal.Gen
open Idealize.ShloMosaic Idealize.ShloMosaic.TcCoe

section Values

variable (W : Valuation τ sig (Elt Ideal))

theorem host0_v3 :
    StableHlo.after (hostOps0 (F := Ideal)) W (Proc.devRef .tc main_v3)
      = Cert.Spec.edgeRow 0 Cert.Spec.e_0 (W (Proc.devRef .tc main_arg3)) := by
  simp only [hostOps0]
  after_results
  rfl

theorem host0_v7 :
    StableHlo.after (hostOps0 (F := Ideal)) W (Proc.devRef .tc main_v7)
      = Cert.Spec.edgeRow 1 Cert.Spec.e_1 (W (Proc.devRef .tc main_arg3)) := by
  simp only [hostOps0]
  after_results
  rfl

theorem host0_v9 :
    StableHlo.after (hostOps0 (F := Ideal)) W (Proc.devRef .tc main_v9)
      = Cert.Spec.p9 (F := Ideal) 0 Cert.Spec.h9_0 (W (Proc.devRef .tc main_arg9)) := by
  simp only [hostOps0]
  after_results
  rfl

theorem host0_v12 :
    StableHlo.after (hostOps0 (F := Ideal)) W (Proc.devRef .tc main_v12)
      = Cert.Spec.row128 (Cert.Spec.p10 (F := Ideal) 0 Cert.Spec.h10_0 (W (Proc.devRef .tc main_arg10))) := by
  simp only [hostOps0]
  after_results
  rfl

theorem host5_v91 :
    StableHlo.after (hostOps5 (F := Ideal)) W (Proc.devRef .tc main_v91)
      = Cert.Spec.p4 (F := Ideal) 0 1 Cert.Spec.h4_01 (W (Proc.devRef .tc main_arg4)) := by
  simp only [hostOps5]
  after_results
  rfl

theorem host5_v95 :
    StableHlo.after (hostOps5 (F := Ideal)) W (Proc.devRef .tc main_v95)
      = Cert.Spec.p6 (F := Ideal) 0 1 Cert.Spec.h6_01 (W (Proc.devRef .tc main_arg6)) := by
  simp only [hostOps5]
  after_results
  rfl

theorem host5_v97 :
    StableHlo.after (hostOps5 (F := Ideal)) W (Proc.devRef .tc main_v97)
      = Cert.Spec.p4 (F := Ideal) 0 1 Cert.Spec.h4_01 (W (Proc.devRef .tc main_arg7)) := by
  simp only [hostOps5]
  after_results
  rfl

theorem host5_v99 :
    StableHlo.after (hostOps5 (F := Ideal)) W (Proc.devRef .tc main_v99)
      = Cert.Spec.p8 (F := Ideal) 0 1 Cert.Spec.h8_01 (W (Proc.devRef .tc main_arg8)) := by
  simp only [hostOps5]
  after_results
  rfl

theorem host5_v102 :
    StableHlo.after (hostOps5 (F := Ideal)) W (Proc.devRef .tc main_v102)
      = Cert.Spec.wsLo (Cert.Spec.p4 (F := Ideal) 0 1 Cert.Spec.h4_01 (W (Proc.devRef .tc main_arg4)))
          (Cert.Spec.p5 (F := Ideal) 0 1 Cert.Spec.h5_01 (W (Proc.devRef .tc main_arg5))) := by
  simp only [hostOps5]
  after_results
  rfl

theorem host5_v103 :
    StableHlo.after (hostOps5 (F := Ideal)) W (Proc.devRef .tc main_v103)
      = Cert.Spec.wsHi (Cert.Spec.p4 (F := Ideal) 0 1 Cert.Spec.h4_01 (W (Proc.devRef .tc main_arg4)))
          (Cert.Spec.p5 (F := Ideal) 0 1 Cert.Spec.h5_01 (W (Proc.devRef .tc main_arg5))) := by
  simp only [hostOps5]
  after_results
  rfl

theorem host5_v105 :
    StableHlo.after (hostOps5 (F := Ideal)) W (Proc.devRef .tc main_v105) = Cert.Spec.kzero11 (F := Ideal) := by
  simp only [hostOps5]
  after_results
  rfl

theorem host7_v157 :
    StableHlo.after (hostOps7_2 (F := Ideal)) (StableHlo.after hostOps7_1 (StableHlo.after hostOps7 W)) (Proc.devRef .tc main_v157)
      = addf (W (Proc.devRef .tc main_v13))
          (Cert.Spec.edgeAgg (F := Ideal)
            (Cert.Spec.scoreK (F := Ideal) (W (Proc.devRef .tc main_v106)) (W (Proc.devRef .tc main_v107_1))
              (W (Proc.devRef .tc main_v3)) (W (Proc.devRef .tc main_v7)) (W (Proc.devRef .tc main_v95)))
            (W (Proc.devRef .tc main_v107_0)) (W (Proc.devRef .tc main_v3)) (W (Proc.devRef .tc main_v7))) := by
  simp only [hostOps7, hostOps7_1, hostOps7_2]
  after_results_simp
  simp only [StableHlo.TRef.ofBuf, StableHlo.TRef.toBuf, cast_eq]
  rfl

theorem host7_v158 :
    StableHlo.after (hostOps7_2 (F := Ideal)) (StableHlo.after hostOps7_1 (StableHlo.after hostOps7 W)) (Proc.devRef .tc main_v158)
      = Cert.Spec.row128 (F := Ideal) (W (Proc.devRef .tc main_v99)) := by
  simp only [hostOps7, hostOps7_1, hostOps7_2]
  after_results_simp
  rfl

theorem host8_v168 :
    StableHlo.after (hostOps8_2 (F := Ideal)) (StableHlo.after hostOps8_1 (StableHlo.after hostOps8 W)) (Proc.devRef .tc main_v168)
      = Cert.Spec.row128 (F := Ideal) (Cert.Spec.meanOf (F := Ideal) (W (Proc.devRef .tc main_v159))) := by
  simp only [hostOps8, hostOps8_1, hostOps8_2]
  after_results_simp
  try simp only [StableHlo.TRef.ofBuf, StableHlo.TRef.toBuf, cast_eq]
  rfl

theorem host8_v169 :
    StableHlo.after (hostOps8_2 (F := Ideal)) (StableHlo.after hostOps8_1 (StableHlo.after hostOps8 W)) (Proc.devRef .tc main_v169)
      = Cert.Spec.row128 (F := Ideal) (Cert.Spec.varOf (F := Ideal) (W (Proc.devRef .tc main_v159))) := by
  simp only [hostOps8, hostOps8_1, hostOps8_2]
  after_results_simp
  try simp only [StableHlo.TRef.ofBuf, StableHlo.TRef.toBuf, cast_eq]
  rfl

theorem host8_v170 :
    StableHlo.after (hostOps8_2 (F := Ideal)) (StableHlo.after hostOps8_1 (StableHlo.after hostOps8 W)) (Proc.devRef .tc main_v170)
      = Cert.Spec.row128 (F := Ideal) (Cert.Spec.p10 (F := Ideal) 0 Cert.Spec.h10_0 (W (Proc.devRef .tc main_arg11))) := by
  simp only [hostOps8, hostOps8_1, hostOps8_2]
  after_results_simp
  try simp only [StableHlo.TRef.ofBuf, StableHlo.TRef.toBuf, cast_eq]
  rfl

theorem host8_v171 :
    StableHlo.after (hostOps8_2 (F := Ideal)) (StableHlo.after hostOps8_1 (StableHlo.after hostOps8 W)) (Proc.devRef .tc main_v171)
      = Cert.Spec.row128 (F := Ideal) (Cert.Spec.p10 (F := Ideal) 0 Cert.Spec.h10_0 (W (Proc.devRef .tc main_arg12))) := by
  simp only [hostOps8, hostOps8_1, hostOps8_2]
  after_results_simp
  try simp only [StableHlo.TRef.ofBuf, StableHlo.TRef.toBuf, cast_eq]
  rfl

end Values

end Cert.KernelIdeal.KVal.A0
end
-- ==== Proof.KWrites.lean ====
import proofs.«112494_j53025666237105_2_alg».proof.Proof.Gen.KernelIdeal.Launch
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe

variable {F : FTy → Type} [FloatOps F]

abbrev hostOps0_W : List (Ref sig .tc) := [main_v0, main_v1, main_v2, main_v3, main_v4, main_v5, main_v6, main_v7, main_v8, main_v9, main_v10, main_v11, main_v12]
theorem hostOps0_writes : (hostOps0 : List (HloOp τ sig (Elt F))).Forall fun op => op.writes ⊆ ((hostOps0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps1_W : List (Ref sig .tc) := [main_v14, main_v15, main_v16, main_v17, main_v18]
theorem hostOps1_writes : (hostOps1 : List (HloOp τ sig (Elt F))).Forall fun op => op.writes ⊆ ((hostOps1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps2_W : List (Ref sig .tc) := [main_v20, main_v21, main_v22, main_v23, main_v24, main_v25, main_v26, main_v27, main_v28, main_v29, main_v30, main_v31, main_v32, main_v33, main_cst, main_v34, main_v35]
theorem hostOps2_writes : (hostOps2 : List (HloOp τ sig (Elt F))).Forall fun op => op.writes ⊆ ((hostOps2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps4_W : List (Ref sig .tc) := [main_c, main_v38, main_v39, main_c_0, main_v40, main_v41, main_v42, main_v43, main_v44, main_c_1, main_v45, main_v46, main_c_2, main_v47, main_v48, main_v49, main_v50, main_v51, main_v52, main_v53, main_v54, main_v55, main_cst_3, main_v56, main_v57, main_cst_4, main_v58, main_v59]
theorem hostOps4_writes : (hostOps4 : List (HloOp τ sig (Elt F))).Forall fun op => op.writes ⊆ ((hostOps4_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps4_1_W : List (Ref sig .tc) := [main_v60]
theorem hostOps4_1_writes : (hostOps4_1 : List (HloOp τ sig (Elt F))).Forall fun op => op.writes ⊆ ((hostOps4_1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps4_2_W : List (Ref sig .tc) := [main_v61, main_cst_5, main_v62, main_v63, main_v64, main_c_6, main_v65, main_v66, main_c_7, main_v67, main_v68, main_v69, main_v70, main_v71, main_cst_8, main_v72, main_v73, main_v74, main_c_9, main_v75, main_v76, main_c_10, main_v77, main_v78, main_v79, main_v80, main_v81, main_v82, main_v83, main_cst_11, main_v84, main_v85, main_v86, main_v87, main_v88]
theorem hostOps4_2_writes : (hostOps4_2 : List (HloOp τ sig (Elt F))).Forall fun op => op.writes ⊆ ((hostOps4_2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps5_W : List (Ref sig .tc) := [main_v90, main_v91, main_v92, main_v93, main_v94, main_v95, main_v96, main_v97, main_v98, main_v99, main_v100, main_v101, main_v102, main_v103, main_cst_12, main_v104, main_v105]
theorem hostOps5_writes : (hostOps5 : List (HloOp τ sig (Elt F))).Forall fun op => op.writes ⊆ ((hostOps5_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps7_W : List (Ref sig .tc) := [main_c_13, main_v108, main_v109, main_c_14, main_v110, main_v111, main_v112, main_v113, main_v114, main_c_15, main_v115, main_v116, main_c_16, main_v117, main_v118, main_v119, main_v120, main_v121, main_v122, main_v123, main_v124, main_v125, main_cst_17, main_v126, main_v127, main_cst_18, main_v128, main_v129]
theorem hostOps7_writes : (hostOps7 : List (HloOp τ sig (Elt F))).Forall fun op => op.writes ⊆ ((hostOps7_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps7_1_W : List (Ref sig .tc) := [main_v130]
theorem hostOps7_1_writes : (hostOps7_1 : List (HloOp τ sig (Elt F))).Forall fun op => op.writes ⊆ ((hostOps7_1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps7_2_W : List (Ref sig .tc) := [main_v131, main_cst_19, main_v132, main_v133, main_v134, main_c_20, main_v135, main_v136, main_c_21, main_v137, main_v138, main_v139, main_v140, main_v141, main_cst_22, main_v142, main_v143, main_v144, main_c_23, main_v145, main_v146, main_c_24, main_v147, main_v148, main_v149, main_v150, main_v151, main_v152, main_v153, main_cst_25, main_v154, main_v155, main_v156, main_v157, main_v158]
theorem hostOps7_2_writes : (hostOps7_2 : List (HloOp τ sig (Elt F))).Forall fun op => op.writes ⊆ ((hostOps7_2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps8_W : List (Ref sig .tc) := [main_cst_26, main_v160, main_cst_27, main_v161, main_v162, main_c_28]
theorem hostOps8_writes : (hostOps8 : List (HloOp τ sig (Elt F))).Forall fun op => op.writes ⊆ ((hostOps8_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps8_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v163]
theorem hostOps8_1_writes : (hostOps8_1 : List (HloOp τ sig (Elt F))).Forall fun op => op.writes ⊆ ((hostOps8_1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps8_2_W : List (Ref sig .tc) := [main_v164, main_v165, main_v166, main_v167, main_v168, main_v169, main_v170, main_v171]
theorem hostOps8_2_writes : (hostOps8_2 : List (HloOp τ sig (Elt F))).Forall fun op => op.writes ⊆ ((hostOps8_2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps9_W : List (Ref sig .tc) := [main_cst_29, main_v173, main_cst_30, main_v174, main_v175, main_c_31]
theorem hostOps9_writes : (hostOps9 : List (HloOp τ sig (Elt F))).Forall fun op => op.writes ⊆ ((hostOps9_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps9_1_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v176]
theorem hostOps9_1_writes : (hostOps9_1 : List (HloOp τ sig (Elt F))).Forall fun op => op.writes ⊆ ((hostOps9_1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps9_2_W : List (Ref sig .tc) := [main_v177, main_v178, main_v179, main_v180, main_v181, main_v182, main_v183, main_v184]
theorem hostOps9_2_writes : (hostOps9_2 : List (HloOp τ sig (Elt F))).Forall fun op => op.writes ⊆ ((hostOps9_2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps10_W : List (Ref sig .tc) := [main_v186, main_v187, main_v188, main_v189, main_v190]
theorem hostOps10_writes : (hostOps10 : List (HloOp τ sig (Elt F))).Forall fun op => op.writes ⊆ ((hostOps10_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps11_W : List (Ref sig .tc) := [main_v192, main_v193, main_v194, main_v195, main_v196]
theorem hostOps11_writes : (hostOps11 : List (HloOp τ sig (Elt F))).Forall fun op => op.writes ⊆ ((hostOps11_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps12_W : List (Ref sig .tc) := [main_v198, main_v199, main_v200, main_v201, main_v202, main_v203, main_v204, main_v205, main_v206, main_v207, main_v208, main_v209, main_v210, main_v211, main_cst_32, main_v212, main_v213]
theorem hostOps12_writes : (hostOps12 : List (HloOp τ sig (Elt F))).Forall fun op => op.writes ⊆ ((hostOps12_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps14_W : List (Ref sig .tc) := [main_c_33, main_v216, main_v217, main_c_34, main_v218, main_v219, main_v220, main_v221, main_v222, main_c_35, main_v223, main_v224, main_c_36, main_v225, main_v226, main_v227, main_v228, main_v229, main_v230, main_v231, main_v232, main_v233, main_cst_37, main_v234, main_v235, main_cst_38, main_v236, main_v237]
theorem hostOps14_writes : (hostOps14 : List (HloOp τ sig (Elt F))).Forall fun op => op.writes ⊆ ((hostOps14_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps14_1_W : List (Ref sig .tc) := [main_v238]
theorem hostOps14_1_writes : (hostOps14_1 : List (HloOp τ sig (Elt F))).Forall fun op => op.writes ⊆ ((hostOps14_1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps14_2_W : List (Ref sig .tc) := [main_v239, main_cst_39, main_v240, main_v241, main_v242, main_c_40, main_v243, main_v244, main_c_41, main_v245, main_v246, main_v247, main_v248, main_v249, main_cst_42, main_v250, main_v251, main_v252, main_c_43, main_v253, main_v254, main_c_44, main_v255, main_v256, main_v257, main_v258, main_v259, main_v260, main_v261, main_cst_45, main_v262, main_v263, main_v264, main_v265, main_v266]
theorem hostOps14_2_writes : (hostOps14_2 : List (HloOp τ sig (Elt F))).Forall fun op => op.writes ⊆ ((hostOps14_2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps15_W : List (Ref sig .tc) := [main_v268, main_v269, main_v270, main_v271, main_v272, main_v273, main_v274, main_v275, main_v276, main_v277, main_v278, main_v279, main_v280, main_v281, main_cst_46, main_v282, main_v283]
theorem hostOps15_writes : (hostOps15 : List (HloOp τ sig (Elt F))).Forall fun op => op.writes ⊆ ((hostOps15_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps17_W : List (Ref sig .tc) := [main_c_47, main_v286, main_v287, main_c_48, main_v288, main_v289, main_v290, main_v291, main_v292, main_c_49, main_v293, main_v294, main_c_50, main_v295, main_v296, main_v297, main_v298, main_v299, main_v300, main_v301, main_v302, main_v303, main_cst_51, main_v304, main_v305, main_cst_52, main_v306, main_v307]
theorem hostOps17_writes : (hostOps17 : List (HloOp τ sig (Elt F))).Forall fun op => op.writes ⊆ ((hostOps17_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps17_1_W : List (Ref sig .tc) := [main_v308]
theorem hostOps17_1_writes : (hostOps17_1 : List (HloOp τ sig (Elt F))).Forall fun op => op.writes ⊆ ((hostOps17_1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps17_2_W : List (Ref sig .tc) := [main_v309, main_cst_53, main_v310, main_v311, main_v312, main_c_54, main_v313, main_v314, main_c_55, main_v315, main_v316, main_v317, main_v318, main_v319, main_cst_56, main_v320, main_v321, main_v322, main_c_57, main_v323, main_v324, main_c_58, main_v325, main_v326, main_v327, main_v328, main_v329, main_v330, main_v331, main_cst_59, main_v332, main_v333, main_v334, main_v335, main_v336]
theorem hostOps17_2_writes : (hostOps17_2 : List (HloOp τ sig (Elt F))).Forall fun op => op.writes ⊆ ((hostOps17_2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps18_W : List (Ref sig .tc) := [main_cst_60, main_v338, main_cst_61, main_v339, main_v340, main_c_62]
theorem hostOps18_writes : (hostOps18 : List (HloOp τ sig (Elt F))).Forall fun op => op.writes ⊆ ((hostOps18_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps18_1_W : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v341]
theorem hostOps18_1_writes : (hostOps18_1 : List (HloOp τ sig (Elt F))).Forall fun op => op.writes ⊆ ((hostOps18_1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps18_2_W : List (Ref sig .tc) := [main_v342, main_v343, main_v344, main_v345, main_v346, main_v347, main_v348, main_v349]
theorem hostOps18_2_writes : (hostOps18_2 : List (HloOp τ sig (Elt F))).Forall fun op => op.writes ⊆ ((hostOps18_2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps19_W : List (Ref sig .tc) := [main_cst_63, main_v351, main_cst_64, main_v352, main_v353, main_c_65]
theorem hostOps19_writes : (hostOps19 : List (HloOp τ sig (Elt F))).Forall fun op => op.writes ⊆ ((hostOps19_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps19_1_W : List (Ref sig .tc) := [main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v354]
theorem hostOps19_1_writes : (hostOps19_1 : List (HloOp τ sig (Elt F))).Forall fun op => op.writes ⊆ ((hostOps19_1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps19_2_W : List (Ref sig .tc) := [main_v355, main_v356, main_v357, main_v358, main_v359, main_v360, main_v361, main_v362]
theorem hostOps19_2_writes : (hostOps19_2 : List (HloOp τ sig (Elt F))).Forall fun op => op.writes ⊆ ((hostOps19_2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps20_W : List (Ref sig .tc) := [main_v364]
theorem hostOps20_writes : (hostOps20 : List (HloOp τ sig (Elt F))).Forall fun op => op.writes ⊆ ((hostOps20_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps21_W : List (Ref sig .tc) := [main_cst_66, main_v366, main_cst_67, main_v367, main_v368, main_c_68]
theorem hostOps21_writes : (hostOps21 : List (HloOp τ sig (Elt F))).Forall fun op => op.writes ⊆ ((hostOps21_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps21_1_W : List (Ref sig .tc) := [main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v369]
theorem hostOps21_1_writes : (hostOps21_1 : List (HloOp τ sig (Elt F))).Forall fun op => op.writes ⊆ ((hostOps21_1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps21_2_W : List (Ref sig .tc) := [main_v370, main_v371, main_v372, main_v373]
theorem hostOps21_2_writes : (hostOps21_2 : List (HloOp τ sig (Elt F))).Forall fun op => op.writes ⊆ ((hostOps21_2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

abbrev hostOps22_W : List (Ref sig .tc) := [main_v375]
theorem hostOps22_writes : (hostOps22 : List (HloOp τ sig (Elt F))).Forall fun op => op.writes ⊆ ((hostOps22_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

end Cert.KernelIdeal.KVal
end
-- ==== Proof.KKeep.lean ====
import proofs.«112494_j53025666237105_2_alg».proof.Proof.Gen.KernelIdeal.Frame
import proofs.«112494_j53025666237105_2_alg».proof.Proof.KWrites

set_option maxRecDepth 16384

noncomputable section

namespace Cert.KernelIdeal.KVal

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

theorem keep1 (c : Dev nD) (b : Ref sig .tc) (h : b ∉ hostOps0_W) :
    W1 m ρ c (Proc.devRef .tc b) = W0 m ρ c (Proc.devRef .tc b) :=
  StableHlo.after_of_writes_sub hostOps0 _ hostOps0_writes h

theorem keep2 (c : Dev nD) (b : Ref sig .tc) (h : b ∉ ([main_v13] : List (Ref sig .tc))) :
    W2 m ρ c (Proc.devRef .tc b) = W1 m ρ c (Proc.devRef .tc b) := by
  by_cases hw : ∀ w, Pipeline.arrRef spec0 w ≠ b
  · exact W2_of_ne m ρ c b hw
  · obtain ⟨w, hw⟩ := not_forall.mp hw
    obtain rfl := not_not.mp hw
    have hin : (cfg0.win w).isOut = false := by revert w; decide
    exact (W2_arr m ρ c w).trans (((dat0 (V1 m ρ) c).arrAt_in w hin _).trans (A_eq0 (V1 m ρ) c w))

theorem keep3 (c : Dev nD) (b : Ref sig .tc) (h : b ∉ hostOps1_W) :
    W3 m ρ c (Proc.devRef .tc b) = W2 m ρ c (Proc.devRef .tc b) :=
  StableHlo.after_of_writes_sub hostOps1 _ hostOps1_writes h

theorem keep4 (c : Dev nD) (b : Ref sig .tc) (h : b ∉ ([main_v19] : List (Ref sig .tc))) :
    W4 m ρ c (Proc.devRef .tc b) = W3 m ρ c (Proc.devRef .tc b) := by
  by_cases hw : ∀ w, Pipeline.arrRef spec1 w ≠ b
  · exact W4_of_ne m ρ c b hw
  · obtain ⟨w, hw⟩ := not_forall.mp hw
    obtain rfl := not_not.mp hw
    have hin : (cfg1.win w).isOut = false := by revert w; decide
    exact (W4_arr m ρ c w).trans (((dat1 (V3 m ρ) c).arrAt_in w hin _).trans (A_eq1 (V3 m ρ) c w))

theorem keep5 (c : Dev nD) (b : Ref sig .tc) (h : b ∉ hostOps2_W) :
    W5 m ρ c (Proc.devRef .tc b) = W4 m ρ c (Proc.devRef .tc b) :=
  StableHlo.after_of_writes_sub hostOps2 _ hostOps2_writes h

theorem keep6 (c : Dev nD) (b : Ref sig .tc) (h : b ∉ ([main_v36] : List (Ref sig .tc))) :
    W6 m ρ c (Proc.devRef .tc b) = W5 m ρ c (Proc.devRef .tc b) := by
  by_cases hw : ∀ w, Pipeline.arrRef spec2 w ≠ b
  · exact W6_of_ne m ρ c b hw
  · obtain ⟨w, hw⟩ := not_forall.mp hw
    obtain rfl := not_not.mp hw
    have hin : (cfg2.win w).isOut = false := by revert w; decide
    exact (W6_arr m ρ c w).trans (((dat2 (V5 m ρ) c).arrAt_in w hin _).trans (A_eq2 (V5 m ρ) c w))

theorem keep7 (c : Dev nD) (b : Ref sig .tc) (h : b ∉ ([main_v37_0, main_v37_1] : List (Ref sig .tc))) :
    W7 m ρ c (Proc.devRef .tc b) = W6 m ρ c (Proc.devRef .tc b) := by
  by_cases hw : ∀ w, Pipeline.arrRef spec3 w ≠ b
  · exact W7_of_ne m ρ c b hw
  · obtain ⟨w, hw⟩ := not_forall.mp hw
    obtain rfl := not_not.mp hw
    have hin : (cfg3.win w).isOut = false := by revert w; decide
    exact (W7_arr m ρ c w).trans (((dat3 (V6 m ρ) c).arrAt_in w hin _).trans (A_eq3 (V6 m ρ) c w))

theorem keep8 (c : Dev nD) (b : Ref sig .tc) (h : b ∉ hostOps4_W) :
    W8 m ρ c (Proc.devRef .tc b) = W7 m ρ c (Proc.devRef .tc b) :=
  StableHlo.after_of_writes_sub hostOps4 _ hostOps4_writes h

theorem keep9 (c : Dev nD) (b : Ref sig .tc) (h : b ∉ hostOps4_1_W) :
    W9 m ρ c (Proc.devRef .tc b) = W8 m ρ c (Proc.devRef .tc b) :=
  StableHlo.after_of_writes_sub hostOps4_1 _ hostOps4_1_writes h

theorem keep10 (c : Dev nD) (b : Ref sig .tc) (h : b ∉ hostOps4_2_W) :
    W10 m ρ c (Proc.devRef .tc b) = W9 m ρ c (Proc.devRef .tc b) :=
  StableHlo.after_of_writes_sub hostOps4_2 _ hostOps4_2_writes h

theorem keep11 (c : Dev nD) (b : Ref sig .tc) (h : b ∉ ([main_v89] : List (Ref sig .tc))) :
    W11 m ρ c (Proc.devRef .tc b) = W10 m ρ c (Proc.devRef .tc b) := by
  by_cases hw : ∀ w, Pipeline.arrRef spec4 w ≠ b
  · exact W11_of_ne m ρ c b hw
  · obtain ⟨w, hw⟩ := not_forall.mp hw
    obtain rfl := not_not.mp hw
    have hin : (cfg4.win w).isOut = false := by revert w; decide
    exact (W11_arr m ρ c w).trans (((dat4 (V10 m ρ) c).arrAt_in w hin _).trans (A_eq4 (V10 m ρ) c w))

theorem keep12 (c : Dev nD) (b : Ref sig .tc) (h : b ∉ hostOps5_W) :
    W12 m ρ c (Proc.devRef .tc b) = W11 m ρ c (Proc.devRef .tc b) :=
  StableHlo.after_of_writes_sub hostOps5 _ hostOps5_writes h

theorem keep13 (c : Dev nD) (b : Ref sig .tc) (h : b ∉ ([main_v106] : List (Ref sig .tc))) :
    W13 m ρ c (Proc.devRef .tc b) = W12 m ρ c (Proc.devRef .tc b) := by
  by_cases hw : ∀ w, Pipeline.arrRef spec5 w ≠ b
  · exact W13_of_ne m ρ c b hw
  · obtain ⟨w, hw⟩ := not_forall.mp hw
    obtain rfl := not_not.mp hw
    have hin : (cfg5.win w).isOut = false := by revert w; decide
    exact (W13_arr m ρ c w).trans (((dat5 (V12 m ρ) c).arrAt_in w hin _).trans (A_eq5 (V12 m ρ) c w))

theorem keep14 (c : Dev nD) (b : Ref sig .tc) (h : b ∉ ([main_v107_0, main_v107_1] : List (Ref sig .tc))) :
    W14 m ρ c (Proc.devRef .tc b) = W13 m ρ c (Proc.devRef .tc b) := by
  by_cases hw : ∀ w, Pipeline.arrRef spec6 w ≠ b
  · exact W14_of_ne m ρ c b hw
  · obtain ⟨w, hw⟩ := not_forall.mp hw
    obtain rfl := not_not.mp hw
    have hin : (cfg6.win w).isOut = false := by revert w; decide
    exact (W14_arr m ρ c w).trans (((dat6 (V13 m ρ) c).arrAt_in w hin _).trans (A_eq6 (V13 m ρ) c w))

theorem keep15 (c : Dev nD) (b : Ref sig .tc) (h : b ∉ hostOps7_W) :
    W15 m ρ c (Proc.devRef .tc b) = W14 m ρ c (Proc.devRef .tc b) :=
  StableHlo.after_of_writes_sub hostOps7 _ hostOps7_writes h

theorem keep16 (c : Dev nD) (b : Ref sig .tc) (h : b ∉ hostOps7_1_W) :
    W16 m ρ c (Proc.devRef .tc b) = W15 m ρ c (Proc.devRef .tc b) :=
  StableHlo.after_of_writes_sub hostOps7_1 _ hostOps7_1_writes h

theorem keep17 (c : Dev nD) (b : Ref sig .tc) (h : b ∉ hostOps7_2_W) :
    W17 m ρ c (Proc.devRef .tc b) = W16 m ρ c (Proc.devRef .tc b) :=
  StableHlo.after_of_writes_sub hostOps7_2 _ hostOps7_2_writes h

theorem keep18 (c : Dev nD) (b : Ref sig .tc) (h : b ∉ ([main_v159] : List (Ref sig .tc))) :
    W18 m ρ c (Proc.devRef .tc b) = W17 m ρ c (Proc.devRef .tc b) := by
  by_cases hw : ∀ w, Pipeline.arrRef spec7 w ≠ b
  · exact W18_of_ne m ρ c b hw
  · obtain ⟨w, hw⟩ := not_forall.mp hw
    obtain rfl := not_not.mp hw
    have hin : (cfg7.win w).isOut = false := by revert w; decide
    exact (W18_arr m ρ c w).trans (((dat7 (V17 m ρ) c).arrAt_in w hin _).trans (A_eq7 (V17 m ρ) c w))

theorem keep19 (c : Dev nD) (b : Ref sig .tc) (h : b ∉ hostOps8_W) :
    W19 m ρ c (Proc.devRef .tc b) = W18 m ρ c (Proc.devRef .tc b) :=
  StableHlo.after_of_writes_sub hostOps8 _ hostOps8_writes h

theorem keep20 (c : Dev nD) (b : Ref sig .tc) (h : b ∉ hostOps8_1_W) :
    W20 m ρ c (Proc.devRef .tc b) = W19 m ρ c (Proc.devRef .tc b) :=
  StableHlo.after_of_writes_sub hostOps8_1 _ hostOps8_1_writes h

theorem keep21 (c : Dev nD) (b : Ref sig .tc) (h : b ∉ hostOps8_2_W) :
    W21 m ρ c (Proc.devRef .tc b) = W20 m ρ c (Proc.devRef .tc b) :=
  StableHlo.after_of_writes_sub hostOps8_2 _ hostOps8_2_writes h

theorem keep22 (c : Dev nD) (b : Ref sig .tc) (h : b ∉ ([main_v172] : List (Ref sig .tc))) :
    W22 m ρ c (Proc.devRef .tc b) = W21 m ρ c (Proc.devRef .tc b) := by
  by_cases hw : ∀ w, Pipeline.arrRef spec8 w ≠ b
  · exact W22_of_ne m ρ c b hw
  · obtain ⟨w, hw⟩ := not_forall.mp hw
    obtain rfl := not_not.mp hw
    have hin : (cfg8.win w).isOut = false := by revert w; decide
    exact (W22_arr m ρ c w).trans (((dat8 (V21 m ρ) c).arrAt_in w hin _).trans (A_eq8 (V21 m ρ) c w))

theorem keep23 (c : Dev nD) (b : Ref sig .tc) (h : b ∉ hostOps9_W) :
    W23 m ρ c (Proc.devRef .tc b) = W22 m ρ c (Proc.devRef .tc b) :=
  StableHlo.after_of_writes_sub hostOps9 _ hostOps9_writes h

theorem keep24 (c : Dev nD) (b : Ref sig .tc) (h : b ∉ hostOps9_1_W) :
    W24 m ρ c (Proc.devRef .tc b) = W23 m ρ c (Proc.devRef .tc b) :=
  StableHlo.after_of_writes_sub hostOps9_1 _ hostOps9_1_writes h

theorem keep25 (c : Dev nD) (b : Ref sig .tc) (h : b ∉ hostOps9_2_W) :
    W25 m ρ c (Proc.devRef .tc b) = W24 m ρ c (Proc.devRef .tc b) :=
  StableHlo.after_of_writes_sub hostOps9_2 _ hostOps9_2_writes h

theorem keep26 (c : Dev nD) (b : Ref sig .tc) (h : b ∉ ([main_v185] : List (Ref sig .tc))) :
    W26 m ρ c (Proc.devRef .tc b) = W25 m ρ c (Proc.devRef .tc b) := by
  by_cases hw : ∀ w, Pipeline.arrRef spec9 w ≠ b
  · exact W26_of_ne m ρ c b hw
  · obtain ⟨w, hw⟩ := not_forall.mp hw
    obtain rfl := not_not.mp hw
    have hin : (cfg9.win w).isOut = false := by revert w; decide
    exact (W26_arr m ρ c w).trans (((dat9 (V25 m ρ) c).arrAt_in w hin _).trans (A_eq9 (V25 m ρ) c w))

theorem keep27 (c : Dev nD) (b : Ref sig .tc) (h : b ∉ hostOps10_W) :
    W27 m ρ c (Proc.devRef .tc b) = W26 m ρ c (Proc.devRef .tc b) :=
  StableHlo.after_of_writes_sub hostOps10 _ hostOps10_writes h

theorem keep28 (c : Dev nD) (b : Ref sig .tc) (h : b ∉ ([main_v191] : List (Ref sig .tc))) :
    W28 m ρ c (Proc.devRef .tc b) = W27 m ρ c (Proc.devRef .tc b) := by
  by_cases hw : ∀ w, Pipeline.arrRef spec10 w ≠ b
  · exact W28_of_ne m ρ c b hw
  · obtain ⟨w, hw⟩ := not_forall.mp hw
    obtain rfl := not_not.mp hw
    have hin : (cfg10.win w).isOut = false := by revert w; decide
    exact (W28_arr m ρ c w).trans (((dat10 (V27 m ρ) c).arrAt_in w hin _).trans (A_eq10 (V27 m ρ) c w))

theorem keep29 (c : Dev nD) (b : Ref sig .tc) (h : b ∉ hostOps11_W) :
    W29 m ρ c (Proc.devRef .tc b) = W28 m ρ c (Proc.devRef .tc b) :=
  StableHlo.after_of_writes_sub hostOps11 _ hostOps11_writes h

theorem keep30 (c : Dev nD) (b : Ref sig .tc) (h : b ∉ ([main_v197] : List (Ref sig .tc))) :
    W30 m ρ c (Proc.devRef .tc b) = W29 m ρ c (Proc.devRef .tc b) := by
  by_cases hw : ∀ w, Pipeline.arrRef spec11 w ≠ b
  · exact W30_of_ne m ρ c b hw
  · obtain ⟨w, hw⟩ := not_forall.mp hw
    obtain rfl := not_not.mp hw
    have hin : (cfg11.win w).isOut = false := by revert w; decide
    exact (W30_arr m ρ c w).trans (((dat11 (V29 m ρ) c).arrAt_in w hin _).trans (A_eq11 (V29 m ρ) c w))

theorem keep31 (c : Dev nD) (b : Ref sig .tc) (h : b ∉ hostOps12_W) :
    W31 m ρ c (Proc.devRef .tc b) = W30 m ρ c (Proc.devRef .tc b) :=
  StableHlo.after_of_writes_sub hostOps12 _ hostOps12_writes h

theorem keep32 (c : Dev nD) (b : Ref sig .tc) (h : b ∉ ([main_v214] : List (Ref sig .tc))) :
    W32 m ρ c (Proc.devRef .tc b) = W31 m ρ c (Proc.devRef .tc b) := by
  by_cases hw : ∀ w, Pipeline.arrRef spec12 w ≠ b
  · exact W32_of_ne m ρ c b hw
  · obtain ⟨w, hw⟩ := not_forall.mp hw
    obtain rfl := not_not.mp hw
    have hin : (cfg12.win w).isOut = false := by revert w; decide
    exact (W32_arr m ρ c w).trans (((dat12 (V31 m ρ) c).arrAt_in w hin _).trans (A_eq12 (V31 m ρ) c w))

theorem keep33 (c : Dev nD) (b : Ref sig .tc) (h : b ∉ ([main_v215_0, main_v215_1] : List (Ref sig .tc))) :
    W33 m ρ c (Proc.devRef .tc b) = W32 m ρ c (Proc.devRef .tc b) := by
  by_cases hw : ∀ w, Pipeline.arrRef spec13 w ≠ b
  · exact W33_of_ne m ρ c b hw
  · obtain ⟨w, hw⟩ := not_forall.mp hw
    obtain rfl := not_not.mp hw
    have hin : (cfg13.win w).isOut = false := by revert w; decide
    exact (W33_arr m ρ c w).trans (((dat13 (V32 m ρ) c).arrAt_in w hin _).trans (A_eq13 (V32 m ρ) c w))

theorem keep34 (c : Dev nD) (b : Ref sig .tc) (h : b ∉ hostOps14_W) :
    W34 m ρ c (Proc.devRef .tc b) = W33 m ρ c (Proc.devRef .tc b) :=
  StableHlo.after_of_writes_sub hostOps14 _ hostOps14_writes h

theorem keep35 (c : Dev nD) (b : Ref sig .tc) (h : b ∉ hostOps14_1_W) :
    W35 m ρ c (Proc.devRef .tc b) = W34 m ρ c (Proc.devRef .tc b) :=
  StableHlo.after_of_writes_sub hostOps14_1 _ hostOps14_1_writes h

theorem keep36 (c : Dev nD) (b : Ref sig .tc) (h : b ∉ hostOps14_2_W) :
    W36 m ρ c (Proc.devRef .tc b) = W35 m ρ c (Proc.devRef .tc b) :=
  StableHlo.after_of_writes_sub hostOps14_2 _ hostOps14_2_writes h

theorem keep37 (c : Dev nD) (b : Ref sig .tc) (h : b ∉ ([main_v267] : List (Ref sig .tc))) :
    W37 m ρ c (Proc.devRef .tc b) = W36 m ρ c (Proc.devRef .tc b) := by
  by_cases hw : ∀ w, Pipeline.arrRef spec14 w ≠ b
  · exact W37_of_ne m ρ c b hw
  · obtain ⟨w, hw⟩ := not_forall.mp hw
    obtain rfl := not_not.mp hw
    have hin : (cfg14.win w).isOut = false := by revert w; decide
    exact (W37_arr m ρ c w).trans (((dat14 (V36 m ρ) c).arrAt_in w hin _).trans (A_eq14 (V36 m ρ) c w))

theorem keep38 (c : Dev nD) (b : Ref sig .tc) (h : b ∉ hostOps15_W) :
    W38 m ρ c (Proc.devRef .tc b) = W37 m ρ c (Proc.devRef .tc b) :=
  StableHlo.after_of_writes_sub hostOps15 _ hostOps15_writes h

theorem keep39 (c : Dev nD) (b : Ref sig .tc) (h : b ∉ ([main_v284] : List (Ref sig .tc))) :
    W39 m ρ c (Proc.devRef .tc b) = W38 m ρ c (Proc.devRef .tc b) := by
  by_cases hw : ∀ w, Pipeline.arrRef spec15 w ≠ b
  · exact W39_of_ne m ρ c b hw
  · obtain ⟨w, hw⟩ := not_forall.mp hw
    obtain rfl := not_not.mp hw
    have hin : (cfg15.win w).isOut = false := by revert w; decide
    exact (W39_arr m ρ c w).trans (((dat15 (V38 m ρ) c).arrAt_in w hin _).trans (A_eq15 (V38 m ρ) c w))

theorem keep40 (c : Dev nD) (b : Ref sig .tc) (h : b ∉ ([main_v285_0, main_v285_1] : List (Ref sig .tc))) :
    W40 m ρ c (Proc.devRef .tc b) = W39 m ρ c (Proc.devRef .tc b) := by
  by_cases hw : ∀ w, Pipeline.arrRef spec16 w ≠ b
  · exact W40_of_ne m ρ c b hw
  · obtain ⟨w, hw⟩ := not_forall.mp hw
    obtain rfl := not_not.mp hw
    have hin : (cfg16.win w).isOut = false := by revert w; decide
    exact (W40_arr m ρ c w).trans (((dat16 (V39 m ρ) c).arrAt_in w hin _).trans (A_eq16 (V39 m ρ) c w))

theorem keep41 (c : Dev nD) (b : Ref sig .tc) (h : b ∉ hostOps17_W) :
    W41 m ρ c (Proc.devRef .tc b) = W40 m ρ c (Proc.devRef .tc b) :=
  StableHlo.after_of_writes_sub hostOps17 _ hostOps17_writes h

theorem keep42 (c : Dev nD) (b : Ref sig .tc) (h : b ∉ hostOps17_1_W) :
    W42 m ρ c (Proc.devRef .tc b) = W41 m ρ c (Proc.devRef .tc b) :=
  StableHlo.after_of_writes_sub hostOps17_1 _ hostOps17_1_writes h

theorem keep43 (c : Dev nD) (b : Ref sig .tc) (h : b ∉ hostOps17_2_W) :
    W43 m ρ c (Proc.devRef .tc b) = W42 m ρ c (Proc.devRef .tc b) :=
  StableHlo.after_of_writes_sub hostOps17_2 _ hostOps17_2_writes h

theorem keep44 (c : Dev nD) (b : Ref sig .tc) (h : b ∉ ([main_v337] : List (Ref sig .tc))) :
    W44 m ρ c (Proc.devRef .tc b) = W43 m ρ c (Proc.devRef .tc b) := by
  by_cases hw : ∀ w, Pipeline.arrRef spec17 w ≠ b
  · exact W44_of_ne m ρ c b hw
  · obtain ⟨w, hw⟩ := not_forall.mp hw
    obtain rfl := not_not.mp hw
    have hin : (cfg17.win w).isOut = false := by revert w; decide
    exact (W44_arr m ρ c w).trans (((dat17 (V43 m ρ) c).arrAt_in w hin _).trans (A_eq17 (V43 m ρ) c w))

theorem keep45 (c : Dev nD) (b : Ref sig .tc) (h : b ∉ hostOps18_W) :
    W45 m ρ c (Proc.devRef .tc b) = W44 m ρ c (Proc.devRef .tc b) :=
  StableHlo.after_of_writes_sub hostOps18 _ hostOps18_writes h

theorem keep46 (c : Dev nD) (b : Ref sig .tc) (h : b ∉ hostOps18_1_W) :
    W46 m ρ c (Proc.devRef .tc b) = W45 m ρ c (Proc.devRef .tc b) :=
  StableHlo.after_of_writes_sub hostOps18_1 _ hostOps18_1_writes h

theorem keep47 (c : Dev nD) (b : Ref sig .tc) (h : b ∉ hostOps18_2_W) :
    W47 m ρ c (Proc.devRef .tc b) = W46 m ρ c (Proc.devRef .tc b) :=
  StableHlo.after_of_writes_sub hostOps18_2 _ hostOps18_2_writes h

theorem keep48 (c : Dev nD) (b : Ref sig .tc) (h : b ∉ ([main_v350] : List (Ref sig .tc))) :
    W48 m ρ c (Proc.devRef .tc b) = W47 m ρ c (Proc.devRef .tc b) := by
  by_cases hw : ∀ w, Pipeline.arrRef spec18 w ≠ b
  · exact W48_of_ne m ρ c b hw
  · obtain ⟨w, hw⟩ := not_forall.mp hw
    obtain rfl := not_not.mp hw
    have hin : (cfg18.win w).isOut = false := by revert w; decide
    exact (W48_arr m ρ c w).trans (((dat18 (V47 m ρ) c).arrAt_in w hin _).trans (A_eq18 (V47 m ρ) c w))

theorem keep49 (c : Dev nD) (b : Ref sig .tc) (h : b ∉ hostOps19_W) :
    W49 m ρ c (Proc.devRef .tc b) = W48 m ρ c (Proc.devRef .tc b) :=
  StableHlo.after_of_writes_sub hostOps19 _ hostOps19_writes h

theorem keep50 (c : Dev nD) (b : Ref sig .tc) (h : b ∉ hostOps19_1_W) :
    W50 m ρ c (Proc.devRef .tc b) = W49 m ρ c (Proc.devRef .tc b) :=
  StableHlo.after_of_writes_sub hostOps19_1 _ hostOps19_1_writes h

theorem keep51 (c : Dev nD) (b : Ref sig .tc) (h : b ∉ hostOps19_2_W) :
    W51 m ρ c (Proc.devRef .tc b) = W50 m ρ c (Proc.devRef .tc b) :=
  StableHlo.after_of_writes_sub hostOps19_2 _ hostOps19_2_writes h

theorem keep52 (c : Dev nD) (b : Ref sig .tc) (h : b ∉ ([main_v363] : List (Ref sig .tc))) :
    W52 m ρ c (Proc.devRef .tc b) = W51 m ρ c (Proc.devRef .tc b) := by
  by_cases hw : ∀ w, Pipeline.arrRef spec19 w ≠ b
  · exact W52_of_ne m ρ c b hw
  · obtain ⟨w, hw⟩ := not_forall.mp hw
    obtain rfl := not_not.mp hw
    have hin : (cfg19.win w).isOut = false := by revert w; decide
    exact (W52_arr m ρ c w).trans (((dat19 (V51 m ρ) c).arrAt_in w hin _).trans (A_eq19 (V51 m ρ) c w))

theorem keep53 (c : Dev nD) (b : Ref sig .tc) (h : b ∉ hostOps20_W) :
    W53 m ρ c (Proc.devRef .tc b) = W52 m ρ c (Proc.devRef .tc b) :=
  StableHlo.after_of_writes_sub hostOps20 _ hostOps20_writes h

theorem keep54 (c : Dev nD) (b : Ref sig .tc) (h : b ∉ ([main_v365] : List (Ref sig .tc))) :
    W54 m ρ c (Proc.devRef .tc b) = W53 m ρ c (Proc.devRef .tc b) := by
  by_cases hw : ∀ w, Pipeline.arrRef spec20 w ≠ b
  · exact W54_of_ne m ρ c b hw
  · obtain ⟨w, hw⟩ := not_forall.mp hw
    obtain rfl := not_not.mp hw
    have hin : (cfg20.win w).isOut = false := by revert w; decide
    exact (W54_arr m ρ c w).trans (((dat20 (V53 m ρ) c).arrAt_in w hin _).trans (A_eq20 (V53 m ρ) c w))

theorem keep55 (c : Dev nD) (b : Ref sig .tc) (h : b ∉ hostOps21_W) :
    W55 m ρ c (Proc.devRef .tc b) = W54 m ρ c (Proc.devRef .tc b) :=
  StableHlo.after_of_writes_sub hostOps21 _ hostOps21_writes h

theorem keep56 (c : Dev nD) (b : Ref sig .tc) (h : b ∉ hostOps21_1_W) :
    W56 m ρ c (Proc.devRef .tc b) = W55 m ρ c (Proc.devRef .tc b) :=
  StableHlo.after_of_writes_sub hostOps21_1 _ hostOps21_1_writes h

theorem keep57 (c : Dev nD) (b : Ref sig .tc) (h : b ∉ hostOps21_2_W) :
    W57 m ρ c (Proc.devRef .tc b) = W56 m ρ c (Proc.devRef .tc b) :=
  StableHlo.after_of_writes_sub hostOps21_2 _ hostOps21_2_writes h

theorem keep58 (c : Dev nD) (b : Ref sig .tc) (h : b ∉ ([main_v374] : List (Ref sig .tc))) :
    W58 m ρ c (Proc.devRef .tc b) = W57 m ρ c (Proc.devRef .tc b) := by
  by_cases hw : ∀ w, Pipeline.arrRef spec21 w ≠ b
  · exact W58_of_ne m ρ c b hw
  · obtain ⟨w, hw⟩ := not_forall.mp hw
    obtain rfl := not_not.mp hw
    have hin : (cfg21.win w).isOut = false := by revert w; decide
    exact (W58_arr m ρ c w).trans (((dat21 (V57 m ρ) c).arrAt_in w hin _).trans (A_eq21 (V57 m ρ) c w))

theorem keep59 (c : Dev nD) (b : Ref sig .tc) (h : b ∉ hostOps22_W) :
    W59 m ρ c (Proc.devRef .tc b) = W58 m ρ c (Proc.devRef .tc b) :=
  StableHlo.after_of_writes_sub hostOps22 _ hostOps22_writes h

theorem keep60 (c : Dev nD) (b : Ref sig .tc) (h : b ∉ ([main_v376] : List (Ref sig .tc))) :
    W60 m ρ c (Proc.devRef .tc b) = W59 m ρ c (Proc.devRef .tc b) := by
  by_cases hw : ∀ w, Pipeline.arrRef spec22 w ≠ b
  · exact W60_of_ne m ρ c b hw
  · obtain ⟨w, hw⟩ := not_forall.mp hw
    obtain rfl := not_not.mp hw
    have hin : (cfg22.win w).isOut = false := by revert w; decide
    exact (W60_arr m ρ c w).trans (((dat22 (V59 m ρ) c).arrAt_in w hin _).trans (A_eq22 (V59 m ρ) c w))

end Cert.KernelIdeal.KVal

open Lean in

macro "keep_range% " hi:num lo:num : term => do
  let h := hi.getNat
  let l := lo.getNat
  if h ≤ l then Macro.throwError "keep_range%: the first numeral must exceed the second"
  if h > 60 then Macro.throwError "keep_range%: there are 60 segments"
  let nm (n : Nat) : Ident := mkIdent (`Cert.KernelIdeal.KVal ++ Name.mkSimple s!"keep{n}")
  let mut t ← `($(nm (l + 1)) _ _ _ _ (by decide))
  for n in [l + 2 : h + 1] do
    t ← `(Eq.trans ($(nm n) _ _ _ _ (by decide)) $t)
  return t

end
-- ==== Proof.KInputs.lean ====
import proofs.«112494_j53025666237105_2_alg».proof.KernelIdeal
import proofs.«112494_j53025666237105_2_alg».proof.Proof.Net

noncomputable section

namespace Cert.KernelIdeal.KVal

open Idealize.ShloMosaic Idealize.SL.Sem Cert.KernelIdeal

def inputsOf (m : (ℓ : Loc nD τ sig) → Buf (Elt Ideal) ℓ) (c : Dev nD) : Cert.Spec.Inputs Ideal :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18)⟩

end Cert.KernelIdeal.KVal

end
-- ==== Proof.LibPlainDot.lean ====
import Idealize.ShloMosaic.Lib.StackMember

noncomputable section

open scoped BigOperators

namespace Cert.LibPlainDot

open Idealize.ShloMosaic

theorem dotGeneral_plain_apply (M K N : Nat) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral (DotDims.plain M K N) prec x w j = ∑ k : Fin K, x (ValueIdx.ix2 (j 0) k) * w (ValueIdx.ix2 k (j 1)) := by
  have e := StackMember.dotGeneral_plain_apply (m := M) (n := N) (k := K) prec x w (j 0) (j 1)
  exact (congrArg (Host.dotGeneral (DotDims.plain M K N) prec x w) (ValueIdx.eq_ix2 j)).trans e

theorem matmul_zero_plain_apply {M K N : Nat} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, x (ValueIdx.ix2 (j 0) k) * w (ValueIdx.ix2 k (j 1)) := by
  subst hd
  rw [matmul_zero_eq_dotGeneral]
  exact dotGeneral_plain_apply M K N prec x w j

end Cert.LibPlainDot

end
-- ==== Proof.RowBlocks.lean ====
import Idealize.ShloMosaic.Lib.Pipeline.Value
import Idealize.ShloMosaic.Lib.ValueIdx

noncomputable section

open Idealize.ShloMosaic Idealize.ShloMosaic.ValueIdx

namespace Cert.RowBlocks

theorem hz : (![0, 0] : Fin 2 → Nat) = fun _ => 0 := funext fun a => by fin_cases a <;> rfl

variable {sig : RefSig} {G : Pipeline.Grid}

/-- Block t of the window starts at row R·t and at coordinate 0 of every other axis (R = 0: every block is the same). -/
abbrev Steps (w : Pipeline.Window sig G) (R : Nat) : Prop :=
  ∀ (t : Fin G.N) (a : Fin w.shape.rank), w.index t a * w.size a = if a.val = 0 then t.val * R else 0

theorem Steps.emb {w : Pipeline.Window sig G} {R : Nat} (h : Steps w R) (t : Fin G.N)
    (y : (w.xblock (G.coords t)).Idx) (a : Fin w.shape.rank) :
    ((w.rect t).emb y a : Nat) = (if a.val = 0 then t.val * R else 0) + y a :=
  (w.rect_emb_val t y a).trans (congrArg (· + (y a : Nat)) (h t a))

/-- The blocks are R whole rows each and together they reach the array's last row. -/
abbrev Tiles (w : Pipeline.Window sig G) (R : Nat) : Prop :=
  Steps w R ∧ 0 < R ∧ (∀ t, w.flush t = true)
    ∧ (∀ (t : Fin G.N) (a : Fin w.shape.rank), w.xsize (G.coords t) a = if a.val = 0 then R else w.shape.size a)
    ∧ ∀ a : Fin w.shape.rank, a.val = 0 → w.shape.size a ≤ G.N * R

/-- Row r lies in the block of point r / R, so every element of the array lies in some block. -/
theorem Tiles.cover {w : Pipeline.Window sig G} {R : Nat} (h : Tiles w R) (a₀ : Fin w.shape.rank) (ha₀ : a₀.val = 0)
    (i : w.shape.Idx) : ∃ t : Fin G.N, w.flush t = true ∧ w.arr.view.emb i ∈ (w.blk t).view.set := by
  obtain ⟨hs, hR, hf, hx, hN⟩ := h
  refine ⟨⟨(i a₀).val / R, (Nat.div_lt_iff_lt_mul hR).2 (lt_of_lt_of_le (i a₀).isLt (hN a₀ ha₀))⟩, hf _, ?_⟩
  show _ ∈ (w.arr.view.slice (w.rect _)).set
  rw [View.set_slice]
  refine Finset.mem_map_of_mem _ (Rect.mem_set_unit.2 fun a => ?_)
  rw [hs _ a, hx _ a]
  by_cases ha : a.val = 0
  · obtain rfl : a = a₀ := Fin.ext (ha.trans ha₀.symm)
    rw [if_pos ha, if_pos ha]
    exact ⟨Nat.div_mul_le_self _ _, Nat.lt_div_mul_add hR⟩
  · rw [if_neg ha, if_neg ha, Nat.zero_add]
    exact ⟨Nat.zero_le _, (i a).isLt⟩

/-- x is the block of X that starts at row o: entry (p, q) of x is entry (o + p, q) of X. -/
def IsBlockAt {r n m : Nat} {α : Type} (x : (⟨2, ![r, n]⟩ : Shape).Idx → α) (X : (⟨2, ![m, n]⟩ : Shape).Idx → α)
    (o : Nat) : Prop :=
  ∀ (p : Fin r) (q : Fin n) (p' : Fin m), p'.val = o + p.val → x (ix2 p q) = X (ix2 p' q)

variable {r n m : Nat} {α : Type}

/-- A map that adds o to the row and keeps the column sends (p, q) to (o + p, q). -/
theorem emb_ix2 {e : (⟨2, ![r, n]⟩ : Shape).Idx → (⟨2, ![m, n]⟩ : Shape).Idx} {o : Nat}
    (he : ∀ y (a : Fin 2), (e y a : Nat) = (if a.val = 0 then o else 0) + y a)
    (p : Fin r) (q : Fin n) (p' : Fin m) (hp : p'.val = o + p.val) : e (ix2 p q) = ix2 p' q :=
  funext fun a => Fin.ext <| (he _ a).trans <| match a with
    | ⟨0, _⟩ => hp.symm
    | ⟨1, _⟩ => Nat.zero_add _

theorem isBlockAt_of_emb (X : (⟨2, ![m, n]⟩ : Shape).Idx → α)
    {e : (⟨2, ![r, n]⟩ : Shape).Idx → (⟨2, ![m, n]⟩ : Shape).Idx} {o : Nat}
    (he : ∀ y (a : Fin 2), (e y a : Nat) = (if a.val = 0 then o else 0) + y a) :
    IsBlockAt (fun y => X (e y)) X o :=
  fun p q p' hp => congrArg X (emb_ix2 he p q p' hp)

/-- A block as tall as the array, starting at a row T·0, is the array. -/
theorem IsBlockAt.eq {x X : (⟨2, ![m, n]⟩ : Shape).Idx → α} {T : Nat} (h : IsBlockAt x X (T * 0)) : x = X :=
  funext fun y => by
    obtain ⟨p, q, rfl⟩ : ∃ (p : Fin m) (q : Fin n), y = ix2 p q := ⟨y 0, y 1, eq_ix2 y⟩
    exact h p q p (by rw [Nat.mul_zero, Nat.zero_add])

/-- The block of F at row o is F composed with any map that adds o to the row. -/
theorem IsBlockAt.eq_read {f : (⟨2, ![r, n]⟩ : Shape).Idx → α} {F : (⟨2, ![m, n]⟩ : Shape).Idx → α} {o : Nat}
    (h : IsBlockAt f F o) {e : (⟨2, ![r, n]⟩ : Shape).Idx → (⟨2, ![m, n]⟩ : Shape).Idx}
    (he : ∀ y (a : Fin 2), (e y a : Nat) = (if a.val = 0 then o else 0) + y a) : f = fun j => F (e j) :=
  funext fun j => by
    obtain ⟨p, q, rfl⟩ : ∃ (p : Fin r) (q : Fin n), j = ix2 p q := ⟨j 0, j 1, eq_ix2 j⟩
    have h0 : (e (ix2 p q) 0 : Nat) = o + p.val := (he _ 0).trans (by rfl)
    have hlt : o + p.val < m := h0 ▸ (e (ix2 p q) 0).isLt
    rw [emb_ix2 he p q ⟨_, hlt⟩ rfl]
    exact h _ _ _ rfl

end Cert.RowBlocks

end
-- ==== Proof.Reg.Dense.lean ====
import proofs.«112494_j53025666237105_2_alg».proof.Proof.Gen.KernelIdeal.Frame
import proofs.«112494_j53025666237105_2_alg».proof.Proof.Spec
import proofs.«112494_j53025666237105_2_alg».proof.Proof.LibPlainDot
import proofs.«112494_j53025666237105_2_alg».proof.Proof.RowBlocks
import Idealize.ShloMosaic.Lib.ValueLayout
import Idealize.ShloMosaic.Lib.KernelVsHost

set_option maxRecDepth 16384

noncomputable section

open scoped BigOperators
open Idealize.ShloMosaic Idealize.ShloMosaic.TcCoe Idealize.ShloMosaic.ValueIdx Idealize.SL.Sem
open Cert.RowBlocks Cert.LibPlainDot

namespace Cert.KernelIdeal.RegVal

open Cert.KernelIdeal Cert.KernelIdeal.Gen

/-- Rows o … o + 9999 of x·w + b need rows o … o + 9999 of x and the whole of w and b. -/
theorem dense_block {X : FVec Ideal Spec.SN128 .f32} {W : FVec Ideal Spec.S128x128 .f32} {B : FVec Ideal Spec.S1x128 .f32}
    {x0 : Vec Ideal S10000x128 .f32} {x1 : Vec Ideal S128x128 .f32} {x2 : Vec Ideal S1x128 .f32} {T : Nat} {f} (hf : f = out0_3 (F := Ideal))
    (h0 : IsBlockAt x0 X (T * 10000)) (h1 : IsBlockAt x1 W (T * 0)) (h2 : IsBlockAt x2 B (T * 0)) :
    IsBlockAt (f x0 x1 x2) (Spec.kdense X W B) (T * 10000) := by
  subst hf
  obtain rfl := h1.eq
  obtain rfl := h2.eq
  intro p q p' hp
  unfold out0_3 k0_pay1 Spec.kdense
  rw [View.canon_unit_zero hz]
  simp only [View.ld_unit_zero (S := S10000x128) hz, View.ld_unit_zero (S := S128x128) hz,
    View.ld_unit_zero (S := S1x128) hz, shapeCast_self]
  rw [addf_apply, addf_apply, matmul_zero_plain_apply (M := 10000) (K := 128) (N := 128)
      dot_S10000x128_S128x128_S10000x128_1_0_0_1_n_n rfl, broadcastTo_1b_ab_apply,
    dotGeneral_plain_apply, broadcastInDim_oneRow_apply]
  exact congrArg₂ (· + ·) (Finset.sum_congr rfl fun k _ => congrArg (· * _) (h0 p k p' hp)) rfl

/-- Rows o … o + 9999 of x·w + b need rows o … o + 9999 of x and the whole of w and b. -/
theorem dense_blockC {X : FVec Ideal Spec.SN128 .f32} {W : FVec Ideal Spec.S128x128 .f32} {B : FVec Ideal Spec.S1x128 .f32}
    {x0 : Vec Ideal S10000x128 .f32} {x1 : Vec Ideal S128x128 .f32} {x2 : Vec Ideal S1x128 .f32} {T : Nat} {f} (hf : f = out10_3 (F := Ideal))
    (h0 : IsBlockAt x0 X (T * 10000)) (h1 : IsBlockAt x1 W (T * 0)) (h2 : IsBlockAt x2 B (T * 0)) :
    IsBlockAt (f x0 x1 x2) (Spec.kdense X W B) (T * 10000) := by
  subst hf
  obtain rfl := h1.eq
  obtain rfl := h2.eq
  intro p q p' hp
  unfold out10_3 k10_pay1 Spec.kdense
  rw [View.canon_unit_zero hz]
  simp only [View.ld_unit_zero (S := S10000x128) hz, View.ld_unit_zero (S := S128x128) hz,
    View.ld_unit_zero (S := S1x128) hz, shapeCast_self]
  rw [addf_apply, addf_apply, matmul_zero_plain_apply (M := 10000) (K := 128) (N := 128)
      dot_S10000x128_S128x128_S10000x128_1_0_0_1_n_n rfl, broadcastTo_1b_ab_apply,
    dotGeneral_plain_apply, broadcastInDim_oneRow_apply]
  exact congrArg₂ (· + ·) (Finset.sum_congr rfl fun k _ => congrArg (· * _) (h0 p k p' hp)) rfl

/-- Rows o … o + 9999 of x·w + b need rows o … o + 9999 of x and the whole of w and b. -/
theorem dense_blockD {X : FVec Ideal Spec.SN128 .f32} {W : FVec Ideal Spec.S128x128 .f32} {B : FVec Ideal Spec.S1x128 .f32}
    {x0 : Vec Ideal S10000x128 .f32} {x1 : Vec Ideal S128x128 .f32} {x2 : Vec Ideal S1x128 .f32} {T : Nat} {f} (hf : f = out20_3 (F := Ideal))
    (h0 : IsBlockAt x0 X (T * 10000)) (h1 : IsBlockAt x1 W (T * 0)) (h2 : IsBlockAt x2 B (T * 0)) :
    IsBlockAt (f x0 x1 x2) (Spec.kdense X W B) (T * 10000) := by
  subst hf
  obtain rfl := h1.eq
  obtain rfl := h2.eq
  intro p q p' hp
  unfold out20_3 k20_pay1 Spec.kdense
  rw [View.canon_unit_zero hz]
  simp only [View.ld_unit_zero (S := S10000x128) hz, View.ld_unit_zero (S := S128x128) hz,
    View.ld_unit_zero (S := S1x128) hz, shapeCast_self]
  rw [addf_apply, addf_apply, matmul_zero_plain_apply (M := 10000) (K := 128) (N := 128)
      dot_S10000x128_S128x128_S10000x128_1_0_0_1_n_n rfl, broadcastTo_1b_ab_apply,
    dotGeneral_plain_apply, broadcastInDim_oneRow_apply]
  exact congrArg₂ (· + ·) (Finset.sum_congr rfl fun k _ => congrArg (· * _) (h0 p k p' hp)) rfl

/-- Rows o … o + 9999 of x·w + b need rows o … o + 9999 of x and the whole of w and b. -/
theorem dense1_block {X : FVec Ideal Spec.SN128 .f32} {W : FVec Ideal Spec.S128x1 .f32} {B : FVec Ideal Spec.S1x1 .f32}
    {x0 : Vec Ideal S10000x128 .f32} {x1 : Vec Ideal S128x1 .f32} {x2 : Vec Ideal S1x1 .f32} {T : Nat} {f} (hf : f = out2_3 (F := Ideal))
    (h0 : IsBlockAt x0 X (T * 10000)) (h1 : IsBlockAt x1 W (T * 0)) (h2 : IsBlockAt x2 B (T * 0)) :
    IsBlockAt (f x0 x1 x2) (Spec.kdense1 X W B) (T * 10000) := by
  subst hf
  obtain rfl := h1.eq
  obtain rfl := h2.eq
  intro p q p' hp
  unfold out2_3 k2_pay1 Spec.kdense1
  rw [View.canon_unit_zero hz]
  simp only [View.ld_unit_zero (S := S10000x128) hz, View.ld_unit_zero (S := S128x1) hz,
    View.ld_unit_zero (S := S1x1) hz, shapeCast_self]
  rw [addf_apply, addf_apply, matmul_zero_plain_apply (M := 10000) (K := 128) (N := 1)
      dot_S10000x128_S128x1_S10000x1_1_0_0_1_n_n rfl, broadcastTo_1b_ab_apply,
    dotGeneral_plain_apply, broadcastInDim_oneRow_apply]
  exact congrArg₂ (· + ·) (Finset.sum_congr rfl fun k _ => congrArg (· * _) (h0 p k p' hp)) rfl

/-- Rows o … o + 9999 of x·w + b need rows o … o + 9999 of x and the whole of w and b. -/
theorem dense1_blockC {X : FVec Ideal Spec.SN128 .f32} {W : FVec Ideal Spec.S128x1 .f32} {B : FVec Ideal Spec.S1x1 .f32}
    {x0 : Vec Ideal S10000x128 .f32} {x1 : Vec Ideal S128x1 .f32} {x2 : Vec Ideal S1x1 .f32} {T : Nat} {f} (hf : f = out15_3 (F := Ideal))
    (h0 : IsBlockAt x0 X (T * 10000)) (h1 : IsBlockAt x1 W (T * 0)) (h2 : IsBlockAt x2 B (T * 0)) :
    IsBlockAt (f x0 x1 x2) (Spec.kdense1 X W B) (T * 10000) := by
  subst hf
  obtain rfl := h1.eq
  obtain rfl := h2.eq
  intro p q p' hp
  unfold out15_3 k15_pay1 Spec.kdense1
  rw [View.canon_unit_zero hz]
  simp only [View.ld_unit_zero (S := S10000x128) hz, View.ld_unit_zero (S := S128x1) hz,
    View.ld_unit_zero (S := S1x1) hz, shapeCast_self]
  rw [addf_apply, addf_apply, matmul_zero_plain_apply (M := 10000) (K := 128) (N := 1)
      dot_S10000x128_S128x1_S10000x1_1_0_0_1_n_n rfl, broadcastTo_1b_ab_apply,
    dotGeneral_plain_apply, broadcastInDim_oneRow_apply]
  exact congrArg₂ (· + ·) (Finset.sum_congr rfl fun k _ => congrArg (· * _) (h0 p k p' hp)) rfl

/-- Rows o … o + 9999 of x·w + b need rows o … o + 9999 of x and the whole of w and b. -/
theorem dense64_block {X : FVec Ideal Spec.SN128 .f32} {W : FVec Ideal Spec.S128x64 .f32} {B : FVec Ideal Spec.S1x64 .f32}
    {x0 : Vec Ideal S10000x128 .f32} {x1 : Vec Ideal S128x64 .f32} {x2 : Vec Ideal S1x64 .f32} {T : Nat} {f} (hf : f = out22_3 (F := Ideal))
    (h0 : IsBlockAt x0 X (T * 10000)) (h1 : IsBlockAt x1 W (T * 0)) (h2 : IsBlockAt x2 B (T * 0)) :
    IsBlockAt (f x0 x1 x2) (Spec.kdense64 X W B) (T * 10000) := by
  subst hf
  obtain rfl := h1.eq
  obtain rfl := h2.eq
  intro p q p' hp
  unfold out22_3 k22_pay1 Spec.kdense64
  rw [View.canon_unit_zero hz]
  simp only [View.ld_unit_zero (S := S10000x128) hz, View.ld_unit_zero (S := S128x64) hz,
    View.ld_unit_zero (S := S1x64) hz, shapeCast_self]
  rw [addf_apply, addf_apply, matmul_zero_plain_apply (M := 10000) (K := 128) (N := 64)
      dot_S10000x128_S128x64_S10000x64_1_0_0_1_n_n rfl, broadcastTo_1b_ab_apply,
    dotGeneral_plain_apply, broadcastInDim_oneRow_apply]
  exact congrArg₂ (· + ·) (Finset.sum_congr rfl fun k _ => congrArg (· * _) (h0 p k p' hp)) rfl

variable (V : (c : Dev nD) → (b : Ref sig .tc) → Buf (Elt Ideal) ((c : Thread nD τ).loc b)) (c : Dev nD)

theorem geo0 : Steps win0_0 10000 ∧ Steps win0_1 0 ∧ Steps win0_2 0 ∧ Tiles win0_3 10000 := by decide +kernel

theorem flushed0 (t : Fin cfg0.N) :
    (dat0 (F := Ideal) V c).flushed 3 t = ((cfg0.win 3).blk t).view.read (Elt Ideal) (Spec.kdense (F := Ideal) (V c main_arg0) (V c main_v9) (V c main_v12)) := by
  show (cfg0.win 3).cut _ ((dat0 V c).after 3 t) = _
  rw [after0_3]
  exact (dense_block (f := out0_3 (F := Ideal)) rfl (isBlockAt_of_emb (V c main_arg0 : FVec Ideal Spec.SN128 .f32) (geo0.1.emb t)) (isBlockAt_of_emb (V c main_v9 : FVec Ideal Spec.S128x128 .f32) (geo0.2.1.emb t)) (isBlockAt_of_emb (V c main_v12 : FVec Ideal Spec.S1x128 .f32) (geo0.2.2.1.emb t))).eq_read (geo0.2.2.2.1.emb t)

theorem out0 : (dat0 (F := Ideal) V c).arrAt 3 cfg0.N = Spec.kdense (F := Ideal) (V c main_arg0) (V c main_v9) (V c main_v12) :=
  (dat0 V c).arrAt_eq_of_cover 3 _ (fun t _ => flushed0 V c t) (geo0.2.2.2.cover 0 rfl)

theorem geo1 : Steps win1_0 10000 ∧ Steps win1_1 0 ∧ Steps win1_2 0 ∧ Tiles win1_3 10000 := by decide +kernel

theorem flushed1 (t : Fin cfg1.N) :
    (dat1 (F := Ideal) V c).flushed 3 t = ((cfg1.win 3).blk t).view.read (Elt Ideal) (Spec.kdense (F := Ideal) (V c main_arg1) (V c main_v15) (V c main_v18)) := by
  show (cfg1.win 3).cut _ ((dat1 V c).after 3 t) = _
  rw [after1_3]
  exact (dense_block (f := out1_3 (F := Ideal)) rfl (isBlockAt_of_emb (V c main_arg1 : FVec Ideal Spec.SN128 .f32) (geo1.1.emb t)) (isBlockAt_of_emb (V c main_v15 : FVec Ideal Spec.S128x128 .f32) (geo1.2.1.emb t)) (isBlockAt_of_emb (V c main_v18 : FVec Ideal Spec.S1x128 .f32) (geo1.2.2.1.emb t))).eq_read (geo1.2.2.2.1.emb t)

theorem out1 : (dat1 (F := Ideal) V c).arrAt 3 cfg1.N = Spec.kdense (F := Ideal) (V c main_arg1) (V c main_v15) (V c main_v18) :=
  (dat1 V c).arrAt_eq_of_cover 3 _ (fun t _ => flushed1 V c t) (geo1.2.2.2.cover 0 rfl)

theorem geo10 : Steps win10_0 10000 ∧ Steps win10_1 0 ∧ Steps win10_2 0 ∧ Tiles win10_3 10000 := by decide +kernel

theorem flushed10 (t : Fin cfg10.N) :
    (dat10 (F := Ideal) V c).flushed 3 t = ((cfg10.win 3).blk t).view.read (Elt Ideal) (Spec.kdense (F := Ideal) (V c main_v172) (V c main_v187) (V c main_v190)) := by
  show (cfg10.win 3).cut _ ((dat10 V c).after 3 t) = _
  rw [after10_3]
  exact (dense_blockC (f := out10_3 (F := Ideal)) rfl (isBlockAt_of_emb (V c main_v172 : FVec Ideal Spec.SN128 .f32) (geo10.1.emb t)) (isBlockAt_of_emb (V c main_v187 : FVec Ideal Spec.S128x128 .f32) (geo10.2.1.emb t)) (isBlockAt_of_emb (V c main_v190 : FVec Ideal Spec.S1x128 .f32) (geo10.2.2.1.emb t))).eq_read (geo10.2.2.2.1.emb t)

theorem out10 : (dat10 (F := Ideal) V c).arrAt 3 cfg10.N = Spec.kdense (F := Ideal) (V c main_v172) (V c main_v187) (V c main_v190) :=
  (dat10 V c).arrAt_eq_of_cover 3 _ (fun t _ => flushed10 V c t) (geo10.2.2.2.cover 0 rfl)

theorem geo20 : Steps win20_0 10000 ∧ Steps win20_1 0 ∧ Steps win20_2 0 ∧ Tiles win20_3 10000 := by decide +kernel

theorem flushed20 (t : Fin cfg20.N) :
    (dat20 (F := Ideal) V c).flushed 3 t = ((cfg20.win 3).blk t).view.read (Elt Ideal) (Spec.kdense (F := Ideal) (V c main_v350) (V c main_arg13) (V c main_v364)) := by
  show (cfg20.win 3).cut _ ((dat20 V c).after 3 t) = _
  rw [after20_3]
  exact (dense_blockD (f := out20_3 (F := Ideal)) rfl (isBlockAt_of_emb (V c main_v350 : FVec Ideal Spec.SN128 .f32) (geo20.1.emb t)) (isBlockAt_of_emb (V c main_arg13 : FVec Ideal Spec.S128x128 .f32) (geo20.2.1.emb t)) (isBlockAt_of_emb (V c main_v364 : FVec Ideal Spec.S1x128 .f32) (geo20.2.2.1.emb t))).eq_read (geo20.2.2.2.1.emb t)

theorem out20 : (dat20 (F := Ideal) V c).arrAt 3 cfg20.N = Spec.kdense (F := Ideal) (V c main_v350) (V c main_arg13) (V c main_v364) :=
  (dat20 V c).arrAt_eq_of_cover 3 _ (fun t _ => flushed20 V c t) (geo20.2.2.2.cover 0 rfl)

theorem geo2 : Steps win2_0 10000 ∧ Steps win2_1 0 ∧ Steps win2_2 0 ∧ Tiles win2_3 10000 := by decide +kernel

theorem flushed2 (t : Fin cfg2.N) :
    (dat2 (F := Ideal) V c).flushed 3 t = ((cfg2.win 3).blk t).view.read (Elt Ideal) (Spec.kdense1 (F := Ideal) (V c main_arg1) (V c main_v32) (V c main_v35)) := by
  show (cfg2.win 3).cut _ ((dat2 V c).after 3 t) = _
  rw [after2_3]
  exact (dense1_block (f := out2_3 (F := Ideal)) rfl (isBlockAt_of_emb (V c main_arg1 : FVec Ideal Spec.SN128 .f32) (geo2.1.emb t)) (isBlockAt_of_emb (V c main_v32 : FVec Ideal Spec.S128x1 .f32) (geo2.2.1.emb t)) (isBlockAt_of_emb (V c main_v35 : FVec Ideal Spec.S1x1 .f32) (geo2.2.2.1.emb t))).eq_read (geo2.2.2.2.1.emb t)

theorem out2 : (dat2 (F := Ideal) V c).arrAt 3 cfg2.N = Spec.kdense1 (F := Ideal) (V c main_arg1) (V c main_v32) (V c main_v35) :=
  (dat2 V c).arrAt_eq_of_cover 3 _ (fun t _ => flushed2 V c t) (geo2.2.2.2.cover 0 rfl)

theorem geo5 : Steps win5_0 10000 ∧ Steps win5_1 0 ∧ Steps win5_2 0 ∧ Tiles win5_3 10000 := by decide +kernel

theorem flushed5 (t : Fin cfg5.N) :
    (dat5 (F := Ideal) V c).flushed 3 t = ((cfg5.win 3).blk t).view.read (Elt Ideal) (Spec.kdense1 (F := Ideal) (V c main_arg0) (V c main_v102) (V c main_v105)) := by
  show (cfg5.win 3).cut _ ((dat5 V c).after 3 t) = _
  rw [after5_3]
  exact (dense1_block (f := out5_3 (F := Ideal)) rfl (isBlockAt_of_emb (V c main_arg0 : FVec Ideal Spec.SN128 .f32) (geo5.1.emb t)) (isBlockAt_of_emb (V c main_v102 : FVec Ideal Spec.S128x1 .f32) (geo5.2.1.emb t)) (isBlockAt_of_emb (V c main_v105 : FVec Ideal Spec.S1x1 .f32) (geo5.2.2.1.emb t))).eq_read (geo5.2.2.2.1.emb t)

theorem out5 : (dat5 (F := Ideal) V c).arrAt 3 cfg5.N = Spec.kdense1 (F := Ideal) (V c main_arg0) (V c main_v102) (V c main_v105) :=
  (dat5 V c).arrAt_eq_of_cover 3 _ (fun t _ => flushed5 V c t) (geo5.2.2.2.cover 0 rfl)

theorem geo15 : Steps win15_0 10000 ∧ Steps win15_1 0 ∧ Steps win15_2 0 ∧ Tiles win15_3 10000 := by decide +kernel

theorem flushed15 (t : Fin cfg15.N) :
    (dat15 (F := Ideal) V c).flushed 3 t = ((cfg15.win 3).blk t).view.read (Elt Ideal) (Spec.kdense1 (F := Ideal) (V c main_v172) (V c main_v280) (V c main_v283)) := by
  show (cfg15.win 3).cut _ ((dat15 V c).after 3 t) = _
  rw [after15_3]
  exact (dense1_blockC (f := out15_3 (F := Ideal)) rfl (isBlockAt_of_emb (V c main_v172 : FVec Ideal Spec.SN128 .f32) (geo15.1.emb t)) (isBlockAt_of_emb (V c main_v280 : FVec Ideal Spec.S128x1 .f32) (geo15.2.1.emb t)) (isBlockAt_of_emb (V c main_v283 : FVec Ideal Spec.S1x1 .f32) (geo15.2.2.1.emb t))).eq_read (geo15.2.2.2.1.emb t)

theorem out15 : (dat15 (F := Ideal) V c).arrAt 3 cfg15.N = Spec.kdense1 (F := Ideal) (V c main_v172) (V c main_v280) (V c main_v283) :=
  (dat15 V c).arrAt_eq_of_cover 3 _ (fun t _ => flushed15 V c t) (geo15.2.2.2.cover 0 rfl)

theorem geo22 : Steps win22_0 10000 ∧ Steps win22_1 0 ∧ Steps win22_2 0 ∧ Tiles win22_3 10000 := by decide +kernel

theorem flushed22 (t : Fin cfg22.N) :
    (dat22 (F := Ideal) V c).flushed 3 t = ((cfg22.win 3).blk t).view.read (Elt Ideal) (Spec.kdense64 (F := Ideal) (V c main_v374) (V c main_arg17) (V c main_v375)) := by
  show (cfg22.win 3).cut _ ((dat22 V c).after 3 t) = _
  rw [after22_3]
  exact (dense64_block (f := out22_3 (F := Ideal)) rfl (isBlockAt_of_emb (V c main_v374 : FVec Ideal Spec.SN128 .f32) (geo22.1.emb t)) (isBlockAt_of_emb (V c main_arg17 : FVec Ideal Spec.S128x64 .f32) (geo22.2.1.emb t)) (isBlockAt_of_emb (V c main_v375 : FVec Ideal Spec.S1x64 .f32) (geo22.2.2.1.emb t))).eq_read (geo22.2.2.2.1.emb t)

theorem out22 : (dat22 (F := Ideal) V c).arrAt 3 cfg22.N = Spec.kdense64 (F := Ideal) (V c main_v374) (V c main_arg17) (V c main_v375) :=
  (dat22 V c).arrAt_eq_of_cover 3 _ (fun t _ => flushed22 V c t) (geo22.2.2.2.cover 0 rfl)

end Cert.KernelIdeal.RegVal

end
-- ==== Proof.Reg.FeatScore.lean ====
import proofs.«112494_j53025666237105_2_alg».proof.Proof.Gen.KernelIdeal.Frame
import proofs.«112494_j53025666237105_2_alg».proof.Proof.Spec
import proofs.«112494_j53025666237105_2_alg».proof.Proof.LibPlainDot
import proofs.«112494_j53025666237105_2_alg».proof.Proof.RowBlocks

set_option maxRecDepth 16384

noncomputable section

open scoped BigOperators
open Idealize.ShloMosaic Idealize.ShloMosaic.TcCoe Idealize.ShloMosaic.ValueIdx Idealize.SL.Sem
open Cert.RowBlocks Cert.LibPlainDot

namespace Cert.KernelIdeal.RegVal

open Cert.KernelIdeal Cert.KernelIdeal.Gen

/-- Rows o … o + 4999 of x·w need rows o … o + 4999 of x and the whole of w. -/
theorem feat_block {X : FVec Ideal Spec.SN128 .f32} {W : FVec Ideal Spec.S128x128 .f32} {x0 : Vec Ideal S5000x128 .f32}
    {x1 : Vec Ideal S128x128 .f32} {f} (hf : f = out3_3 (F := Ideal)) (x2 : Vec Ideal S128x1 .f32) {T : Nat} (h0 : IsBlockAt x0 X (T * 5000)) (h1 : IsBlockAt x1 W (T * 0)) :
    IsBlockAt (f x0 x1 x2) (Spec.kfeat X W) (T * 5000) := by
  subst hf
  obtain rfl := h1.eq
  intro p q p' hp
  unfold out3_3 k3_pay2 k3_pay1 Spec.kfeat
  rw [View.canon_unit_zero hz]
  simp only [View.ld_unit_zero (S := S5000x128) hz, View.ld_unit_zero (S := S128x128) hz, shapeCast_self]
  rw [matmul_zero_plain_apply (M := 5000) (K := 128) (N := 128) dot_S5000x128_S128x128_S5000x128_1_0_0_1_n_n rfl,
    dotGeneral_plain_apply]
  exact Finset.sum_congr rfl fun k _ => congrArg (· * _) (h0 p k p' hp)

theorem score_block {X : FVec Ideal Spec.SN128 .f32} {W : FVec Ideal Spec.S128x1 .f32} {x0 : Vec Ideal S5000x128 .f32}
    {f} (hf : f = out3_4 (F := Ideal)) (x1 : Vec Ideal S128x128 .f32) {x2 : Vec Ideal S128x1 .f32} {T : Nat} (h0 : IsBlockAt x0 X (T * 5000)) (h2 : IsBlockAt x2 W (T * 0)) :
    IsBlockAt (f x0 x1 x2) (Spec.kscore X W) (T * 5000) := by
  subst hf
  obtain rfl := h2.eq
  intro p q p' hp
  unfold out3_4 k3_pay3 k3_pay1 Spec.kscore
  rw [View.canon_unit_zero hz]
  simp only [View.ld_unit_zero (S := S5000x128) hz, View.ld_unit_zero (S := S128x1) hz, shapeCast_self]
  rw [matmul_zero_plain_apply (M := 5000) (K := 128) (N := 1) dot_S5000x128_S128x1_S5000x1_1_0_0_1_n_n rfl,
    dotGeneral_plain_apply]
  exact Finset.sum_congr rfl fun k _ => congrArg (· * _) (h0 p k p' hp)

/-- Rows o … o + 4999 of x·w need rows o … o + 4999 of x and the whole of w. -/
theorem feat_blockC {X : FVec Ideal Spec.SN128 .f32} {W : FVec Ideal Spec.S128x128 .f32} {x0 : Vec Ideal S5000x128 .f32}
    {x1 : Vec Ideal S128x128 .f32} {f} (hf : f = out16_3 (F := Ideal)) (x2 : Vec Ideal S128x1 .f32) {T : Nat} (h0 : IsBlockAt x0 X (T * 5000)) (h1 : IsBlockAt x1 W (T * 0)) :
    IsBlockAt (f x0 x1 x2) (Spec.kfeat X W) (T * 5000) := by
  subst hf
  obtain rfl := h1.eq
  intro p q p' hp
  unfold out16_3 k16_pay2 k16_pay1 Spec.kfeat
  rw [View.canon_unit_zero hz]
  simp only [View.ld_unit_zero (S := S5000x128) hz, View.ld_unit_zero (S := S128x128) hz, shapeCast_self]
  rw [matmul_zero_plain_apply (M := 5000) (K := 128) (N := 128) dot_S5000x128_S128x128_S5000x128_1_0_0_1_n_n rfl,
    dotGeneral_plain_apply]
  exact Finset.sum_congr rfl fun k _ => congrArg (· * _) (h0 p k p' hp)

theorem score_blockC {X : FVec Ideal Spec.SN128 .f32} {W : FVec Ideal Spec.S128x1 .f32} {x0 : Vec Ideal S5000x128 .f32}
    {f} (hf : f = out16_4 (F := Ideal)) (x1 : Vec Ideal S128x128 .f32) {x2 : Vec Ideal S128x1 .f32} {T : Nat} (h0 : IsBlockAt x0 X (T * 5000)) (h2 : IsBlockAt x2 W (T * 0)) :
    IsBlockAt (f x0 x1 x2) (Spec.kscore X W) (T * 5000) := by
  subst hf
  obtain rfl := h2.eq
  intro p q p' hp
  unfold out16_4 k16_pay3 k16_pay1 Spec.kscore
  rw [View.canon_unit_zero hz]
  simp only [View.ld_unit_zero (S := S5000x128) hz, View.ld_unit_zero (S := S128x1) hz, shapeCast_self]
  rw [matmul_zero_plain_apply (M := 5000) (K := 128) (N := 1) dot_S5000x128_S128x1_S5000x1_1_0_0_1_n_n rfl,
    dotGeneral_plain_apply]
  exact Finset.sum_congr rfl fun k _ => congrArg (· * _) (h0 p k p' hp)

variable (V : (c : Dev nD) → (b : Ref sig .tc) → Buf (Elt Ideal) ((c : Thread nD τ).loc b)) (c : Dev nD)

theorem geo3 : Steps win3_0 5000 ∧ Steps win3_1 0 ∧ Steps win3_2 0 ∧ Tiles win3_3 5000 ∧ Tiles win3_4 5000 := by decide +kernel

theorem flushed3a (t : Fin cfg3.N) :
    (dat3 (F := Ideal) V c).flushed 3 t = ((cfg3.win 3).blk t).view.read (Elt Ideal) (Spec.kfeat (F := Ideal) (V c main_arg0) (V c main_v21)) := by
  show (cfg3.win 3).cut _ ((dat3 V c).after 3 t) = _
  rw [after3_3]
  exact (feat_block (f := out3_3 (F := Ideal)) rfl _ (isBlockAt_of_emb (V c main_arg0 : FVec Ideal Spec.SN128 .f32) (geo3.1.emb t)) (isBlockAt_of_emb (V c main_v21 : FVec Ideal Spec.S128x128 .f32) (geo3.2.1.emb t))).eq_read (geo3.2.2.2.1.1.emb t)

theorem out3a : (dat3 (F := Ideal) V c).arrAt 3 cfg3.N = Spec.kfeat (F := Ideal) (V c main_arg0) (V c main_v21) :=
  (dat3 V c).arrAt_eq_of_cover 3 _ (fun t _ => flushed3a V c t) (geo3.2.2.2.1.cover 0 rfl)

theorem flushed3b (t : Fin cfg3.N) :
    (dat3 (F := Ideal) V c).flushed 4 t = ((cfg3.win 4).blk t).view.read (Elt Ideal) (Spec.kscore (F := Ideal) (V c main_arg0) (V c main_v33)) := by
  show (cfg3.win 4).cut _ ((dat3 V c).after 4 t) = _
  rw [after3_4]
  exact (score_block (f := out3_4 (F := Ideal)) rfl _ (isBlockAt_of_emb (V c main_arg0 : FVec Ideal Spec.SN128 .f32) (geo3.1.emb t)) (isBlockAt_of_emb (V c main_v33 : FVec Ideal Spec.S128x1 .f32) (geo3.2.2.1.emb t))).eq_read (geo3.2.2.2.2.1.emb t)

theorem out3b : (dat3 (F := Ideal) V c).arrAt 4 cfg3.N = Spec.kscore (F := Ideal) (V c main_arg0) (V c main_v33) :=
  (dat3 V c).arrAt_eq_of_cover 4 _ (fun t _ => flushed3b V c t) (geo3.2.2.2.2.cover 0 rfl)

theorem geo6 : Steps win6_0 5000 ∧ Steps win6_1 0 ∧ Steps win6_2 0 ∧ Tiles win6_3 5000 ∧ Tiles win6_4 5000 := by decide +kernel

theorem flushed6a (t : Fin cfg6.N) :
    (dat6 (F := Ideal) V c).flushed 3 t = ((cfg6.win 3).blk t).view.read (Elt Ideal) (Spec.kfeat (F := Ideal) (V c main_arg1) (V c main_v91)) := by
  show (cfg6.win 3).cut _ ((dat6 V c).after 3 t) = _
  rw [after6_3]
  exact (feat_block (f := out6_3 (F := Ideal)) rfl _ (isBlockAt_of_emb (V c main_arg1 : FVec Ideal Spec.SN128 .f32) (geo6.1.emb t)) (isBlockAt_of_emb (V c main_v91 : FVec Ideal Spec.S128x128 .f32) (geo6.2.1.emb t))).eq_read (geo6.2.2.2.1.1.emb t)

theorem out6a : (dat6 (F := Ideal) V c).arrAt 3 cfg6.N = Spec.kfeat (F := Ideal) (V c main_arg1) (V c main_v91) :=
  (dat6 V c).arrAt_eq_of_cover 3 _ (fun t _ => flushed6a V c t) (geo6.2.2.2.1.cover 0 rfl)

theorem flushed6b (t : Fin cfg6.N) :
    (dat6 (F := Ideal) V c).flushed 4 t = ((cfg6.win 4).blk t).view.read (Elt Ideal) (Spec.kscore (F := Ideal) (V c main_arg1) (V c main_v103)) := by
  show (cfg6.win 4).cut _ ((dat6 V c).after 4 t) = _
  rw [after6_4]
  exact (score_block (f := out6_4 (F := Ideal)) rfl _ (isBlockAt_of_emb (V c main_arg1 : FVec Ideal Spec.SN128 .f32) (geo6.1.emb t)) (isBlockAt_of_emb (V c main_v103 : FVec Ideal Spec.S128x1 .f32) (geo6.2.2.1.emb t))).eq_read (geo6.2.2.2.2.1.emb t)

theorem out6b : (dat6 (F := Ideal) V c).arrAt 4 cfg6.N = Spec.kscore (F := Ideal) (V c main_arg1) (V c main_v103) :=
  (dat6 V c).arrAt_eq_of_cover 4 _ (fun t _ => flushed6b V c t) (geo6.2.2.2.2.cover 0 rfl)

theorem geo16 : Steps win16_0 5000 ∧ Steps win16_1 0 ∧ Steps win16_2 0 ∧ Tiles win16_3 5000 ∧ Tiles win16_4 5000 := by decide +kernel

theorem flushed16a (t : Fin cfg16.N) :
    (dat16 (F := Ideal) V c).flushed 3 t = ((cfg16.win 3).blk t).view.read (Elt Ideal) (Spec.kfeat (F := Ideal) (V c main_v185) (V c main_v269)) := by
  show (cfg16.win 3).cut _ ((dat16 V c).after 3 t) = _
  rw [after16_3]
  exact (feat_blockC (f := out16_3 (F := Ideal)) rfl _ (isBlockAt_of_emb (V c main_v185 : FVec Ideal Spec.SN128 .f32) (geo16.1.emb t)) (isBlockAt_of_emb (V c main_v269 : FVec Ideal Spec.S128x128 .f32) (geo16.2.1.emb t))).eq_read (geo16.2.2.2.1.1.emb t)

theorem out16a : (dat16 (F := Ideal) V c).arrAt 3 cfg16.N = Spec.kfeat (F := Ideal) (V c main_v185) (V c main_v269) :=
  (dat16 V c).arrAt_eq_of_cover 3 _ (fun t _ => flushed16a V c t) (geo16.2.2.2.1.cover 0 rfl)

theorem flushed16b (t : Fin cfg16.N) :
    (dat16 (F := Ideal) V c).flushed 4 t = ((cfg16.win 4).blk t).view.read (Elt Ideal) (Spec.kscore (F := Ideal) (V c main_v185) (V c main_v281)) := by
  show (cfg16.win 4).cut _ ((dat16 V c).after 4 t) = _
  rw [after16_4]
  exact (score_blockC (f := out16_4 (F := Ideal)) rfl _ (isBlockAt_of_emb (V c main_v185 : FVec Ideal Spec.SN128 .f32) (geo16.1.emb t)) (isBlockAt_of_emb (V c main_v281 : FVec Ideal Spec.S128x1 .f32) (geo16.2.2.1.emb t))).eq_read (geo16.2.2.2.2.1.emb t)

theorem out16b : (dat16 (F := Ideal) V c).arrAt 4 cfg16.N = Spec.kscore (F := Ideal) (V c main_v185) (V c main_v281) :=
  (dat16 V c).arrAt_eq_of_cover 4 _ (fun t _ => flushed16b V c t) (geo16.2.2.2.2.cover 0 rfl)

end Cert.KernelIdeal.RegVal

end
-- ==== Proof.Reg.Addend.lean ====
import proofs.«112494_j53025666237105_2_alg».proof.Proof.Gen.KernelIdeal.Frame
import proofs.«112494_j53025666237105_2_alg».proof.Proof.Spec
import proofs.«112494_j53025666237105_2_alg».proof.Proof.LibPlainDot
import proofs.«112494_j53025666237105_2_alg».proof.Proof.RowBlocks
import Idealize.ShloMosaic.Lib.ValueLayout
import Idealize.ShloMosaic.Lib.KernelVsHost

set_option maxRecDepth 16384

noncomputable section

open scoped BigOperators
open Idealize.ShloMosaic Idealize.ShloMosaic.TcCoe Idealize.ShloMosaic.ValueIdx Idealize.SL.Sem
open Cert.RowBlocks Cert.LibPlainDot

namespace Cert.KernelIdeal.RegVal

open Cert.KernelIdeal Cert.KernelIdeal.Gen

/-- Rows o … o + 9999 of x·w + b + a need those rows of x and of a, and the whole of w and b. -/
theorem addend_block {X A : FVec Ideal Spec.SN128 .f32} {W : FVec Ideal Spec.S128x128 .f32} {B : FVec Ideal Spec.S1x128 .f32}
    {x0 x3 : Vec Ideal S10000x128 .f32} {x1 : Vec Ideal S128x128 .f32} {x2 : Vec Ideal S1x128 .f32} {T : Nat} {f} (hf : f = out4_4 (F := Ideal))
    (h0 : IsBlockAt x0 X (T * 10000)) (h1 : IsBlockAt x1 W (T * 0)) (h2 : IsBlockAt x2 B (T * 0)) (h3 : IsBlockAt x3 A (T * 10000)) :
    IsBlockAt (f x0 x1 x2 x3) (Spec.kaddend X W B A) (T * 10000) := by
  subst hf
  obtain rfl := h1.eq
  obtain rfl := h2.eq
  intro p q p' hp
  unfold out4_4 k4_pay1 Spec.kaddend
  rw [View.canon_unit_zero hz]
  simp only [View.ld_unit_zero (S := S10000x128) hz, View.ld_unit_zero (S := S128x128) hz,
    View.ld_unit_zero (S := S1x128) hz, shapeCast_self]
  rw [addf_apply, addf_apply, addf_apply, addf_apply, matmul_zero_plain_apply (M := 10000) (K := 128) (N := 128)
      dot_S10000x128_S128x128_S10000x128_1_0_0_1_n_n rfl, broadcastTo_1b_ab_apply,
    dotGeneral_plain_apply, broadcastInDim_oneRow_apply, h3 p q p' hp]
  exact congrArg₂ (· + ·) (congrArg₂ (· + ·) (Finset.sum_congr rfl fun k _ => congrArg (· * _) (h0 p k p' hp)) rfl) rfl

/-- Rows o … o + 9999 of x·w + b + a need those rows of x and of a, and the whole of w and b. -/
theorem addend_blockC {X A : FVec Ideal Spec.SN128 .f32} {W : FVec Ideal Spec.S128x128 .f32} {B : FVec Ideal Spec.S1x128 .f32}
    {x0 x3 : Vec Ideal S10000x128 .f32} {x1 : Vec Ideal S128x128 .f32} {x2 : Vec Ideal S1x128 .f32} {T : Nat} {f} (hf : f = out17_4 (F := Ideal))
    (h0 : IsBlockAt x0 X (T * 10000)) (h1 : IsBlockAt x1 W (T * 0)) (h2 : IsBlockAt x2 B (T * 0)) (h3 : IsBlockAt x3 A (T * 10000)) :
    IsBlockAt (f x0 x1 x2 x3) (Spec.kaddend X W B A) (T * 10000) := by
  subst hf
  obtain rfl := h1.eq
  obtain rfl := h2.eq
  intro p q p' hp
  unfold out17_4 k17_pay1 Spec.kaddend
  rw [View.canon_unit_zero hz]
  simp only [View.ld_unit_zero (S := S10000x128) hz, View.ld_unit_zero (S := S128x128) hz,
    View.ld_unit_zero (S := S1x128) hz, shapeCast_self]
  rw [addf_apply, addf_apply, addf_apply, addf_apply, matmul_zero_plain_apply (M := 10000) (K := 128) (N := 128)
      dot_S10000x128_S128x128_S10000x128_1_0_0_1_n_n rfl, broadcastTo_1b_ab_apply,
    dotGeneral_plain_apply, broadcastInDim_oneRow_apply, h3 p q p' hp]
  exact congrArg₂ (· + ·) (congrArg₂ (· + ·) (Finset.sum_congr rfl fun k _ => congrArg (· * _) (h0 p k p' hp)) rfl) rfl

variable (V : (c : Dev nD) → (b : Ref sig .tc) → Buf (Elt Ideal) ((c : Thread nD τ).loc b)) (c : Dev nD)

theorem geo4 : Steps win4_0 10000 ∧ Steps win4_1 0 ∧ Steps win4_2 0 ∧ Steps win4_3 10000 ∧ Tiles win4_4 10000 := by decide +kernel

theorem flushed4 (t : Fin cfg4.N) :
    (dat4 (F := Ideal) V c).flushed 4 t = ((cfg4.win 4).blk t).view.read (Elt Ideal) (Spec.kaddend (F := Ideal) (V c main_arg1) (V c main_v27) (V c main_v88) (V c main_v87)) := by
  show (cfg4.win 4).cut _ ((dat4 V c).after 4 t) = _
  rw [after4_4]
  exact (addend_block (f := out4_4 (F := Ideal)) rfl (isBlockAt_of_emb (V c main_arg1 : FVec Ideal Spec.SN128 .f32) (geo4.1.emb t)) (isBlockAt_of_emb (V c main_v27 : FVec Ideal Spec.S128x128 .f32) (geo4.2.1.emb t)) (isBlockAt_of_emb (V c main_v88 : FVec Ideal Spec.S1x128 .f32) (geo4.2.2.1.emb t)) (isBlockAt_of_emb (V c main_v87 : FVec Ideal Spec.SN128 .f32) (geo4.2.2.2.1.emb t))).eq_read (geo4.2.2.2.2.1.emb t)

theorem out4 : (dat4 (F := Ideal) V c).arrAt 4 cfg4.N = Spec.kaddend (F := Ideal) (V c main_arg1) (V c main_v27) (V c main_v88) (V c main_v87) :=
  (dat4 V c).arrAt_eq_of_cover 4 _ (fun t _ => flushed4 V c t) (geo4.2.2.2.2.cover 0 rfl)

theorem geo7 : Steps win7_0 10000 ∧ Steps win7_1 0 ∧ Steps win7_2 0 ∧ Steps win7_3 10000 ∧ Tiles win7_4 10000 := by decide +kernel

theorem flushed7 (t : Fin cfg7.N) :
    (dat7 (F := Ideal) V c).flushed 4 t = ((cfg7.win 4).blk t).view.read (Elt Ideal) (Spec.kaddend (F := Ideal) (V c main_arg0) (V c main_v97) (V c main_v158) (V c main_v157)) := by
  show (cfg7.win 4).cut _ ((dat7 V c).after 4 t) = _
  rw [after7_4]
  exact (addend_block (f := out7_4 (F := Ideal)) rfl (isBlockAt_of_emb (V c main_arg0 : FVec Ideal Spec.SN128 .f32) (geo7.1.emb t)) (isBlockAt_of_emb (V c main_v97 : FVec Ideal Spec.S128x128 .f32) (geo7.2.1.emb t)) (isBlockAt_of_emb (V c main_v158 : FVec Ideal Spec.S1x128 .f32) (geo7.2.2.1.emb t)) (isBlockAt_of_emb (V c main_v157 : FVec Ideal Spec.SN128 .f32) (geo7.2.2.2.1.emb t))).eq_read (geo7.2.2.2.2.1.emb t)

theorem out7 : (dat7 (F := Ideal) V c).arrAt 4 cfg7.N = Spec.kaddend (F := Ideal) (V c main_arg0) (V c main_v97) (V c main_v158) (V c main_v157) :=
  (dat7 V c).arrAt_eq_of_cover 4 _ (fun t _ => flushed7 V c t) (geo7.2.2.2.2.cover 0 rfl)

theorem geo17 : Steps win17_0 10000 ∧ Steps win17_1 0 ∧ Steps win17_2 0 ∧ Steps win17_3 10000 ∧ Tiles win17_4 10000 := by decide +kernel

theorem flushed17 (t : Fin cfg17.N) :
    (dat17 (F := Ideal) V c).flushed 4 t = ((cfg17.win 4).blk t).view.read (Elt Ideal) (Spec.kaddend (F := Ideal) (V c main_v172) (V c main_v275) (V c main_v336) (V c main_v335)) := by
  show (cfg17.win 4).cut _ ((dat17 V c).after 4 t) = _
  rw [after17_4]
  exact (addend_blockC (f := out17_4 (F := Ideal)) rfl (isBlockAt_of_emb (V c main_v172 : FVec Ideal Spec.SN128 .f32) (geo17.1.emb t)) (isBlockAt_of_emb (V c main_v275 : FVec Ideal Spec.S128x128 .f32) (geo17.2.1.emb t)) (isBlockAt_of_emb (V c main_v336 : FVec Ideal Spec.S1x128 .f32) (geo17.2.2.1.emb t)) (isBlockAt_of_emb (V c main_v335 : FVec Ideal Spec.SN128 .f32) (geo17.2.2.2.1.emb t))).eq_read (geo17.2.2.2.2.1.emb t)

theorem out17 : (dat17 (F := Ideal) V c).arrAt 4 cfg17.N = Spec.kaddend (F := Ideal) (V c main_v172) (V c main_v275) (V c main_v336) (V c main_v335) :=
  (dat17 V c).arrAt_eq_of_cover 4 _ (fun t _ => flushed17 V c t) (geo17.2.2.2.2.cover 0 rfl)

end Cert.KernelIdeal.RegVal

end
-- ==== Proof.Reg.BatchNorm.lean ====
import proofs.«112494_j53025666237105_2_alg».proof.Proof.Gen.KernelIdeal.Frame
import proofs.«112494_j53025666237105_2_alg».proof.Proof.Spec
import proofs.«112494_j53025666237105_2_alg».proof.Proof.LibPlainDot
import proofs.«112494_j53025666237105_2_alg».proof.Proof.RowBlocks
import Idealize.ShloMosaic.Lib.ValueLayout
import Idealize.ShloMosaic.Lib.KernelVsHost
import Idealize.ShloMosaic.Lib.IdealHost

set_option maxRecDepth 16384

noncomputable section

open scoped BigOperators
open Idealize.ShloMosaic Idealize.ShloMosaic.TcCoe Idealize.ShloMosaic.ValueIdx Idealize.SL.Sem
open Cert.RowBlocks Cert.LibPlainDot

namespace Cert.KernelIdeal.RegVal

open Cert.KernelIdeal Cert.KernelIdeal.Gen

/-- Rows o … o + 9999 of the normalised and rectified x need those rows of x and the four one-row statistics. -/
theorem bn_block {X : FVec Ideal Spec.SN128 .f32} {M W G B : FVec Ideal Spec.S1x128 .f32} {x0 : Vec Ideal S10000x128 .f32}
    {x1 x2 x3 x4 : Vec Ideal S1x128 .f32} {T : Nat} {f} (hf : f = out8_5 (F := Ideal)) (h0 : IsBlockAt x0 X (T * 10000)) (h1 : IsBlockAt x1 M (T * 0))
    (h2 : IsBlockAt x2 W (T * 0)) (h3 : IsBlockAt x3 G (T * 0)) (h4 : IsBlockAt x4 B (T * 0)) :
    IsBlockAt (f x0 x1 x2 x3 x4) (Spec.kbn X M W G B) (T * 10000) := by
  subst hf
  obtain rfl := h1.eq
  obtain rfl := h2.eq
  obtain rfl := h3.eq
  obtain rfl := h4.eq
  intro p q p' hp
  unfold out8_5 k8_pay1 Spec.kbn
  rw [View.canon_unit_zero hz]
  simp only [View.ld_unit_zero (S := S10000x128) hz, View.ld_unit_zero (S := S1x128) hz, shapeCast_self]
  rw [maximumf_apply, addf_apply, mulf_apply, mulf_apply, subf_apply, broadcast_apply,
    broadcastTo_1b_ab_apply, broadcastTo_1b_ab_apply, broadcastTo_1b_ab_apply, broadcastTo_1b_ab_apply,
    maximumf_apply, addf_apply, mulf_apply, mulf_apply, subf_apply,
    broadcastInDim_oneRow_apply, broadcastInDim_oneRow_apply, broadcastInDim_oneRow_apply, broadcastInDim_oneRow_apply,
    broadcastInDim_scalar_apply, h0 p q p' hp]
  rfl

variable (V : (c : Dev nD) → (b : Ref sig .tc) → Buf (Elt Ideal) ((c : Thread nD τ).loc b)) (c : Dev nD)

theorem geo8 : Steps win8_0 10000 ∧ Steps win8_1 0 ∧ Steps win8_2 0 ∧ Steps win8_3 0 ∧ Steps win8_4 0 ∧ Tiles win8_5 10000 := by decide +kernel

theorem flushed8 (t : Fin cfg8.N) :
    (dat8 (F := Ideal) V c).flushed 5 t = ((cfg8.win 5).blk t).view.read (Elt Ideal) (Spec.kbn (F := Ideal) (V c main_v159) (V c main_v168) (V c main_v169) (V c main_v170) (V c main_v171)) := by
  show (cfg8.win 5).cut _ ((dat8 V c).after 5 t) = _
  rw [after8_5]
  exact (bn_block (f := out8_5 (F := Ideal)) rfl (isBlockAt_of_emb (V c main_v159 : FVec Ideal Spec.SN128 .f32) (geo8.1.emb t)) (isBlockAt_of_emb (V c main_v168 : FVec Ideal Spec.S1x128 .f32) (geo8.2.1.emb t)) (isBlockAt_of_emb (V c main_v169 : FVec Ideal Spec.S1x128 .f32) (geo8.2.2.1.emb t)) (isBlockAt_of_emb (V c main_v170 : FVec Ideal Spec.S1x128 .f32) (geo8.2.2.2.1.emb t)) (isBlockAt_of_emb (V c main_v171 : FVec Ideal Spec.S1x128 .f32) (geo8.2.2.2.2.1.emb t))).eq_read (geo8.2.2.2.2.2.1.emb t)

theorem out8 : (dat8 (F := Ideal) V c).arrAt 5 cfg8.N = Spec.kbn (F := Ideal) (V c main_v159) (V c main_v168) (V c main_v169) (V c main_v170) (V c main_v171) :=
  (dat8 V c).arrAt_eq_of_cover 5 _ (fun t _ => flushed8 V c t) (geo8.2.2.2.2.2.cover 0 rfl)

theorem geo9 : Steps win9_0 10000 ∧ Steps win9_1 0 ∧ Steps win9_2 0 ∧ Steps win9_3 0 ∧ Steps win9_4 0 ∧ Tiles win9_5 10000 := by decide +kernel

theorem flushed9 (t : Fin cfg9.N) :
    (dat9 (F := Ideal) V c).flushed 5 t = ((cfg9.win 5).blk t).view.read (Elt Ideal) (Spec.kbn (F := Ideal) (V c main_v89) (V c main_v181) (V c main_v182) (V c main_v183) (V c main_v184)) := by
  show (cfg9.win 5).cut _ ((dat9 V c).after 5 t) = _
  rw [after9_5]
  exact (bn_block (f := out9_5 (F := Ideal)) rfl (isBlockAt_of_emb (V c main_v89 : FVec Ideal Spec.SN128 .f32) (geo9.1.emb t)) (isBlockAt_of_emb (V c main_v181 : FVec Ideal Spec.S1x128 .f32) (geo9.2.1.emb t)) (isBlockAt_of_emb (V c main_v182 : FVec Ideal Spec.S1x128 .f32) (geo9.2.2.1.emb t)) (isBlockAt_of_emb (V c main_v183 : FVec Ideal Spec.S1x128 .f32) (geo9.2.2.2.1.emb t)) (isBlockAt_of_emb (V c main_v184 : FVec Ideal Spec.S1x128 .f32) (geo9.2.2.2.2.1.emb t))).eq_read (geo9.2.2.2.2.2.1.emb t)

theorem out9 : (dat9 (F := Ideal) V c).arrAt 5 cfg9.N = Spec.kbn (F := Ideal) (V c main_v89) (V c main_v181) (V c main_v182) (V c main_v183) (V c main_v184) :=
  (dat9 V c).arrAt_eq_of_cover 5 _ (fun t _ => flushed9 V c t) (geo9.2.2.2.2.2.cover 0 rfl)

theorem geo18 : Steps win18_0 10000 ∧ Steps win18_1 0 ∧ Steps win18_2 0 ∧ Steps win18_3 0 ∧ Steps win18_4 0 ∧ Tiles win18_5 10000 := by decide +kernel

theorem flushed18 (t : Fin cfg18.N) :
    (dat18 (F := Ideal) V c).flushed 5 t = ((cfg18.win 5).blk t).view.read (Elt Ideal) (Spec.kbn (F := Ideal) (V c main_v337) (V c main_v346) (V c main_v347) (V c main_v348) (V c main_v349)) := by
  show (cfg18.win 5).cut _ ((dat18 V c).after 5 t) = _
  rw [after18_5]
  exact (bn_block (f := out18_5 (F := Ideal)) rfl (isBlockAt_of_emb (V c main_v337 : FVec Ideal Spec.SN128 .f32) (geo18.1.emb t)) (isBlockAt_of_emb (V c main_v346 : FVec Ideal Spec.S1x128 .f32) (geo18.2.1.emb t)) (isBlockAt_of_emb (V c main_v347 : FVec Ideal Spec.S1x128 .f32) (geo18.2.2.1.emb t)) (isBlockAt_of_emb (V c main_v348 : FVec Ideal Spec.S1x128 .f32) (geo18.2.2.2.1.emb t)) (isBlockAt_of_emb (V c main_v349 : FVec Ideal Spec.S1x128 .f32) (geo18.2.2.2.2.1.emb t))).eq_read (geo18.2.2.2.2.2.1.emb t)

theorem out18 : (dat18 (F := Ideal) V c).arrAt 5 cfg18.N = Spec.kbn (F := Ideal) (V c main_v337) (V c main_v346) (V c main_v347) (V c main_v348) (V c main_v349) :=
  (dat18 V c).arrAt_eq_of_cover 5 _ (fun t _ => flushed18 V c t) (geo18.2.2.2.2.2.cover 0 rfl)

theorem geo21 : Steps win21_0 10000 ∧ Steps win21_1 0 ∧ Steps win21_2 0 ∧ Steps win21_3 0 ∧ Steps win21_4 0 ∧ Tiles win21_5 10000 := by decide +kernel

theorem flushed21 (t : Fin cfg21.N) :
    (dat21 (F := Ideal) V c).flushed 5 t = ((cfg21.win 5).blk t).view.read (Elt Ideal) (Spec.kbn (F := Ideal) (V c main_v365) (V c main_v370) (V c main_v371) (V c main_v372) (V c main_v373)) := by
  show (cfg21.win 5).cut _ ((dat21 V c).after 5 t) = _
  rw [after21_5]
  exact (bn_block (f := out21_5 (F := Ideal)) rfl (isBlockAt_of_emb (V c main_v365 : FVec Ideal Spec.SN128 .f32) (geo21.1.emb t)) (isBlockAt_of_emb (V c main_v370 : FVec Ideal Spec.S1x128 .f32) (geo21.2.1.emb t)) (isBlockAt_of_emb (V c main_v371 : FVec Ideal Spec.S1x128 .f32) (geo21.2.2.1.emb t)) (isBlockAt_of_emb (V c main_v372 : FVec Ideal Spec.S1x128 .f32) (geo21.2.2.2.1.emb t)) (isBlockAt_of_emb (V c main_v373 : FVec Ideal Spec.S1x128 .f32) (geo21.2.2.2.2.1.emb t))).eq_read (geo21.2.2.2.2.2.1.emb t)

theorem out21 : (dat21 (F := Ideal) V c).arrAt 5 cfg21.N = Spec.kbn (F := Ideal) (V c main_v365) (V c main_v370) (V c main_v371) (V c main_v372) (V c main_v373) :=
  (dat21 V c).arrAt_eq_of_cover 5 _ (fun t _ => flushed21 V c t) (geo21.2.2.2.2.2.cover 0 rfl)

end Cert.KernelIdeal.RegVal

end
-- ==== Proof.KChainA0.lean ====
import proofs.«112494_j53025666237105_2_alg».proof.Proof.Gen.KernelIdeal.Frame
import proofs.«112494_j53025666237105_2_alg».proof.Proof.KHostA0
import proofs.«112494_j53025666237105_2_alg».proof.Proof.KKeep
import proofs.«112494_j53025666237105_2_alg».proof.Proof.KInputs
import proofs.«112494_j53025666237105_2_alg».proof.Proof.Reg.Dense
import proofs.«112494_j53025666237105_2_alg».proof.Proof.Reg.FeatScore
import proofs.«112494_j53025666237105_2_alg».proof.Proof.Reg.Addend
import proofs.«112494_j53025666237105_2_alg».proof.Proof.Reg.BatchNorm

set_option maxRecDepth 16384

noncomputable section

namespace Cert.KernelIdeal.KVal

open Cert.KernelIdeal Cert.KernelIdeal.Gen
open Idealize.ShloMosaic Idealize.ShloMosaic.TcCoe

namespace A0

open Cert.Spec (Inputs)

def srcOf (I : Inputs Ideal) : IVec Cert.Spec.SE 32 := Cert.Spec.edgeRow 0 Cert.Spec.e_0 I.e1
def dstOf (I : Inputs Ideal) : IVec Cert.Spec.SE 32 := Cert.Spec.edgeRow 1 Cert.Spec.e_1 I.e1

def swOf (I : Inputs Ideal) : FVec Ideal Cert.Spec.S128x128 .f32 := Cert.Spec.p9 0 Cert.Spec.h9_0 I.skipW
def sbOf (I : Inputs Ideal) : FVec Ideal Cert.Spec.S128 .f32 := Cert.Spec.p10 0 Cert.Spec.h10_0 I.skipB

def cwOf (I : Inputs Ideal) : FVec Ideal Cert.Spec.S128x128 .f32 := Cert.Spec.p4 0 1 Cert.Spec.h4_01 I.convW
def pwOf (I : Inputs Ideal) : FVec Ideal Cert.Spec.S256x1 .f32 := Cert.Spec.p5 0 1 Cert.Spec.h5_01 I.projW
def pbOf (I : Inputs Ideal) : FVec Ideal Cert.Spec.S1 .f32 := Cert.Spec.p6 0 1 Cert.Spec.h6_01 I.projB
def rwOf (I : Inputs Ideal) : FVec Ideal Cert.Spec.S128x128 .f32 := Cert.Spec.p4 0 1 Cert.Spec.h4_01 I.resW
def biasOf (I : Inputs Ideal) : FVec Ideal Cert.Spec.S128 .f32 := Cert.Spec.p8 0 1 Cert.Spec.h8_01 I.gatB

def gOf (I : Inputs Ideal) : FVec Ideal Cert.Spec.S128 .f32 := Cert.Spec.p10 0 Cert.Spec.h10_0 I.bnG
def bOf (I : Inputs Ideal) : FVec Ideal Cert.Spec.S128 .f32 := Cert.Spec.p10 0 Cert.Spec.h10_0 I.bnB

def tempOf (I : Inputs Ideal) : FVec Ideal Cert.Spec.SN128 .f32 :=
  Cert.Spec.kdense I.x0 (swOf I) (Cert.Spec.row128 (sbOf I))

def addendOf (I : Inputs Ideal) : FVec Ideal Cert.Spec.SN128 .f32 :=
  Cert.Spec.kaddendOf I.x0 I.x1 (srcOf I) (dstOf I) (cwOf I) (pwOf I) (pbOf I) (tempOf I)

def preOf (I : Inputs Ideal) : FVec Ideal Cert.Spec.SN128 .f32 :=
  Cert.Spec.kaddend I.x0 (rwOf I) (Cert.Spec.row128 (biasOf I)) (addendOf I)

theorem kA0_eq (I : Inputs Ideal) :
    Cert.Spec.kA0 I = Cert.Spec.kbn (preOf I) (Cert.Spec.row128 (Cert.Spec.meanOf (preOf I)))
      (Cert.Spec.row128 (Cert.Spec.varOf (preOf I))) (Cert.Spec.row128 (gOf I)) (Cert.Spec.row128 (bOf I)) := rfl

variable (m : (ℓ : Loc nD τ sig) → Buf (Elt Ideal) ℓ) (ρ : Dev nD → PrngReg)

theorem W0_x0 (c : Dev nD) : W0 m ρ c (Proc.devRef .tc main_arg0) = (inputsOf m c).x0 := rfl
theorem W0_x1 (c : Dev nD) : W0 m ρ c (Proc.devRef .tc main_arg1) = (inputsOf m c).x1 := rfl
theorem W0_e1 (c : Dev nD) : W0 m ρ c (Proc.devRef .tc main_arg3) = (inputsOf m c).e1 := rfl
theorem W0_convW (c : Dev nD) : W0 m ρ c (Proc.devRef .tc main_arg4) = (inputsOf m c).convW := rfl
theorem W0_projW (c : Dev nD) : W0 m ρ c (Proc.devRef .tc main_arg5) = (inputsOf m c).projW := rfl
theorem W0_projB (c : Dev nD) : W0 m ρ c (Proc.devRef .tc main_arg6) = (inputsOf m c).projB := rfl
theorem W0_resW (c : Dev nD) : W0 m ρ c (Proc.devRef .tc main_arg7) = (inputsOf m c).resW := rfl
theorem W0_gatB (c : Dev nD) : W0 m ρ c (Proc.devRef .tc main_arg8) = (inputsOf m c).gatB := rfl
theorem W0_skipW (c : Dev nD) : W0 m ρ c (Proc.devRef .tc main_arg9) = (inputsOf m c).skipW := rfl
theorem W0_skipB (c : Dev nD) : W0 m ρ c (Proc.devRef .tc main_arg10) = (inputsOf m c).skipB := rfl
theorem W0_bnG (c : Dev nD) : W0 m ρ c (Proc.devRef .tc main_arg11) = (inputsOf m c).bnG := rfl
theorem W0_bnB (c : Dev nD) : W0 m ρ c (Proc.devRef .tc main_arg12) = (inputsOf m c).bnB := rfl

theorem x0_at1 (c : Dev nD) : W1 m ρ c (Proc.devRef .tc main_arg0) = (inputsOf m c).x0 := Eq.trans (keep_range% 1 0) (W0_x0 m ρ c)
theorem x0_at12 (c : Dev nD) : W12 m ρ c (Proc.devRef .tc main_arg0) = (inputsOf m c).x0 := Eq.trans (keep_range% 12 0) (W0_x0 m ρ c)
theorem x0_at17 (c : Dev nD) : W17 m ρ c (Proc.devRef .tc main_arg0) = (inputsOf m c).x0 := Eq.trans (keep_range% 17 0) (W0_x0 m ρ c)
theorem x1_at13 (c : Dev nD) : W13 m ρ c (Proc.devRef .tc main_arg1) = (inputsOf m c).x1 := Eq.trans (keep_range% 13 0) (W0_x1 m ρ c)
theorem convW_at11 (c : Dev nD) : W11 m ρ c (Proc.devRef .tc main_arg4) = (inputsOf m c).convW := Eq.trans (keep_range% 11 0) (W0_convW m ρ c)
theorem projW_at11 (c : Dev nD) : W11 m ρ c (Proc.devRef .tc main_arg5) = (inputsOf m c).projW := Eq.trans (keep_range% 11 0) (W0_projW m ρ c)
theorem projB_at11 (c : Dev nD) : W11 m ρ c (Proc.devRef .tc main_arg6) = (inputsOf m c).projB := Eq.trans (keep_range% 11 0) (W0_projB m ρ c)
theorem resW_at11 (c : Dev nD) : W11 m ρ c (Proc.devRef .tc main_arg7) = (inputsOf m c).resW := Eq.trans (keep_range% 11 0) (W0_resW m ρ c)
theorem gatB_at11 (c : Dev nD) : W11 m ρ c (Proc.devRef .tc main_arg8) = (inputsOf m c).gatB := Eq.trans (keep_range% 11 0) (W0_gatB m ρ c)
theorem bnG_at18 (c : Dev nD) : W18 m ρ c (Proc.devRef .tc main_arg11) = (inputsOf m c).bnG := Eq.trans (keep_range% 18 0) (W0_bnG m ρ c)
theorem bnB_at18 (c : Dev nD) : W18 m ρ c (Proc.devRef .tc main_arg12) = (inputsOf m c).bnB := Eq.trans (keep_range% 18 0) (W0_bnB m ρ c)

theorem v3_at1 (c : Dev nD) : W1 m ρ c (Proc.devRef .tc main_v3) = srcOf (inputsOf m c) := (host0_v3 (W0 m ρ c)).trans rfl
theorem v7_at1 (c : Dev nD) : W1 m ρ c (Proc.devRef .tc main_v7) = dstOf (inputsOf m c) := (host0_v7 (W0 m ρ c)).trans rfl
theorem v9_at1 (c : Dev nD) : W1 m ρ c (Proc.devRef .tc main_v9) = swOf (inputsOf m c) := (host0_v9 (W0 m ρ c)).trans rfl
theorem v12_at1 (c : Dev nD) : W1 m ρ c (Proc.devRef .tc main_v12) = Cert.Spec.row128 (sbOf (inputsOf m c)) := (host0_v12 (W0 m ρ c)).trans rfl
theorem v3_at14 (c : Dev nD) : W14 m ρ c (Proc.devRef .tc main_v3) = srcOf (inputsOf m c) := Eq.trans (keep_range% 14 1) (v3_at1 m ρ c)
theorem v7_at14 (c : Dev nD) : W14 m ρ c (Proc.devRef .tc main_v7) = dstOf (inputsOf m c) := Eq.trans (keep_range% 14 1) (v7_at1 m ρ c)

theorem v13_at2 (c : Dev nD) : W2 m ρ c (Proc.devRef .tc main_v13) = tempOf (inputsOf m c) := by
  refine (W2_arr m ρ c 3).trans ((Cert.KernelIdeal.RegVal.out0 (V1 m ρ) c).trans ?_)
  show Cert.Spec.kdense (F := Ideal) (W1 m ρ c (Proc.devRef .tc main_arg0)) (W1 m ρ c (Proc.devRef .tc main_v9)) (W1 m ρ c (Proc.devRef .tc main_v12)) = _
  rw [x0_at1 m ρ c, v9_at1 m ρ c, v12_at1 m ρ c]
  rfl
theorem v13_at14 (c : Dev nD) : W14 m ρ c (Proc.devRef .tc main_v13) = tempOf (inputsOf m c) := Eq.trans (keep_range% 14 2) (v13_at2 m ρ c)

theorem v91_at12 (c : Dev nD) : W12 m ρ c (Proc.devRef .tc main_v91) = cwOf (inputsOf m c) := by
  refine (host5_v91 (W11 m ρ c)).trans ?_
  rw [convW_at11 m ρ c]; rfl
theorem v95_at12 (c : Dev nD) : W12 m ρ c (Proc.devRef .tc main_v95) = pbOf (inputsOf m c) := by
  refine (host5_v95 (W11 m ρ c)).trans ?_
  rw [projB_at11 m ρ c]; rfl
theorem v97_at12 (c : Dev nD) : W12 m ρ c (Proc.devRef .tc main_v97) = rwOf (inputsOf m c) := by
  refine (host5_v97 (W11 m ρ c)).trans ?_
  rw [resW_at11 m ρ c]; rfl
theorem v99_at12 (c : Dev nD) : W12 m ρ c (Proc.devRef .tc main_v99) = biasOf (inputsOf m c) := by
  refine (host5_v99 (W11 m ρ c)).trans ?_
  rw [gatB_at11 m ρ c]; rfl
theorem v102_at12 (c : Dev nD) : W12 m ρ c (Proc.devRef .tc main_v102) = Cert.Spec.wsLo (cwOf (inputsOf m c)) (pwOf (inputsOf m c)) := by
  refine (host5_v102 (W11 m ρ c)).trans ?_
  rw [convW_at11 m ρ c, projW_at11 m ρ c]; rfl
theorem v103_at12 (c : Dev nD) : W12 m ρ c (Proc.devRef .tc main_v103) = Cert.Spec.wsHi (cwOf (inputsOf m c)) (pwOf (inputsOf m c)) := by
  refine (host5_v103 (W11 m ρ c)).trans ?_
  rw [convW_at11 m ρ c, projW_at11 m ρ c]; rfl
theorem v105_at12 (c : Dev nD) : W12 m ρ c (Proc.devRef .tc main_v105) = Cert.Spec.kzero11 (F := Ideal) := host5_v105 (W11 m ρ c)

theorem v91_at13 (c : Dev nD) : W13 m ρ c (Proc.devRef .tc main_v91) = cwOf (inputsOf m c) := Eq.trans (keep_range% 13 12) (v91_at12 m ρ c)
theorem v103_at13 (c : Dev nD) : W13 m ρ c (Proc.devRef .tc main_v103) = Cert.Spec.wsHi (cwOf (inputsOf m c)) (pwOf (inputsOf m c)) :=
  Eq.trans (keep_range% 13 12) (v103_at12 m ρ c)
theorem v95_at14 (c : Dev nD) : W14 m ρ c (Proc.devRef .tc main_v95) = pbOf (inputsOf m c) := Eq.trans (keep_range% 14 12) (v95_at12 m ρ c)
theorem v99_at14 (c : Dev nD) : W14 m ρ c (Proc.devRef .tc main_v99) = biasOf (inputsOf m c) := Eq.trans (keep_range% 14 12) (v99_at12 m ρ c)
theorem v97_at17 (c : Dev nD) : W17 m ρ c (Proc.devRef .tc main_v97) = rwOf (inputsOf m c) := Eq.trans (keep_range% 17 12) (v97_at12 m ρ c)

theorem v106_at13 (c : Dev nD) :
    W13 m ρ c (Proc.devRef .tc main_v106) = Cert.Spec.kdense1 (inputsOf m c).x0 (Cert.Spec.wsLo (cwOf (inputsOf m c)) (pwOf (inputsOf m c))) Cert.Spec.kzero11 := by
  refine (W13_arr m ρ c 3).trans ((Cert.KernelIdeal.RegVal.out5 (V12 m ρ) c).trans ?_)
  show Cert.Spec.kdense1 (F := Ideal) (W12 m ρ c (Proc.devRef .tc main_arg0)) (W12 m ρ c (Proc.devRef .tc main_v102)) (W12 m ρ c (Proc.devRef .tc main_v105)) = _
  rw [x0_at12 m ρ c, v102_at12 m ρ c, v105_at12 m ρ c]
theorem v106_at14 (c : Dev nD) :
    W14 m ρ c (Proc.devRef .tc main_v106) = Cert.Spec.kdense1 (inputsOf m c).x0 (Cert.Spec.wsLo (cwOf (inputsOf m c)) (pwOf (inputsOf m c))) Cert.Spec.kzero11 :=
  Eq.trans (keep_range% 14 13) (v106_at13 m ρ c)
theorem v107_0_at14 (c : Dev nD) : W14 m ρ c (Proc.devRef .tc main_v107_0) = Cert.Spec.kfeat (inputsOf m c).x1 (cwOf (inputsOf m c)) := by
  refine (W14_arr m ρ c 3).trans ((Cert.KernelIdeal.RegVal.out6a (V13 m ρ) c).trans ?_)
  show Cert.Spec.kfeat (F := Ideal) (W13 m ρ c (Proc.devRef .tc main_arg1)) (W13 m ρ c (Proc.devRef .tc main_v91)) = _
  rw [x1_at13 m ρ c, v91_at13 m ρ c]
theorem v107_1_at14 (c : Dev nD) :
    W14 m ρ c (Proc.devRef .tc main_v107_1) = Cert.Spec.kscore (inputsOf m c).x1 (Cert.Spec.wsHi (cwOf (inputsOf m c)) (pwOf (inputsOf m c))) := by
  refine (W14_arr m ρ c 4).trans ((Cert.KernelIdeal.RegVal.out6b (V13 m ρ) c).trans ?_)
  show Cert.Spec.kscore (F := Ideal) (W13 m ρ c (Proc.devRef .tc main_arg1)) (W13 m ρ c (Proc.devRef .tc main_v103)) = _
  rw [x1_at13 m ρ c, v103_at13 m ρ c]

theorem v157_at17 (c : Dev nD) : W17 m ρ c (Proc.devRef .tc main_v157) = addendOf (inputsOf m c) := by
  refine (host7_v157 (W14 m ρ c)).trans ?_
  rw [v13_at14 m ρ c, v106_at14 m ρ c, v107_1_at14 m ρ c, v107_0_at14 m ρ c, v3_at14 m ρ c, v7_at14 m ρ c,
    v95_at14 m ρ c]
  rfl
theorem v158_at17 (c : Dev nD) : W17 m ρ c (Proc.devRef .tc main_v158) = Cert.Spec.row128 (biasOf (inputsOf m c)) := by
  refine (host7_v158 (W14 m ρ c)).trans ?_
  rw [v99_at14 m ρ c]
theorem v159_at18 (c : Dev nD) : W18 m ρ c (Proc.devRef .tc main_v159) = preOf (inputsOf m c) := by
  refine (W18_arr m ρ c 4).trans ((Cert.KernelIdeal.RegVal.out7 (V17 m ρ) c).trans ?_)
  show Cert.Spec.kaddend (F := Ideal) (W17 m ρ c (Proc.devRef .tc main_arg0)) (W17 m ρ c (Proc.devRef .tc main_v97)) (W17 m ρ c (Proc.devRef .tc main_v158)) (W17 m ρ c (Proc.devRef .tc main_v157)) = _
  rw [x0_at17 m ρ c, v97_at17 m ρ c, v158_at17 m ρ c, v157_at17 m ρ c]
  rfl

theorem v159_at21 (c : Dev nD) : W21 m ρ c (Proc.devRef .tc main_v159) = preOf (inputsOf m c) := Eq.trans (keep_range% 21 18) (v159_at18 m ρ c)
theorem v168_at21 (c : Dev nD) : W21 m ρ c (Proc.devRef .tc main_v168) = Cert.Spec.row128 (Cert.Spec.meanOf (preOf (inputsOf m c))) := by
  refine (host8_v168 (W18 m ρ c)).trans ?_
  rw [v159_at18 m ρ c]
theorem v169_at21 (c : Dev nD) : W21 m ρ c (Proc.devRef .tc main_v169) = Cert.Spec.row128 (Cert.Spec.varOf (preOf (inputsOf m c))) := by
  refine (host8_v169 (W18 m ρ c)).trans ?_
  rw [v159_at18 m ρ c]
theorem v170_at21 (c : Dev nD) : W21 m ρ c (Proc.devRef .tc main_v170) = Cert.Spec.row128 (gOf (inputsOf m c)) := by
  refine (host8_v170 (W18 m ρ c)).trans ?_
  rw [bnG_at18 m ρ c]; rfl
theorem v171_at21 (c : Dev nD) : W21 m ρ c (Proc.devRef .tc main_v171) = Cert.Spec.row128 (bOf (inputsOf m c)) := by
  refine (host8_v171 (W18 m ρ c)).trans ?_
  rw [bnB_at18 m ρ c]; rfl
theorem v172_at22 (c : Dev nD) : W22 m ρ c (Proc.devRef .tc main_v172) = Cert.Spec.kA0 (inputsOf m c) := by
  refine (W22_arr m ρ c 5).trans ((Cert.KernelIdeal.RegVal.out8 (V21 m ρ) c).trans ?_)
  show Cert.Spec.kbn (F := Ideal) (W21 m ρ c (Proc.devRef .tc main_v159)) (W21 m ρ c (Proc.devRef .tc main_v168)) (W21 m ρ c (Proc.devRef .tc main_v169)) (W21 m ρ c (Proc.devRef .tc main_v170)) (W21 m ρ c (Proc.devRef .tc main_v171)) = _
  rw [v159_at21 m ρ c, v168_at21 m ρ c, v169_at21 m ρ c, v170_at21 m ρ c, v171_at21 m ρ c, kA0_eq]

end A0

theorem layer0_type0 (m : (ℓ : Loc nD τ sig) → Buf (Elt Ideal) ℓ) (ρ : Dev nD → PrngReg) (c : Dev nD) :
    W26 m ρ c (Proc.devRef .tc main_v172) = Cert.Spec.kA0 (inputsOf m c) :=
  Eq.trans (keep_range% 26 22) (A0.v172_at22 m ρ c)

end Cert.KernelIdeal.KVal

end
-- ==== Proof.KHostA1.lean ====
import proofs.«112494_j53025666237105_2_alg».proof.Proof.Gen.KernelIdeal.Launch
import proofs.«112494_j53025666237105_2_alg».proof.Proof.Net
import proofs.«112494_j53025666237105_2_alg».proof.Proof.KWrites
import Idealize.ShloMosaic.Lib.StableHlo.Run

set_option maxRecDepth 16384

noncomputable section

namespace Cert.KernelIdeal.KVal.A1

open Cert.KernelIdeal Cert.KernelIdeal.Gen
open Idealize.ShloMosaic Idealize.ShloMosaic.TcCoe

variable (W : Valuation τ sig (Elt Ideal))

local notation:max "⟪" b "⟫" => W (Proc.devRef Proc.tc b)

theorem h0_v1 : StableHlo.after hostOps0 W (Proc.devRef .tc main_v1) = Spec.edgeRow 0 Spec.e_0 ⟪main_arg2⟫ := by
  simp only [hostOps0]; after_results; rfl
theorem h0_v5 : StableHlo.after hostOps0 W (Proc.devRef .tc main_v5) = Spec.edgeRow 1 Spec.e_1 ⟪main_arg2⟫ := by
  simp only [hostOps0]; after_results; rfl

theorem h1_v15 : StableHlo.after hostOps1 W (Proc.devRef .tc main_v15) = Spec.p9 (F := Ideal) 0 Spec.h9_0 ⟪main_arg9⟫ := by
  simp only [hostOps1]; after_results; rfl
theorem h1_v18 : StableHlo.after hostOps1 W (Proc.devRef .tc main_v18)
    = Spec.row128 (F := Ideal) (Spec.p10 0 Spec.h10_0 ⟪main_arg10⟫) := by
  simp only [hostOps1]; after_results; rfl

theorem h2_v21 : StableHlo.after hostOps2 W (Proc.devRef .tc main_v21) = Spec.p4 (F := Ideal) 0 0 Spec.h4_00 ⟪main_arg4⟫ := by
  simp only [hostOps2]; after_results; rfl
theorem h2_v25 : StableHlo.after hostOps2 W (Proc.devRef .tc main_v25) = Spec.p6 (F := Ideal) 0 0 Spec.h6_00 ⟪main_arg6⟫ := by
  simp only [hostOps2]; after_results; rfl
theorem h2_v27 : StableHlo.after hostOps2 W (Proc.devRef .tc main_v27) = Spec.p4 (F := Ideal) 0 0 Spec.h4_00 ⟪main_arg7⟫ := by
  simp only [hostOps2]; after_results; rfl
theorem h2_v29 : StableHlo.after hostOps2 W (Proc.devRef .tc main_v29) = Spec.p8 (F := Ideal) 0 0 Spec.h8_00 ⟪main_arg8⟫ := by
  simp only [hostOps2]; after_results; rfl
theorem h2_v32 : StableHlo.after hostOps2 W (Proc.devRef .tc main_v32)
    = Spec.wsLo (F := Ideal) (Spec.p4 0 0 Spec.h4_00 ⟪main_arg4⟫) (Spec.p5 0 0 Spec.h5_00 ⟪main_arg5⟫) := by
  simp only [hostOps2]; after_results; rfl
theorem h2_v33 : StableHlo.after hostOps2 W (Proc.devRef .tc main_v33)
    = Spec.wsHi (F := Ideal) (Spec.p4 0 0 Spec.h4_00 ⟪main_arg4⟫) (Spec.p5 0 0 Spec.h5_00 ⟪main_arg5⟫) := by
  simp only [hostOps2]; after_results; rfl
theorem h2_v35 : StableHlo.after hostOps2 W (Proc.devRef .tc main_v35) = (Spec.kzero11 (F := Ideal)) := by
  simp only [hostOps2]; after_results; rfl

def aggE (e : FVec Ideal Spec.SE1 .f32) (hj : FVec Ideal Spec.SN128 .f32) (src dst : IVec Spec.SE 32) : FVec Ideal Spec.SN128 .f32 :=
  Host.scatterAdd Spec.sRow (broadcastInDim Spec.SN128 ![] Spec.bc_S_SN128 (constant Spec.S_ .f32 0x00000000#32))
    (broadcastInDim Spec.SE1 ![0] Spec.bc_SE_SE1 dst)
    (mulf (Host.gather Spec.gRow hj (Spec.normIdx src))
      (broadcastInDim Spec.SE128 ![0, 1] Spec.bc_SE1_SE128
        (Host.divf e
          (addf
            (Host.gather Spec.gCol
              (Host.scatterAdd Spec.sCol (broadcastInDim Spec.SN1 ![] Spec.bc_S_SN1 (constant Spec.S_ .f32 0x00000000#32))
                (broadcastInDim Spec.SE1 ![0] Spec.bc_SE_SE1 dst) e)
              (Spec.normIdx src))
            (broadcastInDim Spec.SE1 ![] Spec.bc_S_SE1 (constant Spec.S_ .f32 0x24E69595#32))))))

def leaky (s : FVec Ideal Spec.SE1 .f32) : FVec Ideal Spec.SE1 .f32 :=
  select (cmpf .ogt s (broadcastInDim Spec.SE1 ![] Spec.bc_S_SE1 (constant Spec.S_ .f32 0x00000000#32))) s
    (mulf (broadcastInDim Spec.SE1 ![] Spec.bc_S_SE1 (constant Spec.S_ .f32 0x3E4CCCCD#32)) s)

theorem edgeAgg_eq (s : FVec Ideal Spec.SE1 .f32) (hj : FVec Ideal Spec.SN128 .f32) (src dst : IVec Spec.SE 32) :
    Spec.edgeAgg s hj src dst = aggE (Host.exp (leaky s)) hj src dst := rfl

theorem h4_v55 : StableHlo.after hostOps4 W (Proc.devRef .tc main_v55)
    = Spec.scoreK (F := Ideal) ⟪main_v36⟫ ⟪main_v37_1⟫ ⟪main_v1⟫ ⟪main_v5⟫ ⟪main_v25⟫ := by
  simp only [hostOps4]; after_results_simp; rfl
theorem h4_v57 : StableHlo.after hostOps4 W (Proc.devRef .tc main_v57)
    = cmpf .ogt (Spec.scoreK (F := Ideal) ⟪main_v36⟫ ⟪main_v37_1⟫ ⟪main_v1⟫ ⟪main_v5⟫ ⟪main_v25⟫)
        (broadcastInDim Spec.SE1 ![] Spec.bc_S_SE1 (constant Spec.S_ .f32 0x00000000#32)) := by
  simp only [hostOps4]; after_results_simp; rfl
theorem h4_v59 : StableHlo.after hostOps4 W (Proc.devRef .tc main_v59)
    = mulf (broadcastInDim Spec.SE1 ![] Spec.bc_S_SE1 (constant Spec.S_ .f32 0x3E4CCCCD#32))
        (Spec.scoreK (F := Ideal) ⟪main_v36⟫ ⟪main_v37_1⟫ ⟪main_v1⟫ ⟪main_v5⟫ ⟪main_v25⟫) := by
  simp only [hostOps4]; after_results_simp; rfl

theorem h41_v60 : StableHlo.after hostOps4_1 W (Proc.devRef .tc main_v60)
    = (select ⟪main_v57⟫ ⟪main_v55⟫ ⟪main_v59⟫ : FVec Ideal Spec.SE1 .f32) := by
  simp only [hostOps4_1]; after_results
  simp only [StableHlo.TRef.ofBuf, StableHlo.TRef.toBuf, cast_eq]

theorem h42_v87 : StableHlo.after hostOps4_2 W (Proc.devRef .tc main_v87)
    = addf (⟪main_v19⟫ : FVec Ideal Spec.SN128 .f32) (aggE (Host.exp ⟪main_v60⟫) ⟪main_v37_0⟫ ⟪main_v1⟫ ⟪main_v5⟫) := by
  simp only [hostOps4_2]; after_results_simp; rfl
theorem h42_v88 : StableHlo.after hostOps4_2 W (Proc.devRef .tc main_v88) = Spec.row128 (F := Ideal) ⟪main_v29⟫ := by
  simp only [hostOps4_2]; after_results_simp; rfl

theorem k4 {b : Ref sig .tc} (hb : b ∉ hostOps4_W) : StableHlo.after hostOps4 W (Proc.devRef .tc b) = ⟪b⟫ :=
  StableHlo.after_of_writes_sub _ _ hostOps4_writes hb
theorem k41 {b : Ref sig .tc} (hb : b ∉ hostOps4_1_W) : StableHlo.after hostOps4_1 W (Proc.devRef .tc b) = ⟪b⟫ :=
  StableHlo.after_of_writes_sub _ _ hostOps4_1_writes hb

theorem s4_v87 :
    StableHlo.after hostOps4_2 (StableHlo.after hostOps4_1 (StableHlo.after hostOps4 W)) (Proc.devRef .tc main_v87)
      = addf (⟪main_v19⟫ : FVec Ideal Spec.SN128 .f32)
          (Spec.edgeAgg (Spec.scoreK (F := Ideal) ⟪main_v36⟫ ⟪main_v37_1⟫ ⟪main_v1⟫ ⟪main_v5⟫ ⟪main_v25⟫) ⟪main_v37_0⟫ ⟪main_v1⟫ ⟪main_v5⟫) := by
  rw [h42_v87, h41_v60, h4_v57, h4_v55, h4_v59,
    k41 _ (b := main_v19) (by decide), k41 _ (b := main_v37_0) (by decide), k41 _ (b := main_v1) (by decide), k41 _ (b := main_v5) (by decide),
    k4 _ (b := main_v19) (by decide), k4 _ (b := main_v37_0) (by decide), k4 _ (b := main_v1) (by decide), k4 _ (b := main_v5) (by decide), edgeAgg_eq]
  rfl
theorem s4_v88 :
    StableHlo.after hostOps4_2 (StableHlo.after hostOps4_1 (StableHlo.after hostOps4 W)) (Proc.devRef .tc main_v88)
      = Spec.row128 (F := Ideal) ⟪main_v29⟫ := by
  rw [h42_v88, k41 _ (b := main_v29) (by decide), k4 _ (b := main_v29) (by decide)]

theorem h9_v175 : StableHlo.after hostOps9 W (Proc.devRef .tc main_v175) = Spec.meanOf (F := Ideal) ⟪main_v89⟫ := by
  simp only [hostOps9]; after_results; rfl
theorem h9_c31 : StableHlo.after hostOps9 W (Proc.devRef .tc main_c_31) = (constantI Spec.S_ 32 0#32 : IVec Spec.S_ 32) := by
  simp only [hostOps9]; after_results
theorem h91_v176 (h : ⟪main_c_31⟫ = (constantI Spec.S_ 32 0#32 : IVec Spec.S_ 32)) :
    StableHlo.after hostOps9_1 W (Proc.devRef .tc main_v176) = Spec.varOf (F := Ideal) ⟪main_v89⟫ := by
  simp only [hostOps9_1]; after_results
  simp only [StableHlo.TRef.ofBuf, StableHlo.TRef.toBuf, cast_eq]
  rw [h]; rfl
theorem h92_v181 : StableHlo.after hostOps9_2 W (Proc.devRef .tc main_v181) = Spec.row128 (F := Ideal) ⟪main_v175⟫ := by
  simp only [hostOps9_2]; after_results; rfl
theorem h92_v182 : StableHlo.after hostOps9_2 W (Proc.devRef .tc main_v182) = Spec.row128 (F := Ideal) ⟪main_v176⟫ := by
  simp only [hostOps9_2]; after_results; rfl
theorem h92_v183 : StableHlo.after hostOps9_2 W (Proc.devRef .tc main_v183)
    = Spec.row128 (F := Ideal) (Spec.p10 0 Spec.h10_0 ⟪main_arg11⟫) := by
  simp only [hostOps9_2]; after_results; rfl
theorem h92_v184 : StableHlo.after hostOps9_2 W (Proc.devRef .tc main_v184)
    = Spec.row128 (F := Ideal) (Spec.p10 0 Spec.h10_0 ⟪main_arg12⟫) := by
  simp only [hostOps9_2]; after_results; rfl

theorem k9 {b : Ref sig .tc} (hb : b ∉ hostOps9_W) : StableHlo.after hostOps9 W (Proc.devRef .tc b) = ⟪b⟫ :=
  StableHlo.after_of_writes_sub _ _ hostOps9_writes hb
theorem k91 {b : Ref sig .tc} (hb : b ∉ hostOps9_1_W) : StableHlo.after hostOps9_1 W (Proc.devRef .tc b) = ⟪b⟫ :=
  StableHlo.after_of_writes_sub _ _ hostOps9_1_writes hb
theorem k92 {b : Ref sig .tc} (hb : b ∉ hostOps9_2_W) : StableHlo.after hostOps9_2 W (Proc.devRef .tc b) = ⟪b⟫ :=
  StableHlo.after_of_writes_sub _ _ hostOps9_2_writes hb

local notation "after9" => StableHlo.after hostOps9_2 (StableHlo.after hostOps9_1 (StableHlo.after hostOps9 W))

theorem s9_v89 : after9 (Proc.devRef .tc main_v89) = ⟪main_v89⟫ := by
  rw [k92 _ (b := main_v89) (by decide), k91 _ (b := main_v89) (by decide), k9 _ (b := main_v89) (by decide)]
theorem s9_v181 : after9 (Proc.devRef .tc main_v181) = Spec.row128 (F := Ideal) (Spec.meanOf ⟪main_v89⟫) := by
  rw [h92_v181, k91 _ (b := main_v175) (by decide), h9_v175]
theorem s9_v182 : after9 (Proc.devRef .tc main_v182) = Spec.row128 (F := Ideal) (Spec.varOf ⟪main_v89⟫) := by
  rw [h92_v182, h91_v176 _ (h9_c31 W), k9 _ (b := main_v89) (by decide)]
theorem s9_v183 : after9 (Proc.devRef .tc main_v183) = Spec.row128 (F := Ideal) (Spec.p10 0 Spec.h10_0 ⟪main_arg11⟫) := by
  rw [h92_v183, k91 _ (b := main_arg11) (by decide), k9 _ (b := main_arg11) (by decide)]
theorem s9_v184 : after9 (Proc.devRef .tc main_v184) = Spec.row128 (F := Ideal) (Spec.p10 0 Spec.h10_0 ⟪main_arg12⟫) := by
  rw [h92_v184, k91 _ (b := main_arg12) (by decide), k9 _ (b := main_arg12) (by decide)]

end Cert.KernelIdeal.KVal.A1
end
-- ==== Proof.KChainA1.lean ====
import proofs.«112494_j53025666237105_2_alg».proof.Proof.Gen.KernelIdeal.Frame
import proofs.«112494_j53025666237105_2_alg».proof.Proof.KInputs
import proofs.«112494_j53025666237105_2_alg».proof.Proof.KHostA1
import proofs.«112494_j53025666237105_2_alg».proof.Proof.KKeep
import proofs.«112494_j53025666237105_2_alg».proof.Proof.Reg.Dense
import proofs.«112494_j53025666237105_2_alg».proof.Proof.Reg.FeatScore
import proofs.«112494_j53025666237105_2_alg».proof.Proof.Reg.Addend
import proofs.«112494_j53025666237105_2_alg».proof.Proof.Reg.BatchNorm

set_option maxRecDepth 16384

noncomputable section

namespace Cert.KernelIdeal.KVal

open Cert.KernelIdeal Cert.KernelIdeal.Gen
open Idealize.ShloMosaic Idealize.ShloMosaic.TcCoe Idealize.SL.Sem

namespace A1

section Params
variable (I : Spec.Inputs Ideal)
abbrev src := Spec.edgeRow 0 Spec.e_0 I.e0
abbrev dst := Spec.edgeRow 1 Spec.e_1 I.e0
abbrev sw := Spec.p9 0 Spec.h9_0 I.skipW
abbrev sb := Spec.p10 0 Spec.h10_0 I.skipB
abbrev cw := Spec.p4 0 0 Spec.h4_00 I.convW
abbrev pw := Spec.p5 0 0 Spec.h5_00 I.projW
abbrev pb := Spec.p6 0 0 Spec.h6_00 I.projB
abbrev resw := Spec.p4 0 0 Spec.h4_00 I.resW
abbrev bias := Spec.p8 0 0 Spec.h8_00 I.gatB
abbrev bnG := Spec.p10 0 Spec.h10_0 I.bnG
abbrev bnB := Spec.p10 0 Spec.h10_0 I.bnB

abbrev temp := Spec.kdense I.x1 (sw I) (Spec.row128 (sb I))

abbrev addend := Spec.kaddendOf I.x1 I.x0 (src I) (dst I) (cw I) (pw I) (pb I) (temp I)

abbrev gat := Spec.kaddend I.x1 (resw I) (Spec.row128 (bias I)) (addend I)
end Params

variable (m : (ℓ : Loc nD τ sig) → Buf (Elt Ideal) ℓ) (ρ : Dev nD → PrngReg) (c : Dev nD)

local notation "𝐈" => inputsOf m c
local notation:max "𝐖[" j "]" b:max => j m ρ c (Proc.devRef Proc.tc b)

theorem a2_0 : 𝐖[W0] main_arg2 = 𝐈.e0 := rfl
theorem a9_2 : 𝐖[W2] main_arg9 = 𝐈.skipW := Eq.trans (keep_range% 2 0) rfl
theorem a10_2 : 𝐖[W2] main_arg10 = 𝐈.skipB := Eq.trans (keep_range% 2 0) rfl
theorem a1_3 : 𝐖[W3] main_arg1 = 𝐈.x1 := Eq.trans (keep_range% 3 0) rfl
theorem a4_4 : 𝐖[W4] main_arg4 = 𝐈.convW := Eq.trans (keep_range% 4 0) rfl
theorem a5_4 : 𝐖[W4] main_arg5 = 𝐈.projW := Eq.trans (keep_range% 4 0) rfl
theorem a6_4 : 𝐖[W4] main_arg6 = 𝐈.projB := Eq.trans (keep_range% 4 0) rfl
theorem a7_4 : 𝐖[W4] main_arg7 = 𝐈.resW := Eq.trans (keep_range% 4 0) rfl
theorem a8_4 : 𝐖[W4] main_arg8 = 𝐈.gatB := Eq.trans (keep_range% 4 0) rfl
theorem a1_5 : 𝐖[W5] main_arg1 = 𝐈.x1 := Eq.trans (keep_range% 5 0) rfl
theorem a0_6 : 𝐖[W6] main_arg0 = 𝐈.x0 := Eq.trans (keep_range% 6 0) rfl
theorem a1_10 : 𝐖[W10] main_arg1 = 𝐈.x1 := Eq.trans (keep_range% 10 0) rfl
theorem a11_22 : 𝐖[W22] main_arg11 = 𝐈.bnG := Eq.trans (keep_range% 22 0) rfl
theorem a12_22 : 𝐖[W22] main_arg12 = 𝐈.bnB := Eq.trans (keep_range% 22 0) rfl

theorem v1_1 : 𝐖[W1] main_v1 = src 𝐈 := h0_v1 _
theorem v5_1 : 𝐖[W1] main_v5 = dst 𝐈 := h0_v5 _
theorem v1_7 : 𝐖[W7] main_v1 = src 𝐈 := Eq.trans (keep_range% 7 1) (v1_1 m ρ c)
theorem v5_7 : 𝐖[W7] main_v5 = dst 𝐈 := Eq.trans (keep_range% 7 1) (v5_1 m ρ c)

theorem v15_3 : 𝐖[W3] main_v15 = sw 𝐈 := (h1_v15 _).trans (by rw [a9_2])
theorem v18_3 : 𝐖[W3] main_v18 = Spec.row128 (sb 𝐈) := (h1_v18 _).trans (by rw [a10_2])
theorem v19_4 : 𝐖[W4] main_v19 = temp 𝐈 := by
  refine (W4_arr m ρ c 3).trans ((RegVal.out1 (V3 m ρ) c).trans ?_)
  show Spec.kdense (F := Ideal) (𝐖[W3] main_arg1) (𝐖[W3] main_v15) (𝐖[W3] main_v18) = _
  rw [a1_3, v15_3, v18_3]
theorem v19_7 : 𝐖[W7] main_v19 = temp 𝐈 := Eq.trans (keep_range% 7 4) (v19_4 m ρ c)

theorem v21_5 : 𝐖[W5] main_v21 = cw 𝐈 := (h2_v21 _).trans (by rw [a4_4])
theorem v25_5 : 𝐖[W5] main_v25 = pb 𝐈 := (h2_v25 _).trans (by rw [a6_4])
theorem v27_5 : 𝐖[W5] main_v27 = resw 𝐈 := (h2_v27 _).trans (by rw [a7_4])
theorem v29_5 : 𝐖[W5] main_v29 = bias 𝐈 := (h2_v29 _).trans (by rw [a8_4])
theorem v32_5 : 𝐖[W5] main_v32 = Spec.wsLo (cw 𝐈) (pw 𝐈) := (h2_v32 _).trans (by rw [a4_4, a5_4])
theorem v33_5 : 𝐖[W5] main_v33 = Spec.wsHi (cw 𝐈) (pw 𝐈) := (h2_v33 _).trans (by rw [a4_4, a5_4])
theorem v35_5 : 𝐖[W5] main_v35 = Spec.kzero11 (F := Ideal) := h2_v35 _
theorem v21_6 : 𝐖[W6] main_v21 = cw 𝐈 := Eq.trans (keep_range% 6 5) (v21_5 m ρ c)
theorem v33_6 : 𝐖[W6] main_v33 = Spec.wsHi (cw 𝐈) (pw 𝐈) := Eq.trans (keep_range% 6 5) (v33_5 m ρ c)
theorem v25_7 : 𝐖[W7] main_v25 = pb 𝐈 := Eq.trans (keep_range% 7 5) (v25_5 m ρ c)
theorem v29_7 : 𝐖[W7] main_v29 = bias 𝐈 := Eq.trans (keep_range% 7 5) (v29_5 m ρ c)
theorem v27_10 : 𝐖[W10] main_v27 = resw 𝐈 := Eq.trans (keep_range% 10 5) (v27_5 m ρ c)

theorem v36_6 : 𝐖[W6] main_v36 = Spec.kdense1 𝐈.x1 (Spec.wsLo (cw 𝐈) (pw 𝐈)) Spec.kzero11 := by
  refine (W6_arr m ρ c 3).trans ((RegVal.out2 (V5 m ρ) c).trans ?_)
  show Spec.kdense1 (F := Ideal) (𝐖[W5] main_arg1) (𝐖[W5] main_v32) (𝐖[W5] main_v35) = _
  rw [a1_5, v32_5, v35_5]
theorem v36_7 : 𝐖[W7] main_v36 = Spec.kdense1 𝐈.x1 (Spec.wsLo (cw 𝐈) (pw 𝐈)) Spec.kzero11 :=
  Eq.trans (keep_range% 7 6) (v36_6 m ρ c)
theorem v37a_7 : 𝐖[W7] main_v37_0 = Spec.kfeat 𝐈.x0 (cw 𝐈) := by
  refine (W7_arr m ρ c 3).trans ((RegVal.out3a (V6 m ρ) c).trans ?_)
  show Spec.kfeat (F := Ideal) (𝐖[W6] main_arg0) (𝐖[W6] main_v21) = _
  rw [a0_6, v21_6]
theorem v37b_7 : 𝐖[W7] main_v37_1 = Spec.kscore 𝐈.x0 (Spec.wsHi (cw 𝐈) (pw 𝐈)) := by
  refine (W7_arr m ρ c 4).trans ((RegVal.out3b (V6 m ρ) c).trans ?_)
  show Spec.kscore (F := Ideal) (𝐖[W6] main_arg0) (𝐖[W6] main_v33) = _
  rw [a0_6, v33_6]

theorem v87_10 : 𝐖[W10] main_v87 = addend 𝐈 :=
  (s4_v87 (W7 m ρ c)).trans (by rw [v19_7, v36_7, v37b_7, v1_7, v5_7, v25_7, v37a_7]; rfl)
theorem v88_10 : 𝐖[W10] main_v88 = Spec.row128 (bias 𝐈) := (s4_v88 (W7 m ρ c)).trans (by rw [v29_7])
theorem v89_11 : 𝐖[W11] main_v89 = gat 𝐈 := by
  refine (W11_arr m ρ c 4).trans ((RegVal.out4 (V10 m ρ) c).trans ?_)
  show Spec.kaddend (F := Ideal) (𝐖[W10] main_arg1) (𝐖[W10] main_v27) (𝐖[W10] main_v88) (𝐖[W10] main_v87) = _
  rw [a1_10, v27_10, v88_10, v87_10]

theorem v89_22 : 𝐖[W22] main_v89 = gat 𝐈 := Eq.trans (keep_range% 22 11) (v89_11 m ρ c)

theorem v89_25 : 𝐖[W25] main_v89 = gat 𝐈 := (s9_v89 (W22 m ρ c)).trans (v89_22 m ρ c)
theorem v181_25 : 𝐖[W25] main_v181 = Spec.row128 (Spec.meanOf (gat 𝐈)) := (s9_v181 (W22 m ρ c)).trans (by rw [v89_22])
theorem v182_25 : 𝐖[W25] main_v182 = Spec.row128 (Spec.varOf (gat 𝐈)) := (s9_v182 (W22 m ρ c)).trans (by rw [v89_22])
theorem v183_25 : 𝐖[W25] main_v183 = Spec.row128 (bnG 𝐈) := (s9_v183 (W22 m ρ c)).trans (by rw [a11_22])
theorem v184_25 : 𝐖[W25] main_v184 = Spec.row128 (bnB 𝐈) := (s9_v184 (W22 m ρ c)).trans (by rw [a12_22])

end A1

open A1 in

theorem layer0_type1 (m : (ℓ : Loc nD τ sig) → Buf (Elt Ideal) ℓ) (ρ : Dev nD → PrngReg) (c : Dev nD) :
    W26 m ρ c (Proc.devRef .tc main_v185) = Spec.kA1 (inputsOf m c) := by
  refine (W26_arr m ρ c 5).trans ((RegVal.out9 (V25 m ρ) c).trans ?_)
  show Spec.kbn (F := Ideal) (W25 m ρ c (Proc.devRef .tc main_v89)) (W25 m ρ c (Proc.devRef .tc main_v181))
    (W25 m ρ c (Proc.devRef .tc main_v182)) (W25 m ρ c (Proc.devRef .tc main_v183)) (W25 m ρ c (Proc.devRef .tc main_v184)) = _
  rw [v89_25, v181_25, v182_25, v183_25, v184_25]
  rfl

end Cert.KernelIdeal.KVal

end
-- ==== Proof.KCarry26.lean ====
import proofs.«112494_j53025666237105_2_alg».proof.Proof.Gen.KernelIdeal.Frame
import proofs.«112494_j53025666237105_2_alg».proof.Proof.Net
import proofs.«112494_j53025666237105_2_alg».proof.Proof.KKeep
import proofs.«112494_j53025666237105_2_alg».proof.Proof.KHostA0

set_option maxRecDepth 16384

noncomputable section

namespace Cert.KernelIdeal.KVal

open Idealize.ShloMosaic Idealize.SL.Sem Cert.KernelIdeal Cert.KernelIdeal.Gen

variable (m : (ℓ : Loc nD τ sig) → Buf (Elt Ideal) ℓ) (ρ : Dev nD → PrngReg)

theorem src1_at26 (c : Dev nD) :
    W26 m ρ c (Proc.devRef .tc main_v3)
      = Cert.Spec.edgeRow 0 Cert.Spec.e_0 (m ((c.tc : Thread nD τ).loc main_arg3)) :=
  (keep_range% 26 1 : W26 m ρ c (Proc.devRef .tc main_v3) = W1 m ρ c (Proc.devRef .tc main_v3)).trans
    (A0.host0_v3 (W0 m ρ c))

theorem dst1_at26 (c : Dev nD) :
    W26 m ρ c (Proc.devRef .tc main_v7)
      = Cert.Spec.edgeRow 1 Cert.Spec.e_1 (m ((c.tc : Thread nD τ).loc main_arg3)) :=
  (keep_range% 26 1 : W26 m ρ c (Proc.devRef .tc main_v7) = W1 m ρ c (Proc.devRef .tc main_v7)).trans
    (A0.host0_v7 (W0 m ρ c))

theorem arg4_at26 (c : Dev nD) :
    W26 m ρ c (Proc.devRef .tc main_arg4) = m ((c.tc : Thread nD τ).loc main_arg4) :=
  (keep_range% 26 0 : W26 m ρ c (Proc.devRef .tc main_arg4) = W0 m ρ c (Proc.devRef .tc main_arg4)).trans rfl
theorem arg5_at26 (c : Dev nD) :
    W26 m ρ c (Proc.devRef .tc main_arg5) = m ((c.tc : Thread nD τ).loc main_arg5) :=
  (keep_range% 26 0 : W26 m ρ c (Proc.devRef .tc main_arg5) = W0 m ρ c (Proc.devRef .tc main_arg5)).trans rfl
theorem arg6_at26 (c : Dev nD) :
    W26 m ρ c (Proc.devRef .tc main_arg6) = m ((c.tc : Thread nD τ).loc main_arg6) :=
  (keep_range% 26 0 : W26 m ρ c (Proc.devRef .tc main_arg6) = W0 m ρ c (Proc.devRef .tc main_arg6)).trans rfl
theorem arg7_at26 (c : Dev nD) :
    W26 m ρ c (Proc.devRef .tc main_arg7) = m ((c.tc : Thread nD τ).loc main_arg7) :=
  (keep_range% 26 0 : W26 m ρ c (Proc.devRef .tc main_arg7) = W0 m ρ c (Proc.devRef .tc main_arg7)).trans rfl
theorem arg8_at26 (c : Dev nD) :
    W26 m ρ c (Proc.devRef .tc main_arg8) = m ((c.tc : Thread nD τ).loc main_arg8) :=
  (keep_range% 26 0 : W26 m ρ c (Proc.devRef .tc main_arg8) = W0 m ρ c (Proc.devRef .tc main_arg8)).trans rfl
theorem arg9_at26 (c : Dev nD) :
    W26 m ρ c (Proc.devRef .tc main_arg9) = m ((c.tc : Thread nD τ).loc main_arg9) :=
  (keep_range% 26 0 : W26 m ρ c (Proc.devRef .tc main_arg9) = W0 m ρ c (Proc.devRef .tc main_arg9)).trans rfl
theorem arg10_at26 (c : Dev nD) :
    W26 m ρ c (Proc.devRef .tc main_arg10) = m ((c.tc : Thread nD τ).loc main_arg10) :=
  (keep_range% 26 0 : W26 m ρ c (Proc.devRef .tc main_arg10) = W0 m ρ c (Proc.devRef .tc main_arg10)).trans rfl
theorem arg11_at26 (c : Dev nD) :
    W26 m ρ c (Proc.devRef .tc main_arg11) = m ((c.tc : Thread nD τ).loc main_arg11) :=
  (keep_range% 26 0 : W26 m ρ c (Proc.devRef .tc main_arg11) = W0 m ρ c (Proc.devRef .tc main_arg11)).trans rfl
theorem arg12_at26 (c : Dev nD) :
    W26 m ρ c (Proc.devRef .tc main_arg12) = m ((c.tc : Thread nD τ).loc main_arg12) :=
  (keep_range% 26 0 : W26 m ρ c (Proc.devRef .tc main_arg12) = W0 m ρ c (Proc.devRef .tc main_arg12)).trans rfl
theorem arg13_at26 (c : Dev nD) :
    W26 m ρ c (Proc.devRef .tc main_arg13) = m ((c.tc : Thread nD τ).loc main_arg13) :=
  (keep_range% 26 0 : W26 m ρ c (Proc.devRef .tc main_arg13) = W0 m ρ c (Proc.devRef .tc main_arg13)).trans rfl
theorem arg14_at26 (c : Dev nD) :
    W26 m ρ c (Proc.devRef .tc main_arg14) = m ((c.tc : Thread nD τ).loc main_arg14) :=
  (keep_range% 26 0 : W26 m ρ c (Proc.devRef .tc main_arg14) = W0 m ρ c (Proc.devRef .tc main_arg14)).trans rfl
theorem arg15_at26 (c : Dev nD) :
    W26 m ρ c (Proc.devRef .tc main_arg15) = m ((c.tc : Thread nD τ).loc main_arg15) :=
  (keep_range% 26 0 : W26 m ρ c (Proc.devRef .tc main_arg15) = W0 m ρ c (Proc.devRef .tc main_arg15)).trans rfl
theorem arg16_at26 (c : Dev nD) :
    W26 m ρ c (Proc.devRef .tc main_arg16) = m ((c.tc : Thread nD τ).loc main_arg16) :=
  (keep_range% 26 0 : W26 m ρ c (Proc.devRef .tc main_arg16) = W0 m ρ c (Proc.devRef .tc main_arg16)).trans rfl
theorem arg17_at26 (c : Dev nD) :
    W26 m ρ c (Proc.devRef .tc main_arg17) = m ((c.tc : Thread nD τ).loc main_arg17) :=
  (keep_range% 26 0 : W26 m ρ c (Proc.devRef .tc main_arg17) = W0 m ρ c (Proc.devRef .tc main_arg17)).trans rfl
theorem arg18_at26 (c : Dev nD) :
    W26 m ρ c (Proc.devRef .tc main_arg18) = m ((c.tc : Thread nD τ).loc main_arg18) :=
  (keep_range% 26 0 : W26 m ρ c (Proc.devRef .tc main_arg18) = W0 m ρ c (Proc.devRef .tc main_arg18)).trans rfl

end Cert.KernelIdeal.KVal

end
-- ==== Proof.KHostB.lean ====
import proofs.«112494_j53025666237105_2_alg».proof.Proof.Gen.KernelIdeal.Launch
import proofs.«112494_j53025666237105_2_alg».proof.Proof.Net
import Idealize.ShloMosaic.Lib.StableHlo.Run

noncomputable section

namespace Cert.KernelIdeal.KVal.B

open Idealize.ShloMosaic Idealize.ShloMosaic.TcCoe
open Cert.KernelIdeal Cert.KernelIdeal.Gen

section HostResults

variable (W : Valuation τ sig (Elt Ideal))

def addendAt (temp : FVec Ideal Cert.Spec.SN128 .f32) (ai aj : FVec Ideal Cert.Spec.SN1 .f32)
    (hj : FVec Ideal Cert.Spec.SN128 .f32) (src dst : IVec Cert.Spec.SE 32) (pb : FVec Ideal Cert.Spec.S1 .f32) :
    FVec Ideal Cert.Spec.SN128 .f32 :=
  addf temp (Cert.Spec.edgeAgg (Cert.Spec.scoreK ai aj src dst pb) hj src dst)

theorem kaddendOf_eq (xd xs : FVec Ideal Cert.Spec.SN128 .f32) (src dst : IVec Cert.Spec.SE 32)
    (cw : FVec Ideal Cert.Spec.S128x128 .f32) (pw : FVec Ideal Cert.Spec.S256x1 .f32) (pb : FVec Ideal Cert.Spec.S1 .f32)
    (temp : FVec Ideal Cert.Spec.SN128 .f32) :
    Cert.Spec.kaddendOf xd xs src dst cw pw pb temp
      = addendAt temp (Cert.Spec.kdense1 xd (Cert.Spec.wsLo cw pw) Cert.Spec.kzero11)
          (Cert.Spec.kscore xs (Cert.Spec.wsHi cw pw)) (Cert.Spec.kfeat xs cw) src dst pb := rfl

theorem h10_v187 :
    StableHlo.after (hostOps10 (F := Ideal)) W (Proc.devRef .tc main_v187)
      = Cert.Spec.p9 (F := Ideal) 1 Cert.Spec.h9_1 (W (Proc.devRef .tc main_arg9)) := by
  after_results; rfl
theorem h10_v190 :
    StableHlo.after (hostOps10 (F := Ideal)) W (Proc.devRef .tc main_v190)
      = Cert.Spec.row128 (F := Ideal) (Cert.Spec.p10 1 Cert.Spec.h10_1 (W (Proc.devRef .tc main_arg10))) := by
  after_results; rfl

theorem h15_v269 :
    StableHlo.after (hostOps15 (F := Ideal)) W (Proc.devRef .tc main_v269)
      = Cert.Spec.p4 (F := Ideal) 1 1 Cert.Spec.h4_11 (W (Proc.devRef .tc main_arg4)) := by
  after_results; rfl
theorem h15_v273 :
    StableHlo.after (hostOps15 (F := Ideal)) W (Proc.devRef .tc main_v273)
      = Cert.Spec.p6 (F := Ideal) 1 1 Cert.Spec.h6_11 (W (Proc.devRef .tc main_arg6)) := by
  after_results; rfl
theorem h15_v275 :
    StableHlo.after (hostOps15 (F := Ideal)) W (Proc.devRef .tc main_v275)
      = Cert.Spec.p4 (F := Ideal) 1 1 Cert.Spec.h4_11 (W (Proc.devRef .tc main_arg7)) := by
  after_results; rfl
theorem h15_v277 :
    StableHlo.after (hostOps15 (F := Ideal)) W (Proc.devRef .tc main_v277)
      = Cert.Spec.p8 (F := Ideal) 1 1 Cert.Spec.h8_11 (W (Proc.devRef .tc main_arg8)) := by
  after_results; rfl
theorem h15_v280 :
    StableHlo.after (hostOps15 (F := Ideal)) W (Proc.devRef .tc main_v280)
      = Cert.Spec.wsLo (F := Ideal) (Cert.Spec.p4 1 1 Cert.Spec.h4_11 (W (Proc.devRef .tc main_arg4)))
          (Cert.Spec.p5 1 1 Cert.Spec.h5_11 (W (Proc.devRef .tc main_arg5))) := by
  after_results; rfl
theorem h15_v281 :
    StableHlo.after (hostOps15 (F := Ideal)) W (Proc.devRef .tc main_v281)
      = Cert.Spec.wsHi (F := Ideal) (Cert.Spec.p4 1 1 Cert.Spec.h4_11 (W (Proc.devRef .tc main_arg4)))
          (Cert.Spec.p5 1 1 Cert.Spec.h5_11 (W (Proc.devRef .tc main_arg5))) := by
  after_results; rfl
theorem h15_v283 :
    StableHlo.after (hostOps15 (F := Ideal)) W (Proc.devRef .tc main_v283) = Cert.Spec.kzero11 (F := Ideal) := by
  after_results; rfl

end HostResults

section HostResults2

variable (W : Valuation τ sig (Elt Ideal))

theorem h17_v335 :
    StableHlo.after (hostOps17_2 (F := Ideal)) (StableHlo.after (hostOps17_1 (F := Ideal)) (StableHlo.after (hostOps17 (F := Ideal)) W))
        (Proc.devRef .tc main_v335)
      = addendAt (W (Proc.devRef .tc main_v191)) (W (Proc.devRef .tc main_v284)) (W (Proc.devRef .tc main_v285_1))
          (W (Proc.devRef .tc main_v285_0)) (W (Proc.devRef .tc main_v3)) (W (Proc.devRef .tc main_v7))
          (W (Proc.devRef .tc main_v273)) := by
  after_results_simp
  simp only [StableHlo.TRef.ofBuf, StableHlo.TRef.toBuf, cast_eq]
  rfl

theorem h17_v336 :
    StableHlo.after (hostOps17_2 (F := Ideal)) (StableHlo.after (hostOps17_1 (F := Ideal)) (StableHlo.after (hostOps17 (F := Ideal)) W))
        (Proc.devRef .tc main_v336)
      = Cert.Spec.row128 (F := Ideal) (W (Proc.devRef .tc main_v277)) := by
  after_results_simp
  rfl

end HostResults2

section HostResults3

variable (W : Valuation τ sig (Elt Ideal))

theorem h18_v346 :
    StableHlo.after (hostOps18_2 (F := Ideal)) (StableHlo.after (hostOps18_1 (F := Ideal)) (StableHlo.after (hostOps18 (F := Ideal)) W))
        (Proc.devRef .tc main_v346)
      = Cert.Spec.row128 (F := Ideal) (Cert.Spec.meanOf (W (Proc.devRef .tc main_v337))) := by
  after_results_simp
  rfl
theorem h18_v347 :
    StableHlo.after (hostOps18_2 (F := Ideal)) (StableHlo.after (hostOps18_1 (F := Ideal)) (StableHlo.after (hostOps18 (F := Ideal)) W))
        (Proc.devRef .tc main_v347)
      = Cert.Spec.row128 (F := Ideal) (Cert.Spec.varOf (W (Proc.devRef .tc main_v337))) := by
  after_results_simp
  simp only [StableHlo.TRef.ofBuf, StableHlo.TRef.toBuf, cast_eq]
  rfl
theorem h18_v348 :
    StableHlo.after (hostOps18_2 (F := Ideal)) (StableHlo.after (hostOps18_1 (F := Ideal)) (StableHlo.after (hostOps18 (F := Ideal)) W))
        (Proc.devRef .tc main_v348)
      = Cert.Spec.row128 (F := Ideal) (Cert.Spec.p10 1 Cert.Spec.h10_1 (W (Proc.devRef .tc main_arg11))) := by
  after_results_simp
  rfl
theorem h18_v349 :
    StableHlo.after (hostOps18_2 (F := Ideal)) (StableHlo.after (hostOps18_1 (F := Ideal)) (StableHlo.after (hostOps18 (F := Ideal)) W))
        (Proc.devRef .tc main_v349)
      = Cert.Spec.row128 (F := Ideal) (Cert.Spec.p10 1 Cert.Spec.h10_1 (W (Proc.devRef .tc main_arg12))) := by
  after_results_simp
  rfl

end HostResults3

end Cert.KernelIdeal.KVal.B

end
-- ==== Proof.KChainB.lean ====
import proofs.«112494_j53025666237105_2_alg».proof.Proof.Gen.KernelIdeal.Frame
import proofs.«112494_j53025666237105_2_alg».proof.Proof.Net
import proofs.«112494_j53025666237105_2_alg».proof.Proof.KHostB
import proofs.«112494_j53025666237105_2_alg».proof.Proof.KKeep
import proofs.«112494_j53025666237105_2_alg».proof.Proof.Reg.Dense
import proofs.«112494_j53025666237105_2_alg».proof.Proof.Reg.FeatScore
import proofs.«112494_j53025666237105_2_alg».proof.Proof.Reg.Addend
import proofs.«112494_j53025666237105_2_alg».proof.Proof.Reg.BatchNorm

noncomputable section

namespace Cert.KernelIdeal.KVal

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

namespace B

local notation "xd₀" => (W26 m ρ c (Proc.devRef Proc.tc main_v172))
local notation "xs₀" => (W26 m ρ c (Proc.devRef Proc.tc main_v185))
local notation "src₀" => (W26 m ρ c (Proc.devRef Proc.tc main_v3))
local notation "dst₀" => (W26 m ρ c (Proc.devRef Proc.tc main_v7))
local notation "sw₀" => (Cert.Spec.p9 (F := Ideal) 1 Cert.Spec.h9_1 (W26 m ρ c (Proc.devRef Proc.tc main_arg9)))
local notation "sb₀" => (Cert.Spec.p10 (F := Ideal) 1 Cert.Spec.h10_1 (W26 m ρ c (Proc.devRef Proc.tc main_arg10)))
local notation "cw₀" => (Cert.Spec.p4 (F := Ideal) 1 1 Cert.Spec.h4_11 (W26 m ρ c (Proc.devRef Proc.tc main_arg4)))
local notation "pw₀" => (Cert.Spec.p5 (F := Ideal) 1 1 Cert.Spec.h5_11 (W26 m ρ c (Proc.devRef Proc.tc main_arg5)))
local notation "pb₀" => (Cert.Spec.p6 (F := Ideal) 1 1 Cert.Spec.h6_11 (W26 m ρ c (Proc.devRef Proc.tc main_arg6)))
local notation "rw₀" => (Cert.Spec.p4 (F := Ideal) 1 1 Cert.Spec.h4_11 (W26 m ρ c (Proc.devRef Proc.tc main_arg7)))
local notation "gb₀" => (Cert.Spec.p8 (F := Ideal) 1 1 Cert.Spec.h8_11 (W26 m ρ c (Proc.devRef Proc.tc main_arg8)))
local notation "bnG₀" => (Cert.Spec.p10 (F := Ideal) 1 Cert.Spec.h10_1 (W26 m ρ c (Proc.devRef Proc.tc main_arg11)))
local notation "bnB₀" => (Cert.Spec.p10 (F := Ideal) 1 Cert.Spec.h10_1 (W26 m ρ c (Proc.devRef Proc.tc main_arg12)))

def tempB : FVec Ideal Cert.Spec.SN128 .f32 := Cert.Spec.kdense xd₀ sw₀ (Cert.Spec.row128 sb₀)

def aiB : FVec Ideal Cert.Spec.SN1 .f32 := Cert.Spec.kdense1 xd₀ (Cert.Spec.wsLo cw₀ pw₀) Cert.Spec.kzero11

def hjB : FVec Ideal Cert.Spec.SN128 .f32 := Cert.Spec.kfeat xs₀ cw₀
def ajB : FVec Ideal Cert.Spec.SN1 .f32 := Cert.Spec.kscore xs₀ (Cert.Spec.wsHi cw₀ pw₀)

def addB : FVec Ideal Cert.Spec.SN128 .f32 :=
  B.addendAt (tempB m ρ c) (aiB m ρ c) (ajB m ρ c) (hjB m ρ c) src₀ dst₀ pb₀

def tB : FVec Ideal Cert.Spec.SN128 .f32 := Cert.Spec.kaddend xd₀ rw₀ (Cert.Spec.row128 gb₀) (addB m ρ c)

def oB : FVec Ideal Cert.Spec.SN128 .f32 :=
  Cert.Spec.kbn (tB m ρ c) (Cert.Spec.row128 (Cert.Spec.meanOf (tB m ρ c))) (Cert.Spec.row128 (Cert.Spec.varOf (tB m ρ c)))
    (Cert.Spec.row128 bnG₀) (Cert.Spec.row128 bnB₀)

theorem oB_eq : oB m ρ c = Cert.Spec.klayer xd₀ xs₀ src₀ dst₀ sw₀ sb₀ cw₀ pw₀ pb₀ rw₀ gb₀ bnG₀ bnB₀ := rfl

section RegionAt
variable (V : (c : Dev nD) → (b : Ref sig .tc) → Buf (Elt Ideal) ((c : Thread nD τ).loc b))

theorem r10 {x : FVec Ideal Cert.Spec.SN128 .f32} {w : FVec Ideal Cert.Spec.S128x128 .f32} {b : FVec Ideal Cert.Spec.S1x128 .f32}
    (hx : V c main_v172 = x) (hw : V c main_v187 = w) (hb : V c main_v190 = b) :
    (dat10 (F := Ideal) V c).arrAt 3 cfg10.N = Cert.Spec.kdense x w b := by
  subst hx hw hb; exact RegVal.out10 V c
theorem r15 {x : FVec Ideal Cert.Spec.SN128 .f32} {w : FVec Ideal Cert.Spec.S128x1 .f32} {b : FVec Ideal Cert.Spec.S1x1 .f32}
    (hx : V c main_v172 = x) (hw : V c main_v280 = w) (hb : V c main_v283 = b) :
    (dat15 (F := Ideal) V c).arrAt 3 cfg15.N = Cert.Spec.kdense1 x w b := by
  subst hx hw hb; exact RegVal.out15 V c
theorem r16a {x : FVec Ideal Cert.Spec.SN128 .f32} {w : FVec Ideal Cert.Spec.S128x128 .f32}
    (hx : V c main_v185 = x) (hw : V c main_v269 = w) :
    (dat16 (F := Ideal) V c).arrAt 3 cfg16.N = Cert.Spec.kfeat x w := by
  subst hx hw; exact RegVal.out16a V c
theorem r16b {x : FVec Ideal Cert.Spec.SN128 .f32} {w : FVec Ideal Cert.Spec.S128x1 .f32}
    (hx : V c main_v185 = x) (hw : V c main_v281 = w) :
    (dat16 (F := Ideal) V c).arrAt 4 cfg16.N = Cert.Spec.kscore x w := by
  subst hx hw; exact RegVal.out16b V c
theorem r17 {x : FVec Ideal Cert.Spec.SN128 .f32} {w : FVec Ideal Cert.Spec.S128x128 .f32} {b : FVec Ideal Cert.Spec.S1x128 .f32}
    {a : FVec Ideal Cert.Spec.SN128 .f32}
    (hx : V c main_v172 = x) (hw : V c main_v275 = w) (hb : V c main_v336 = b) (ha : V c main_v335 = a) :
    (dat17 (F := Ideal) V c).arrAt 4 cfg17.N = Cert.Spec.kaddend x w b a := by
  subst hx hw hb ha; exact RegVal.out17 V c
theorem r18 {x : FVec Ideal Cert.Spec.SN128 .f32} {mu va g b : FVec Ideal Cert.Spec.S1x128 .f32}
    (hx : V c main_v337 = x) (hmu : V c main_v346 = mu) (hva : V c main_v347 = va) (hg : V c main_v348 = g)
    (hb : V c main_v349 = b) :
    (dat18 (F := Ideal) V c).arrAt 5 cfg18.N = Cert.Spec.kbn x mu va g b := by
  subst hx hmu hva hg hb; exact RegVal.out18 V c

end RegionAt

theorem v172_27 : W27 m ρ c (Proc.devRef .tc main_v172) = xd₀ := keep_range% 27 26
theorem v172_38 : W38 m ρ c (Proc.devRef .tc main_v172) = xd₀ := keep_range% 38 26
theorem v172_43 : W43 m ρ c (Proc.devRef .tc main_v172) = xd₀ := keep_range% 43 26

theorem v185_39 : W39 m ρ c (Proc.devRef .tc main_v185) = xs₀ := keep_range% 39 26

theorem arg4_37 : W37 m ρ c (Proc.devRef .tc main_arg4) = W26 m ρ c (Proc.devRef .tc main_arg4) := keep_range% 37 26
theorem arg5_37 : W37 m ρ c (Proc.devRef .tc main_arg5) = W26 m ρ c (Proc.devRef .tc main_arg5) := keep_range% 37 26
theorem arg6_37 : W37 m ρ c (Proc.devRef .tc main_arg6) = W26 m ρ c (Proc.devRef .tc main_arg6) := keep_range% 37 26
theorem arg7_37 : W37 m ρ c (Proc.devRef .tc main_arg7) = W26 m ρ c (Proc.devRef .tc main_arg7) := keep_range% 37 26
theorem arg8_37 : W37 m ρ c (Proc.devRef .tc main_arg8) = W26 m ρ c (Proc.devRef .tc main_arg8) := keep_range% 37 26

theorem v3_40 : W40 m ρ c (Proc.devRef .tc main_v3) = src₀ := keep_range% 40 26
theorem v7_40 : W40 m ρ c (Proc.devRef .tc main_v7) = dst₀ := keep_range% 40 26

theorem arg11_44 : W44 m ρ c (Proc.devRef .tc main_arg11) = W26 m ρ c (Proc.devRef .tc main_arg11) := keep_range% 44 26
theorem arg12_44 : W44 m ρ c (Proc.devRef .tc main_arg12) = W26 m ρ c (Proc.devRef .tc main_arg12) := keep_range% 44 26

theorem v187_27 : W27 m ρ c (Proc.devRef .tc main_v187) = sw₀ := B.h10_v187 (W26 m ρ c)
theorem v190_27 : W27 m ρ c (Proc.devRef .tc main_v190) = Cert.Spec.row128 sb₀ := B.h10_v190 (W26 m ρ c)
theorem v191_28 : W28 m ρ c (Proc.devRef .tc main_v191) = tempB m ρ c :=
  (W28_arr m ρ c 3).trans (r10 c (V27 m ρ) (v172_27 m ρ c) (v187_27 m ρ c) (v190_27 m ρ c))

theorem v191_40 : W40 m ρ c (Proc.devRef .tc main_v191) = tempB m ρ c :=
  (keep_range% 40 28 : W40 m ρ c (Proc.devRef .tc main_v191) = W28 m ρ c (Proc.devRef .tc main_v191)).trans
    (v191_28 m ρ c)

theorem v269_38 : W38 m ρ c (Proc.devRef .tc main_v269) = cw₀ :=
  (B.h15_v269 (W37 m ρ c)).trans (by rewrite [arg4_37 m ρ c]; rfl)
theorem v273_38 : W38 m ρ c (Proc.devRef .tc main_v273) = pb₀ :=
  (B.h15_v273 (W37 m ρ c)).trans (by rewrite [arg6_37 m ρ c]; rfl)
theorem v275_38 : W38 m ρ c (Proc.devRef .tc main_v275) = rw₀ :=
  (B.h15_v275 (W37 m ρ c)).trans (by rewrite [arg7_37 m ρ c]; rfl)
theorem v277_38 : W38 m ρ c (Proc.devRef .tc main_v277) = gb₀ :=
  (B.h15_v277 (W37 m ρ c)).trans (by rewrite [arg8_37 m ρ c]; rfl)
theorem v280_38 : W38 m ρ c (Proc.devRef .tc main_v280) = Cert.Spec.wsLo cw₀ pw₀ :=
  (B.h15_v280 (W37 m ρ c)).trans (by rewrite [arg4_37 m ρ c, arg5_37 m ρ c]; rfl)
theorem v281_38 : W38 m ρ c (Proc.devRef .tc main_v281) = Cert.Spec.wsHi cw₀ pw₀ :=
  (B.h15_v281 (W37 m ρ c)).trans (by rewrite [arg4_37 m ρ c, arg5_37 m ρ c]; rfl)
theorem v283_38 : W38 m ρ c (Proc.devRef .tc main_v283) = Cert.Spec.kzero11 (F := Ideal) := B.h15_v283 (W37 m ρ c)

theorem v284_39 : W39 m ρ c (Proc.devRef .tc main_v284) = aiB m ρ c :=
  (W39_arr m ρ c 3).trans (r15 c (V38 m ρ) (v172_38 m ρ c) (v280_38 m ρ c) (v283_38 m ρ c))
theorem v269_39 : W39 m ρ c (Proc.devRef .tc main_v269) = cw₀ :=
  (keep_range% 39 38 : W39 m ρ c (Proc.devRef .tc main_v269) = W38 m ρ c (Proc.devRef .tc main_v269)).trans
    (v269_38 m ρ c)
theorem v281_39 : W39 m ρ c (Proc.devRef .tc main_v281) = Cert.Spec.wsHi cw₀ pw₀ :=
  (keep_range% 39 38 : W39 m ρ c (Proc.devRef .tc main_v281) = W38 m ρ c (Proc.devRef .tc main_v281)).trans
    (v281_38 m ρ c)
theorem v285_0_40 : W40 m ρ c (Proc.devRef .tc main_v285_0) = hjB m ρ c :=
  (W40_arr m ρ c 3).trans (r16a c (V39 m ρ) (v185_39 m ρ c) (v269_39 m ρ c))
theorem v285_1_40 : W40 m ρ c (Proc.devRef .tc main_v285_1) = ajB m ρ c :=
  (W40_arr m ρ c 4).trans (r16b c (V39 m ρ) (v185_39 m ρ c) (v281_39 m ρ c))
theorem v284_40 : W40 m ρ c (Proc.devRef .tc main_v284) = aiB m ρ c :=
  (keep_range% 40 39 : W40 m ρ c (Proc.devRef .tc main_v284) = W39 m ρ c (Proc.devRef .tc main_v284)).trans
    (v284_39 m ρ c)
theorem v273_40 : W40 m ρ c (Proc.devRef .tc main_v273) = pb₀ :=
  (keep_range% 40 38 : W40 m ρ c (Proc.devRef .tc main_v273) = W38 m ρ c (Proc.devRef .tc main_v273)).trans
    (v273_38 m ρ c)
theorem v277_40 : W40 m ρ c (Proc.devRef .tc main_v277) = gb₀ :=
  (keep_range% 40 38 : W40 m ρ c (Proc.devRef .tc main_v277) = W38 m ρ c (Proc.devRef .tc main_v277)).trans
    (v277_38 m ρ c)

theorem v335_43 : W43 m ρ c (Proc.devRef .tc main_v335) = addB m ρ c :=
  (B.h17_v335 (W40 m ρ c)).trans (by
    rewrite [v191_40 m ρ c, v284_40 m ρ c, v285_1_40 m ρ c, v285_0_40 m ρ c, v3_40 m ρ c, v7_40 m ρ c, v273_40 m ρ c]
    rfl)
theorem v336_43 : W43 m ρ c (Proc.devRef .tc main_v336) = Cert.Spec.row128 gb₀ :=
  (B.h17_v336 (W40 m ρ c)).trans (by rewrite [v277_40 m ρ c]; rfl)
theorem v275_43 : W43 m ρ c (Proc.devRef .tc main_v275) = rw₀ :=
  (keep_range% 43 38 : W43 m ρ c (Proc.devRef .tc main_v275) = W38 m ρ c (Proc.devRef .tc main_v275)).trans
    (v275_38 m ρ c)
theorem v337_44 : W44 m ρ c (Proc.devRef .tc main_v337) = tB m ρ c :=
  (W44_arr m ρ c 4).trans
    (r17 c (V43 m ρ) (v172_43 m ρ c) (v275_43 m ρ c) (v336_43 m ρ c) (v335_43 m ρ c))

theorem v337_47 : W47 m ρ c (Proc.devRef .tc main_v337) = tB m ρ c :=
  (keep_range% 47 44 : W47 m ρ c (Proc.devRef .tc main_v337) = W44 m ρ c (Proc.devRef .tc main_v337)).trans
    (v337_44 m ρ c)
theorem v346_47 : W47 m ρ c (Proc.devRef .tc main_v346) = Cert.Spec.row128 (Cert.Spec.meanOf (tB m ρ c)) :=
  (B.h18_v346 (W44 m ρ c)).trans (by rewrite [v337_44 m ρ c]; rfl)
theorem v347_47 : W47 m ρ c (Proc.devRef .tc main_v347) = Cert.Spec.row128 (Cert.Spec.varOf (tB m ρ c)) :=
  (B.h18_v347 (W44 m ρ c)).trans (by rewrite [v337_44 m ρ c]; rfl)
theorem v348_47 : W47 m ρ c (Proc.devRef .tc main_v348) = Cert.Spec.row128 bnG₀ :=
  (B.h18_v348 (W44 m ρ c)).trans (by rewrite [arg11_44 m ρ c]; rfl)
theorem v349_47 : W47 m ρ c (Proc.devRef .tc main_v349) = Cert.Spec.row128 bnB₀ :=
  (B.h18_v349 (W44 m ρ c)).trans (by rewrite [arg12_44 m ρ c]; rfl)
theorem v350_48 : W48 m ρ c (Proc.devRef .tc main_v350) = oB m ρ c :=
  (W48_arr m ρ c 5).trans
    (r18 c (V47 m ρ) (v337_47 m ρ c) (v346_47 m ρ c) (v347_47 m ρ c) (v348_47 m ρ c) (v349_47 m ρ c))

theorem v350_52 : W52 m ρ c (Proc.devRef .tc main_v350) = oB m ρ c :=
  (keep_range% 52 48 : W52 m ρ c (Proc.devRef .tc main_v350) = W48 m ρ c (Proc.devRef .tc main_v350)).trans
    (v350_48 m ρ c)

end B

theorem layer1_type0 : W52 m ρ c (Proc.devRef .tc main_v350)
    = Cert.Spec.klayer (F := Ideal) (W26 m ρ c (Proc.devRef .tc main_v172)) (W26 m ρ c (Proc.devRef .tc main_v185))
        (W26 m ρ c (Proc.devRef .tc main_v3)) (W26 m ρ c (Proc.devRef .tc main_v7))
        (Cert.Spec.p9 1 Cert.Spec.h9_1 (W26 m ρ c (Proc.devRef .tc main_arg9)))
        (Cert.Spec.p10 1 Cert.Spec.h10_1 (W26 m ρ c (Proc.devRef .tc main_arg10)))
        (Cert.Spec.p4 1 1 Cert.Spec.h4_11 (W26 m ρ c (Proc.devRef .tc main_arg4)))
        (Cert.Spec.p5 1 1 Cert.Spec.h5_11 (W26 m ρ c (Proc.devRef .tc main_arg5)))
        (Cert.Spec.p6 1 1 Cert.Spec.h6_11 (W26 m ρ c (Proc.devRef .tc main_arg6)))
        (Cert.Spec.p4 1 1 Cert.Spec.h4_11 (W26 m ρ c (Proc.devRef .tc main_arg7)))
        (Cert.Spec.p8 1 1 Cert.Spec.h8_11 (W26 m ρ c (Proc.devRef .tc main_arg8)))
        (Cert.Spec.p10 1 Cert.Spec.h10_1 (W26 m ρ c (Proc.devRef .tc main_arg11)))
        (Cert.Spec.p10 1 Cert.Spec.h10_1 (W26 m ρ c (Proc.devRef .tc main_arg12))) :=
  (B.v350_52 m ρ c).trans (B.oB_eq m ρ c)

theorem arg13_at52 : W52 m ρ c (Proc.devRef .tc main_arg13) = W26 m ρ c (Proc.devRef .tc main_arg13) := keep_range% 52 26
theorem arg14_at52 : W52 m ρ c (Proc.devRef .tc main_arg14) = W26 m ρ c (Proc.devRef .tc main_arg14) := keep_range% 52 26
theorem arg15_at52 : W52 m ρ c (Proc.devRef .tc main_arg15) = W26 m ρ c (Proc.devRef .tc main_arg15) := keep_range% 52 26
theorem arg16_at52 : W52 m ρ c (Proc.devRef .tc main_arg16) = W26 m ρ c (Proc.devRef .tc main_arg16) := keep_range% 52 26
theorem arg17_at52 : W52 m ρ c (Proc.devRef .tc main_arg17) = W26 m ρ c (Proc.devRef .tc main_arg17) := keep_range% 52 26
theorem arg18_at52 : W52 m ρ c (Proc.devRef .tc main_arg18) = W26 m ρ c (Proc.devRef .tc main_arg18) := keep_range% 52 26

end Cert.KernelIdeal.KVal

end
-- ==== Proof.KChainM.lean ====
import proofs.«112494_j53025666237105_2_alg».proof.Proof.Gen.KernelIdeal.Frame
import proofs.«112494_j53025666237105_2_alg».proof.Proof.Net
import proofs.«112494_j53025666237105_2_alg».proof.Proof.KKeep
import proofs.«112494_j53025666237105_2_alg».proof.Proof.Reg.Dense
import proofs.«112494_j53025666237105_2_alg».proof.Proof.Reg.BatchNorm
import Idealize.ShloMosaic.Lib.StableHlo.Run

set_option maxRecDepth 16384

noncomputable section

namespace Cert.KernelIdeal.KVal

open Idealize.ShloMosaic Idealize.SL.Sem Cert.KernelIdeal Cert.KernelIdeal.Gen

section HostValues
variable (W : Valuation τ sig (Elt Ideal))

theorem host20_v364 :
    StableHlo.after (hostOps20 (F := Ideal)) W (Proc.devRef .tc main_v364)
      = Cert.Spec.row128 (F := Ideal) (W (Proc.devRef .tc main_arg14)) := by
  simp only [hostOps20]
  after_results
  rfl

theorem host21_v370 :
    StableHlo.after (hostOps21_2 (F := Ideal)) (StableHlo.after hostOps21_1 (StableHlo.after hostOps21 W))
        (Proc.devRef .tc main_v370)
      = Cert.Spec.row128 (F := Ideal) (Cert.Spec.meanOf (F := Ideal) (W (Proc.devRef .tc main_v365))) := by
  simp only [hostOps21, hostOps21_1, hostOps21_2]
  after_results_simp
  try simp only [StableHlo.TRef.ofBuf, StableHlo.TRef.toBuf, cast_eq]
  rfl

theorem host21_v371 :
    StableHlo.after (hostOps21_2 (F := Ideal)) (StableHlo.after hostOps21_1 (StableHlo.after hostOps21 W))
        (Proc.devRef .tc main_v371)
      = Cert.Spec.row128 (F := Ideal) (Cert.Spec.varOf (F := Ideal) (W (Proc.devRef .tc main_v365))) := by
  simp only [hostOps21, hostOps21_1, hostOps21_2]
  after_results_simp
  try simp only [StableHlo.TRef.ofBuf, StableHlo.TRef.toBuf, cast_eq]
  rfl

theorem host21_v372 :
    StableHlo.after (hostOps21_2 (F := Ideal)) (StableHlo.after hostOps21_1 (StableHlo.after hostOps21 W))
        (Proc.devRef .tc main_v372)
      = Cert.Spec.row128 (F := Ideal) (W (Proc.devRef .tc main_arg15)) := by
  simp only [hostOps21, hostOps21_1, hostOps21_2]
  after_results_simp
  try simp only [StableHlo.TRef.ofBuf, StableHlo.TRef.toBuf, cast_eq]
  rfl

theorem host21_v373 :
    StableHlo.after (hostOps21_2 (F := Ideal)) (StableHlo.after hostOps21_1 (StableHlo.after hostOps21 W))
        (Proc.devRef .tc main_v373)
      = Cert.Spec.row128 (F := Ideal) (W (Proc.devRef .tc main_arg16)) := by
  simp only [hostOps21, hostOps21_1, hostOps21_2]
  after_results_simp
  try simp only [StableHlo.TRef.ofBuf, StableHlo.TRef.toBuf, cast_eq]
  rfl

theorem host22_v375 :
    StableHlo.after (hostOps22 (F := Ideal)) W (Proc.devRef .tc main_v375)
      = Cert.Spec.row64 (F := Ideal) (W (Proc.devRef .tc main_arg18)) := by
  simp only [hostOps22]
  after_results
  rfl

end HostValues

section Tail
variable (m : (ℓ : Loc nD τ sig) → Buf (Elt Ideal) ℓ) (ρ : Dev nD → PrngReg)

theorem v364_at53 (c : Dev nD) :
    W53 m ρ c (Proc.devRef .tc main_v364) = Cert.Spec.row128 (F := Ideal) (W52 m ρ c (Proc.devRef .tc main_arg14)) :=
  host20_v364 (W52 m ρ c)

theorem v365_at54 (c : Dev nD) :
    W54 m ρ c (Proc.devRef .tc main_v365)
      = Cert.Spec.kdense (F := Ideal) (W52 m ρ c (Proc.devRef .tc main_v350)) (W52 m ρ c (Proc.devRef .tc main_arg13))
          (Cert.Spec.row128 (F := Ideal) (W52 m ρ c (Proc.devRef .tc main_arg14))) :=
  calc W54 m ρ c (Proc.devRef .tc main_v365)
    _ = Cert.Spec.kdense (F := Ideal) (W53 m ρ c (Proc.devRef .tc main_v350)) (W53 m ρ c (Proc.devRef .tc main_arg13))
          (W53 m ρ c (Proc.devRef .tc main_v364)) := (W54_arr m ρ c 3).trans (RegVal.out20 (V53 m ρ) c)
    _ = _ := by
      rw [keep53 m ρ c main_v350 (by decide), keep53 m ρ c main_arg13 (by decide), v364_at53 m ρ c]

theorem v365_at57 (c : Dev nD) : W57 m ρ c (Proc.devRef .tc main_v365) = W54 m ρ c (Proc.devRef .tc main_v365) :=
  keep_range% 57 54

theorem v370_at57 (c : Dev nD) :
    W57 m ρ c (Proc.devRef .tc main_v370)
      = Cert.Spec.row128 (F := Ideal) (Cert.Spec.meanOf (F := Ideal) (W54 m ρ c (Proc.devRef .tc main_v365))) :=
  host21_v370 (W54 m ρ c)

theorem v371_at57 (c : Dev nD) :
    W57 m ρ c (Proc.devRef .tc main_v371)
      = Cert.Spec.row128 (F := Ideal) (Cert.Spec.varOf (F := Ideal) (W54 m ρ c (Proc.devRef .tc main_v365))) :=
  host21_v371 (W54 m ρ c)

theorem v372_at57 (c : Dev nD) :
    W57 m ρ c (Proc.devRef .tc main_v372) = Cert.Spec.row128 (F := Ideal) (W52 m ρ c (Proc.devRef .tc main_arg15)) :=
  (host21_v372 (W54 m ρ c)).trans
    (congrArg (Cert.Spec.row128 (F := Ideal))
      (keep_range% 54 52 : W54 m ρ c (Proc.devRef .tc main_arg15) = W52 m ρ c (Proc.devRef .tc main_arg15)))

theorem v373_at57 (c : Dev nD) :
    W57 m ρ c (Proc.devRef .tc main_v373) = Cert.Spec.row128 (F := Ideal) (W52 m ρ c (Proc.devRef .tc main_arg16)) :=
  (host21_v373 (W54 m ρ c)).trans
    (congrArg (Cert.Spec.row128 (F := Ideal))
      (keep_range% 54 52 : W54 m ρ c (Proc.devRef .tc main_arg16) = W52 m ρ c (Proc.devRef .tc main_arg16)))

theorem v374_at58 (c : Dev nD) :
    W58 m ρ c (Proc.devRef .tc main_v374)
      = Cert.Spec.kbnOf (F := Ideal) (W54 m ρ c (Proc.devRef .tc main_v365)) (W52 m ρ c (Proc.devRef .tc main_arg15))
          (W52 m ρ c (Proc.devRef .tc main_arg16)) :=
  calc W58 m ρ c (Proc.devRef .tc main_v374)
    _ = Cert.Spec.kbn (F := Ideal) (W57 m ρ c (Proc.devRef .tc main_v365)) (W57 m ρ c (Proc.devRef .tc main_v370))
          (W57 m ρ c (Proc.devRef .tc main_v371)) (W57 m ρ c (Proc.devRef .tc main_v372))
          (W57 m ρ c (Proc.devRef .tc main_v373)) := (W58_arr m ρ c 5).trans (RegVal.out21 (V57 m ρ) c)
    _ = _ := by
      rw [v365_at57 m ρ c, v370_at57 m ρ c, v371_at57 m ρ c, v372_at57 m ρ c, v373_at57 m ρ c]
      rfl

theorem v375_at59 (c : Dev nD) :
    W59 m ρ c (Proc.devRef .tc main_v375) = Cert.Spec.row64 (F := Ideal) (W52 m ρ c (Proc.devRef .tc main_arg18)) :=
  (host22_v375 (W58 m ρ c)).trans
    (congrArg (Cert.Spec.row64 (F := Ideal))
      (keep_range% 58 52 : W58 m ρ c (Proc.devRef .tc main_arg18) = W52 m ρ c (Proc.devRef .tc main_arg18)))

theorem v376_at60 (c : Dev nD) :
    W60 m ρ c (Proc.devRef .tc main_v376)
      = Cert.Spec.kdense64 (F := Ideal) (W58 m ρ c (Proc.devRef .tc main_v374)) (W52 m ρ c (Proc.devRef .tc main_arg17))
          (Cert.Spec.row64 (F := Ideal) (W52 m ρ c (Proc.devRef .tc main_arg18))) :=
  calc W60 m ρ c (Proc.devRef .tc main_v376)
    _ = Cert.Spec.kdense64 (F := Ideal) (W59 m ρ c (Proc.devRef .tc main_v374)) (W59 m ρ c (Proc.devRef .tc main_arg17))
          (W59 m ρ c (Proc.devRef .tc main_v375)) := (W60_arr m ρ c 3).trans (RegVal.out22 (V59 m ρ) c)
    _ = _ := by
      rw [keep59 m ρ c main_v374 (by decide),
        (keep_range% 59 52 : W59 m ρ c (Proc.devRef .tc main_arg17) = W52 m ρ c (Proc.devRef .tc main_arg17)),
        v375_at59 m ρ c]

theorem mlp_tail (c : Dev nD) :
    W60 m ρ c (Proc.devRef .tc main_v376)
      = Cert.Spec.kmlp (F := Ideal) (W52 m ρ c (Proc.devRef .tc main_v350)) (W52 m ρ c (Proc.devRef .tc main_arg13))
          (W52 m ρ c (Proc.devRef .tc main_arg14)) (W52 m ρ c (Proc.devRef .tc main_arg15))
          (W52 m ρ c (Proc.devRef .tc main_arg16)) (W52 m ρ c (Proc.devRef .tc main_arg17))
          (W52 m ρ c (Proc.devRef .tc main_arg18)) := by
  rw [v376_at60 m ρ c, v374_at58 m ρ c, v365_at54 m ρ c]
  rfl

end Tail

end Cert.KernelIdeal.KVal

end
-- ==== Proof.KValue.lean ====
import proofs.«112494_j53025666237105_2_alg».proof.Proof.KChainA0
import proofs.«112494_j53025666237105_2_alg».proof.Proof.KChainA1
import proofs.«112494_j53025666237105_2_alg».proof.Proof.KCarry26
import proofs.«112494_j53025666237105_2_alg».proof.Proof.KChainB
import proofs.«112494_j53025666237105_2_alg».proof.Proof.KChainM
import proofs.«112494_j53025666237105_2_alg».proof.Proof.KInputs

noncomputable section

namespace Cert.KernelIdeal.KVal

open Idealize.ShloMosaic Idealize.SL.Sem Cert.KernelIdeal Cert.KernelIdeal.Gen

variable (m : (ℓ : Loc nD τ sig) → Buf (Elt Ideal) ℓ) (ρ : Dev nD → PrngReg)

theorem kvalue (c : Dev nD) : W60 m ρ c (Proc.devRef .tc main_v376) = Cert.Spec.knet (inputsOf m c) := by
  rw [mlp_tail m ρ c, layer1_type0 m ρ c, arg13_at52 m ρ c, arg14_at52 m ρ c, arg15_at52 m ρ c, arg16_at52 m ρ c, arg17_at52 m ρ c, arg18_at52 m ρ c, layer0_type0 m ρ c, layer0_type1 m ρ c, src1_at26 m ρ c, dst1_at26 m ρ c,
    arg4_at26 m ρ c, arg5_at26 m ρ c, arg6_at26 m ρ c, arg7_at26 m ρ c, arg8_at26 m ρ c, arg9_at26 m ρ c, arg10_at26 m ρ c, arg11_at26 m ρ c, arg12_at26 m ρ c, arg13_at26 m ρ c, arg14_at26 m ρ c, arg15_at26 m ρ c, arg16_at26 m ρ c, arg17_at26 m ρ c, arg18_at26 m ρ c]
  rfl

end Cert.KernelIdeal.KVal

end
-- ==== Proof.ROps.lean ====
import proofs.«112494_j53025666237105_2_alg».proof.Proof.Gen.ReferenceIdeal
import Idealize.ShloMosaic.Lib.StableHlo.Run

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

abbrev opsC0 : List (HloOp τ sig (Elt F)) :=
  [ StableHlo.unary main_arg9 main_v0 (extractStridedSlice S1x128x128 ![0, 0, 0] · slices_S2x128x128_S1x128x128_0_0_0),
    StableHlo.reshape main_v0 main_v1 rfl shapeCasts_S1x128x128_S128x128,
    StableHlo.binary main_arg0 main_v1 main_v2 (fun l r => Host.dotGeneral dot_S100000x128_S128x128_S100000x128_1_0_0_1_n_n none l r),
    StableHlo.unary main_arg10 main_v3 (extractStridedSlice S1x128 ![0, 0] · slices_S2x128_S1x128_0_0),
    StableHlo.reshape main_v3 main_v4 rfl shapeCasts_S1x128_S128,
    StableHlo.unary main_v4 main_v5 (broadcastInDim S1x128 ![1] bcast_S128_S1x128_1),
    StableHlo.unary main_v5 main_v6 (broadcastInDim S100000x128 ![0, 1] bcast_S1x128_S100000x128_0_1),
    StableHlo.binary main_v2 main_v6 main_v7 (addf),
    StableHlo.unary main_arg9 main_v8 (extractStridedSlice S1x128x128 ![0, 0, 0] · slices_S2x128x128_S1x128x128_0_0_0),
    StableHlo.reshape main_v8 main_v9 rfl shapeCasts_S1x128x128_S128x128,
    StableHlo.binary main_arg1 main_v9 main_v10 (fun l r => Host.dotGeneral dot_S100000x128_S128x128_S100000x128_1_0_0_1_n_n none l r),
    StableHlo.unary main_arg10 main_v11 (extractStridedSlice S1x128 ![0, 0] · slices_S2x128_S1x128_0_0),
    StableHlo.reshape main_v11 main_v12 rfl shapeCasts_S1x128_S128,
    StableHlo.unary main_v12 main_v13 (broadcastInDim S1x128 ![1] bcast_S128_S1x128_1),
    StableHlo.unary main_v13 main_v14 (broadcastInDim S100000x128 ![0, 1] bcast_S1x128_S100000x128_0_1),
    StableHlo.binary main_v10 main_v14 main_v15 (addf) ]

abbrev opsC1a : List (HloOp τ sig (Elt F)) :=
  [ StableHlo.unary main_arg2 main_v16 (extractStridedSlice S1x500000 ![0, 0] · slices_S2x500000_S1x500000_0_0),
    StableHlo.reshape main_v16 main_v17 rfl shapeCasts_S1x500000_S500000,
    StableHlo.unary main_arg2 main_v18 (extractStridedSlice S1x500000 ![1, 0] · slices_S2x500000_S1x500000_1_0),
    StableHlo.reshape main_v18 main_v19 rfl shapeCasts_S1x500000_S500000,
    StableHlo.unary main_arg4 main_v20 (extractStridedSlice S1x1x128x128 ![0, 0, 0, 0] · slices_S2x2x128x128_S1x1x128x128_0_0_0_0),
    StableHlo.reshape main_v20 main_v21 rfl shapeCasts_S1x1x128x128_S128x128,
    StableHlo.unary main_arg5 main_v22 (extractStridedSlice S1x1x256x1 ![0, 0, 0, 0] · slices_S2x2x256x1_S1x1x256x1_0_0_0_0),
    StableHlo.reshape main_v22 main_v23 rfl shapeCasts_S1x1x256x1_S256x1,
    StableHlo.unary main_arg6 main_v24 (extractStridedSlice S1x1x1 ![0, 0, 0] · slices_S2x2x1_S1x1x1_0_0_0),
    StableHlo.reshape main_v24 main_v25 rfl shapeCasts_S1x1x1_S1,
    StableHlo.unary main_arg7 main_v26 (extractStridedSlice S1x1x128x128 ![0, 0, 0, 0] · slices_S2x2x128x128_S1x1x128x128_0_0_0_0),
    StableHlo.reshape main_v26 main_v27 rfl shapeCasts_S1x1x128x128_S128x128,
    StableHlo.unary main_arg8 main_v28 (extractStridedSlice S1x1x128 ![0, 0, 0] · slices_S2x2x128_S1x1x128_0_0_0),
    StableHlo.reshape main_v28 main_v29 rfl shapeCasts_S1x1x128_S128,
    StableHlo.binary main_arg1 main_v21 main_v30 (fun l r => Host.dotGeneral dot_S100000x128_S128x128_S100000x128_1_0_0_1_n_n none l r),
    StableHlo.binary main_arg0 main_v21 main_v31 (fun l r => Host.dotGeneral dot_S100000x128_S128x128_S100000x128_1_0_0_1_n_n none l r),
    StableHlo.nullary main_c (constantI S_ 32 0#32),
    StableHlo.unary main_c main_v32 (broadcastInDim S500000 ![] bcast_S_S500000),
    StableHlo.binary main_v19 main_v32 main_v33 (cmpi .slt),
    StableHlo.nullary main_c_0 (constantI S_ 32 100000#32),
    StableHlo.unary main_c_0 main_v34 (broadcastInDim S500000 ![] bcast_S_S500000),
    StableHlo.binary main_v19 main_v34 main_v35 (addi),
    StableHlo.ternary main_v33 main_v35 main_v19 main_v36 (select),
    StableHlo.unary main_v36 main_v37 (broadcastInDim S500000x1 ![0] bcast_S500000_S500000x1_0),
    StableHlo.binary main_v30 main_v37 main_v38 (fun x i => Host.gather gather_S100000x128_S500000x1_S500000x128_1_0_n_n_0_1_1128 x i),
    StableHlo.nullary main_c_1 (constantI S_ 32 0#32),
    StableHlo.unary main_c_1 main_v39 (broadcastInDim S500000 ![] bcast_S_S500000),
    StableHlo.binary main_v17 main_v39 main_v40 (cmpi .slt),
    StableHlo.nullary main_c_2 (constantI S_ 32 100000#32),
    StableHlo.unary main_c_2 main_v41 (broadcastInDim S500000 ![] bcast_S_S500000),
    StableHlo.binary main_v17 main_v41 main_v42 (addi),
    StableHlo.ternary main_v40 main_v42 main_v17 main_v43 (select),
    StableHlo.unary main_v43 main_v44 (broadcastInDim S500000x1 ![0] bcast_S500000_S500000x1_0),
    StableHlo.binary main_v31 main_v44 main_v45 (fun x i => Host.gather gather_S100000x128_S500000x1_S500000x128_1_0_n_n_0_1_1128 x i),
    StableHlo.unary main_v23 main_v46 (extractStridedSlice S128x1 ![0, 0] · slices_S256x1_S128x1_0_0),
    StableHlo.binary main_v38 main_v46 main_v47 (fun l r => Host.dotGeneral dot_S500000x128_S128x1_S500000x1_1_0_0_1_n_n none l r),
    StableHlo.unary main_v23 main_v48 (extractStridedSlice S128x1 ![128, 0] · slices_S256x1_S128x1_128_0),
    StableHlo.binary main_v45 main_v48 main_v49 (fun l r => Host.dotGeneral dot_S500000x128_S128x1_S500000x1_1_0_0_1_n_n none l r),
    StableHlo.binary main_v47 main_v49 main_v50 (addf),
    StableHlo.unary main_v25 main_v51 (broadcastInDim S1x1 ![1] bcast_S1_S1x1_1),
    StableHlo.unary main_v51 main_v52 (broadcastInDim S500000x1 ![0, 1] bcast_S1x1_S500000x1_0_1),
    StableHlo.binary main_v50 main_v52 main_v53 (addf),
    StableHlo.nullary main_cst (constant S_ .f32 0x00000000#32),
    StableHlo.unary main_cst main_v54 (broadcastInDim S500000x1 ![] bcast_S_S500000x1) ]

abbrev opsC1b : List (HloOp τ sig (Elt F)) :=
  [ StableHlo.binary main_v53 main_v54 main_v55 (cmpf .ogt),
    StableHlo.nullary main_cst_3 (constant S_ .f32 0x3E4CCCCD#32),
    StableHlo.unary main_cst_3 main_v56 (broadcastInDim S500000x1 ![] bcast_S_S500000x1),
    StableHlo.binary main_v56 main_v53 main_v57 (mulf),
    StableHlo.TRef.ternary (.of main_v55) (.of main_v53) (.of main_v57) main_call0.v0 select,
    StableHlo.unary main_v58 main_v59 (Host.exp),
    StableHlo.nullary main_cst_4 (constant S_ .f32 0x00000000#32),
    StableHlo.unary main_cst_4 main_v60 (broadcastInDim S100000x1 ![] bcast_S_S100000x1),
    StableHlo.unary main_v19 main_v61 (broadcastInDim S500000x1 ![0] bcast_S500000_S500000x1_0),
    StableHlo.ternary main_v60 main_v61 main_v59 main_v62 (fun x i u => Host.scatterAdd scatter_S100000x1_S500000x1_S500000x1_1_0_0_1 x i u),
    StableHlo.nullary main_c_5 (constantI S_ 32 0#32),
    StableHlo.unary main_c_5 main_v63 (broadcastInDim S500000 ![] bcast_S_S500000),
    StableHlo.binary main_v17 main_v63 main_v64 (cmpi .slt),
    StableHlo.nullary main_c_6 (constantI S_ 32 100000#32),
    StableHlo.unary main_c_6 main_v65 (broadcastInDim S500000 ![] bcast_S_S500000),
    StableHlo.binary main_v17 main_v65 main_v66 (addi),
    StableHlo.ternary main_v64 main_v66 main_v17 main_v67 (select),
    StableHlo.unary main_v67 main_v68 (broadcastInDim S500000x1 ![0] bcast_S500000_S500000x1_0),
    StableHlo.binary main_v62 main_v68 main_v69 (fun x i => Host.gather gather_S100000x1_S500000x1_S500000x1_1_0_n_n_0_1_11 x i),
    StableHlo.nullary main_cst_7 (constant S_ .f32 0x24E69595#32),
    StableHlo.unary main_cst_7 main_v70 (broadcastInDim S500000x1 ![] bcast_S_S500000x1),
    StableHlo.binary main_v69 main_v70 main_v71 (addf),
    StableHlo.binary main_v59 main_v71 main_v72 (Host.divf),
    StableHlo.unary main_v72 main_v73 (broadcastInDim S500000x128 ![0, 1] bcast_S500000x1_S500000x128_0_1),
    StableHlo.binary main_v45 main_v73 main_v74 (mulf),
    StableHlo.nullary main_cst_8 (constant S_ .f32 0x00000000#32),
    StableHlo.unary main_cst_8 main_v75 (broadcastInDim S100000x128 ![] bcast_S_S100000x128),
    StableHlo.unary main_v19 main_v76 (broadcastInDim S500000x1 ![0] bcast_S500000_S500000x1_0),
    StableHlo.ternary main_v75 main_v76 main_v74 main_v77 (fun x i u => Host.scatterAdd scatter_S100000x128_S500000x1_S500000x128_1_0_0_1 x i u),
    StableHlo.binary main_arg1 main_v27 main_v78 (fun l r => Host.dotGeneral dot_S100000x128_S128x128_S100000x128_1_0_0_1_n_n none l r),
    StableHlo.binary main_v77 main_v78 main_v79 (addf),
    StableHlo.unary main_v29 main_v80 (broadcastInDim S1x128 ![1] bcast_S128_S1x128_1),
    StableHlo.unary main_v80 main_v81 (broadcastInDim S100000x128 ![0, 1] bcast_S1x128_S100000x128_0_1),
    StableHlo.binary main_v79 main_v81 main_v82 (addf),
    StableHlo.binary main_v15 main_v82 main_v83 (addf) ]

abbrev opsC2a : List (HloOp τ sig (Elt F)) :=
  [ StableHlo.unary main_arg3 main_v84 (extractStridedSlice S1x500000 ![0, 0] · slices_S2x500000_S1x500000_0_0),
    StableHlo.reshape main_v84 main_v85 rfl shapeCasts_S1x500000_S500000,
    StableHlo.unary main_arg3 main_v86 (extractStridedSlice S1x500000 ![1, 0] · slices_S2x500000_S1x500000_1_0),
    StableHlo.reshape main_v86 main_v87 rfl shapeCasts_S1x500000_S500000,
    StableHlo.unary main_arg4 main_v88 (extractStridedSlice S1x1x128x128 ![0, 1, 0, 0] · slices_S2x2x128x128_S1x1x128x128_0_1_0_0),
    StableHlo.reshape main_v88 main_v89 rfl shapeCasts_S1x1x128x128_S128x128,
    StableHlo.unary main_arg5 main_v90 (extractStridedSlice S1x1x256x1 ![0, 1, 0, 0] · slices_S2x2x256x1_S1x1x256x1_0_1_0_0),
    StableHlo.reshape main_v90 main_v91 rfl shapeCasts_S1x1x256x1_S256x1,
    StableHlo.unary main_arg6 main_v92 (extractStridedSlice S1x1x1 ![0, 1, 0] · slices_S2x2x1_S1x1x1_0_1_0),
    StableHlo.reshape main_v92 main_v93 rfl shapeCasts_S1x1x1_S1,
    StableHlo.unary main_arg7 main_v94 (extractStridedSlice S1x1x128x128 ![0, 1, 0, 0] · slices_S2x2x128x128_S1x1x128x128_0_1_0_0),
    StableHlo.reshape main_v94 main_v95 rfl shapeCasts_S1x1x128x128_S128x128,
    StableHlo.unary main_arg8 main_v96 (extractStridedSlice S1x1x128 ![0, 1, 0] · slices_S2x2x128_S1x1x128_0_1_0),
    StableHlo.reshape main_v96 main_v97 rfl shapeCasts_S1x1x128_S128,
    StableHlo.binary main_arg0 main_v89 main_v98 (fun l r => Host.dotGeneral dot_S100000x128_S128x128_S100000x128_1_0_0_1_n_n none l r),
    StableHlo.binary main_arg1 main_v89 main_v99 (fun l r => Host.dotGeneral dot_S100000x128_S128x128_S100000x128_1_0_0_1_n_n none l r),
    StableHlo.nullary main_c_9 (constantI S_ 32 0#32),
    StableHlo.unary main_c_9 main_v100 (broadcastInDim S500000 ![] bcast_S_S500000),
    StableHlo.binary main_v87 main_v100 main_v101 (cmpi .slt),
    StableHlo.nullary main_c_10 (constantI S_ 32 100000#32),
    StableHlo.unary main_c_10 main_v102 (broadcastInDim S500000 ![] bcast_S_S500000),
    StableHlo.binary main_v87 main_v102 main_v103 (addi),
    StableHlo.ternary main_v101 main_v103 main_v87 main_v104 (select),
    StableHlo.unary main_v104 main_v105 (broadcastInDim S500000x1 ![0] bcast_S500000_S500000x1_0),
    StableHlo.binary main_v98 main_v105 main_v106 (fun x i => Host.gather gather_S100000x128_S500000x1_S500000x128_1_0_n_n_0_1_1128 x i) ]

abbrev opsC2b : List (HloOp τ sig (Elt F)) :=
  [ StableHlo.nullary main_c_11 (constantI S_ 32 0#32),
    StableHlo.unary main_c_11 main_v107 (broadcastInDim S500000 ![] bcast_S_S500000),
    StableHlo.binary main_v85 main_v107 main_v108 (cmpi .slt),
    StableHlo.nullary main_c_12 (constantI S_ 32 100000#32),
    StableHlo.unary main_c_12 main_v109 (broadcastInDim S500000 ![] bcast_S_S500000),
    StableHlo.binary main_v85 main_v109 main_v110 (addi),
    StableHlo.ternary main_v108 main_v110 main_v85 main_v111 (select),
    StableHlo.unary main_v111 main_v112 (broadcastInDim S500000x1 ![0] bcast_S500000_S500000x1_0),
    StableHlo.binary main_v99 main_v112 main_v113 (fun x i => Host.gather gather_S100000x128_S500000x1_S500000x128_1_0_n_n_0_1_1128 x i),
    StableHlo.unary main_v91 main_v114 (extractStridedSlice S128x1 ![0, 0] · slices_S256x1_S128x1_0_0),
    StableHlo.binary main_v106 main_v114 main_v115 (fun l r => Host.dotGeneral dot_S500000x128_S128x1_S500000x1_1_0_0_1_n_n none l r),
    StableHlo.unary main_v91 main_v116 (extractStridedSlice S128x1 ![128, 0] · slices_S256x1_S128x1_128_0),
    StableHlo.binary main_v113 main_v116 main_v117 (fun l r => Host.dotGeneral dot_S500000x128_S128x1_S500000x1_1_0_0_1_n_n none l r),
    StableHlo.binary main_v115 main_v117 main_v118 (addf),
    StableHlo.unary main_v93 main_v119 (broadcastInDim S1x1 ![1] bcast_S1_S1x1_1),
    StableHlo.unary main_v119 main_v120 (broadcastInDim S500000x1 ![0, 1] bcast_S1x1_S500000x1_0_1),
    StableHlo.binary main_v118 main_v120 main_v121 (addf),
    StableHlo.nullary main_cst_13 (constant S_ .f32 0x00000000#32),
    StableHlo.unary main_cst_13 main_v122 (broadcastInDim S500000x1 ![] bcast_S_S500000x1),
    StableHlo.binary main_v121 main_v122 main_v123 (cmpf .ogt),
    StableHlo.nullary main_cst_14 (constant S_ .f32 0x3E4CCCCD#32),
    StableHlo.unary main_cst_14 main_v124 (broadcastInDim S500000x1 ![] bcast_S_S500000x1),
    StableHlo.binary main_v124 main_v121 main_v125 (mulf),
    StableHlo.TRef.ternary (.of main_v123) (.of main_v121) (.of main_v125) main_call1.v0 select,
    StableHlo.unary main_v126 main_v127 (Host.exp),
    StableHlo.nullary main_cst_15 (constant S_ .f32 0x00000000#32),
    StableHlo.unary main_cst_15 main_v128 (broadcastInDim S100000x1 ![] bcast_S_S100000x1),
    StableHlo.unary main_v87 main_v129 (broadcastInDim S500000x1 ![0] bcast_S500000_S500000x1_0),
    StableHlo.ternary main_v128 main_v129 main_v127 main_v130 (fun x i u => Host.scatterAdd scatter_S100000x1_S500000x1_S500000x1_1_0_0_1 x i u),
    StableHlo.nullary main_c_16 (constantI S_ 32 0#32),
    StableHlo.unary main_c_16 main_v131 (broadcastInDim S500000 ![] bcast_S_S500000),
    StableHlo.binary main_v85 main_v131 main_v132 (cmpi .slt),
    StableHlo.nullary main_c_17 (constantI S_ 32 100000#32),
    StableHlo.unary main_c_17 main_v133 (broadcastInDim S500000 ![] bcast_S_S500000),
    StableHlo.binary main_v85 main_v133 main_v134 (addi),
    StableHlo.ternary main_v132 main_v134 main_v85 main_v135 (select),
    StableHlo.unary main_v135 main_v136 (broadcastInDim S500000x1 ![0] bcast_S500000_S500000x1_0),
    StableHlo.binary main_v130 main_v136 main_v137 (fun x i => Host.gather gather_S100000x1_S500000x1_S500000x1_1_0_n_n_0_1_11 x i),
    StableHlo.nullary main_cst_18 (constant S_ .f32 0x24E69595#32),
    StableHlo.unary main_cst_18 main_v138 (broadcastInDim S500000x1 ![] bcast_S_S500000x1),
    StableHlo.binary main_v137 main_v138 main_v139 (addf),
    StableHlo.binary main_v127 main_v139 main_v140 (Host.divf),
    StableHlo.unary main_v140 main_v141 (broadcastInDim S500000x128 ![0, 1] bcast_S500000x1_S500000x128_0_1),
    StableHlo.binary main_v113 main_v141 main_v142 (mulf),
    StableHlo.nullary main_cst_19 (constant S_ .f32 0x00000000#32),
    StableHlo.unary main_cst_19 main_v143 (broadcastInDim S100000x128 ![] bcast_S_S100000x128),
    StableHlo.unary main_v87 main_v144 (broadcastInDim S500000x1 ![0] bcast_S500000_S500000x1_0),
    StableHlo.ternary main_v143 main_v144 main_v142 main_v145 (fun x i u => Host.scatterAdd scatter_S100000x128_S500000x1_S500000x128_1_0_0_1 x i u),
    StableHlo.binary main_arg0 main_v95 main_v146 (fun l r => Host.dotGeneral dot_S100000x128_S128x128_S100000x128_1_0_0_1_n_n none l r),
    StableHlo.binary main_v145 main_v146 main_v147 (addf),
    StableHlo.unary main_v97 main_v148 (broadcastInDim S1x128 ![1] bcast_S128_S1x128_1),
    StableHlo.unary main_v148 main_v149 (broadcastInDim S100000x128 ![0, 1] bcast_S1x128_S100000x128_0_1),
    StableHlo.binary main_v147 main_v149 main_v150 (addf),
    StableHlo.binary main_v7 main_v150 main_v151 (addf) ]

abbrev opsC3a : List (HloOp τ sig (Elt F)) :=
  [ StableHlo.unary main_arg11 main_v152 (extractStridedSlice S1x128 ![0, 0] · slices_S2x128_S1x128_0_0),
    StableHlo.reshape main_v152 main_v153 rfl shapeCasts_S1x128_S128,
    StableHlo.unary main_arg12 main_v154 (extractStridedSlice S1x128 ![0, 0] · slices_S2x128_S1x128_0_0),
    StableHlo.reshape main_v154 main_v155 rfl shapeCasts_S1x128_S128,
    StableHlo.nullary main_cst_20 (constant S_ .f32 0x00000000#32),
    StableHlo.binary main_v151 main_cst_20 main_v156 (fun x v => Host.reduceAdd x v reducesTo_S100000x128_S128_d0 h_S_) ]

abbrev opsC3b : List (HloOp τ sig (Elt F)) :=
  [ StableHlo.nullary main_cst_21 (constant S_ .f32 0x47C35000#32),
    StableHlo.unary main_cst_21 main_v157 (broadcastInDim S128 ![] bcast_S_S128),
    StableHlo.binary main_v156 main_v157 main_v158 (Host.divf),
    StableHlo.nullary main_c_22 (constantI S_ 32 0#32),
    StableHlo.TRef.nullary main_call2.cst (constant S_ .f32 0x00000000#32),
    StableHlo.TRef.binary (.of main_v151) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v151) main_call2.v4 main_call2.v5 subf,
    StableHlo.TRef.binary main_call2.v5 main_call2.v5 main_call2.v6 mulf,
    StableHlo.TRef.unary (.of main_c_22) main_call2.v7 (sitofp (F := F) .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf (F := F) .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v158 main_v160 (broadcastInDim S1x128 ![1] bcast_S128_S1x128_1),
    StableHlo.unary main_v160 main_v161 (broadcastInDim S100000x128 ![0, 1] bcast_S1x128_S100000x128_0_1),
    StableHlo.binary main_v151 main_v161 main_v162 (subf),
    StableHlo.nullary main_cst_23 (constant S_ .f32 0x3727C5AC#32),
    StableHlo.unary main_cst_23 main_v163 (broadcastInDim S128 ![] bcast_S_S128),
    StableHlo.binary main_v159 main_v163 main_v164 (addf),
    StableHlo.unary main_v164 main_v165 (Host.rsqrt),
    StableHlo.unary main_v165 main_v166 (broadcastInDim S1x128 ![1] bcast_S128_S1x128_1),
    StableHlo.unary main_v166 main_v167 (broadcastInDim S100000x128 ![0, 1] bcast_S1x128_S100000x128_0_1),
    StableHlo.binary main_v162 main_v167 main_v168 (mulf),
    StableHlo.unary main_v153 main_v169 (broadcastInDim S1x128 ![1] bcast_S128_S1x128_1),
    StableHlo.unary main_v169 main_v170 (broadcastInDim S100000x128 ![0, 1] bcast_S1x128_S100000x128_0_1),
    StableHlo.binary main_v168 main_v170 main_v171 (mulf),
    StableHlo.unary main_v155 main_v172 (broadcastInDim S1x128 ![1] bcast_S128_S1x128_1),
    StableHlo.unary main_v172 main_v173 (broadcastInDim S100000x128 ![0, 1] bcast_S1x128_S100000x128_0_1),
    StableHlo.binary main_v171 main_v173 main_v174 (addf),
    StableHlo.TRef.nullary main_call3.cst (constant S_ .f32 0x00000000#32),
    StableHlo.TRef.unary main_call3.cst main_call3.v0 (broadcastInDim S100000x128 ![] bcast_S_S100000x128),
    StableHlo.TRef.binary (.of main_v174) main_call3.v0 main_call3.v1 maximumf ]

abbrev opsC4 : List (HloOp τ sig (Elt F)) :=
  [ StableHlo.unary main_arg11 main_v176 (extractStridedSlice S1x128 ![0, 0] · slices_S2x128_S1x128_0_0),
    StableHlo.reshape main_v176 main_v177 rfl shapeCasts_S1x128_S128,
    StableHlo.unary main_arg12 main_v178 (extractStridedSlice S1x128 ![0, 0] · slices_S2x128_S1x128_0_0),
    StableHlo.reshape main_v178 main_v179 rfl shapeCasts_S1x128_S128,
    StableHlo.nullary main_cst_24 (constant S_ .f32 0x00000000#32),
    StableHlo.binary main_v83 main_cst_24 main_v180 (fun x v => Host.reduceAdd x v reducesTo_S100000x128_S128_d0 h_S_),
    StableHlo.nullary main_cst_25 (constant S_ .f32 0x47C35000#32),
    StableHlo.unary main_cst_25 main_v181 (broadcastInDim S128 ![] bcast_S_S128),
    StableHlo.binary main_v180 main_v181 main_v182 (Host.divf),
    StableHlo.nullary main_c_26 (constantI S_ 32 0#32),
    StableHlo.TRef.nullary main_call4.cst (constant S_ .f32 0x00000000#32),
    StableHlo.TRef.binary (.of main_v83) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v83) main_call4.v4 main_call4.v5 subf,
    StableHlo.TRef.binary main_call4.v5 main_call4.v5 main_call4.v6 mulf,
    StableHlo.TRef.unary (.of main_c_26) main_call4.v7 (sitofp (F := F) .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf (F := F) .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v182 main_v184 (broadcastInDim S1x128 ![1] bcast_S128_S1x128_1),
    StableHlo.unary main_v184 main_v185 (broadcastInDim S100000x128 ![0, 1] bcast_S1x128_S100000x128_0_1),
    StableHlo.binary main_v83 main_v185 main_v186 (subf),
    StableHlo.nullary main_cst_27 (constant S_ .f32 0x3727C5AC#32),
    StableHlo.unary main_cst_27 main_v187 (broadcastInDim S128 ![] bcast_S_S128),
    StableHlo.binary main_v183 main_v187 main_v188 (addf),
    StableHlo.unary main_v188 main_v189 (Host.rsqrt),
    StableHlo.unary main_v189 main_v190 (broadcastInDim S1x128 ![1] bcast_S128_S1x128_1),
    StableHlo.unary main_v190 main_v191 (broadcastInDim S100000x128 ![0, 1] bcast_S1x128_S100000x128_0_1),
    StableHlo.binary main_v186 main_v191 main_v192 (mulf),
    StableHlo.unary main_v177 main_v193 (broadcastInDim S1x128 ![1] bcast_S128_S1x128_1),
    StableHlo.unary main_v193 main_v194 (broadcastInDim S100000x128 ![0, 1] bcast_S1x128_S100000x128_0_1),
    StableHlo.binary main_v192 main_v194 main_v195 (mulf),
    StableHlo.unary main_v179 main_v196 (broadcastInDim S1x128 ![1] bcast_S128_S1x128_1),
    StableHlo.unary main_v196 main_v197 (broadcastInDim S100000x128 ![0, 1] bcast_S1x128_S100000x128_0_1),
    StableHlo.binary main_v195 main_v197 main_v198 (addf),
    StableHlo.TRef.nullary main_call5.cst (constant S_ .f32 0x00000000#32),
    StableHlo.TRef.unary main_call5.cst main_call5.v0 (broadcastInDim S100000x128 ![] bcast_S_S100000x128),
    StableHlo.TRef.binary (.of main_v198) main_call5.v0 main_call5.v1 maximumf ]

abbrev opsC5a : List (HloOp τ sig (Elt F)) :=
  [ StableHlo.unary main_arg9 main_v200 (extractStridedSlice S1x128x128 ![1, 0, 0] · slices_S2x128x128_S1x128x128_1_0_0),
    StableHlo.reshape main_v200 main_v201 rfl shapeCasts_S1x128x128_S128x128,
    StableHlo.binary main_v175 main_v201 main_v202 (fun l r => Host.dotGeneral dot_S100000x128_S128x128_S100000x128_1_0_0_1_n_n none l r),
    StableHlo.unary main_arg10 main_v203 (extractStridedSlice S1x128 ![1, 0] · slices_S2x128_S1x128_1_0),
    StableHlo.reshape main_v203 main_v204 rfl shapeCasts_S1x128_S128,
    StableHlo.unary main_v204 main_v205 (broadcastInDim S1x128 ![1] bcast_S128_S1x128_1),
    StableHlo.unary main_v205 main_v206 (broadcastInDim S100000x128 ![0, 1] bcast_S1x128_S100000x128_0_1),
    StableHlo.binary main_v202 main_v206 main_v207 (addf),
    StableHlo.unary main_arg9 main_v208 (extractStridedSlice S1x128x128 ![1, 0, 0] · slices_S2x128x128_S1x128x128_1_0_0),
    StableHlo.reshape main_v208 main_v209 rfl shapeCasts_S1x128x128_S128x128 ]

abbrev opsC5b : List (HloOp τ sig (Elt F)) :=
  [ StableHlo.binary main_v199 main_v209 main_v210 (fun l r => Host.dotGeneral dot_S100000x128_S128x128_S100000x128_1_0_0_1_n_n none l r),
    StableHlo.unary main_arg10 main_v211 (extractStridedSlice S1x128 ![1, 0] · slices_S2x128_S1x128_1_0),
    StableHlo.reshape main_v211 main_v212 rfl shapeCasts_S1x128_S128,
    StableHlo.unary main_v212 main_v213 (broadcastInDim S1x128 ![1] bcast_S128_S1x128_1),
    StableHlo.unary main_v213 main_v214 (broadcastInDim S100000x128 ![0, 1] bcast_S1x128_S100000x128_0_1),
    StableHlo.binary main_v210 main_v214 main_v215 (addf) ]

abbrev opsC6a : List (HloOp τ sig (Elt F)) :=
  [ StableHlo.unary main_arg2 main_v216 (extractStridedSlice S1x500000 ![0, 0] · slices_S2x500000_S1x500000_0_0),
    StableHlo.reshape main_v216 main_v217 rfl shapeCasts_S1x500000_S500000,
    StableHlo.unary main_arg2 main_v218 (extractStridedSlice S1x500000 ![1, 0] · slices_S2x500000_S1x500000_1_0),
    StableHlo.reshape main_v218 main_v219 rfl shapeCasts_S1x500000_S500000,
    StableHlo.unary main_arg4 main_v220 (extractStridedSlice S1x1x128x128 ![1, 0, 0, 0] · slices_S2x2x128x128_S1x1x128x128_1_0_0_0),
    StableHlo.reshape main_v220 main_v221 rfl shapeCasts_S1x1x128x128_S128x128,
    StableHlo.unary main_arg5 main_v222 (extractStridedSlice S1x1x256x1 ![1, 0, 0, 0] · slices_S2x2x256x1_S1x1x256x1_1_0_0_0),
    StableHlo.reshape main_v222 main_v223 rfl shapeCasts_S1x1x256x1_S256x1,
    StableHlo.unary main_arg6 main_v224 (extractStridedSlice S1x1x1 ![1, 0, 0] · slices_S2x2x1_S1x1x1_1_0_0),
    StableHlo.reshape main_v224 main_v225 rfl shapeCasts_S1x1x1_S1,
    StableHlo.unary main_arg7 main_v226 (extractStridedSlice S1x1x128x128 ![1, 0, 0, 0] · slices_S2x2x128x128_S1x1x128x128_1_0_0_0),
    StableHlo.reshape main_v226 main_v227 rfl shapeCasts_S1x1x128x128_S128x128,
    StableHlo.unary main_arg8 main_v228 (extractStridedSlice S1x1x128 ![1, 0, 0] · slices_S2x2x128_S1x1x128_1_0_0),
    StableHlo.reshape main_v228 main_v229 rfl shapeCasts_S1x1x128_S128,
    StableHlo.binary main_v199 main_v221 main_v230 (fun l r => Host.dotGeneral dot_S100000x128_S128x128_S100000x128_1_0_0_1_n_n none l r),
    StableHlo.binary main_v175 main_v221 main_v231 (fun l r => Host.dotGeneral dot_S100000x128_S128x128_S100000x128_1_0_0_1_n_n none l r),
    StableHlo.nullary main_c_28 (constantI S_ 32 0#32),
    StableHlo.unary main_c_28 main_v232 (broadcastInDim S500000 ![] bcast_S_S500000),
    StableHlo.binary main_v219 main_v232 main_v233 (cmpi .slt),
    StableHlo.nullary main_c_29 (constantI S_ 32 100000#32),
    StableHlo.unary main_c_29 main_v234 (broadcastInDim S500000 ![] bcast_S_S500000),
    StableHlo.binary main_v219 main_v234 main_v235 (addi),
    StableHlo.ternary main_v233 main_v235 main_v219 main_v236 (select),
    StableHlo.unary main_v236 main_v237 (broadcastInDim S500000x1 ![0] bcast_S500000_S500000x1_0),
    StableHlo.binary main_v230 main_v237 main_v238 (fun x i => Host.gather gather_S100000x128_S500000x1_S500000x128_1_0_n_n_0_1_1128 x i),
    StableHlo.nullary main_c_30 (constantI S_ 32 0#32),
    StableHlo.unary main_c_30 main_v239 (broadcastInDim S500000 ![] bcast_S_S500000),
    StableHlo.binary main_v217 main_v239 main_v240 (cmpi .slt),
    StableHlo.nullary main_c_31 (constantI S_ 32 100000#32),
    StableHlo.unary main_c_31 main_v241 (broadcastInDim S500000 ![] bcast_S_S500000),
    StableHlo.binary main_v217 main_v241 main_v242 (addi),
    StableHlo.ternary main_v240 main_v242 main_v217 main_v243 (select),
    StableHlo.unary main_v243 main_v244 (broadcastInDim S500000x1 ![0] bcast_S500000_S500000x1_0),
    StableHlo.binary main_v231 main_v244 main_v245 (fun x i => Host.gather gather_S100000x128_S500000x1_S500000x128_1_0_n_n_0_1_1128 x i),
    StableHlo.unary main_v223 main_v246 (extractStridedSlice S128x1 ![0, 0] · slices_S256x1_S128x1_0_0),
    StableHlo.binary main_v238 main_v246 main_v247 (fun l r => Host.dotGeneral dot_S500000x128_S128x1_S500000x1_1_0_0_1_n_n none l r),
    StableHlo.unary main_v223 main_v248 (extractStridedSlice S128x1 ![128, 0] · slices_S256x1_S128x1_128_0),
    StableHlo.binary main_v245 main_v248 main_v249 (fun l r => Host.dotGeneral dot_S500000x128_S128x1_S500000x1_1_0_0_1_n_n none l r),
    StableHlo.binary main_v247 main_v249 main_v250 (addf),
    StableHlo.unary main_v225 main_v251 (broadcastInDim S1x1 ![1] bcast_S1_S1x1_1),
    StableHlo.unary main_v251 main_v252 (broadcastInDim S500000x1 ![0, 1] bcast_S1x1_S500000x1_0_1),
    StableHlo.binary main_v250 main_v252 main_v253 (addf),
    StableHlo.nullary main_cst_32 (constant S_ .f32 0x00000000#32),
    StableHlo.unary main_cst_32 main_v254 (broadcastInDim S500000x1 ![] bcast_S_S500000x1),
    StableHlo.binary main_v253 main_v254 main_v255 (cmpf .ogt),
    StableHlo.nullary main_cst_33 (constant S_ .f32 0x3E4CCCCD#32),
    StableHlo.unary main_cst_33 main_v256 (broadcastInDim S500000x1 ![] bcast_S_S500000x1),
    StableHlo.binary main_v256 main_v253 main_v257 (mulf),
    StableHlo.TRef.ternary (.of main_v255) (.of main_v253) (.of main_v257) main_call6.v0 select,
    StableHlo.unary main_v258 main_v259 (Host.exp),
    StableHlo.nullary main_cst_34 (constant S_ .f32 0x00000000#32),
    StableHlo.unary main_cst_34 main_v260 (broadcastInDim S100000x1 ![] bcast_S_S100000x1),
    StableHlo.unary main_v219 main_v261 (broadcastInDim S500000x1 ![0] bcast_S500000_S500000x1_0),
    StableHlo.ternary main_v260 main_v261 main_v259 main_v262 (fun x i u => Host.scatterAdd scatter_S100000x1_S500000x1_S500000x1_1_0_0_1 x i u) ]

abbrev opsC6b : List (HloOp τ sig (Elt F)) :=
  [ StableHlo.nullary main_c_35 (constantI S_ 32 0#32),
    StableHlo.unary main_c_35 main_v263 (broadcastInDim S500000 ![] bcast_S_S500000),
    StableHlo.binary main_v217 main_v263 main_v264 (cmpi .slt),
    StableHlo.nullary main_c_36 (constantI S_ 32 100000#32),
    StableHlo.unary main_c_36 main_v265 (broadcastInDim S500000 ![] bcast_S_S500000),
    StableHlo.binary main_v217 main_v265 main_v266 (addi),
    StableHlo.ternary main_v264 main_v266 main_v217 main_v267 (select),
    StableHlo.unary main_v267 main_v268 (broadcastInDim S500000x1 ![0] bcast_S500000_S500000x1_0),
    StableHlo.binary main_v262 main_v268 main_v269 (fun x i => Host.gather gather_S100000x1_S500000x1_S500000x1_1_0_n_n_0_1_11 x i),
    StableHlo.nullary main_cst_37 (constant S_ .f32 0x24E69595#32),
    StableHlo.unary main_cst_37 main_v270 (broadcastInDim S500000x1 ![] bcast_S_S500000x1),
    StableHlo.binary main_v269 main_v270 main_v271 (addf),
    StableHlo.binary main_v259 main_v271 main_v272 (Host.divf),
    StableHlo.unary main_v272 main_v273 (broadcastInDim S500000x128 ![0, 1] bcast_S500000x1_S500000x128_0_1),
    StableHlo.binary main_v245 main_v273 main_v274 (mulf),
    StableHlo.nullary main_cst_38 (constant S_ .f32 0x00000000#32),
    StableHlo.unary main_cst_38 main_v275 (broadcastInDim S100000x128 ![] bcast_S_S100000x128),
    StableHlo.unary main_v219 main_v276 (broadcastInDim S500000x1 ![0] bcast_S500000_S500000x1_0),
    StableHlo.ternary main_v275 main_v276 main_v274 main_v277 (fun x i u => Host.scatterAdd scatter_S100000x128_S500000x1_S500000x128_1_0_0_1 x i u),
    StableHlo.binary main_v199 main_v227 main_v278 (fun l r => Host.dotGeneral dot_S100000x128_S128x128_S100000x128_1_0_0_1_n_n none l r),
    StableHlo.binary main_v277 main_v278 main_v279 (addf),
    StableHlo.unary main_v229 main_v280 (broadcastInDim S1x128 ![1] bcast_S128_S1x128_1),
    StableHlo.unary main_v280 main_v281 (broadcastInDim S100000x128 ![0, 1] bcast_S1x128_S100000x128_0_1),
    StableHlo.binary main_v279 main_v281 main_v282 (addf),
    StableHlo.binary main_v215 main_v282 main_v283 (addf) ]

abbrev opsC7a : List (HloOp τ sig (Elt F)) :=
  [ StableHlo.unary main_arg3 main_v284 (extractStridedSlice S1x500000 ![0, 0] · slices_S2x500000_S1x500000_0_0),
    StableHlo.reshape main_v284 main_v285 rfl shapeCasts_S1x500000_S500000,
    StableHlo.unary main_arg3 main_v286 (extractStridedSlice S1x500000 ![1, 0] · slices_S2x500000_S1x500000_1_0),
    StableHlo.reshape main_v286 main_v287 rfl shapeCasts_S1x500000_S500000,
    StableHlo.unary main_arg4 main_v288 (extractStridedSlice S1x1x128x128 ![1, 1, 0, 0] · slices_S2x2x128x128_S1x1x128x128_1_1_0_0),
    StableHlo.reshape main_v288 main_v289 rfl shapeCasts_S1x1x128x128_S128x128,
    StableHlo.unary main_arg5 main_v290 (extractStridedSlice S1x1x256x1 ![1, 1, 0, 0] · slices_S2x2x256x1_S1x1x256x1_1_1_0_0),
    StableHlo.reshape main_v290 main_v291 rfl shapeCasts_S1x1x256x1_S256x1,
    StableHlo.unary main_arg6 main_v292 (extractStridedSlice S1x1x1 ![1, 1, 0] · slices_S2x2x1_S1x1x1_1_1_0),
    StableHlo.reshape main_v292 main_v293 rfl shapeCasts_S1x1x1_S1,
    StableHlo.unary main_arg7 main_v294 (extractStridedSlice S1x1x128x128 ![1, 1, 0, 0] · slices_S2x2x128x128_S1x1x128x128_1_1_0_0),
    StableHlo.reshape main_v294 main_v295 rfl shapeCasts_S1x1x128x128_S128x128,
    StableHlo.unary main_arg8 main_v296 (extractStridedSlice S1x1x128 ![1, 1, 0] · slices_S2x2x128_S1x1x128_1_1_0),
    StableHlo.reshape main_v296 main_v297 rfl shapeCasts_S1x1x128_S128,
    StableHlo.binary main_v175 main_v289 main_v298 (fun l r => Host.dotGeneral dot_S100000x128_S128x128_S100000x128_1_0_0_1_n_n none l r),
    StableHlo.binary main_v199 main_v289 main_v299 (fun l r => Host.dotGeneral dot_S100000x128_S128x128_S100000x128_1_0_0_1_n_n none l r),
    StableHlo.nullary main_c_39 (constantI S_ 32 0#32),
    StableHlo.unary main_c_39 main_v300 (broadcastInDim S500000 ![] bcast_S_S500000),
    StableHlo.binary main_v287 main_v300 main_v301 (cmpi .slt),
    StableHlo.nullary main_c_40 (constantI S_ 32 100000#32),
    StableHlo.unary main_c_40 main_v302 (broadcastInDim S500000 ![] bcast_S_S500000),
    StableHlo.binary main_v287 main_v302 main_v303 (addi),
    StableHlo.ternary main_v301 main_v303 main_v287 main_v304 (select),
    StableHlo.unary main_v304 main_v305 (broadcastInDim S500000x1 ![0] bcast_S500000_S500000x1_0),
    StableHlo.binary main_v298 main_v305 main_v306 (fun x i => Host.gather gather_S100000x128_S500000x1_S500000x128_1_0_n_n_0_1_1128 x i),
    StableHlo.nullary main_c_41 (constantI S_ 32 0#32),
    StableHlo.unary main_c_41 main_v307 (broadcastInDim S500000 ![] bcast_S_S500000),
    StableHlo.binary main_v285 main_v307 main_v308 (cmpi .slt),
    StableHlo.nullary main_c_42 (constantI S_ 32 100000#32),
    StableHlo.unary main_c_42 main_v309 (broadcastInDim S500000 ![] bcast_S_S500000),
    StableHlo.binary main_v285 main_v309 main_v310 (addi),
    StableHlo.ternary main_v308 main_v310 main_v285 main_v311 (select),
    StableHlo.unary main_v311 main_v312 (broadcastInDim S500000x1 ![0] bcast_S500000_S500000x1_0),
    StableHlo.binary main_v299 main_v312 main_v313 (fun x i => Host.gather gather_S100000x128_S500000x1_S500000x128_1_0_n_n_0_1_1128 x i),
    StableHlo.unary main_v291 main_v314 (extractStridedSlice S128x1 ![0, 0] · slices_S256x1_S128x1_0_0) ]

abbrev opsC7b : List (HloOp τ sig (Elt F)) :=
  [ StableHlo.binary main_v306 main_v314 main_v315 (fun l r => Host.dotGeneral dot_S500000x128_S128x1_S500000x1_1_0_0_1_n_n none l r),
    StableHlo.unary main_v291 main_v316 (extractStridedSlice S128x1 ![128, 0] · slices_S256x1_S128x1_128_0),
    StableHlo.binary main_v313 main_v316 main_v317 (fun l r => Host.dotGeneral dot_S500000x128_S128x1_S500000x1_1_0_0_1_n_n none l r),
    StableHlo.binary main_v315 main_v317 main_v318 (addf),
    StableHlo.unary main_v293 main_v319 (broadcastInDim S1x1 ![1] bcast_S1_S1x1_1),
    StableHlo.unary main_v319 main_v320 (broadcastInDim S500000x1 ![0, 1] bcast_S1x1_S500000x1_0_1),
    StableHlo.binary main_v318 main_v320 main_v321 (addf),
    StableHlo.nullary main_cst_43 (constant S_ .f32 0x00000000#32),
    StableHlo.unary main_cst_43 main_v322 (broadcastInDim S500000x1 ![] bcast_S_S500000x1),
    StableHlo.binary main_v321 main_v322 main_v323 (cmpf .ogt),
    StableHlo.nullary main_cst_44 (constant S_ .f32 0x3E4CCCCD#32),
    StableHlo.unary main_cst_44 main_v324 (broadcastInDim S500000x1 ![] bcast_S_S500000x1),
    StableHlo.binary main_v324 main_v321 main_v325 (mulf),
    StableHlo.TRef.ternary (.of main_v323) (.of main_v321) (.of main_v325) main_call7.v0 select,
    StableHlo.unary main_v326 main_v327 (Host.exp),
    StableHlo.nullary main_cst_45 (constant S_ .f32 0x00000000#32),
    StableHlo.unary main_cst_45 main_v328 (broadcastInDim S100000x1 ![] bcast_S_S100000x1),
    StableHlo.unary main_v287 main_v329 (broadcastInDim S500000x1 ![0] bcast_S500000_S500000x1_0),
    StableHlo.ternary main_v328 main_v329 main_v327 main_v330 (fun x i u => Host.scatterAdd scatter_S100000x1_S500000x1_S500000x1_1_0_0_1 x i u),
    StableHlo.nullary main_c_46 (constantI S_ 32 0#32),
    StableHlo.unary main_c_46 main_v331 (broadcastInDim S500000 ![] bcast_S_S500000),
    StableHlo.binary main_v285 main_v331 main_v332 (cmpi .slt),
    StableHlo.nullary main_c_47 (constantI S_ 32 100000#32),
    StableHlo.unary main_c_47 main_v333 (broadcastInDim S500000 ![] bcast_S_S500000),
    StableHlo.binary main_v285 main_v333 main_v334 (addi),
    StableHlo.ternary main_v332 main_v334 main_v285 main_v335 (select),
    StableHlo.unary main_v335 main_v336 (broadcastInDim S500000x1 ![0] bcast_S500000_S500000x1_0),
    StableHlo.binary main_v330 main_v336 main_v337 (fun x i => Host.gather gather_S100000x1_S500000x1_S500000x1_1_0_n_n_0_1_11 x i),
    StableHlo.nullary main_cst_48 (constant S_ .f32 0x24E69595#32),
    StableHlo.unary main_cst_48 main_v338 (broadcastInDim S500000x1 ![] bcast_S_S500000x1),
    StableHlo.binary main_v337 main_v338 main_v339 (addf),
    StableHlo.binary main_v327 main_v339 main_v340 (Host.divf),
    StableHlo.unary main_v340 main_v341 (broadcastInDim S500000x128 ![0, 1] bcast_S500000x1_S500000x128_0_1),
    StableHlo.binary main_v313 main_v341 main_v342 (mulf),
    StableHlo.nullary main_cst_49 (constant S_ .f32 0x00000000#32),
    StableHlo.unary main_cst_49 main_v343 (broadcastInDim S100000x128 ![] bcast_S_S100000x128),
    StableHlo.unary main_v287 main_v344 (broadcastInDim S500000x1 ![0] bcast_S500000_S500000x1_0),
    StableHlo.ternary main_v343 main_v344 main_v342 main_v345 (fun x i u => Host.scatterAdd scatter_S100000x128_S500000x1_S500000x128_1_0_0_1 x i u),
    StableHlo.binary main_v175 main_v295 main_v346 (fun l r => Host.dotGeneral dot_S100000x128_S128x128_S100000x128_1_0_0_1_n_n none l r),
    StableHlo.binary main_v345 main_v346 main_v347 (addf),
    StableHlo.unary main_v297 main_v348 (broadcastInDim S1x128 ![1] bcast_S128_S1x128_1),
    StableHlo.unary main_v348 main_v349 (broadcastInDim S100000x128 ![0, 1] bcast_S1x128_S100000x128_0_1),
    StableHlo.binary main_v347 main_v349 main_v350 (addf),
    StableHlo.binary main_v207 main_v350 main_v351 (addf) ]

abbrev opsC8a : List (HloOp τ sig (Elt F)) :=
  [ StableHlo.unary main_arg11 main_v352 (extractStridedSlice S1x128 ![1, 0] · slices_S2x128_S1x128_1_0),
    StableHlo.reshape main_v352 main_v353 rfl shapeCasts_S1x128_S128,
    StableHlo.unary main_arg12 main_v354 (extractStridedSlice S1x128 ![1, 0] · slices_S2x128_S1x128_1_0),
    StableHlo.reshape main_v354 main_v355 rfl shapeCasts_S1x128_S128,
    StableHlo.nullary main_cst_50 (constant S_ .f32 0x00000000#32),
    StableHlo.binary main_v351 main_cst_50 main_v356 (fun x v => Host.reduceAdd x v reducesTo_S100000x128_S128_d0 h_S_),
    StableHlo.nullary main_cst_51 (constant S_ .f32 0x47C35000#32),
    StableHlo.unary main_cst_51 main_v357 (broadcastInDim S128 ![] bcast_S_S128),
    StableHlo.binary main_v356 main_v357 main_v358 (Host.divf),
    StableHlo.nullary main_c_52 (constantI S_ 32 0#32),
    StableHlo.TRef.nullary main_call8.cst (constant S_ .f32 0x00000000#32),
    StableHlo.TRef.binary (.of main_v351) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v351) main_call8.v4 main_call8.v5 subf,
    StableHlo.TRef.binary main_call8.v5 main_call8.v5 main_call8.v6 mulf,
    StableHlo.TRef.unary (.of main_c_52) main_call8.v7 (sitofp (F := F) .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf (F := F) .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v358 main_v360 (broadcastInDim S1x128 ![1] bcast_S128_S1x128_1),
    StableHlo.unary main_v360 main_v361 (broadcastInDim S100000x128 ![0, 1] bcast_S1x128_S100000x128_0_1),
    StableHlo.binary main_v351 main_v361 main_v362 (subf),
    StableHlo.nullary main_cst_53 (constant S_ .f32 0x3727C5AC#32),
    StableHlo.unary main_cst_53 main_v363 (broadcastInDim S128 ![] bcast_S_S128) ]

abbrev opsC8b : List (HloOp τ sig (Elt F)) :=
  [ StableHlo.binary main_v359 main_v363 main_v364 (addf),
    StableHlo.unary main_v364 main_v365 (Host.rsqrt),
    StableHlo.unary main_v365 main_v366 (broadcastInDim S1x128 ![1] bcast_S128_S1x128_1),
    StableHlo.unary main_v366 main_v367 (broadcastInDim S100000x128 ![0, 1] bcast_S1x128_S100000x128_0_1),
    StableHlo.binary main_v362 main_v367 main_v368 (mulf),
    StableHlo.unary main_v353 main_v369 (broadcastInDim S1x128 ![1] bcast_S128_S1x128_1),
    StableHlo.unary main_v369 main_v370 (broadcastInDim S100000x128 ![0, 1] bcast_S1x128_S100000x128_0_1),
    StableHlo.binary main_v368 main_v370 main_v371 (mulf),
    StableHlo.unary main_v355 main_v372 (broadcastInDim S1x128 ![1] bcast_S128_S1x128_1),
    StableHlo.unary main_v372 main_v373 (broadcastInDim S100000x128 ![0, 1] bcast_S1x128_S100000x128_0_1),
    StableHlo.binary main_v371 main_v373 main_v374 (addf),
    StableHlo.TRef.nullary main_call9.cst (constant S_ .f32 0x00000000#32),
    StableHlo.TRef.unary main_call9.cst main_call9.v0 (broadcastInDim S100000x128 ![] bcast_S_S100000x128),
    StableHlo.TRef.binary (.of main_v374) main_call9.v0 main_call9.v1 maximumf ]

abbrev opsC9 : List (HloOp τ sig (Elt F)) :=
  [ StableHlo.unary main_arg11 main_v376 (extractStridedSlice S1x128 ![1, 0] · slices_S2x128_S1x128_1_0),
    StableHlo.reshape main_v376 main_v377 rfl shapeCasts_S1x128_S128,
    StableHlo.unary main_arg12 main_v378 (extractStridedSlice S1x128 ![1, 0] · slices_S2x128_S1x128_1_0),
    StableHlo.reshape main_v378 main_v379 rfl shapeCasts_S1x128_S128,
    StableHlo.nullary main_cst_54 (constant S_ .f32 0x00000000#32),
    StableHlo.binary main_v283 main_cst_54 main_v380 (fun x v => Host.reduceAdd x v reducesTo_S100000x128_S128_d0 h_S_),
    StableHlo.nullary main_cst_55 (constant S_ .f32 0x47C35000#32),
    StableHlo.unary main_cst_55 main_v381 (broadcastInDim S128 ![] bcast_S_S128),
    StableHlo.binary main_v380 main_v381 main_v382 (Host.divf),
    StableHlo.nullary main_c_56 (constantI S_ 32 0#32),
    StableHlo.TRef.nullary main_call10.cst (constant S_ .f32 0x00000000#32),
    StableHlo.TRef.binary (.of main_v283) main_call10.cst main_call10.v0 (fun x v => Host.reduceAdd x v reducesTo_S100000x128_S128_d0 h_S_),
    StableHlo.TRef.unary main_call10.v0 main_call10.v1 (broadcastInDim S1x128 ![1] bcast_S128_S1x128_1),
    StableHlo.TRef.nullary main_call10.cst_0 (constant S_ .f32 0x47C35000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S100000x128 ![0, 1] bcast_S1x128_S100000x128_0_1),
    StableHlo.TRef.binary (.of main_v283) main_call10.v4 main_call10.v5 subf,
    StableHlo.TRef.binary main_call10.v5 main_call10.v5 main_call10.v6 mulf,
    StableHlo.TRef.unary (.of main_c_56) main_call10.v7 (sitofp (F := F) .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf (F := F) .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v382 main_v384 (broadcastInDim S1x128 ![1] bcast_S128_S1x128_1),
    StableHlo.unary main_v384 main_v385 (broadcastInDim S100000x128 ![0, 1] bcast_S1x128_S100000x128_0_1),
    StableHlo.binary main_v283 main_v385 main_v386 (subf),
    StableHlo.nullary main_cst_57 (constant S_ .f32 0x3727C5AC#32),
    StableHlo.unary main_cst_57 main_v387 (broadcastInDim S128 ![] bcast_S_S128),
    StableHlo.binary main_v383 main_v387 main_v388 (addf),
    StableHlo.unary main_v388 main_v389 (Host.rsqrt),
    StableHlo.unary main_v389 main_v390 (broadcastInDim S1x128 ![1] bcast_S128_S1x128_1),
    StableHlo.unary main_v390 main_v391 (broadcastInDim S100000x128 ![0, 1] bcast_S1x128_S100000x128_0_1),
    StableHlo.binary main_v386 main_v391 main_v392 (mulf),
    StableHlo.unary main_v377 main_v393 (broadcastInDim S1x128 ![1] bcast_S128_S1x128_1),
    StableHlo.unary main_v393 main_v394 (broadcastInDim S100000x128 ![0, 1] bcast_S1x128_S100000x128_0_1),
    StableHlo.binary main_v392 main_v394 main_v395 (mulf),
    StableHlo.unary main_v379 main_v396 (broadcastInDim S1x128 ![1] bcast_S128_S1x128_1),
    StableHlo.unary main_v396 main_v397 (broadcastInDim S100000x128 ![0, 1] bcast_S1x128_S100000x128_0_1),
    StableHlo.binary main_v395 main_v397 main_v398 (addf),
    StableHlo.TRef.nullary main_call11.cst (constant S_ .f32 0x00000000#32),
    StableHlo.TRef.unary main_call11.cst main_call11.v0 (broadcastInDim S100000x128 ![] bcast_S_S100000x128),
    StableHlo.TRef.binary (.of main_v398) main_call11.v0 main_call11.v1 maximumf ]

abbrev opsC10a : List (HloOp τ sig (Elt F)) :=
  [ StableHlo.binary main_v375 main_arg13 main_v400 (fun l r => Host.dotGeneral dot_S100000x128_S128x128_S100000x128_1_0_0_1_n_n none l r),
    StableHlo.unary main_arg14 main_v401 (broadcastInDim S1x128 ![1] bcast_S128_S1x128_1),
    StableHlo.unary main_v401 main_v402 (broadcastInDim S100000x128 ![0, 1] bcast_S1x128_S100000x128_0_1),
    StableHlo.binary main_v400 main_v402 main_v403 (addf),
    StableHlo.nullary main_cst_58 (constant S_ .f32 0x00000000#32),
    StableHlo.binary main_v403 main_cst_58 main_v404 (fun x v => Host.reduceAdd x v reducesTo_S100000x128_S128_d0 h_S_),
    StableHlo.nullary main_cst_59 (constant S_ .f32 0x47C35000#32),
    StableHlo.unary main_cst_59 main_v405 (broadcastInDim S128 ![] bcast_S_S128),
    StableHlo.binary main_v404 main_v405 main_v406 (Host.divf),
    StableHlo.nullary main_c_60 (constantI S_ 32 0#32),
    StableHlo.TRef.nullary main_call12.cst (constant S_ .f32 0x00000000#32),
    StableHlo.TRef.binary (.of main_v403) main_call12.cst main_call12.v0 (fun x v => Host.reduceAdd x v reducesTo_S100000x128_S128_d0 h_S_),
    StableHlo.TRef.unary main_call12.v0 main_call12.v1 (broadcastInDim S1x128 ![1] bcast_S128_S1x128_1),
    StableHlo.TRef.nullary main_call12.cst_0 (constant S_ .f32 0x47C35000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S100000x128 ![0, 1] bcast_S1x128_S100000x128_0_1),
    StableHlo.TRef.binary (.of main_v403) main_call12.v4 main_call12.v5 subf,
    StableHlo.TRef.binary main_call12.v5 main_call12.v5 main_call12.v6 mulf,
    StableHlo.TRef.unary (.of main_c_60) main_call12.v7 (sitofp (F := F) .f32),
    StableHlo.TRef.nullary main_call12.cst_1 (constant S_ .f32 0x47C35000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S100000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf (F := F) .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S128 ![] bcast_S_S128),
    StableHlo.TRef.ternary main_call12.v12 main_call12.v11 main_call12.call0.v1 main_call12.call0.v2 (fun p a b => select (broadcastInDim S128 ![] bcast_S_S128 p) a b),
    StableHlo.unary main_v406 main_v408 (broadcastInDim S1x128 ![1] bcast_S128_S1x128_1),
    StableHlo.unary main_v408 main_v409 (broadcastInDim S100000x128 ![0, 1] bcast_S1x128_S100000x128_0_1),
    StableHlo.binary main_v403 main_v409 main_v410 (subf),
    StableHlo.nullary main_cst_61 (constant S_ .f32 0x3727C5AC#32),
    StableHlo.unary main_cst_61 main_v411 (broadcastInDim S128 ![] bcast_S_S128),
    StableHlo.binary main_v407 main_v411 main_v412 (addf),
    StableHlo.unary main_v412 main_v413 (Host.rsqrt),
    StableHlo.unary main_v413 main_v414 (broadcastInDim S1x128 ![1] bcast_S128_S1x128_1),
    StableHlo.unary main_v414 main_v415 (broadcastInDim S100000x128 ![0, 1] bcast_S1x128_S100000x128_0_1) ]

abbrev opsC10b : List (HloOp τ sig (Elt F)) :=
  [ StableHlo.binary main_v410 main_v415 main_v416 (mulf),
    StableHlo.unary main_arg15 main_v417 (broadcastInDim S1x128 ![1] bcast_S128_S1x128_1),
    StableHlo.unary main_v417 main_v418 (broadcastInDim S100000x128 ![0, 1] bcast_S1x128_S100000x128_0_1),
    StableHlo.binary main_v416 main_v418 main_v419 (mulf),
    StableHlo.unary main_arg16 main_v420 (broadcastInDim S1x128 ![1] bcast_S128_S1x128_1),
    StableHlo.unary main_v420 main_v421 (broadcastInDim S100000x128 ![0, 1] bcast_S1x128_S100000x128_0_1),
    StableHlo.binary main_v419 main_v421 main_v422 (addf),
    StableHlo.TRef.nullary main_call13.cst (constant S_ .f32 0x00000000#32),
    StableHlo.TRef.unary main_call13.cst main_call13.v0 (broadcastInDim S100000x128 ![] bcast_S_S100000x128),
    StableHlo.TRef.binary (.of main_v422) main_call13.v0 main_call13.v1 maximumf,
    StableHlo.binary main_v423 main_arg17 main_v424 (fun l r => Host.dotGeneral dot_S100000x128_S128x64_S100000x64_1_0_0_1_n_n none l r),
    StableHlo.unary main_arg18 main_v425 (broadcastInDim S1x64 ![1] bcast_S64_S1x64_1),
    StableHlo.unary main_v425 main_v426 (broadcastInDim S100000x64 ![0, 1] bcast_S1x64_S100000x64_0_1),
    StableHlo.binary main_v424 main_v426 main_v427 (addf) ]

abbrev opsC1 : List (HloOp τ sig (Elt F)) := opsC1a ++ opsC1b

abbrev opsC2 : List (HloOp τ sig (Elt F)) := opsC2a ++ opsC2b

abbrev opsC3 : List (HloOp τ sig (Elt F)) := opsC3a ++ opsC3b

abbrev opsC5 : List (HloOp τ sig (Elt F)) := opsC5a ++ opsC5b

abbrev opsC6 : List (HloOp τ sig (Elt F)) := opsC6a ++ opsC6b

abbrev opsC7 : List (HloOp τ sig (Elt F)) := opsC7a ++ opsC7b

abbrev opsC8 : List (HloOp τ sig (Elt F)) := opsC8a ++ opsC8b

abbrev opsC10 : List (HloOp τ sig (Elt F)) := opsC10a ++ opsC10b

abbrev ops : List (HloOp τ sig (Elt F)) := opsC0 ++ (opsC1 ++ (opsC2 ++ (opsC3 ++ (opsC4 ++ (opsC5 ++ (opsC6 ++ (opsC7 ++ (opsC8 ++ (opsC9 ++ opsC10)))))))))

end Cert.ReferenceIdeal.RVal

end
-- ==== Proof.ROpsSub.lean ====
import proofs.«112494_j53025666237105_2_alg».proof.Proof.ROps

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

theorem opsC0_sub : (opsC0 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

theorem opsC1a_sub : (opsC1a : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., unary_bufs_sub ..⟩

theorem opsC1b_sub : (opsC1b : List (HloOp τ sig (Elt F))).Forall fun op => op.bufs ⊆ tcRefs τ sig :=
  ⟨binary_bufs_sub .., nullary_bufs_sub .., unary_bufs_sub .., binary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., binary_bufs_sub ..⟩

theorem opsC2a_sub : (opsC2a : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem opsC2b_sub : (opsC2b : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., binary_bufs_sub ..⟩

theorem opsC3a_sub : (opsC3a : List (HloOp τ sig (Elt F))).Forall fun op => op.bufs ⊆ tcRefs τ sig :=
  ⟨unary_bufs_sub .., reshape_bufs_sub .., unary_bufs_sub .., reshape_bufs_sub .., nullary_bufs_sub .., binary_bufs_sub ..⟩

theorem opsC3b_sub : (opsC3b : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsC4_sub : (opsC4 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsC5a_sub : (opsC5a : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub ..⟩

theorem opsC5b_sub : (opsC5b : List (HloOp τ sig (Elt F))).Forall fun op => op.bufs ⊆ tcRefs τ sig :=
  ⟨binary_bufs_sub .., unary_bufs_sub .., reshape_bufs_sub .., unary_bufs_sub .., unary_bufs_sub .., binary_bufs_sub ..⟩

theorem opsC6a_sub : (opsC6a : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., ternary_bufs_sub ..⟩

theorem opsC6b_sub : (opsC6b : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., binary_bufs_sub ..⟩

theorem opsC7a_sub : (opsC7a : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩

theorem opsC7b_sub : (opsC7b : List (HloOp τ sig (Elt F))).Forall fun op => op.bufs ⊆ tcRefs τ sig :=
  ⟨binary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., binary_bufs_sub ..⟩

theorem opsC8a_sub : (opsC8a : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩

theorem opsC8b_sub : (opsC8b : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsC9_sub : (opsC9 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsC10a_sub : (opsC10a : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub ..⟩

theorem opsC10b_sub : (opsC10b : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

end Cert.ReferenceIdeal.RVal

end
-- ==== Proof.RRunSide.lean ====
import proofs.«112494_j53025666237105_2_alg».proof.Proof.ROpsSub

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

theorem forall_join {α : Type} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

theorem ops_sub : (ops : List (HloOp τ sig (Elt F))).Forall fun op => op.bufs ⊆ tcRefs τ sig :=
  (forall_join opsC0_sub (forall_join (forall_join opsC1a_sub opsC1b_sub) (forall_join (forall_join opsC2a_sub opsC2b_sub) (forall_join (forall_join opsC3a_sub opsC3b_sub) (forall_join opsC4_sub (forall_join (forall_join opsC5a_sub opsC5b_sub) (forall_join (forall_join opsC6a_sub opsC6b_sub) (forall_join (forall_join opsC7a_sub opsC7b_sub) (forall_join (forall_join opsC8a_sub opsC8b_sub) (forall_join opsC9_sub (forall_join opsC10a_sub opsC10b_sub)))))))))))

local macro "each_determined" : tactic => `(tactic| repeat (first | exact rfl | refine ⟨rfl, ?_⟩))

theorem opsC0_fresh : (opsC0 : List (HloOp τ sig (Elt F))).Forall fun op => op.fresh = ∅ := by each_determined
theorem opsC1a_fresh : (opsC1a : List (HloOp τ sig (Elt F))).Forall fun op => op.fresh = ∅ := by each_determined
theorem opsC1b_fresh : (opsC1b : List (HloOp τ sig (Elt F))).Forall fun op => op.fresh = ∅ := by each_determined
theorem opsC2a_fresh : (opsC2a : List (HloOp τ sig (Elt F))).Forall fun op => op.fresh = ∅ := by each_determined
theorem opsC2b_fresh : (opsC2b : List (HloOp τ sig (Elt F))).Forall fun op => op.fresh = ∅ := by each_determined
theorem opsC3a_fresh : (opsC3a : List (HloOp τ sig (Elt F))).Forall fun op => op.fresh = ∅ := by each_determined
theorem opsC3b_fresh : (opsC3b : List (HloOp τ sig (Elt F))).Forall fun op => op.fresh = ∅ := by each_determined
theorem opsC4_fresh : (opsC4 : List (HloOp τ sig (Elt F))).Forall fun op => op.fresh = ∅ := by each_determined
theorem opsC5a_fresh : (opsC5a : List (HloOp τ sig (Elt F))).Forall fun op => op.fresh = ∅ := by each_determined
theorem opsC5b_fresh : (opsC5b : List (HloOp τ sig (Elt F))).Forall fun op => op.fresh = ∅ := by each_determined
theorem opsC6a_fresh : (opsC6a : List (HloOp τ sig (Elt F))).Forall fun op => op.fresh = ∅ := by each_determined
theorem opsC6b_fresh : (opsC6b : List (HloOp τ sig (Elt F))).Forall fun op => op.fresh = ∅ := by each_determined
theorem opsC7a_fresh : (opsC7a : List (HloOp τ sig (Elt F))).Forall fun op => op.fresh = ∅ := by each_determined
theorem opsC7b_fresh : (opsC7b : List (HloOp τ sig (Elt F))).Forall fun op => op.fresh = ∅ := by each_determined
theorem opsC8a_fresh : (opsC8a : List (HloOp τ sig (Elt F))).Forall fun op => op.fresh = ∅ := by each_determined
theorem opsC8b_fresh : (opsC8b : List (HloOp τ sig (Elt F))).Forall fun op => op.fresh = ∅ := by each_determined
theorem opsC9_fresh : (opsC9 : List (HloOp τ sig (Elt F))).Forall fun op => op.fresh = ∅ := by each_determined
theorem opsC10a_fresh : (opsC10a : List (HloOp τ sig (Elt F))).Forall fun op => op.fresh = ∅ := by each_determined
theorem opsC10b_fresh : (opsC10b : List (HloOp τ sig (Elt F))).Forall fun op => op.fresh = ∅ := by each_determined

theorem ops_fresh_all : (ops : List (HloOp τ sig (Elt F))).Forall fun op => op.fresh = ∅ :=
  (forall_join opsC0_fresh (forall_join (forall_join opsC1a_fresh opsC1b_fresh) (forall_join (forall_join opsC2a_fresh opsC2b_fresh) (forall_join (forall_join opsC3a_fresh opsC3b_fresh) (forall_join opsC4_fresh (forall_join (forall_join opsC5a_fresh opsC5b_fresh) (forall_join (forall_join opsC6a_fresh opsC6b_fresh) (forall_join (forall_join opsC7a_fresh opsC7b_fresh) (forall_join (forall_join opsC8a_fresh opsC8b_fresh) (forall_join opsC9_fresh (forall_join opsC10a_fresh opsC10b_fresh)))))))))))

theorem ops_fresh : ∀ op ∈ (ops : List (HloOp τ sig (Elt F))), op.fresh = ∅ :=
  List.forall_iff_forall_mem.mp ops_fresh_all

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RVal

end
-- ==== Proof.RRun.lean ====
import proofs.«112494_j53025666237105_2_alg».proof.Proof.RRunSide
import Idealize.ShloMosaic.Lib.Pipeline.Regions

set_option Elab.async false

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

theorem main_part0_eq (c : Dev nD) : main_part0 (F := F) c = seq (opsC0 ++ opsC1a) := by
  chain_rfl

theorem main_part1_eq (c : Dev nD) : main_part1 (F := F) c = seq (opsC1b ++ opsC2a) := by
  chain_rfl

theorem main_part2_eq (c : Dev nD) : main_part2 (F := F) c = seq (opsC2b ++ opsC3a) := by
  chain_rfl

theorem main_part3_eq (c : Dev nD) : main_part3 (F := F) c = seq (opsC3b ++ (opsC4 ++ opsC5a)) := by
  chain_rfl

theorem main_part4_eq (c : Dev nD) : main_part4 (F := F) c = seq (opsC5b ++ opsC6a) := by
  chain_rfl

theorem main_part5_eq (c : Dev nD) : main_part5 (F := F) c = seq (opsC6b ++ opsC7a) := by
  chain_rfl

theorem main_part6_eq (c : Dev nD) : main_part6 (F := F) c = seq (opsC7b ++ opsC8a) := by
  chain_rfl

theorem main_part7_eq (c : Dev nD) : main_part7 (F := F) c = seq (opsC8b ++ (opsC9 ++ opsC10a)) := by
  chain_rfl

theorem main_part8_eq (c : Dev nD) : main_part8 (F := F) c = seq opsC10b := by
  chain_rfl

theorem windows_eq :
    ((opsC0 ++ opsC1a) ++ ((opsC1b ++ opsC2a) ++ ((opsC2b ++ opsC3a) ++ ((opsC3b ++ (opsC4 ++ opsC5a)) ++
      ((opsC5b ++ opsC6a) ++ ((opsC6b ++ opsC7a) ++ ((opsC7b ++ opsC8a) ++ ((opsC8b ++ (opsC9 ++ opsC10a)) ++
        opsC10b))))))) : List (HloOp τ sig (Elt F))) = ops := by
  simp only [ops, opsC1, opsC2, opsC3, opsC5, opsC6, opsC7, opsC8, opsC10, List.append_assoc]

theorem main_eq (c : Dev nD) : main (F := F) c = seq ops := by
  unfold main
  rw [main_part0_eq, main_part1_eq, main_part2_eq, main_part3_eq, main_part4_eq, main_part5_eq, main_part6_eq,
    main_part7_eq, main_part8_eq]
  simp only [← seq_append]
  exact congrArg seq windows_eq

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (StableHlo.launchContents m c) (b : DevRef τ sig) :=
  run_seq scopedRefs_eq scopedSems_eq defs main (fun _ => ops) main_eq (fun _ => ops_sub) m ρ (fun _ => ops_fresh)

end Cert.ReferenceIdeal.RVal

end
-- ==== Proof.RKept.lean ====
import proofs.«112494_j53025666237105_2_alg».proof.Proof.ROps

noncomputable section

namespace Cert.ReferenceIdeal.RVal

open Cert.ReferenceIdeal Cert.ReferenceIdeal.Gen Idealize.ShloMosaic Idealize.SL.Sem Idealize.ShloMosaic.StableHlo

variable {F : FTy → Type} [FloatOps F]

abbrev wC0 : List (Ref sig .tc) :=
  [main_v0, main_v1, main_v2, main_v3, main_v4, main_v5, main_v6, main_v7, main_v8, main_v9, main_v10, main_v11, main_v12, main_v13, main_v14, main_v15]
theorem wC0_sub : (opsC0 : List (HloOp τ sig (Elt F))).Forall fun op => op.writes ⊆ (wC0.map (Proc.devRef (τ := τ) .tc)).toFinset := by
  simp only [opsC0, List.Forall]
  refine ⟨?_, ?_, ?_, ?_, ?_, ?_, ?_, ?_, ?_, ?_, ?_, ?_, ?_, ?_, ?_, ?_⟩ <;>
    exact Finset.singleton_subset_iff.mpr (List.mem_toFinset.mpr (List.mem_map_of_mem (by decide)))

abbrev wC1a : List (Ref sig .tc) :=
  [main_v16, main_v17, main_v18, main_v19, main_v20, main_v21, main_v22, main_v23, main_v24, main_v25, main_v26, main_v27, main_v28, main_v29, main_v30, main_v31, main_c, main_v32, main_v33, main_c_0, main_v34, main_v35, main_v36, main_v37, main_v38, main_c_1, main_v39, main_v40, main_c_2, main_v41, main_v42, main_v43, main_v44, main_v45, main_v46, main_v47, main_v48, main_v49, main_v50, main_v51, main_v52, main_v53, main_cst, main_v54]
theorem wC1a_sub : (opsC1a : List (HloOp τ sig (Elt F))).Forall fun op => op.writes ⊆ (wC1a.map (Proc.devRef (τ := τ) .tc)).toFinset := by
  simp only [opsC1a, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

abbrev wC1b : List (Ref sig .tc) :=
  [main_v55, main_cst_3, main_v56, main_v57, main_v58, main_v59, main_cst_4, main_v60, main_v61, main_v62, main_c_5, main_v63, main_v64, main_c_6, main_v65, main_v66, main_v67, main_v68, main_v69, main_cst_7, main_v70, main_v71, main_v72, main_v73, main_v74, main_cst_8, main_v75, main_v76, main_v77, main_v78, main_v79, main_v80, main_v81, main_v82, main_v83]
theorem wC1b_sub : (opsC1b : List (HloOp τ sig (Elt F))).Forall fun op => op.writes ⊆ (wC1b.map (Proc.devRef (τ := τ) .tc)).toFinset := by
  simp only [opsC1b, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

abbrev wC2a : List (Ref sig .tc) :=
  [main_v84, main_v85, main_v86, main_v87, main_v88, main_v89, main_v90, main_v91, main_v92, main_v93, main_v94, main_v95, main_v96, main_v97, main_v98, main_v99, main_c_9, main_v100, main_v101, main_c_10, main_v102, main_v103, main_v104, main_v105, main_v106]
theorem wC2a_sub : (opsC2a : List (HloOp τ sig (Elt F))).Forall fun op => op.writes ⊆ (wC2a.map (Proc.devRef (τ := τ) .tc)).toFinset := by
  simp only [opsC2a, List.Forall]
  refine ⟨?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

abbrev wC2b : List (Ref sig .tc) :=
  [main_c_11, main_v107, main_v108, main_c_12, main_v109, main_v110, main_v111, main_v112, main_v113, main_v114, main_v115, main_v116, main_v117, main_v118, main_v119, main_v120, main_v121, main_cst_13, main_v122, main_v123, main_cst_14, main_v124, main_v125, main_v126, main_v127, main_cst_15, main_v128, main_v129, main_v130, main_c_16, main_v131, main_v132, main_c_17, main_v133, main_v134, main_v135, main_v136, main_v137, main_cst_18, main_v138, main_v139, main_v140, main_v141, main_v142, main_cst_19, main_v143, main_v144, main_v145, main_v146, main_v147, main_v148, main_v149, main_v150, main_v151]
theorem wC2b_sub : (opsC2b : List (HloOp τ sig (Elt F))).Forall fun op => op.writes ⊆ (wC2b.map (Proc.devRef (τ := τ) .tc)).toFinset := by
  simp only [opsC2b, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

abbrev wC3a : List (Ref sig .tc) :=
  [main_v152, main_v153, main_v154, main_v155, main_cst_20, main_v156]
theorem wC3a_sub : (opsC3a : List (HloOp τ sig (Elt F))).Forall fun op => op.writes ⊆ (wC3a.map (Proc.devRef (τ := τ) .tc)).toFinset := by
  simp only [opsC3a, List.Forall]
  refine ⟨?_, ?_, ?_, ?_, ?_, ?_⟩ <;>
    exact Finset.singleton_subset_iff.mpr (List.mem_toFinset.mpr (List.mem_map_of_mem (by decide)))

abbrev wC3b : List (Ref sig .tc) :=
  [main_cst_21, main_v157, main_v158, main_c_22, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v159, main_v160, main_v161, main_v162, main_cst_23, main_v163, main_v164, main_v165, main_v166, main_v167, main_v168, main_v169, main_v170, main_v171, main_v172, main_v173, main_v174, main_call3_cst, main_call3_v0, main_v175]
theorem wC3b_sub : (opsC3b : List (HloOp τ sig (Elt F))).Forall fun op => op.writes ⊆ (wC3b.map (Proc.devRef (τ := τ) .tc)).toFinset := by
  simp only [opsC3b, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

abbrev wC4 : List (Ref sig .tc) :=
  [main_v176, main_v177, main_v178, main_v179, main_cst_24, main_v180, main_cst_25, main_v181, main_v182, main_c_26, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v183, main_v184, main_v185, main_v186, main_cst_27, main_v187, main_v188, main_v189, main_v190, main_v191, main_v192, main_v193, main_v194, main_v195, main_v196, main_v197, main_v198, main_call5_cst, main_call5_v0, main_v199]
theorem wC4_sub : (opsC4 : List (HloOp τ sig (Elt F))).Forall fun op => op.writes ⊆ (wC4.map (Proc.devRef (τ := τ) .tc)).toFinset := by
  simp only [opsC4, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

abbrev wC5a : List (Ref sig .tc) :=
  [main_v200, main_v201, main_v202, main_v203, main_v204, main_v205, main_v206, main_v207, main_v208, main_v209]
theorem wC5a_sub : (opsC5a : List (HloOp τ sig (Elt F))).Forall fun op => op.writes ⊆ (wC5a.map (Proc.devRef (τ := τ) .tc)).toFinset := by
  simp only [opsC5a, List.Forall]
  refine ⟨?_, ?_, ?_, ?_, ?_, ?_, ?_, ?_, ?_, ?_⟩ <;>
    exact Finset.singleton_subset_iff.mpr (List.mem_toFinset.mpr (List.mem_map_of_mem (by decide)))

abbrev wC5b : List (Ref sig .tc) :=
  [main_v210, main_v211, main_v212, main_v213, main_v214, main_v215]
theorem wC5b_sub : (opsC5b : List (HloOp τ sig (Elt F))).Forall fun op => op.writes ⊆ (wC5b.map (Proc.devRef (τ := τ) .tc)).toFinset := by
  simp only [opsC5b, List.Forall]
  refine ⟨?_, ?_, ?_, ?_, ?_, ?_⟩ <;>
    exact Finset.singleton_subset_iff.mpr (List.mem_toFinset.mpr (List.mem_map_of_mem (by decide)))

abbrev wC6a : List (Ref sig .tc) :=
  [main_v216, main_v217, main_v218, main_v219, main_v220, main_v221, main_v222, main_v223, main_v224, main_v225, main_v226, main_v227, main_v228, main_v229, main_v230, main_v231, main_c_28, main_v232, main_v233, main_c_29, main_v234, main_v235, main_v236, main_v237, main_v238, main_c_30, main_v239, main_v240, main_c_31, main_v241, main_v242, main_v243, main_v244, main_v245, main_v246, main_v247, main_v248, main_v249, main_v250, main_v251, main_v252, main_v253, main_cst_32, main_v254, main_v255, main_cst_33, main_v256, main_v257, main_v258, main_v259, main_cst_34, main_v260, main_v261, main_v262]
theorem wC6a_sub : (opsC6a : List (HloOp τ sig (Elt F))).Forall fun op => op.writes ⊆ (wC6a.map (Proc.devRef (τ := τ) .tc)).toFinset := by
  simp only [opsC6a, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

abbrev wC6b : List (Ref sig .tc) :=
  [main_c_35, main_v263, main_v264, main_c_36, main_v265, main_v266, main_v267, main_v268, main_v269, main_cst_37, main_v270, main_v271, main_v272, main_v273, main_v274, main_cst_38, main_v275, main_v276, main_v277, main_v278, main_v279, main_v280, main_v281, main_v282, main_v283]
theorem wC6b_sub : (opsC6b : List (HloOp τ sig (Elt F))).Forall fun op => op.writes ⊆ (wC6b.map (Proc.devRef (τ := τ) .tc)).toFinset := by
  simp only [opsC6b, List.Forall]
  refine ⟨?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

abbrev wC7a : List (Ref sig .tc) :=
  [main_v284, main_v285, main_v286, main_v287, main_v288, main_v289, main_v290, main_v291, main_v292, main_v293, main_v294, main_v295, main_v296, main_v297, main_v298, main_v299, main_c_39, main_v300, main_v301, main_c_40, main_v302, main_v303, main_v304, main_v305, main_v306, main_c_41, main_v307, main_v308, main_c_42, main_v309, main_v310, main_v311, main_v312, main_v313, main_v314]
theorem wC7a_sub : (opsC7a : List (HloOp τ sig (Elt F))).Forall fun op => op.writes ⊆ (wC7a.map (Proc.devRef (τ := τ) .tc)).toFinset := by
  simp only [opsC7a, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

abbrev wC7b : List (Ref sig .tc) :=
  [main_v315, main_v316, main_v317, main_v318, main_v319, main_v320, main_v321, main_cst_43, main_v322, main_v323, main_cst_44, main_v324, main_v325, main_v326, main_v327, main_cst_45, main_v328, main_v329, main_v330, main_c_46, main_v331, main_v332, main_c_47, main_v333, main_v334, main_v335, main_v336, main_v337, main_cst_48, main_v338, main_v339, main_v340, main_v341, main_v342, main_cst_49, main_v343, main_v344, main_v345, main_v346, main_v347, main_v348, main_v349, main_v350, main_v351]
theorem wC7b_sub : (opsC7b : List (HloOp τ sig (Elt F))).Forall fun op => op.writes ⊆ (wC7b.map (Proc.devRef (τ := τ) .tc)).toFinset := by
  simp only [opsC7b, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

abbrev wC8a : List (Ref sig .tc) :=
  [main_v352, main_v353, main_v354, main_v355, main_cst_50, main_v356, main_cst_51, main_v357, main_v358, main_c_52, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v359, main_v360, main_v361, main_v362, main_cst_53, main_v363]
theorem wC8a_sub : (opsC8a : List (HloOp τ sig (Elt F))).Forall fun op => op.writes ⊆ (wC8a.map (Proc.devRef (τ := τ) .tc)).toFinset := by
  simp only [opsC8a, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

abbrev wC8b : List (Ref sig .tc) :=
  [main_v364, main_v365, main_v366, main_v367, main_v368, main_v369, main_v370, main_v371, main_v372, main_v373, main_v374, main_call9_cst, main_call9_v0, main_v375]
theorem wC8b_sub : (opsC8b : List (HloOp τ sig (Elt F))).Forall fun op => op.writes ⊆ (wC8b.map (Proc.devRef (τ := τ) .tc)).toFinset := by
  simp only [opsC8b, List.Forall]
  refine ⟨?_, ?_, ?_, ?_, ?_, ?_, ?_, ?_, ?_, ?_, ?_, ?_, ?_, ?_⟩ <;>
    exact Finset.singleton_subset_iff.mpr (List.mem_toFinset.mpr (List.mem_map_of_mem (by decide)))

abbrev wC9 : List (Ref sig .tc) :=
  [main_v376, main_v377, main_v378, main_v379, main_cst_54, main_v380, main_cst_55, main_v381, main_v382, main_c_56, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v383, main_v384, main_v385, main_v386, main_cst_57, main_v387, main_v388, main_v389, main_v390, main_v391, main_v392, main_v393, main_v394, main_v395, main_v396, main_v397, main_v398, main_call11_cst, main_call11_v0, main_v399]
theorem wC9_sub : (opsC9 : List (HloOp τ sig (Elt F))).Forall fun op => op.writes ⊆ (wC9.map (Proc.devRef (τ := τ) .tc)).toFinset := by
  simp only [opsC9, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

abbrev wC10a : List (Ref sig .tc) :=
  [main_v400, main_v401, main_v402, main_v403, main_cst_58, main_v404, main_cst_59, main_v405, main_v406, main_c_60, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v407, main_v408, main_v409, main_v410, main_cst_61, main_v411, main_v412, main_v413, main_v414, main_v415]
theorem wC10a_sub : (opsC10a : List (HloOp τ sig (Elt F))).Forall fun op => op.writes ⊆ (wC10a.map (Proc.devRef (τ := τ) .tc)).toFinset := by
  simp only [opsC10a, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

abbrev wC10b : List (Ref sig .tc) :=
  [main_v416, main_v417, main_v418, main_v419, main_v420, main_v421, main_v422, main_call13_cst, main_call13_v0, main_v423, main_v424, main_v425, main_v426, main_v427]
theorem wC10b_sub : (opsC10b : List (HloOp τ sig (Elt F))).Forall fun op => op.writes ⊆ (wC10b.map (Proc.devRef (τ := τ) .tc)).toFinset := by
  simp only [opsC10b, List.Forall]
  refine ⟨?_, ?_, ?_, ?_, ?_, ?_, ?_, ?_, ?_, ?_, ?_, ?_, ?_, ?_⟩ <;>
    exact Finset.singleton_subset_iff.mpr (List.mem_toFinset.mpr (List.mem_map_of_mem (by decide)))

end Cert.ReferenceIdeal.RVal

end
-- ==== Proof.RValueN.lean ====
import proofs.«112494_j53025666237105_2_alg».proof.Proof.ROps
import proofs.«112494_j53025666237105_2_alg».proof.Proof.Net

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

theorem c3_v175 (W : Valuation τ sig (Elt F)) :
    after opsC3 W (Proc.devRef .tc main_v175)
      = Cert.Spec.rbnOf (W (Proc.devRef .tc main_v151))
          (Cert.Spec.p10 0 Cert.Spec.h10_0 (W (Proc.devRef .tc main_arg11)))
          (Cert.Spec.p10 0 Cert.Spec.h10_0 (W (Proc.devRef .tc main_arg12))) := by
  simp only [opsC3, opsC3a, opsC3b, List.cons_append, List.nil_append]
  after_results_simp
  rfl

theorem c4_v199 (W : Valuation τ sig (Elt F)) :
    after opsC4 W (Proc.devRef .tc main_v199)
      = Cert.Spec.rbnOf (W (Proc.devRef .tc main_v83))
          (Cert.Spec.p10 0 Cert.Spec.h10_0 (W (Proc.devRef .tc main_arg11)))
          (Cert.Spec.p10 0 Cert.Spec.h10_0 (W (Proc.devRef .tc main_arg12))) := by
  simp only [opsC4]
  after_results_simp
  rfl

end Cert.ReferenceIdeal.RVal

end
-- ==== Proof.RValueN3.lean ====
import proofs.«112494_j53025666237105_2_alg».proof.Proof.ROps
import proofs.«112494_j53025666237105_2_alg».proof.Proof.Net

set_option Elab.async false

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd in
set_option maxRecDepth 8192 in
set_option maxHeartbeats 4000000 in

theorem c1_v83 (W : Valuation τ sig (Elt F)) :
    after opsC1 W (Proc.devRef .tc main_v83)
      = addf (W (Proc.devRef .tc main_v15))
          (Cert.Spec.gatR (W (Proc.devRef .tc main_arg1)) (W (Proc.devRef .tc main_arg0))
            (Cert.Spec.edgeRow 0 Cert.Spec.e_0 (W (Proc.devRef .tc main_arg2)))
            (Cert.Spec.edgeRow 1 Cert.Spec.e_1 (W (Proc.devRef .tc main_arg2)))
            (Cert.Spec.p4 0 0 Cert.Spec.h4_00 (W (Proc.devRef .tc main_arg4)))
            (Cert.Spec.p5 0 0 Cert.Spec.h5_00 (W (Proc.devRef .tc main_arg5)))
            (Cert.Spec.p6 0 0 Cert.Spec.h6_00 (W (Proc.devRef .tc main_arg6)))
            (Cert.Spec.p4 0 0 Cert.Spec.h4_00 (W (Proc.devRef .tc main_arg7)))
            (Cert.Spec.p8 0 0 Cert.Spec.h8_00 (W (Proc.devRef .tc main_arg8)))) := by
  simp only [opsC1, opsC1a, opsC1b, List.cons_append, List.nil_append]
  after_results_simp
  try simp only [TRef.ofBuf, TRef.toBuf, cast_eq]
  rfl

end Cert.ReferenceIdeal.RVal

end
-- ==== Proof.RValueC2.lean ====
import proofs.«112494_j53025666237105_2_alg».proof.Proof.ROps
import proofs.«112494_j53025666237105_2_alg».proof.Proof.Net

set_option Elab.async false

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd in
set_option maxRecDepth 8192 in
set_option maxHeartbeats 4000000 in

theorem c2_v151 (W : Valuation τ sig (Elt F)) :
    after opsC2 W (Proc.devRef .tc main_v151 : DevRef τ sig)
      = addf (W (Proc.devRef .tc main_v7 : DevRef τ sig))
          (Cert.Spec.gatR (W (Proc.devRef .tc main_arg0 : DevRef τ sig)) (W (Proc.devRef .tc main_arg1 : DevRef τ sig))
            (Cert.Spec.edgeRow 0 Cert.Spec.e_0 (W (Proc.devRef .tc main_arg3 : DevRef τ sig)))
            (Cert.Spec.edgeRow 1 Cert.Spec.e_1 (W (Proc.devRef .tc main_arg3 : DevRef τ sig)))
            (Cert.Spec.p4 0 1 Cert.Spec.h4_01 (W (Proc.devRef .tc main_arg4 : DevRef τ sig)))
            (Cert.Spec.p5 0 1 Cert.Spec.h5_01 (W (Proc.devRef .tc main_arg5 : DevRef τ sig)))
            (Cert.Spec.p6 0 1 Cert.Spec.h6_01 (W (Proc.devRef .tc main_arg6 : DevRef τ sig)))
            (Cert.Spec.p4 0 1 Cert.Spec.h4_01 (W (Proc.devRef .tc main_arg7 : DevRef τ sig)))
            (Cert.Spec.p8 0 1 Cert.Spec.h8_01 (W (Proc.devRef .tc main_arg8 : DevRef τ sig)))) := by
  simp only [opsC2, opsC2a, opsC2b, List.cons_append, List.nil_append]
  after_results_simp
  try simp only [TRef.ofBuf, TRef.toBuf, cast_eq]
  rfl

end Cert.ReferenceIdeal.RVal

end
-- ==== Proof.RKeptC67.lean ====
import proofs.«112494_j53025666237105_2_alg».proof.Proof.ROps
import Idealize.ShloMosaic.Lib.Pipeline.Frame

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

theorem writes_sub_of_mem {op : HloOp τ sig (Elt F)} (y : Ref sig .tc) {W : List (Ref sig .tc)}
    (hw : op.writes = {Proc.devRef .tc y}) (hy : y ∈ W) : op.writes ⊆ (W.map (Proc.devRef (τ := τ) .tc)).toFinset := by
  rw [hw, Finset.singleton_subset_iff, List.mem_toFinset]; exact List.mem_map_of_mem hy

abbrev opsC6a_W : List (Ref sig .tc) :=
  [main_v216, main_v217, main_v218, main_v219, main_v220, main_v221, main_v222, main_v223, main_v224, main_v225, main_v226, main_v227, main_v228, main_v229, main_v230, main_v231, main_c_28, main_v232, main_v233, main_c_29, main_v234, main_v235, main_v236, main_v237, main_v238, main_c_30, main_v239, main_v240, main_c_31, main_v241, main_v242, main_v243, main_v244, main_v245, main_v246, main_v247, main_v248, main_v249, main_v250, main_v251, main_v252, main_v253, main_cst_32, main_v254, main_v255, main_cst_33, main_v256, main_v257, main_call6.v0.ref, main_v259, main_cst_34, main_v260, main_v261, main_v262]

theorem opsC6a_writes : (opsC6a : List (HloOp τ sig (Elt F))).Forall fun op => op.writes ⊆ (opsC6a_W.map (Proc.devRef (τ := τ) .tc)).toFinset :=
  ⟨writes_sub_of_mem main_v216 rfl (by decide),
   writes_sub_of_mem main_v217 rfl (by decide),
   writes_sub_of_mem main_v218 rfl (by decide),
   writes_sub_of_mem main_v219 rfl (by decide),
   writes_sub_of_mem main_v220 rfl (by decide),
   writes_sub_of_mem main_v221 rfl (by decide),
   writes_sub_of_mem main_v222 rfl (by decide),
   writes_sub_of_mem main_v223 rfl (by decide),
   writes_sub_of_mem main_v224 rfl (by decide),
   writes_sub_of_mem main_v225 rfl (by decide),
   writes_sub_of_mem main_v226 rfl (by decide),
   writes_sub_of_mem main_v227 rfl (by decide),
   writes_sub_of_mem main_v228 rfl (by decide),
   writes_sub_of_mem main_v229 rfl (by decide),
   writes_sub_of_mem main_v230 rfl (by decide),
   writes_sub_of_mem main_v231 rfl (by decide),
   writes_sub_of_mem main_c_28 rfl (by decide),
   writes_sub_of_mem main_v232 rfl (by decide),
   writes_sub_of_mem main_v233 rfl (by decide),
   writes_sub_of_mem main_c_29 rfl (by decide),
   writes_sub_of_mem main_v234 rfl (by decide),
   writes_sub_of_mem main_v235 rfl (by decide),
   writes_sub_of_mem main_v236 rfl (by decide),
   writes_sub_of_mem main_v237 rfl (by decide),
   writes_sub_of_mem main_v238 rfl (by decide),
   writes_sub_of_mem main_c_30 rfl (by decide),
   writes_sub_of_mem main_v239 rfl (by decide),
   writes_sub_of_mem main_v240 rfl (by decide),
   writes_sub_of_mem main_c_31 rfl (by decide),
   writes_sub_of_mem main_v241 rfl (by decide),
   writes_sub_of_mem main_v242 rfl (by decide),
   writes_sub_of_mem main_v243 rfl (by decide),
   writes_sub_of_mem main_v244 rfl (by decide),
   writes_sub_of_mem main_v245 rfl (by decide),
   writes_sub_of_mem main_v246 rfl (by decide),
   writes_sub_of_mem main_v247 rfl (by decide),
   writes_sub_of_mem main_v248 rfl (by decide),
   writes_sub_of_mem main_v249 rfl (by decide),
   writes_sub_of_mem main_v250 rfl (by decide),
   writes_sub_of_mem main_v251 rfl (by decide),
   writes_sub_of_mem main_v252 rfl (by decide),
   writes_sub_of_mem main_v253 rfl (by decide),
   writes_sub_of_mem main_cst_32 rfl (by decide),
   writes_sub_of_mem main_v254 rfl (by decide),
   writes_sub_of_mem main_v255 rfl (by decide),
   writes_sub_of_mem main_cst_33 rfl (by decide),
   writes_sub_of_mem main_v256 rfl (by decide),
   writes_sub_of_mem main_v257 rfl (by decide),
   writes_sub_of_mem main_call6.v0.ref rfl (by decide),
   writes_sub_of_mem main_v259 rfl (by decide),
   writes_sub_of_mem main_cst_34 rfl (by decide),
   writes_sub_of_mem main_v260 rfl (by decide),
   writes_sub_of_mem main_v261 rfl (by decide),
   writes_sub_of_mem main_v262 rfl (by decide)⟩

theorem opsC6a_kept (X : Valuation τ sig (Elt F)) (r : Ref sig .tc) (h : r ∉ opsC6a_W) :
    after opsC6a X (Proc.devRef .tc r : DevRef τ sig) = X (Proc.devRef .tc r) :=
  after_of_writes_sub opsC6a X opsC6a_writes h

abbrev opsC6b_W : List (Ref sig .tc) :=
  [main_c_35, main_v263, main_v264, main_c_36, main_v265, main_v266, main_v267, main_v268, main_v269, main_cst_37, main_v270, main_v271, main_v272, main_v273, main_v274, main_cst_38, main_v275, main_v276, main_v277, main_v278, main_v279, main_v280, main_v281, main_v282, main_v283]

theorem opsC6b_writes : (opsC6b : List (HloOp τ sig (Elt F))).Forall fun op => op.writes ⊆ (opsC6b_W.map (Proc.devRef (τ := τ) .tc)).toFinset :=
  ⟨writes_sub_of_mem main_c_35 rfl (by decide),
   writes_sub_of_mem main_v263 rfl (by decide),
   writes_sub_of_mem main_v264 rfl (by decide),
   writes_sub_of_mem main_c_36 rfl (by decide),
   writes_sub_of_mem main_v265 rfl (by decide),
   writes_sub_of_mem main_v266 rfl (by decide),
   writes_sub_of_mem main_v267 rfl (by decide),
   writes_sub_of_mem main_v268 rfl (by decide),
   writes_sub_of_mem main_v269 rfl (by decide),
   writes_sub_of_mem main_cst_37 rfl (by decide),
   writes_sub_of_mem main_v270 rfl (by decide),
   writes_sub_of_mem main_v271 rfl (by decide),
   writes_sub_of_mem main_v272 rfl (by decide),
   writes_sub_of_mem main_v273 rfl (by decide),
   writes_sub_of_mem main_v274 rfl (by decide),
   writes_sub_of_mem main_cst_38 rfl (by decide),
   writes_sub_of_mem main_v275 rfl (by decide),
   writes_sub_of_mem main_v276 rfl (by decide),
   writes_sub_of_mem main_v277 rfl (by decide),
   writes_sub_of_mem main_v278 rfl (by decide),
   writes_sub_of_mem main_v279 rfl (by decide),
   writes_sub_of_mem main_v280 rfl (by decide),
   writes_sub_of_mem main_v281 rfl (by decide),
   writes_sub_of_mem main_v282 rfl (by decide),
   writes_sub_of_mem main_v283 rfl (by decide)⟩

theorem opsC6b_kept (X : Valuation τ sig (Elt F)) (r : Ref sig .tc) (h : r ∉ opsC6b_W) :
    after opsC6b X (Proc.devRef .tc r : DevRef τ sig) = X (Proc.devRef .tc r) :=
  after_of_writes_sub opsC6b X opsC6b_writes h

abbrev opsC6_W : List (Ref sig .tc) := opsC6a_W ++ opsC6b_W

theorem kept6 (X : Valuation τ sig (Elt F)) (r : Ref sig .tc) (h : r ∉ opsC6_W) :
    after opsC6 X (Proc.devRef .tc r : DevRef τ sig) = X (Proc.devRef .tc r) := by
  show after (opsC6a ++ opsC6b) X _ = _
  rw [StableHlo.after_append, opsC6b_kept _ r (fun h' => h (List.mem_append_right _ h')),
    opsC6a_kept X r (fun h' => h (List.mem_append_left _ h'))]

abbrev opsC7a_W : List (Ref sig .tc) :=
  [main_v284, main_v285, main_v286, main_v287, main_v288, main_v289, main_v290, main_v291, main_v292, main_v293, main_v294, main_v295, main_v296, main_v297, main_v298, main_v299, main_c_39, main_v300, main_v301, main_c_40, main_v302, main_v303, main_v304, main_v305, main_v306, main_c_41, main_v307, main_v308, main_c_42, main_v309, main_v310, main_v311, main_v312, main_v313, main_v314]

theorem opsC7a_writes : (opsC7a : List (HloOp τ sig (Elt F))).Forall fun op => op.writes ⊆ (opsC7a_W.map (Proc.devRef (τ := τ) .tc)).toFinset :=
  ⟨writes_sub_of_mem main_v284 rfl (by decide),
   writes_sub_of_mem main_v285 rfl (by decide),
   writes_sub_of_mem main_v286 rfl (by decide),
   writes_sub_of_mem main_v287 rfl (by decide),
   writes_sub_of_mem main_v288 rfl (by decide),
   writes_sub_of_mem main_v289 rfl (by decide),
   writes_sub_of_mem main_v290 rfl (by decide),
   writes_sub_of_mem main_v291 rfl (by decide),
   writes_sub_of_mem main_v292 rfl (by decide),
   writes_sub_of_mem main_v293 rfl (by decide),
   writes_sub_of_mem main_v294 rfl (by decide),
   writes_sub_of_mem main_v295 rfl (by decide),
   writes_sub_of_mem main_v296 rfl (by decide),
   writes_sub_of_mem main_v297 rfl (by decide),
   writes_sub_of_mem main_v298 rfl (by decide),
   writes_sub_of_mem main_v299 rfl (by decide),
   writes_sub_of_mem main_c_39 rfl (by decide),
   writes_sub_of_mem main_v300 rfl (by decide),
   writes_sub_of_mem main_v301 rfl (by decide),
   writes_sub_of_mem main_c_40 rfl (by decide),
   writes_sub_of_mem main_v302 rfl (by decide),
   writes_sub_of_mem main_v303 rfl (by decide),
   writes_sub_of_mem main_v304 rfl (by decide),
   writes_sub_of_mem main_v305 rfl (by decide),
   writes_sub_of_mem main_v306 rfl (by decide),
   writes_sub_of_mem main_c_41 rfl (by decide),
   writes_sub_of_mem main_v307 rfl (by decide),
   writes_sub_of_mem main_v308 rfl (by decide),
   writes_sub_of_mem main_c_42 rfl (by decide),
   writes_sub_of_mem main_v309 rfl (by decide),
   writes_sub_of_mem main_v310 rfl (by decide),
   writes_sub_of_mem main_v311 rfl (by decide),
   writes_sub_of_mem main_v312 rfl (by decide),
   writes_sub_of_mem main_v313 rfl (by decide),
   writes_sub_of_mem main_v314 rfl (by decide)⟩

theorem opsC7a_kept (X : Valuation τ sig (Elt F)) (r : Ref sig .tc) (h : r ∉ opsC7a_W) :
    after opsC7a X (Proc.devRef .tc r : DevRef τ sig) = X (Proc.devRef .tc r) :=
  after_of_writes_sub opsC7a X opsC7a_writes h

abbrev opsC7b_W : List (Ref sig .tc) :=
  [main_v315, main_v316, main_v317, main_v318, main_v319, main_v320, main_v321, main_cst_43, main_v322, main_v323, main_cst_44, main_v324, main_v325, main_call7.v0.ref, main_v327, main_cst_45, main_v328, main_v329, main_v330, main_c_46, main_v331, main_v332, main_c_47, main_v333, main_v334, main_v335, main_v336, main_v337, main_cst_48, main_v338, main_v339, main_v340, main_v341, main_v342, main_cst_49, main_v343, main_v344, main_v345, main_v346, main_v347, main_v348, main_v349, main_v350, main_v351]

theorem opsC7b_writes : (opsC7b : List (HloOp τ sig (Elt F))).Forall fun op => op.writes ⊆ (opsC7b_W.map (Proc.devRef (τ := τ) .tc)).toFinset :=
  ⟨writes_sub_of_mem main_v315 rfl (by decide),
   writes_sub_of_mem main_v316 rfl (by decide),
   writes_sub_of_mem main_v317 rfl (by decide),
   writes_sub_of_mem main_v318 rfl (by decide),
   writes_sub_of_mem main_v319 rfl (by decide),
   writes_sub_of_mem main_v320 rfl (by decide),
   writes_sub_of_mem main_v321 rfl (by decide),
   writes_sub_of_mem main_cst_43 rfl (by decide),
   writes_sub_of_mem main_v322 rfl (by decide),
   writes_sub_of_mem main_v323 rfl (by decide),
   writes_sub_of_mem main_cst_44 rfl (by decide),
   writes_sub_of_mem main_v324 rfl (by decide),
   writes_sub_of_mem main_v325 rfl (by decide),
   writes_sub_of_mem main_call7.v0.ref rfl (by decide),
   writes_sub_of_mem main_v327 rfl (by decide),
   writes_sub_of_mem main_cst_45 rfl (by decide),
   writes_sub_of_mem main_v328 rfl (by decide),
   writes_sub_of_mem main_v329 rfl (by decide),
   writes_sub_of_mem main_v330 rfl (by decide),
   writes_sub_of_mem main_c_46 rfl (by decide),
   writes_sub_of_mem main_v331 rfl (by decide),
   writes_sub_of_mem main_v332 rfl (by decide),
   writes_sub_of_mem main_c_47 rfl (by decide),
   writes_sub_of_mem main_v333 rfl (by decide),
   writes_sub_of_mem main_v334 rfl (by decide),
   writes_sub_of_mem main_v335 rfl (by decide),
   writes_sub_of_mem main_v336 rfl (by decide),
   writes_sub_of_mem main_v337 rfl (by decide),
   writes_sub_of_mem main_cst_48 rfl (by decide),
   writes_sub_of_mem main_v338 rfl (by decide),
   writes_sub_of_mem main_v339 rfl (by decide),
   writes_sub_of_mem main_v340 rfl (by decide),
   writes_sub_of_mem main_v341 rfl (by decide),
   writes_sub_of_mem main_v342 rfl (by decide),
   writes_sub_of_mem main_cst_49 rfl (by decide),
   writes_sub_of_mem main_v343 rfl (by decide),
   writes_sub_of_mem main_v344 rfl (by decide),
   writes_sub_of_mem main_v345 rfl (by decide),
   writes_sub_of_mem main_v346 rfl (by decide),
   writes_sub_of_mem main_v347 rfl (by decide),
   writes_sub_of_mem main_v348 rfl (by decide),
   writes_sub_of_mem main_v349 rfl (by decide),
   writes_sub_of_mem main_v350 rfl (by decide),
   writes_sub_of_mem main_v351 rfl (by decide)⟩

theorem opsC7b_kept (X : Valuation τ sig (Elt F)) (r : Ref sig .tc) (h : r ∉ opsC7b_W) :
    after opsC7b X (Proc.devRef .tc r : DevRef τ sig) = X (Proc.devRef .tc r) :=
  after_of_writes_sub opsC7b X opsC7b_writes h

abbrev opsC7_W : List (Ref sig .tc) := opsC7a_W ++ opsC7b_W

theorem kept7 (X : Valuation τ sig (Elt F)) (r : Ref sig .tc) (h : r ∉ opsC7_W) :
    after opsC7 X (Proc.devRef .tc r : DevRef τ sig) = X (Proc.devRef .tc r) := by
  show after (opsC7a ++ opsC7b) X _ = _
  rw [StableHlo.after_append, opsC7b_kept _ r (fun h' => h (List.mem_append_right _ h')),
    opsC7a_kept X r (fun h' => h (List.mem_append_left _ h'))]

end Cert.ReferenceIdeal.RVal

end
-- ==== Proof.RKeptB.lean ====
import proofs.«112494_j53025666237105_2_alg».proof.Proof.RKeptC67

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

abbrev opsC5a_W : List (Ref sig .tc) :=
  [main_v200, main_v201, main_v202, main_v203, main_v204, main_v205, main_v206, main_v207, main_v208, main_v209]

theorem opsC5a_writes : (opsC5a : List (HloOp τ sig (Elt F))).Forall fun op => op.writes ⊆ (opsC5a_W.map (Proc.devRef (τ := τ) .tc)).toFinset :=
  ⟨writes_sub_of_mem main_v200 rfl (by decide),
   writes_sub_of_mem main_v201 rfl (by decide),
   writes_sub_of_mem main_v202 rfl (by decide),
   writes_sub_of_mem main_v203 rfl (by decide),
   writes_sub_of_mem main_v204 rfl (by decide),
   writes_sub_of_mem main_v205 rfl (by decide),
   writes_sub_of_mem main_v206 rfl (by decide),
   writes_sub_of_mem main_v207 rfl (by decide),
   writes_sub_of_mem main_v208 rfl (by decide),
   writes_sub_of_mem main_v209 rfl (by decide)⟩

theorem opsC5a_kept (X : Valuation τ sig (Elt F)) (r : Ref sig .tc) (h : r ∉ opsC5a_W) :
    after opsC5a X (Proc.devRef .tc r : DevRef τ sig) = X (Proc.devRef .tc r) :=
  after_of_writes_sub opsC5a X opsC5a_writes h

abbrev opsC5b_W : List (Ref sig .tc) :=
  [main_v210, main_v211, main_v212, main_v213, main_v214, main_v215]

theorem opsC5b_writes : (opsC5b : List (HloOp τ sig (Elt F))).Forall fun op => op.writes ⊆ (opsC5b_W.map (Proc.devRef (τ := τ) .tc)).toFinset :=
  ⟨writes_sub_of_mem main_v210 rfl (by decide),
   writes_sub_of_mem main_v211 rfl (by decide),
   writes_sub_of_mem main_v212 rfl (by decide),
   writes_sub_of_mem main_v213 rfl (by decide),
   writes_sub_of_mem main_v214 rfl (by decide),
   writes_sub_of_mem main_v215 rfl (by decide)⟩

theorem opsC5b_kept (X : Valuation τ sig (Elt F)) (r : Ref sig .tc) (h : r ∉ opsC5b_W) :
    after opsC5b X (Proc.devRef .tc r : DevRef τ sig) = X (Proc.devRef .tc r) :=
  after_of_writes_sub opsC5b X opsC5b_writes h

abbrev opsC5_W : List (Ref sig .tc) := opsC5a_W ++ opsC5b_W

theorem kept5 (X : Valuation τ sig (Elt F)) (r : Ref sig .tc) (h : r ∉ opsC5_W) :
    after opsC5 X (Proc.devRef .tc r : DevRef τ sig) = X (Proc.devRef .tc r) := by
  show after (opsC5a ++ opsC5b) X _ = _
  rw [StableHlo.after_append, opsC5b_kept _ r (fun h' => h (List.mem_append_right _ h')),
    opsC5a_kept X r (fun h' => h (List.mem_append_left _ h'))]

abbrev opsC8a_W : List (Ref sig .tc) :=
  [main_v352, main_v353, main_v354, main_v355, main_cst_50, main_v356, main_cst_51, main_v357, main_v358, main_c_52, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.cst_3.ref, main_call8.v12.ref, main_call8.cst_4.ref, main_call8.call0.v0.ref, main_call8.call0.v1.ref, main_call8.call0.v2.ref, main_v360, main_v361, main_v362, main_cst_53, main_v363]

theorem opsC8a_writes : (opsC8a : List (HloOp τ sig (Elt F))).Forall fun op => op.writes ⊆ (opsC8a_W.map (Proc.devRef (τ := τ) .tc)).toFinset :=
  ⟨writes_sub_of_mem main_v352 rfl (by decide),
   writes_sub_of_mem main_v353 rfl (by decide),
   writes_sub_of_mem main_v354 rfl (by decide),
   writes_sub_of_mem main_v355 rfl (by decide),
   writes_sub_of_mem main_cst_50 rfl (by decide),
   writes_sub_of_mem main_v356 rfl (by decide),
   writes_sub_of_mem main_cst_51 rfl (by decide),
   writes_sub_of_mem main_v357 rfl (by decide),
   writes_sub_of_mem main_v358 rfl (by decide),
   writes_sub_of_mem main_c_52 rfl (by decide),
   writes_sub_of_mem main_call8.cst.ref rfl (by decide),
   writes_sub_of_mem main_call8.v0.ref rfl (by decide),
   writes_sub_of_mem main_call8.v1.ref rfl (by decide),
   writes_sub_of_mem main_call8.cst_0.ref rfl (by decide),
   writes_sub_of_mem main_call8.v2.ref rfl (by decide),
   writes_sub_of_mem main_call8.v3.ref rfl (by decide),
   writes_sub_of_mem main_call8.v4.ref rfl (by decide),
   writes_sub_of_mem main_call8.v5.ref rfl (by decide),
   writes_sub_of_mem main_call8.v6.ref rfl (by decide),
   writes_sub_of_mem main_call8.v7.ref rfl (by decide),
   writes_sub_of_mem main_call8.cst_1.ref rfl (by decide),
   writes_sub_of_mem main_call8.v8.ref rfl (by decide),
   writes_sub_of_mem main_call8.cst_2.ref rfl (by decide),
   writes_sub_of_mem main_call8.v9.ref rfl (by decide),
   writes_sub_of_mem main_call8.v10.ref rfl (by decide),
   writes_sub_of_mem main_call8.v11.ref rfl (by decide),
   writes_sub_of_mem main_call8.cst_3.ref rfl (by decide),
   writes_sub_of_mem main_call8.v12.ref rfl (by decide),
   writes_sub_of_mem main_call8.cst_4.ref rfl (by decide),
   writes_sub_of_mem main_call8.call0.v0.ref rfl (by decide),
   writes_sub_of_mem main_call8.call0.v1.ref rfl (by decide),
   writes_sub_of_mem main_call8.call0.v2.ref rfl (by decide),
   writes_sub_of_mem main_v360 rfl (by decide),
   writes_sub_of_mem main_v361 rfl (by decide),
   writes_sub_of_mem main_v362 rfl (by decide),
   writes_sub_of_mem main_cst_53 rfl (by decide),
   writes_sub_of_mem main_v363 rfl (by decide)⟩

theorem opsC8a_kept (X : Valuation τ sig (Elt F)) (r : Ref sig .tc) (h : r ∉ opsC8a_W) :
    after opsC8a X (Proc.devRef .tc r : DevRef τ sig) = X (Proc.devRef .tc r) :=
  after_of_writes_sub opsC8a X opsC8a_writes h

abbrev opsC8b_W : List (Ref sig .tc) :=
  [main_v364, main_v365, main_v366, main_v367, main_v368, main_v369, main_v370, main_v371, main_v372, main_v373, main_v374, main_call9.cst.ref, main_call9.v0.ref, main_call9.v1.ref]

theorem opsC8b_writes : (opsC8b : List (HloOp τ sig (Elt F))).Forall fun op => op.writes ⊆ (opsC8b_W.map (Proc.devRef (τ := τ) .tc)).toFinset :=
  ⟨writes_sub_of_mem main_v364 rfl (by decide),
   writes_sub_of_mem main_v365 rfl (by decide),
   writes_sub_of_mem main_v366 rfl (by decide),
   writes_sub_of_mem main_v367 rfl (by decide),
   writes_sub_of_mem main_v368 rfl (by decide),
   writes_sub_of_mem main_v369 rfl (by decide),
   writes_sub_of_mem main_v370 rfl (by decide),
   writes_sub_of_mem main_v371 rfl (by decide),
   writes_sub_of_mem main_v372 rfl (by decide),
   writes_sub_of_mem main_v373 rfl (by decide),
   writes_sub_of_mem main_v374 rfl (by decide),
   writes_sub_of_mem main_call9.cst.ref rfl (by decide),
   writes_sub_of_mem main_call9.v0.ref rfl (by decide),
   writes_sub_of_mem main_call9.v1.ref rfl (by decide)⟩

theorem opsC8b_kept (X : Valuation τ sig (Elt F)) (r : Ref sig .tc) (h : r ∉ opsC8b_W) :
    after opsC8b X (Proc.devRef .tc r : DevRef τ sig) = X (Proc.devRef .tc r) :=
  after_of_writes_sub opsC8b X opsC8b_writes h

abbrev opsC8_W : List (Ref sig .tc) := opsC8a_W ++ opsC8b_W

theorem kept8 (X : Valuation τ sig (Elt F)) (r : Ref sig .tc) (h : r ∉ opsC8_W) :
    after opsC8 X (Proc.devRef .tc r : DevRef τ sig) = X (Proc.devRef .tc r) := by
  show after (opsC8a ++ opsC8b) X _ = _
  rw [StableHlo.after_append, opsC8b_kept _ r (fun h' => h (List.mem_append_right _ h')),
    opsC8a_kept X r (fun h' => h (List.mem_append_left _ h'))]

abbrev opsC9_W : List (Ref sig .tc) :=
  [main_v376, main_v377, main_v378, main_v379, main_cst_54, main_v380, main_cst_55, main_v381, main_v382, main_c_56, main_call10.cst.ref, main_call10.v0.ref, main_call10.v1.ref, main_call10.cst_0.ref, main_call10.v2.ref, main_call10.v3.ref, main_call10.v4.ref, main_call10.v5.ref, main_call10.v6.ref, main_call10.v7.ref, main_call10.cst_1.ref, main_call10.v8.ref, main_call10.cst_2.ref, main_call10.v9.ref, main_call10.v10.ref, main_call10.v11.ref, main_call10.cst_3.ref, main_call10.v12.ref, main_call10.cst_4.ref, main_call10.call0.v0.ref, main_call10.call0.v1.ref, main_call10.call0.v2.ref, main_v384, main_v385, main_v386, main_cst_57, main_v387, main_v388, main_v389, main_v390, main_v391, main_v392, main_v393, main_v394, main_v395, main_v396, main_v397, main_v398, main_call11.cst.ref, main_call11.v0.ref, main_call11.v1.ref]

theorem opsC9_writes : (opsC9 : List (HloOp τ sig (Elt F))).Forall fun op => op.writes ⊆ (opsC9_W.map (Proc.devRef (τ := τ) .tc)).toFinset :=
  ⟨writes_sub_of_mem main_v376 rfl (by decide),
   writes_sub_of_mem main_v377 rfl (by decide),
   writes_sub_of_mem main_v378 rfl (by decide),
   writes_sub_of_mem main_v379 rfl (by decide),
   writes_sub_of_mem main_cst_54 rfl (by decide),
   writes_sub_of_mem main_v380 rfl (by decide),
   writes_sub_of_mem main_cst_55 rfl (by decide),
   writes_sub_of_mem main_v381 rfl (by decide),
   writes_sub_of_mem main_v382 rfl (by decide),
   writes_sub_of_mem main_c_56 rfl (by decide),
   writes_sub_of_mem main_call10.cst.ref rfl (by decide),
   writes_sub_of_mem main_call10.v0.ref rfl (by decide),
   writes_sub_of_mem main_call10.v1.ref rfl (by decide),
   writes_sub_of_mem main_call10.cst_0.ref rfl (by decide),
   writes_sub_of_mem main_call10.v2.ref rfl (by decide),
   writes_sub_of_mem main_call10.v3.ref rfl (by decide),
   writes_sub_of_mem main_call10.v4.ref rfl (by decide),
   writes_sub_of_mem main_call10.v5.ref rfl (by decide),
   writes_sub_of_mem main_call10.v6.ref rfl (by decide),
   writes_sub_of_mem main_call10.v7.ref rfl (by decide),
   writes_sub_of_mem main_call10.cst_1.ref rfl (by decide),
   writes_sub_of_mem main_call10.v8.ref rfl (by decide),
   writes_sub_of_mem main_call10.cst_2.ref rfl (by decide),
   writes_sub_of_mem main_call10.v9.ref rfl (by decide),
   writes_sub_of_mem main_call10.v10.ref rfl (by decide),
   writes_sub_of_mem main_call10.v11.ref rfl (by decide),
   writes_sub_of_mem main_call10.cst_3.ref rfl (by decide),
   writes_sub_of_mem main_call10.v12.ref rfl (by decide),
   writes_sub_of_mem main_call10.cst_4.ref rfl (by decide),
   writes_sub_of_mem main_call10.call0.v0.ref rfl (by decide),
   writes_sub_of_mem main_call10.call0.v1.ref rfl (by decide),
   writes_sub_of_mem main_call10.call0.v2.ref rfl (by decide),
   writes_sub_of_mem main_v384 rfl (by decide),
   writes_sub_of_mem main_v385 rfl (by decide),
   writes_sub_of_mem main_v386 rfl (by decide),
   writes_sub_of_mem main_cst_57 rfl (by decide),
   writes_sub_of_mem main_v387 rfl (by decide),
   writes_sub_of_mem main_v388 rfl (by decide),
   writes_sub_of_mem main_v389 rfl (by decide),
   writes_sub_of_mem main_v390 rfl (by decide),
   writes_sub_of_mem main_v391 rfl (by decide),
   writes_sub_of_mem main_v392 rfl (by decide),
   writes_sub_of_mem main_v393 rfl (by decide),
   writes_sub_of_mem main_v394 rfl (by decide),
   writes_sub_of_mem main_v395 rfl (by decide),
   writes_sub_of_mem main_v396 rfl (by decide),
   writes_sub_of_mem main_v397 rfl (by decide),
   writes_sub_of_mem main_v398 rfl (by decide),
   writes_sub_of_mem main_call11.cst.ref rfl (by decide),
   writes_sub_of_mem main_call11.v0.ref rfl (by decide),
   writes_sub_of_mem main_call11.v1.ref rfl (by decide)⟩

theorem kept9 (X : Valuation τ sig (Elt F)) (r : Ref sig .tc) (h : r ∉ opsC9_W) :
    after opsC9 X (Proc.devRef .tc r : DevRef τ sig) = X (Proc.devRef .tc r) :=
  after_of_writes_sub opsC9 X opsC9_writes h

end Cert.ReferenceIdeal.RVal

end
-- ==== Proof.RValueC7.lean ====
import proofs.«112494_j53025666237105_2_alg».proof.Proof.RKeptC67
import proofs.«112494_j53025666237105_2_alg».proof.Proof.Net

set_option Elab.async false

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd in
set_option maxRecDepth 8192 in
set_option maxHeartbeats 4000000 in

theorem c7_v351 (W : Valuation τ sig (Elt F)) :
    after opsC7 W (Proc.devRef .tc main_v351 : DevRef τ sig)
      = addf (W (Proc.devRef .tc main_v207 : DevRef τ sig))
          (Cert.Spec.gatR (W (Proc.devRef .tc main_v175 : DevRef τ sig)) (W (Proc.devRef .tc main_v199 : DevRef τ sig))
            (Cert.Spec.edgeRow 0 Cert.Spec.e_0 (W (Proc.devRef .tc main_arg3 : DevRef τ sig)))
            (Cert.Spec.edgeRow 1 Cert.Spec.e_1 (W (Proc.devRef .tc main_arg3 : DevRef τ sig)))
            (Cert.Spec.p4 1 1 Cert.Spec.h4_11 (W (Proc.devRef .tc main_arg4 : DevRef τ sig)))
            (Cert.Spec.p5 1 1 Cert.Spec.h5_11 (W (Proc.devRef .tc main_arg5 : DevRef τ sig)))
            (Cert.Spec.p6 1 1 Cert.Spec.h6_11 (W (Proc.devRef .tc main_arg6 : DevRef τ sig)))
            (Cert.Spec.p4 1 1 Cert.Spec.h4_11 (W (Proc.devRef .tc main_arg7 : DevRef τ sig)))
            (Cert.Spec.p8 1 1 Cert.Spec.h8_11 (W (Proc.devRef .tc main_arg8 : DevRef τ sig)))) := by
  simp only [opsC7, opsC7a, opsC7b, List.cons_append, List.nil_append]
  after_results_simp
  try simp only [TRef.ofBuf, TRef.toBuf, cast_eq]
  rfl

end Cert.ReferenceIdeal.RVal

end
-- ==== Proof.RValueN2.lean ====
import proofs.«112494_j53025666237105_2_alg».proof.Proof.ROps
import proofs.«112494_j53025666237105_2_alg».proof.Proof.Net

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

theorem c8_v375 (W : Valuation τ sig (Elt F)) :
    after opsC8 W (Proc.devRef .tc main_v375)
      = Cert.Spec.rbnOf (W (Proc.devRef .tc main_v351))
          (Cert.Spec.p10 1 Cert.Spec.h10_1 (W (Proc.devRef .tc main_arg11)))
          (Cert.Spec.p10 1 Cert.Spec.h10_1 (W (Proc.devRef .tc main_arg12))) := by
  simp only [opsC8, opsC8a, opsC8b, List.cons_append, List.nil_append]
  after_results_simp
  rfl

theorem c10_v427 (W : Valuation τ sig (Elt F)) :
    after opsC10 W (Proc.devRef .tc main_v427)
      = Cert.Spec.rmlp (W (Proc.devRef .tc main_v375)) (W (Proc.devRef .tc main_arg13)) (W (Proc.devRef .tc main_arg14))
          (W (Proc.devRef .tc main_arg15)) (W (Proc.devRef .tc main_arg16)) (W (Proc.devRef .tc main_arg17))
          (W (Proc.devRef .tc main_arg18)) := by
  simp only [opsC10, opsC10a, opsC10b, List.cons_append, List.nil_append]
  after_results_simp
  rfl

end Cert.ReferenceIdeal.RVal

end
-- ==== Proof.RValueB.lean ====
import proofs.«112494_j53025666237105_2_alg».proof.Proof.RKeptB
import proofs.«112494_j53025666237105_2_alg».proof.Proof.RValueC7
import proofs.«112494_j53025666237105_2_alg».proof.Proof.RValueN2

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

theorem c5_v207 (W : Valuation τ sig (Elt F)) :
    after opsC5 W (Proc.devRef .tc main_v207 : DevRef τ sig)
      = Cert.Spec.dense (W (Proc.devRef .tc main_v175 : DevRef τ sig))
          (Cert.Spec.p9 1 Cert.Spec.h9_1 (W (Proc.devRef .tc main_arg9 : DevRef τ sig)))
          (Cert.Spec.p10 1 Cert.Spec.h10_1 (W (Proc.devRef .tc main_arg10 : DevRef τ sig))) := by
  simp only [opsC5, opsC5a, opsC5b, List.cons_append, List.nil_append]
  after_results
  rfl

theorem tailB (W : Valuation τ sig (Elt F)) :
    after (opsC5 ++ (opsC6 ++ (opsC7 ++ (opsC8 ++ (opsC9 ++ opsC10))))) W (Proc.devRef .tc main_v427 : DevRef τ sig)
      = Cert.Spec.rmlp
          (Cert.Spec.rlayer (W (Proc.devRef .tc main_v175 : DevRef τ sig)) (W (Proc.devRef .tc main_v199 : DevRef τ sig))
            (Cert.Spec.edgeRow 0 Cert.Spec.e_0 (W (Proc.devRef .tc main_arg3 : DevRef τ sig))) (Cert.Spec.edgeRow 1 Cert.Spec.e_1 (W (Proc.devRef .tc main_arg3 : DevRef τ sig)))
            (Cert.Spec.p9 1 Cert.Spec.h9_1 (W (Proc.devRef .tc main_arg9 : DevRef τ sig))) (Cert.Spec.p10 1 Cert.Spec.h10_1 (W (Proc.devRef .tc main_arg10 : DevRef τ sig)))
            (Cert.Spec.p4 1 1 Cert.Spec.h4_11 (W (Proc.devRef .tc main_arg4 : DevRef τ sig))) (Cert.Spec.p5 1 1 Cert.Spec.h5_11 (W (Proc.devRef .tc main_arg5 : DevRef τ sig)))
            (Cert.Spec.p6 1 1 Cert.Spec.h6_11 (W (Proc.devRef .tc main_arg6 : DevRef τ sig))) (Cert.Spec.p4 1 1 Cert.Spec.h4_11 (W (Proc.devRef .tc main_arg7 : DevRef τ sig)))
            (Cert.Spec.p8 1 1 Cert.Spec.h8_11 (W (Proc.devRef .tc main_arg8 : DevRef τ sig)))
            (Cert.Spec.p10 1 Cert.Spec.h10_1 (W (Proc.devRef .tc main_arg11 : DevRef τ sig))) (Cert.Spec.p10 1 Cert.Spec.h10_1 (W (Proc.devRef .tc main_arg12 : DevRef τ sig))))
          (W (Proc.devRef .tc main_arg13 : DevRef τ sig)) (W (Proc.devRef .tc main_arg14 : DevRef τ sig)) (W (Proc.devRef .tc main_arg15 : DevRef τ sig)) (W (Proc.devRef .tc main_arg16 : DevRef τ sig)) (W (Proc.devRef .tc main_arg17 : DevRef τ sig)) (W (Proc.devRef .tc main_arg18 : DevRef τ sig)) := by
  rw [StableHlo.after_append, StableHlo.after_append, StableHlo.after_append, StableHlo.after_append, StableHlo.after_append]
  rw [c10_v427]
  rw [kept9 _ main_v375 (by decide), kept9 _ main_arg13 (by decide), kept9 _ main_arg14 (by decide), kept9 _ main_arg15 (by decide), kept9 _ main_arg16 (by decide), kept9 _ main_arg17 (by decide), kept9 _ main_arg18 (by decide)]
  rw [c8_v375]
  rw [kept8 _ main_arg13 (by decide), kept8 _ main_arg14 (by decide), kept8 _ main_arg15 (by decide), kept8 _ main_arg16 (by decide), kept8 _ main_arg17 (by decide), kept8 _ main_arg18 (by decide)]
  rw [kept7 _ main_arg11 (by decide), kept7 _ main_arg12 (by decide), kept7 _ main_arg13 (by decide), kept7 _ main_arg14 (by decide), kept7 _ main_arg15 (by decide), kept7 _ main_arg16 (by decide), kept7 _ main_arg17 (by decide), kept7 _ main_arg18 (by decide)]
  rw [c7_v351]
  rw [kept6 _ main_v207 (by decide), kept6 _ main_v175 (by decide), kept6 _ main_v199 (by decide), kept6 _ main_arg3 (by decide), kept6 _ main_arg4 (by decide), kept6 _ main_arg5 (by decide), kept6 _ main_arg6 (by decide), kept6 _ main_arg7 (by decide), kept6 _ main_arg8 (by decide), kept6 _ main_arg11 (by decide), kept6 _ main_arg12 (by decide), kept6 _ main_arg13 (by decide), kept6 _ main_arg14 (by decide), kept6 _ main_arg15 (by decide), kept6 _ main_arg16 (by decide), kept6 _ main_arg17 (by decide), kept6 _ main_arg18 (by decide)]
  rw [c5_v207]
  rw [kept5 _ main_v175 (by decide), kept5 _ main_v199 (by decide), kept5 _ main_arg3 (by decide), kept5 _ main_arg4 (by decide), kept5 _ main_arg5 (by decide), kept5 _ main_arg6 (by decide), kept5 _ main_arg7 (by decide), kept5 _ main_arg8 (by decide), kept5 _ main_arg11 (by decide), kept5 _ main_arg12 (by decide), kept5 _ main_arg13 (by decide), kept5 _ main_arg14 (by decide), kept5 _ main_arg15 (by decide), kept5 _ main_arg16 (by decide), kept5 _ main_arg17 (by decide), kept5 _ main_arg18 (by decide)]
  unfold Cert.Spec.rlayer
  rfl

end Cert.ReferenceIdeal.RVal

end
-- ==== Proof.RValue.lean ====
import proofs.«112494_j53025666237105_2_alg».proof.Proof.RKept
import proofs.«112494_j53025666237105_2_alg».proof.Proof.Net
import proofs.«112494_j53025666237105_2_alg».proof.Proof.RValueN
import proofs.«112494_j53025666237105_2_alg».proof.Proof.RValueN3
import proofs.«112494_j53025666237105_2_alg».proof.Proof.RValueC2
import proofs.«112494_j53025666237105_2_alg».proof.Proof.RValueB

noncomputable section

namespace Cert.ReferenceIdeal.RVal

open Cert.ReferenceIdeal Cert.ReferenceIdeal.Gen Idealize.ShloMosaic Idealize.SL.Sem Idealize.ShloMosaic.StableHlo

variable {F : FTy → Type} [FloatOps F]

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

def Keeps (l : List (HloOp τ sig (Elt F))) (r : Ref sig .tc) : Prop :=
  ∀ W : Valuation τ sig (Elt F), after l W (Proc.devRef .tc r) = W (Proc.devRef .tc r)

theorem Keeps.append {l₁ l₂ : List (HloOp τ sig (Elt F))} {r : Ref sig .tc} (h₁ : Keeps l₁ r) (h₂ : Keeps l₂ r) :
    Keeps (l₁ ++ l₂) r := fun W => by
  rw [after_app, h₂, h₁]

theorem keepsC0 (r : Ref sig .tc) (h : r ∉ wC0) : Keeps (F := F) opsC0 r :=
  fun W => after_of_writes_sub opsC0 W wC0_sub h
theorem keepsC1a (r : Ref sig .tc) (h : r ∉ wC1a) : Keeps (F := F) opsC1a r :=
  fun W => after_of_writes_sub opsC1a W wC1a_sub h
theorem keepsC1b (r : Ref sig .tc) (h : r ∉ wC1b) : Keeps (F := F) opsC1b r :=
  fun W => after_of_writes_sub opsC1b W wC1b_sub h
theorem keepsC2a (r : Ref sig .tc) (h : r ∉ wC2a) : Keeps (F := F) opsC2a r :=
  fun W => after_of_writes_sub opsC2a W wC2a_sub h
theorem keepsC2b (r : Ref sig .tc) (h : r ∉ wC2b) : Keeps (F := F) opsC2b r :=
  fun W => after_of_writes_sub opsC2b W wC2b_sub h
theorem keepsC3a (r : Ref sig .tc) (h : r ∉ wC3a) : Keeps (F := F) opsC3a r :=
  fun W => after_of_writes_sub opsC3a W wC3a_sub h
theorem keepsC3b (r : Ref sig .tc) (h : r ∉ wC3b) : Keeps (F := F) opsC3b r :=
  fun W => after_of_writes_sub opsC3b W wC3b_sub h
theorem keepsC4 (r : Ref sig .tc) (h : r ∉ wC4) : Keeps (F := F) opsC4 r :=
  fun W => after_of_writes_sub opsC4 W wC4_sub h
theorem keepsC5a (r : Ref sig .tc) (h : r ∉ wC5a) : Keeps (F := F) opsC5a r :=
  fun W => after_of_writes_sub opsC5a W wC5a_sub h
theorem keepsC5b (r : Ref sig .tc) (h : r ∉ wC5b) : Keeps (F := F) opsC5b r :=
  fun W => after_of_writes_sub opsC5b W wC5b_sub h
theorem keepsC6a (r : Ref sig .tc) (h : r ∉ wC6a) : Keeps (F := F) opsC6a r :=
  fun W => after_of_writes_sub opsC6a W wC6a_sub h
theorem keepsC6b (r : Ref sig .tc) (h : r ∉ wC6b) : Keeps (F := F) opsC6b r :=
  fun W => after_of_writes_sub opsC6b W wC6b_sub h
theorem keepsC7a (r : Ref sig .tc) (h : r ∉ wC7a) : Keeps (F := F) opsC7a r :=
  fun W => after_of_writes_sub opsC7a W wC7a_sub h
theorem keepsC7b (r : Ref sig .tc) (h : r ∉ wC7b) : Keeps (F := F) opsC7b r :=
  fun W => after_of_writes_sub opsC7b W wC7b_sub h
theorem keepsC8a (r : Ref sig .tc) (h : r ∉ wC8a) : Keeps (F := F) opsC8a r :=
  fun W => after_of_writes_sub opsC8a W wC8a_sub h
theorem keepsC8b (r : Ref sig .tc) (h : r ∉ wC8b) : Keeps (F := F) opsC8b r :=
  fun W => after_of_writes_sub opsC8b W wC8b_sub h
theorem keepsC9 (r : Ref sig .tc) (h : r ∉ wC9) : Keeps (F := F) opsC9 r :=
  fun W => after_of_writes_sub opsC9 W wC9_sub h
theorem keepsC10a (r : Ref sig .tc) (h : r ∉ wC10a) : Keeps (F := F) opsC10a r :=
  fun W => after_of_writes_sub opsC10a W wC10a_sub h
theorem keepsC10b (r : Ref sig .tc) (h : r ∉ wC10b) : Keeps (F := F) opsC10b r :=
  fun W => after_of_writes_sub opsC10b W wC10b_sub h

abbrev Unwritten (r : Ref sig .tc) : Prop :=
  r ∉ wC0 ∧ r ∉ wC1a ∧ r ∉ wC1b ∧ r ∉ wC2a ∧ r ∉ wC2b ∧ r ∉ wC3a ∧ r ∉ wC3b ∧ r ∉ wC4 ∧ r ∉ wC5a ∧ r ∉ wC5b ∧
    r ∉ wC6a ∧ r ∉ wC6b ∧ r ∉ wC7a ∧ r ∉ wC7b ∧ r ∉ wC8a ∧ r ∉ wC8b ∧ r ∉ wC9 ∧ r ∉ wC10a ∧ r ∉ wC10b

abbrev opsTail : List (HloOp τ sig (Elt F)) := opsC5 ++ (opsC6 ++ (opsC7 ++ (opsC8 ++ (opsC9 ++ opsC10))))

theorem ops_keeps (r : Ref sig .tc) (h : Unwritten r) : Keeps (F := F) ops r := by
  obtain ⟨h0, h1a, h1b, h2a, h2b, h3a, h3b, h4, h5a, h5b, h6a, h6b, h7a, h7b, h8a, h8b, h9, h10a, h10b⟩ := h
  exact (keepsC0 r h0).append <|
    ((keepsC1a r h1a).append (keepsC1b r h1b)).append <|
    ((keepsC2a r h2a).append (keepsC2b r h2b)).append <|
    ((keepsC3a r h3a).append (keepsC3b r h3b)).append <|
    (keepsC4 r h4).append <|
    ((keepsC5a r h5a).append (keepsC5b r h5b)).append <|
    ((keepsC6a r h6a).append (keepsC6b r h6b)).append <|
    ((keepsC7a r h7a).append (keepsC7b r h7b)).append <|
    ((keepsC8a r h8a).append (keepsC8b r h8b)).append <|
    (keepsC9 r h9).append ((keepsC10a r h10a).append (keepsC10b r h10b))

theorem arg0_kept (V : Valuation τ sig (Elt F)) :
    after ops V (Proc.devRef .tc main_arg0) = V (Proc.devRef .tc main_arg0) := ops_keeps main_arg0 (by decide) V
theorem arg1_kept (V : Valuation τ sig (Elt F)) :
    after ops V (Proc.devRef .tc main_arg1) = V (Proc.devRef .tc main_arg1) := ops_keeps main_arg1 (by decide) V
theorem arg2_kept (V : Valuation τ sig (Elt F)) :
    after ops V (Proc.devRef .tc main_arg2) = V (Proc.devRef .tc main_arg2) := ops_keeps main_arg2 (by decide) V
theorem arg3_kept (V : Valuation τ sig (Elt F)) :
    after ops V (Proc.devRef .tc main_arg3) = V (Proc.devRef .tc main_arg3) := ops_keeps main_arg3 (by decide) V
theorem arg4_kept (V : Valuation τ sig (Elt F)) :
    after ops V (Proc.devRef .tc main_arg4) = V (Proc.devRef .tc main_arg4) := ops_keeps main_arg4 (by decide) V
theorem arg5_kept (V : Valuation τ sig (Elt F)) :
    after ops V (Proc.devRef .tc main_arg5) = V (Proc.devRef .tc main_arg5) := ops_keeps main_arg5 (by decide) V
theorem arg6_kept (V : Valuation τ sig (Elt F)) :
    after ops V (Proc.devRef .tc main_arg6) = V (Proc.devRef .tc main_arg6) := ops_keeps main_arg6 (by decide) V
theorem arg7_kept (V : Valuation τ sig (Elt F)) :
    after ops V (Proc.devRef .tc main_arg7) = V (Proc.devRef .tc main_arg7) := ops_keeps main_arg7 (by decide) V
theorem arg8_kept (V : Valuation τ sig (Elt F)) :
    after ops V (Proc.devRef .tc main_arg8) = V (Proc.devRef .tc main_arg8) := ops_keeps main_arg8 (by decide) V
theorem arg9_kept (V : Valuation τ sig (Elt F)) :
    after ops V (Proc.devRef .tc main_arg9) = V (Proc.devRef .tc main_arg9) := ops_keeps main_arg9 (by decide) V
theorem arg10_kept (V : Valuation τ sig (Elt F)) :
    after ops V (Proc.devRef .tc main_arg10) = V (Proc.devRef .tc main_arg10) := ops_keeps main_arg10 (by decide) V
theorem arg11_kept (V : Valuation τ sig (Elt F)) :
    after ops V (Proc.devRef .tc main_arg11) = V (Proc.devRef .tc main_arg11) := ops_keeps main_arg11 (by decide) V
theorem arg12_kept (V : Valuation τ sig (Elt F)) :
    after ops V (Proc.devRef .tc main_arg12) = V (Proc.devRef .tc main_arg12) := ops_keeps main_arg12 (by decide) V
theorem arg13_kept (V : Valuation τ sig (Elt F)) :
    after ops V (Proc.devRef .tc main_arg13) = V (Proc.devRef .tc main_arg13) := ops_keeps main_arg13 (by decide) V
theorem arg14_kept (V : Valuation τ sig (Elt F)) :
    after ops V (Proc.devRef .tc main_arg14) = V (Proc.devRef .tc main_arg14) := ops_keeps main_arg14 (by decide) V
theorem arg15_kept (V : Valuation τ sig (Elt F)) :
    after ops V (Proc.devRef .tc main_arg15) = V (Proc.devRef .tc main_arg15) := ops_keeps main_arg15 (by decide) V
theorem arg16_kept (V : Valuation τ sig (Elt F)) :
    after ops V (Proc.devRef .tc main_arg16) = V (Proc.devRef .tc main_arg16) := ops_keeps main_arg16 (by decide) V
theorem arg17_kept (V : Valuation τ sig (Elt F)) :
    after ops V (Proc.devRef .tc main_arg17) = V (Proc.devRef .tc main_arg17) := ops_keeps main_arg17 (by decide) V
theorem arg18_kept (V : Valuation τ sig (Elt F)) :
    after ops V (Proc.devRef .tc main_arg18) = V (Proc.devRef .tc main_arg18) := ops_keeps main_arg18 (by decide) V

theorem c0_v7 (W : Valuation τ sig (Elt F)) :
    after opsC0 W (Proc.devRef .tc main_v7) = Cert.Spec.dense (W (Proc.devRef .tc main_arg0)) (Cert.Spec.p9 0 Cert.Spec.h9_0 (W (Proc.devRef .tc main_arg9))) (Cert.Spec.p10 0 Cert.Spec.h10_0 (W (Proc.devRef .tc main_arg10))) := by
  simp only [opsC0]
  after_results_simp
  rfl

theorem c0_v15 (W : Valuation τ sig (Elt F)) :
    after opsC0 W (Proc.devRef .tc main_v15) = Cert.Spec.dense (W (Proc.devRef .tc main_arg1)) (Cert.Spec.p9 0 Cert.Spec.h9_0 (W (Proc.devRef .tc main_arg9))) (Cert.Spec.p10 0 Cert.Spec.h10_0 (W (Proc.devRef .tc main_arg10))) := by
  simp only [opsC0]
  after_results_simp
  rfl

abbrev inputs (V : Valuation τ sig (Elt F)) : Cert.Spec.Inputs F :=
  ⟨V (Proc.devRef .tc main_arg0),
   V (Proc.devRef .tc main_arg1),
   V (Proc.devRef .tc main_arg2),
   V (Proc.devRef .tc main_arg3),
   V (Proc.devRef .tc main_arg4),
   V (Proc.devRef .tc main_arg5),
   V (Proc.devRef .tc main_arg6),
   V (Proc.devRef .tc main_arg7),
   V (Proc.devRef .tc main_arg8),
   V (Proc.devRef .tc main_arg9),
   V (Proc.devRef .tc main_arg10),
   V (Proc.devRef .tc main_arg11),
   V (Proc.devRef .tc main_arg12),
   V (Proc.devRef .tc main_arg13),
   V (Proc.devRef .tc main_arg14),
   V (Proc.devRef .tc main_arg15),
   V (Proc.devRef .tc main_arg16),
   V (Proc.devRef .tc main_arg17),
   V (Proc.devRef .tc main_arg18)⟩

def R0 (V : Valuation τ sig (Elt F)) : Valuation τ sig (Elt F) := after opsC0 V
def R1 (V : Valuation τ sig (Elt F)) : Valuation τ sig (Elt F) := after opsC1 (R0 V)
def R2 (V : Valuation τ sig (Elt F)) : Valuation τ sig (Elt F) := after opsC2 (R1 V)
def R3 (V : Valuation τ sig (Elt F)) : Valuation τ sig (Elt F) := after opsC3 (R2 V)
def R4 (V : Valuation τ sig (Elt F)) : Valuation τ sig (Elt F) := after opsC4 (R3 V)

theorem after_ops (V : Valuation τ sig (Elt F)) : after ops V = after opsTail (R4 V) := by
  show after (opsC0 ++ (opsC1 ++ (opsC2 ++ (opsC3 ++ (opsC4 ++ opsTail))))) V = _
  rw [after_app, after_app, after_app, after_app, after_app]
  rfl

theorem R0_kept (V : Valuation τ sig (Elt F)) (r : Ref sig .tc) (h0 : r ∉ wC0) :
    R0 V (Proc.devRef .tc r) = V (Proc.devRef .tc r) := keepsC0 r h0 V
theorem R1_kept (V : Valuation τ sig (Elt F)) (r : Ref sig .tc) (h1a : r ∉ wC1a) (h1b : r ∉ wC1b) :
    R1 V (Proc.devRef .tc r) = R0 V (Proc.devRef .tc r) := ((keepsC1a r h1a).append (keepsC1b r h1b)) (R0 V)
theorem R2_kept (V : Valuation τ sig (Elt F)) (r : Ref sig .tc) (h2a : r ∉ wC2a) (h2b : r ∉ wC2b) :
    R2 V (Proc.devRef .tc r) = R1 V (Proc.devRef .tc r) := ((keepsC2a r h2a).append (keepsC2b r h2b)) (R1 V)
theorem R3_kept (V : Valuation τ sig (Elt F)) (r : Ref sig .tc) (h3a : r ∉ wC3a) (h3b : r ∉ wC3b) :
    R3 V (Proc.devRef .tc r) = R2 V (Proc.devRef .tc r) := ((keepsC3a r h3a).append (keepsC3b r h3b)) (R2 V)
theorem R4_kept (V : Valuation τ sig (Elt F)) (r : Ref sig .tc) (h4 : r ∉ wC4) :
    R4 V (Proc.devRef .tc r) = R3 V (Proc.devRef .tc r) := keepsC4 r h4 (R3 V)

theorem R0_arg (V : Valuation τ sig (Elt F)) (r : Ref sig .tc) (h : Unwritten r) :
    R0 V (Proc.devRef .tc r) = V (Proc.devRef .tc r) := R0_kept V r h.1
theorem R1_arg (V : Valuation τ sig (Elt F)) (r : Ref sig .tc) (h : Unwritten r) :
    R1 V (Proc.devRef .tc r) = V (Proc.devRef .tc r) := (R1_kept V r h.2.1 h.2.2.1).trans (R0_arg V r h)
theorem R2_arg (V : Valuation τ sig (Elt F)) (r : Ref sig .tc) (h : Unwritten r) :
    R2 V (Proc.devRef .tc r) = V (Proc.devRef .tc r) := (R2_kept V r h.2.2.2.1 h.2.2.2.2.1).trans (R1_arg V r h)
theorem R3_arg (V : Valuation τ sig (Elt F)) (r : Ref sig .tc) (h : Unwritten r) :
    R3 V (Proc.devRef .tc r) = V (Proc.devRef .tc r) :=
  (R3_kept V r h.2.2.2.2.2.1 h.2.2.2.2.2.2.1).trans (R2_arg V r h)
theorem R4_arg (V : Valuation τ sig (Elt F)) (r : Ref sig .tc) (h : Unwritten r) :
    R4 V (Proc.devRef .tc r) = V (Proc.devRef .tc r) := (R4_kept V r h.2.2.2.2.2.2.2.1).trans (R3_arg V r h)

theorem R0_v7 (V : Valuation τ sig (Elt F)) :
    R0 V (Proc.devRef .tc main_v7) = Cert.Spec.dense (V (Proc.devRef .tc main_arg0)) (Cert.Spec.p9 0 Cert.Spec.h9_0 (V (Proc.devRef .tc main_arg9))) (Cert.Spec.p10 0 Cert.Spec.h10_0 (V (Proc.devRef .tc main_arg10))) := c0_v7 V
theorem R0_v15 (V : Valuation τ sig (Elt F)) :
    R0 V (Proc.devRef .tc main_v15) = Cert.Spec.dense (V (Proc.devRef .tc main_arg1)) (Cert.Spec.p9 0 Cert.Spec.h9_0 (V (Proc.devRef .tc main_arg9))) (Cert.Spec.p10 0 Cert.Spec.h10_0 (V (Proc.devRef .tc main_arg10))) := c0_v15 V

theorem R1_v83 (V : Valuation τ sig (Elt F)) :
    R1 V (Proc.devRef .tc main_v83) = addf (Cert.Spec.dense (V (Proc.devRef .tc main_arg1)) (Cert.Spec.p9 0 Cert.Spec.h9_0 (V (Proc.devRef .tc main_arg9))) (Cert.Spec.p10 0 Cert.Spec.h10_0 (V (Proc.devRef .tc main_arg10))))
      (Cert.Spec.gatR (V (Proc.devRef .tc main_arg1)) (V (Proc.devRef .tc main_arg0))
        (Cert.Spec.edgeRow 0 Cert.Spec.e_0 (V (Proc.devRef .tc main_arg2))) (Cert.Spec.edgeRow 1 Cert.Spec.e_1 (V (Proc.devRef .tc main_arg2)))
        (Cert.Spec.p4 0 0 Cert.Spec.h4_00 (V (Proc.devRef .tc main_arg4))) (Cert.Spec.p5 0 0 Cert.Spec.h5_00 (V (Proc.devRef .tc main_arg5)))
        (Cert.Spec.p6 0 0 Cert.Spec.h6_00 (V (Proc.devRef .tc main_arg6))) (Cert.Spec.p4 0 0 Cert.Spec.h4_00 (V (Proc.devRef .tc main_arg7)))
        (Cert.Spec.p8 0 0 Cert.Spec.h8_00 (V (Proc.devRef .tc main_arg8)))) := by
  rw [R1, c1_v83, R0_v15, R0_arg V main_arg1 (by decide), R0_arg V main_arg0 (by decide), R0_arg V main_arg2 (by decide), R0_arg V main_arg4 (by decide), R0_arg V main_arg5 (by decide), R0_arg V main_arg6 (by decide), R0_arg V main_arg7 (by decide), R0_arg V main_arg8 (by decide)]

theorem R1_v7 (V : Valuation τ sig (Elt F)) :
    R1 V (Proc.devRef .tc main_v7) = Cert.Spec.dense (V (Proc.devRef .tc main_arg0)) (Cert.Spec.p9 0 Cert.Spec.h9_0 (V (Proc.devRef .tc main_arg9))) (Cert.Spec.p10 0 Cert.Spec.h10_0 (V (Proc.devRef .tc main_arg10))) :=
  (R1_kept V main_v7 (by decide) (by decide)).trans (R0_v7 V)

theorem R2_v151 (V : Valuation τ sig (Elt F)) :
    R2 V (Proc.devRef .tc main_v151) = addf (Cert.Spec.dense (V (Proc.devRef .tc main_arg0)) (Cert.Spec.p9 0 Cert.Spec.h9_0 (V (Proc.devRef .tc main_arg9))) (Cert.Spec.p10 0 Cert.Spec.h10_0 (V (Proc.devRef .tc main_arg10))))
      (Cert.Spec.gatR (V (Proc.devRef .tc main_arg0)) (V (Proc.devRef .tc main_arg1))
        (Cert.Spec.edgeRow 0 Cert.Spec.e_0 (V (Proc.devRef .tc main_arg3))) (Cert.Spec.edgeRow 1 Cert.Spec.e_1 (V (Proc.devRef .tc main_arg3)))
        (Cert.Spec.p4 0 1 Cert.Spec.h4_01 (V (Proc.devRef .tc main_arg4))) (Cert.Spec.p5 0 1 Cert.Spec.h5_01 (V (Proc.devRef .tc main_arg5)))
        (Cert.Spec.p6 0 1 Cert.Spec.h6_01 (V (Proc.devRef .tc main_arg6))) (Cert.Spec.p4 0 1 Cert.Spec.h4_01 (V (Proc.devRef .tc main_arg7)))
        (Cert.Spec.p8 0 1 Cert.Spec.h8_01 (V (Proc.devRef .tc main_arg8)))) := by
  rw [R2, c2_v151, R1_v7, R1_arg V main_arg0 (by decide), R1_arg V main_arg1 (by decide), R1_arg V main_arg3 (by decide), R1_arg V main_arg4 (by decide), R1_arg V main_arg5 (by decide), R1_arg V main_arg6 (by decide), R1_arg V main_arg7 (by decide), R1_arg V main_arg8 (by decide)]

theorem R2_v83 (V : Valuation τ sig (Elt F)) :
    R2 V (Proc.devRef .tc main_v83) = addf (Cert.Spec.dense (V (Proc.devRef .tc main_arg1)) (Cert.Spec.p9 0 Cert.Spec.h9_0 (V (Proc.devRef .tc main_arg9))) (Cert.Spec.p10 0 Cert.Spec.h10_0 (V (Proc.devRef .tc main_arg10))))
      (Cert.Spec.gatR (V (Proc.devRef .tc main_arg1)) (V (Proc.devRef .tc main_arg0))
        (Cert.Spec.edgeRow 0 Cert.Spec.e_0 (V (Proc.devRef .tc main_arg2))) (Cert.Spec.edgeRow 1 Cert.Spec.e_1 (V (Proc.devRef .tc main_arg2)))
        (Cert.Spec.p4 0 0 Cert.Spec.h4_00 (V (Proc.devRef .tc main_arg4))) (Cert.Spec.p5 0 0 Cert.Spec.h5_00 (V (Proc.devRef .tc main_arg5)))
        (Cert.Spec.p6 0 0 Cert.Spec.h6_00 (V (Proc.devRef .tc main_arg6))) (Cert.Spec.p4 0 0 Cert.Spec.h4_00 (V (Proc.devRef .tc main_arg7)))
        (Cert.Spec.p8 0 0 Cert.Spec.h8_00 (V (Proc.devRef .tc main_arg8)))) :=
  (R2_kept V main_v83 (by decide) (by decide)).trans (R1_v83 V)

theorem R3_v175 (V : Valuation τ sig (Elt F)) : R3 V (Proc.devRef .tc main_v175) = Cert.Spec.rA0 (inputs V) := by
  rw [R3, c3_v175, R2_v151, R2_arg V main_arg11 (by decide), R2_arg V main_arg12 (by decide)]
  rfl
theorem R3_v83 (V : Valuation τ sig (Elt F)) :
    R3 V (Proc.devRef .tc main_v83) = addf (Cert.Spec.dense (V (Proc.devRef .tc main_arg1)) (Cert.Spec.p9 0 Cert.Spec.h9_0 (V (Proc.devRef .tc main_arg9))) (Cert.Spec.p10 0 Cert.Spec.h10_0 (V (Proc.devRef .tc main_arg10))))
      (Cert.Spec.gatR (V (Proc.devRef .tc main_arg1)) (V (Proc.devRef .tc main_arg0))
        (Cert.Spec.edgeRow 0 Cert.Spec.e_0 (V (Proc.devRef .tc main_arg2))) (Cert.Spec.edgeRow 1 Cert.Spec.e_1 (V (Proc.devRef .tc main_arg2)))
        (Cert.Spec.p4 0 0 Cert.Spec.h4_00 (V (Proc.devRef .tc main_arg4))) (Cert.Spec.p5 0 0 Cert.Spec.h5_00 (V (Proc.devRef .tc main_arg5)))
        (Cert.Spec.p6 0 0 Cert.Spec.h6_00 (V (Proc.devRef .tc main_arg6))) (Cert.Spec.p4 0 0 Cert.Spec.h4_00 (V (Proc.devRef .tc main_arg7)))
        (Cert.Spec.p8 0 0 Cert.Spec.h8_00 (V (Proc.devRef .tc main_arg8)))) :=
  (R3_kept V main_v83 (by decide) (by decide)).trans (R2_v83 V)

theorem R4_v199 (V : Valuation τ sig (Elt F)) : R4 V (Proc.devRef .tc main_v199) = Cert.Spec.rA1 (inputs V) := by
  rw [R4, c4_v199, R3_v83, R3_arg V main_arg11 (by decide), R3_arg V main_arg12 (by decide)]
  rfl
theorem R4_v175 (V : Valuation τ sig (Elt F)) : R4 V (Proc.devRef .tc main_v175) = Cert.Spec.rA0 (inputs V) :=
  (R4_kept V main_v175 (by decide)).trans (R3_v175 V)

theorem value (V : Valuation τ sig (Elt F)) :
    after ops V (Proc.devRef .tc main_v427) = Cert.Spec.rnet (inputs V) := by
  rw [after_ops, tailB, R4_v175, R4_v199,
    R4_arg V main_arg3 (by decide), R4_arg V main_arg9 (by decide), R4_arg V main_arg10 (by decide), R4_arg V main_arg4 (by decide), R4_arg V main_arg5 (by decide), R4_arg V main_arg6 (by decide), R4_arg V main_arg7 (by decide), R4_arg V main_arg8 (by decide),
    R4_arg V main_arg11 (by decide), R4_arg V main_arg12 (by decide), R4_arg V main_arg13 (by decide), R4_arg V main_arg14 (by decide), R4_arg V main_arg15 (by decide), R4_arg V main_arg16 (by decide), R4_arg V main_arg17 (by decide), R4_arg V main_arg18 (by decide)]
  rfl

end Cert.ReferenceIdeal.RVal

end
-- ==== Proof.RInputs.lean ====
import proofs.«112494_j53025666237105_2_alg».proof.ReferenceIdeal
import proofs.«112494_j53025666237105_2_alg».proof.Proof.Net

noncomputable section

namespace Cert.ReferenceIdeal.RVal

open Idealize.ShloMosaic Idealize.SL.Sem Cert.ReferenceIdeal

def inputsOf (m : (ℓ : Loc nD τ sig) → Buf (Elt Ideal) ℓ) (c : Dev nD) : Cert.Spec.Inputs Ideal :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18)⟩

end Cert.ReferenceIdeal.RVal

end
-- ==== Proof.RFinal.lean ====
import proofs.«112494_j53025666237105_2_alg».proof.Proof.RRun
import proofs.«112494_j53025666237105_2_alg».proof.Proof.RValue
import proofs.«112494_j53025666237105_2_alg».proof.Proof.RInputs

noncomputable section

namespace Cert.ReferenceIdeal.RVal

open Idealize.ShloMosaic Idealize.ShloMosaic.TcCoe Idealize.SL.Sem Idealize.ShloMosaic.StableHlo Cert.ReferenceIdeal

theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v427) = Cert.Spec.rnet (inputsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨(h c main_v427).trans (value (F := Ideal) _),
      (h c main_arg0).trans (arg0_kept (F := Ideal) _),
      (h c main_arg1).trans (arg1_kept (F := Ideal) _),
      (h c main_arg2).trans (arg2_kept (F := Ideal) _),
      (h c main_arg3).trans (arg3_kept (F := Ideal) _),
      (h c main_arg4).trans (arg4_kept (F := Ideal) _),
      (h c main_arg5).trans (arg5_kept (F := Ideal) _),
      (h c main_arg6).trans (arg6_kept (F := Ideal) _),
      (h c main_arg7).trans (arg7_kept (F := Ideal) _),
      (h c main_arg8).trans (arg8_kept (F := Ideal) _),
      (h c main_arg9).trans (arg9_kept (F := Ideal) _),
      (h c main_arg10).trans (arg10_kept (F := Ideal) _),
      (h c main_arg11).trans (arg11_kept (F := Ideal) _),
      (h c main_arg12).trans (arg12_kept (F := Ideal) _),
      (h c main_arg13).trans (arg13_kept (F := Ideal) _),
      (h c main_arg14).trans (arg14_kept (F := Ideal) _),
      (h c main_arg15).trans (arg15_kept (F := Ideal) _),
      (h c main_arg16).trans (arg16_kept (F := Ideal) _),
      (h c main_arg17).trans (arg17_kept (F := Ideal) _),
      (h c main_arg18).trans (arg18_kept (F := Ideal) _)⟩)
    (run_main (F := Ideal) m ρ)

end Cert.ReferenceIdeal.RVal

end
-- ==== Proof.NetReal.lean ====
import proofs.«112494_j53025666237105_2_alg».proof.Proof.Net

noncomputable section

namespace Cert.Spec

open Idealize.ShloMosaic

structure Inputs.AllReal (I : Inputs Ideal) : Prop where
  x0 : IsReal I.x0
  x1 : IsReal I.x1
  convW : IsReal I.convW
  projW : IsReal I.projW
  projB : IsReal I.projB
  resW : IsReal I.resW
  gatB : IsReal I.gatB
  skipW : IsReal I.skipW
  skipB : IsReal I.skipB
  bnG : IsReal I.bnG
  bnB : IsReal I.bnB
  w1 : IsReal I.w1
  b1 : IsReal I.b1
  mG : IsReal I.mG
  mB : IsReal I.mB
  w2 : IsReal I.w2
  b2 : IsReal I.b2

theorem isReal_p4 {i j : Nat} (h : S2x2x128x128.Slices ![i, j, 0, 0] S1x1x128x128) {a : FVec Ideal S2x2x128x128 .f32}
    (ha : IsReal a) : IsReal (p4 i j h a) := fun _ => ha _
theorem isReal_p5 {i j : Nat} (h : S2x2x256x1.Slices ![i, j, 0, 0] S1x1x256x1) {a : FVec Ideal S2x2x256x1 .f32}
    (ha : IsReal a) : IsReal (p5 i j h a) := fun _ => ha _
theorem isReal_p6 {i j : Nat} (h : S2x2x1.Slices ![i, j, 0] S1x1x1) {a : FVec Ideal S2x2x1 .f32}
    (ha : IsReal a) : IsReal (p6 i j h a) := fun _ => ha _
theorem isReal_p8 {i j : Nat} (h : S2x2x128.Slices ![i, j, 0] S1x1x128) {a : FVec Ideal S2x2x128 .f32}
    (ha : IsReal a) : IsReal (p8 i j h a) := fun _ => ha _
theorem isReal_p9 {i : Nat} (h : S2x128x128.Slices ![i, 0, 0] S1x128x128) {a : FVec Ideal S2x128x128 .f32}
    (ha : IsReal a) : IsReal (p9 i h a) := fun _ => ha _
theorem isReal_p10 {i : Nat} (h : S2x128.Slices ![i, 0] S1x128) {a : FVec Ideal S2x128 .f32}
    (ha : IsReal a) : IsReal (p10 i h a) := fun _ => ha _

end Cert.Spec

end
-- ==== Proof.LibRowOps.lean ====
import proofs.«112494_j53025666237105_2_alg».proof.Proof.Spec

noncomputable section

namespace Cert.Spec

open Idealize.ShloMosaic

def rowOf (v : BitVec 32) : Fin 100000 := ⟨min v.toInt.toNat 99999, by omega⟩

theorem gRow_siIdx (e : Fin 500000) (c : Fin 128) (h : List.idxOf (0 : Fin SN128.rank) gRow.startIndexMap < gRow.startIndexMap.length) :
    gRow.siIdx (ValueIdx.ix2 e c) ⟨List.idxOf (0 : Fin SN128.rank) gRow.startIndexMap, h⟩ = ValueIdx.ix2 e 0 := by
  funext b; refine Fin.ext ?_
  match b with
  | ⟨0, _⟩ => rfl
  | ⟨1, _⟩ => rfl

theorem gather_gRow_apply {α : Type} (x : SN128.Idx → α) (idx : IVec SE1 32) (e : Fin 500000) (c : Fin 128) :
    Host.gather gRow x idx (ValueIdx.ix2 e c) = x (ValueIdx.ix2 (rowOf (idx (ValueIdx.ix2 e 0))) c) := by
  unfold Host.gather
  congr 1
  funext a
  refine Fin.ext ?_
  match a with
  | ⟨0, _⟩ =>

    show gRow.start (ValueIdx.ix2 e c) idx 0 + gRow.batchCoord (ValueIdx.ix2 e c) 0 + gRow.offCoord (ValueIdx.ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin SN128.rank) ∈ gRow.startIndexMap from List.mem_singleton.mpr rfl), gRow_siIdx]
    rfl
  | ⟨1, _⟩ =>

    show gRow.start (ValueIdx.ix2 e c) idx 1 + gRow.batchCoord (ValueIdx.ix2 e c) 1 + gRow.offCoord (ValueIdx.ix2 e c) 1 = _
    rw [GatherDims.batchCoord_eq_zero _ _ _ List.not_mem_nil]
    have hs : gRow.start (ValueIdx.ix2 e c) idx 1 = 0 := by
      unfold GatherDims.start
      rw [dif_neg (show ¬ (1 : Fin SN128.rank) ∈ gRow.startIndexMap by decide)]
    rw [hs]
    have hk : (1 : Fin SN128.rank) ∈ gRow.sKept := by decide
    unfold GatherDims.offCoord
    rw [dif_pos hk]
    simp only [Nat.zero_add]
    rfl

theorem gCol_siIdx (e : Fin 500000) (h : List.idxOf (0 : Fin SN1.rank) gCol.startIndexMap < gCol.startIndexMap.length) :
    gCol.siIdx (ValueIdx.ix2 e 0) ⟨List.idxOf (0 : Fin SN1.rank) gCol.startIndexMap, h⟩ = ValueIdx.ix2 e 0 := by
  funext b; refine Fin.ext ?_
  match b with
  | ⟨0, _⟩ => rfl
  | ⟨1, _⟩ => rfl

theorem gather_gCol_apply {α : Type} (x : SN1.Idx → α) (idx : IVec SE1 32) (e : Fin 500000) :
    Host.gather gCol x idx (ValueIdx.ix2 e 0) = x (ValueIdx.ix2 (rowOf (idx (ValueIdx.ix2 e 0))) 0) := by
  unfold Host.gather
  congr 1
  funext a
  refine Fin.ext ?_
  match a with
  | ⟨0, _⟩ =>
    show gCol.start (ValueIdx.ix2 e 0) idx 0 + gCol.batchCoord (ValueIdx.ix2 e 0) 0 + gCol.offCoord (ValueIdx.ix2 e 0) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin SN1.rank) ∈ gCol.startIndexMap from List.mem_singleton.mpr rfl), gCol_siIdx]
    rfl
  | ⟨1, _⟩ =>
    show gCol.start (ValueIdx.ix2 e 0) idx 1 + gCol.batchCoord (ValueIdx.ix2 e 0) 1 + gCol.offCoord (ValueIdx.ix2 e 0) 1 = _
    rw [GatherDims.batchCoord_eq_zero _ _ _ List.not_mem_nil]
    have hs : gCol.start (ValueIdx.ix2 e 0) idx 1 = 0 := by
      unfold GatherDims.start
      rw [dif_neg (show ¬ (1 : Fin SN1.rank) ∈ gCol.startIndexMap by decide)]
    rw [hs]
    have hk : (1 : Fin SN1.rank) ∈ gCol.sKept := by decide
    unfold GatherDims.offCoord
    rw [dif_pos hk]
    simp only [Nat.zero_add]
    rfl

end Cert.Spec

end
-- ==== Proof.SpecEq.lean ====
import proofs.«112494_j53025666237105_2_alg».proof.Proof.Spec
import proofs.«112494_j53025666237105_2_alg».proof.Proof.LibPlainDot
import proofs.«112494_j53025666237105_2_alg».proof.Proof.LibRowOps
import Idealize.ShloMosaic.Lib.Pipeline.Value
import Idealize.ShloMosaic.Lib.KernelVsHost
import Idealize.ShloMosaic.PureOps.Ideal.Laws
import Mathlib.Data.EReal.Operations
import Mathlib.Algebra.BigOperators.Ring.Finset

noncomputable section

open scoped BigOperators

namespace Cert.Spec

open Idealize.ShloMosaic Idealize.ShloMosaic.ValueIdx

section Layout
variable {F : FTy → Type} [FloatOps F]

theorem shapeCast_row_eq_broadcastInDim {α : Type} {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  obtain ⟨r, t, rfl⟩ : ∃ (r : Fin 1) (t : Fin n), i = ix2 r t := ⟨i 0, i 1, eq_ix2 i⟩
  have e2 := shapeCast_apply x h1 (ix2 r t) (ix1 t) (by
    rw [Shape.rowMajor_val_two, Shape.rowMajor_val_one]
    show t.val = r.val * n + t.val
    have := r.isLt
    have h0 : r.val = 0 := by omega
    rw [h0]; omega)
  have e3 := broadcastInDim_apply ![1] hd x (ix2 r t) (ix1 t) (by
    intro a
    match a with
    | ⟨0, _⟩ =>
      show t.val = if n = 1 then 0 else t.val
      split
      · have := t.isLt; omega
      · rfl)
  exact e2.trans e3.symm

theorem row128_eq (b : FVec F S128 .f32) : row128 b = broadcastInDim S1x128 ![1] bc_S128_S1x128 b :=
  shapeCast_row_eq_broadcastInDim b sc_S128_S1x128 bc_S128_S1x128

theorem row64_eq (b : FVec F S64 .f32) : row64 b = broadcastInDim S1x64 ![1] bc_S64_S1x64 b :=
  shapeCast_row_eq_broadcastInDim b sc_S64_S1x64 bc_S64_S1x64

theorem bcast_row128 (b : FVec F S128 .f32) :
    broadcastInDim SN128 ![0, 1] bc_S1x128_SN128 (row128 b) = rows128 b := by
  rw [row128_eq]; rfl

theorem bcast_row64 (b : FVec F S64 .f32) :
    broadcastInDim SN64 ![0, 1] bc_S1x64_SN64 (row64 b) = rows64 b := by
  rw [row64_eq]; rfl

theorem rsqrt_row128 (v : FVec F S128 .f32) (c : BitVec 32) :
    Host.rsqrt (addf (row128 v) (broadcastInDim S1x128 ![] bc_S_S1x128 (constant S_ .f32 c)))
      = row128 (Host.rsqrt (addf v (broadcastInDim S128 ![] bc_S_S128 (constant S_ .f32 c)))) := by
  rw [row128_eq, row128_eq]
  funext j
  rfl

theorem kdense_eq (x : FVec F SN128 .f32) (w : FVec F S128x128 .f32) (b : FVec F S128 .f32) :
    kdense x w (row128 b) = dense x w b := by
  unfold kdense dense
  rw [bcast_row128]

theorem kdense64_eq (x : FVec F SN128 .f32) (w : FVec F S128x64 .f32) (b : FVec F S64 .f32) :
    kdense64 x w (row64 b) = dense64 x w b := by
  unfold kdense64 dense64
  rw [bcast_row64]

theorem kbnOf_eq (t : FVec F SN128 .f32) (g b : FVec F S128 .f32) : kbnOf t g b = rbnOf t g b := by
  unfold kbnOf rbnOf kbn bnRelu
  rw [rsqrt_row128, bcast_row128, bcast_row128, bcast_row128, bcast_row128]

theorem kmlp_eq (o : FVec F SN128 .f32) (w1 : FVec F S128x128 .f32) (b1 g b : FVec F S128 .f32)
    (w2 : FVec F S128x64 .f32) (b2 : FVec F S64 .f32) : kmlp o w1 b1 g b w2 b2 = rmlp o w1 b1 g b w2 b2 := by
  unfold kmlp rmlp
  rw [kdense_eq, kbnOf_eq, kdense64_eq]

end Layout

section Assoc

theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_sum_assoc {K J : Type*} [Fintype K] [Fintype J] (a : K → EReal) (c : K → J → EReal) (p : J → EReal)
    (ha : ∀ k, ∃ r : ℝ, a k = (r : EReal)) (hc : ∀ k j, ∃ r : ℝ, c k j = (r : EReal))
    (hp : ∀ j, ∃ r : ℝ, p j = (r : EReal)) :
    ∑ j, (∑ k, a k * c k j) * p j = ∑ k, a k * ∑ j, c k j * p j := by
  choose a' ha using ha
  choose c' hc using hc
  choose p' hp using hp
  simp only [ha, hc, hp, ← EReal.coe_mul, ← coe_finset_sum]
  congr 1
  simp only [Finset.sum_mul, Finset.mul_sum, mul_assoc]
  exact Finset.sum_comm

end Assoc

section Score

theorem dot_at {M K N : Nat} (x : FVec Ideal ⟨2, ![M, K]⟩ .f32) (w : FVec Ideal ⟨2, ![K, N]⟩ .f32) (r : Fin M) (c : Fin N) :
    Host.dotGeneral (DotDims.plain M K N) none x w (ix2 r c) = ∑ k : Fin K, x (ix2 r k) * w (ix2 k c) :=
  Cert.LibPlainDot.dotGeneral_plain_apply M K N none x w (ix2 r c)

theorem isReal_slice {s t : Shape} (off : Fin s.rank → Nat) (x : s.Idx → EReal) (h : s.Slices off t) (hx : IsReal x) :
    IsReal (extractStridedSlice t off x h) := by
  intro i
  unfold extractStridedSlice
  exact hx _

theorem bcast_kzero11 (i : SN1.Idx) :
    broadcastInDim SN1 ![0, 1] bc_S1x1_SN1 (kzero11 (F := Ideal)) i = 0 := by
  show Ideal.ofBits .f32 0x00000000#32 = 0
  exact Ideal.ofBits_zero_f32

theorem scoreTerm_eq (x : FVec Ideal SN128 .f32) (cw : FVec Ideal S128x128 .f32) (p : FVec Ideal S128x1 .f32)
    (hx : IsReal x) (hcw : IsReal cw) (hp : IsReal p) (idx : IVec SE1 32) (e : Fin 500000) :
    Host.gather gCol (Host.dotGeneral (DotDims.plain 100000 128 1) none x
        (Host.dotGeneral (DotDims.plain 128 128 1) none cw p)) idx (ix2 e 0)
      = Host.dotGeneral (DotDims.plain 500000 128 1) none
          (Host.gather gRow (Host.dotGeneral (DotDims.plain 100000 128 128) none x cw) idx) p (ix2 e 0) := by
  rw [gather_gCol_apply, dot_at, dot_at]
  simp only [dot_at, gather_gRow_apply]
  exact (sum_mul_sum_assoc (fun k : Fin 128 => x (ix2 (rowOf (idx (ix2 e 0))) k))
    (fun (k j : Fin 128) => cw (ix2 k j)) (fun j : Fin 128 => p (ix2 j 0))
    (fun k => hx _) (fun k j => hcw _) (fun j => hp _)).symm

variable {xd xs : FVec Ideal SN128 .f32} {src dst : IVec SE 32} {cw : FVec Ideal S128x128 .f32}
  {pw : FVec Ideal S256x1 .f32} {pb : FVec Ideal S1 .f32}

theorem scoreK_eq (hxd : IsReal xd) (hxs : IsReal xs) (hcw : IsReal cw) (hpw : IsReal pw) :
    scoreK (F := Ideal) (kdense1 xd (wsLo cw pw) kzero11) (kscore xs (wsHi cw pw)) src dst pb
      = scoreR xd xs src dst cw pw pb := by
  funext i
  obtain ⟨e, z, rfl⟩ : ∃ (e : Fin 500000) (z : Fin 1), i = ix2 e z := ⟨i 0, i 1, eq_ix2 i⟩
  obtain rfl : z = 0 := Subsingleton.elim _ _
  have h1 := scoreTerm_eq xd cw _ hxd hcw (isReal_slice _ pw sl_S256x1_lo hpw) (normIdx dst) e
  have h2 := scoreTerm_eq xs cw _ hxs hcw (isReal_slice _ pw sl_S256x1_hi hpw) (normIdx src) e
  unfold scoreK scoreR kdense1 kscore wsLo wsHi
  rw [addf_apply, addf_apply, addf_apply, addf_apply, ← h1, ← h2]
  congr 2
  rw [gather_gCol_apply, gather_gCol_apply, addf_apply, bcast_kzero11, add_zero]

end Score

section Layer

theorem add_shuffle (D B T A : EReal) : D + B + (T + A) = T + (A + D + B) := by
  ac_rfl

variable {xd xs : FVec Ideal SN128 .f32} {src dst : IVec SE 32} {cw : FVec Ideal S128x128 .f32}
  {pw : FVec Ideal S256x1 .f32} {pb : FVec Ideal S1 .f32} {rw : FVec Ideal S128x128 .f32}
  {bias : FVec Ideal S128 .f32} {temp : FVec Ideal SN128 .f32}

theorem kgat_eq (hxd : IsReal xd) (hxs : IsReal xs) (hcw : IsReal cw) (hpw : IsReal pw) :
    kgat (F := Ideal) xd xs src dst cw pw pb rw bias temp = addf temp (gatR xd xs src dst cw pw pb rw bias) := by
  unfold kgat kaddend kaddendOf gatR kfeat
  rw [scoreK_eq hxd hxs hcw hpw, bcast_row128]
  funext i
  rw [addf_apply, addf_apply, addf_apply, addf_apply, addf_apply, addf_apply]
  exact add_shuffle _ _ _ _

variable {sw : FVec Ideal S128x128 .f32} {sb g b : FVec Ideal S128 .f32}

theorem klayer_eq (hxd : IsReal xd) (hxs : IsReal xs) (hcw : IsReal cw) (hpw : IsReal pw) :
    klayer (F := Ideal) xd xs src dst sw sb cw pw pb rw bias g b = rlayer xd xs src dst sw sb cw pw pb rw bias g b := by
  unfold klayer rlayer
  rw [kdense_eq, kgat_eq hxd hxs hcw hpw, kbnOf_eq]

end Layer

end Cert.Spec

end
-- ==== Proof.SpecFin.lean ====
import proofs.«112494_j53025666237105_2_alg».proof.Proof.Spec

noncomputable section

namespace Cert.Spec

open Idealize.ShloMosaic
open scoped BigOperators

def IsPos {s : Shape} (x : s.Idx → EReal) : Prop := ∀ i, ∃ r : ℝ, 0 < r ∧ x i = (r : EReal)

def IsNonneg {s : Shape} (x : s.Idx → EReal) : Prop := ∀ i, ∃ r : ℝ, 0 ≤ r ∧ x i = (r : EReal)

theorem IsPos.isReal {s : Shape} {x : s.Idx → EReal} (h : IsPos x) : IsReal x := fun i => by
  obtain ⟨r, _, hr⟩ := h i; exact ⟨r, hr⟩
theorem IsNonneg.isReal {s : Shape} {x : s.Idx → EReal} (h : IsNonneg x) : IsReal x := fun i => by
  obtain ⟨r, _, hr⟩ := h i; exact ⟨r, hr⟩
theorem IsPos.isNonneg {s : Shape} {x : s.Idx → EReal} (h : IsPos x) : IsNonneg x := fun i => by
  obtain ⟨r, h0, hr⟩ := h i; exact ⟨r, h0.le, hr⟩

theorem sum_real {ι : Type} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by simp⟩
  | insert a t ha ih =>
    obtain ⟨r, hr⟩ := ih (fun i hi => h i (Finset.mem_insert_of_mem hi))
    obtain ⟨q, hq⟩ := h a (Finset.mem_insert_self a t)
    exact ⟨q + r, by rw [Finset.sum_insert ha, hr, hq, EReal.coe_add]⟩

theorem sum_nonneg_real {ι : Type} (t : Finset ι) (f : ι → EReal)
    (h : ∀ i ∈ t, ∃ r : ℝ, 0 ≤ r ∧ f i = (r : EReal)) : ∃ r : ℝ, 0 ≤ r ∧ ∑ i ∈ t, f i = (r : EReal) := by
  classical
  induction t using Finset.induction_on with
  | empty => exact ⟨0, le_refl _, by simp⟩
  | insert a t ha ih =>
    obtain ⟨r, h0, hr⟩ := ih (fun i hi => h i (Finset.mem_insert_of_mem hi))
    obtain ⟨q, hq0, hq⟩ := h a (Finset.mem_insert_self a t)
    exact ⟨q + r, add_nonneg hq0 h0, by rw [Finset.sum_insert ha, hr, hq, EReal.coe_add]⟩

theorem f32_zero : Ideal.ofBits .f32 0x00000000#32 = ((0 : ℝ) : EReal) := by simp [Ideal.ofBits, Ideal.ieee]

theorem f32_slope : ∃ r : ℝ, Ideal.ofBits .f32 0x3E4CCCCD#32 = (r : EReal) := by
  simp [Ideal.ofBits, Ideal.ieee, -EReal.coe_mul]

theorem f32_epsAtt : ∃ r : ℝ, 0 < r ∧ Ideal.ofBits .f32 0x24E69595#32 = (r : EReal) := by
  simp [Ideal.ofBits, Ideal.ieee, -EReal.coe_mul]

theorem f32_count : Ideal.ofBits .f32 0x47C35000#32 = ((100000 : ℝ) : EReal) := by
  simp [Ideal.ofBits, Ideal.ieee, -EReal.coe_mul]
  norm_num

theorem f32_epsBn : ∃ r : ℝ, 0 < r ∧ Ideal.ofBits .f32 0x3727C5AC#32 = (r : EReal) := by
  simp [Ideal.ofBits, Ideal.ieee, -EReal.coe_mul]

section Ops
variable {s : Shape} {φ : FTy}

theorem isReal_addf {x y : FVec Ideal s φ} (hx : IsReal x) (hy : IsReal y) : IsReal (addf x y) := fun i => by
  obtain ⟨a, ha⟩ := hx i; obtain ⟨b, hb⟩ := hy i
  exact ⟨a + b, by show x i + y i = _; rw [ha, hb, EReal.coe_add]⟩

theorem isReal_subf {x y : FVec Ideal s φ} (hx : IsReal x) (hy : IsReal y) : IsReal (subf x y) := fun i => by
  obtain ⟨a, ha⟩ := hx i; obtain ⟨b, hb⟩ := hy i
  exact ⟨a - b, by show x i - y i = _; rw [ha, hb, EReal.coe_sub]⟩

theorem isReal_mulf {x y : FVec Ideal s φ} (hx : IsReal x) (hy : IsReal y) : IsReal (mulf x y) := fun i => by
  obtain ⟨a, ha⟩ := hx i; obtain ⟨b, hb⟩ := hy i
  exact ⟨a * b, by show x i * y i = _; rw [ha, hb, EReal.coe_mul]⟩

theorem isNonneg_mulf_self {x : FVec Ideal s φ} (hx : IsReal x) : IsNonneg (mulf x x) := fun i => by
  obtain ⟨a, ha⟩ := hx i
  exact ⟨a * a, mul_self_nonneg a, by show x i * x i = _; rw [ha, EReal.coe_mul]⟩

theorem isReal_maximumf {x y : FVec Ideal s φ} (hx : IsReal x) (hy : IsReal y) : IsReal (maximumf x y) := fun i => by
  show ∃ r : ℝ, max (x i) (y i) = _
  rcases max_choice (x i) (y i) with h | h
  · rw [h]; exact hx i
  · rw [h]; exact hy i

theorem isReal_select {c : IVec s 1} {x y : s.Idx → EReal} (hx : IsReal x) (hy : IsReal y) :
    IsReal (select c x y) := fun i => by
  show ∃ r : ℝ, (if c i = 1 then x i else y i) = _
  split
  · exact hx i
  · exact hy i

theorem isPos_addf {x y : FVec Ideal s φ} (hx : IsNonneg x) (hy : IsPos y) : IsPos (addf x y) := fun i => by
  obtain ⟨a, ha0, ha⟩ := hx i; obtain ⟨b, hb0, hb⟩ := hy i
  exact ⟨a + b, by linarith, by show x i + y i = _; rw [ha, hb, EReal.coe_add]⟩

theorem isPos_exp {x : FVec Ideal s φ} (hx : IsReal x) : IsPos (Host.exp x) := fun i => by
  obtain ⟨a, ha⟩ := hx i
  exact ⟨Real.exp a, Real.exp_pos a, by show Ideal.exp (x i) = _; rw [ha, Ideal.exp_coe]⟩

theorem isReal_hostDivf {x y : FVec Ideal s φ} (hx : IsReal x) (hy : ∀ i, ∃ r : ℝ, r ≠ 0 ∧ y i = (r : EReal)) :
    IsReal (Host.divf x y) := fun i => by
  obtain ⟨a, ha⟩ := hx i; obtain ⟨b, hb0, hb⟩ := hy i
  exact ⟨a * (1 / b), by show Ideal.div (x i) (y i) = _; rw [ha, hb, Ideal.div_coe hb0, EReal.coe_mul]⟩

theorem isNonneg_hostDivf {x y : FVec Ideal s φ} (hx : IsNonneg x) (hy : IsPos y) :
    IsNonneg (Host.divf x y) := fun i => by
  obtain ⟨a, ha0, ha⟩ := hx i; obtain ⟨b, hb0, hb⟩ := hy i
  exact ⟨a * (1 / b), by positivity,
    by show Ideal.div (x i) (y i) = _; rw [ha, hb, Ideal.div_coe hb0.ne', EReal.coe_mul]⟩

theorem isReal_hostRsqrt {x : FVec Ideal s φ} (hx : IsPos x) : IsReal (Host.rsqrt x) := fun i => by
  obtain ⟨a, ha0, ha⟩ := hx i
  exact ⟨(Real.sqrt a)⁻¹, by
    show Ideal.rsqrt (x i) = _
    rw [ha, Ideal.rsqrt_coe, if_neg (not_lt.mpr ha0.le), if_neg ha0.ne']⟩

end Ops

section Reindex
variable {s t : Shape}

theorem isReal_broadcastInDim {dims : Fin s.rank → Fin t.rank} (h : s.BroadcastsInDim t dims) {x : s.Idx → EReal}
    (hx : IsReal x) : IsReal (broadcastInDim t dims h x) := fun j => hx _
theorem isPos_broadcastInDim {dims : Fin s.rank → Fin t.rank} (h : s.BroadcastsInDim t dims) {x : s.Idx → EReal}
    (hx : IsPos x) : IsPos (broadcastInDim t dims h x) := fun j => hx _
theorem isNonneg_broadcastInDim {dims : Fin s.rank → Fin t.rank} (h : s.BroadcastsInDim t dims) {x : s.Idx → EReal}
    (hx : IsNonneg x) : IsNonneg (broadcastInDim t dims h x) := fun j => hx _

theorem isReal_extractStridedSlice {off : Fin s.rank → Nat} (h : s.Slices off t) {x : s.Idx → EReal}
    (hx : IsReal x) : IsReal (extractStridedSlice t off x h) := fun j => hx _

theorem isReal_gather {si : Shape} {w : Nat} (d : GatherDims s si t) {x : s.Idx → EReal} (idx : IVec si w)
    (hx : IsReal x) : IsReal (Host.gather d x idx) := fun j => hx _
theorem isNonneg_gather {si : Shape} {w : Nat} (d : GatherDims s si t) {x : s.Idx → EReal} (idx : IVec si w)
    (hx : IsNonneg x) : IsNonneg (Host.gather d x idx) := fun j => hx _

end Reindex

theorem isReal_dotGeneral {sl sr so : Shape} {φ₁ φ₂ : FTy} (d : DotDims sl sr so) (prec : Option ContractPrecision)
    {x : FVec Ideal sl φ₁} {w : FVec Ideal sr φ₂} (hx : IsReal x) (hw : IsReal w) :
    IsReal (Host.dotGeneral d prec x w) := fun j => by
  show ∃ r : ℝ, (0 : EReal) + ∑ k : d.contr.Idx, x (d.lhsIdx j k) * w (d.rhsIdx j k) = _
  obtain ⟨r, hr⟩ := sum_real Finset.univ (fun k => x (d.lhsIdx j k) * w (d.rhsIdx j k)) (fun k _ => by
    obtain ⟨a, ha⟩ := hx (d.lhsIdx j k); obtain ⟨b, hb⟩ := hw (d.rhsIdx j k)
    exact ⟨a * b, by rw [ha, hb, EReal.coe_mul]⟩)
  exact ⟨r, by rw [hr, zero_add]⟩

theorem isReal_reduceAdd {s t u : Shape} {φ : FTy} {axes : List (Fin s.rank)} {x : FVec Ideal s φ}
    {init : u.Idx → Ideal φ} (h : s.ReducesTo axes t) (hu : 0 < u.numel) (hx : IsReal x) (hi : IsReal init) :
    IsReal (Host.reduceAdd x init h hu) := fun j => by
  show ∃ r : ℝ, init (Shape.Idx.first hu) + ∑ i ∈ Finset.univ.filter (fun i => h.drop i = j), x i = _
  obtain ⟨a, ha⟩ := hi (Shape.Idx.first hu)
  obtain ⟨r, hr⟩ := sum_real (Finset.univ.filter (fun i => h.drop i = j)) x (fun i _ => hx i)
  exact ⟨a + r, by rw [ha, hr, EReal.coe_add]⟩

theorem isNonneg_reduceAdd {s t u : Shape} {φ : FTy} {axes : List (Fin s.rank)} {x : FVec Ideal s φ}
    {init : u.Idx → Ideal φ} (h : s.ReducesTo axes t) (hu : 0 < u.numel) (hx : IsNonneg x) (hi : IsNonneg init) :
    IsNonneg (Host.reduceAdd x init h hu) := fun j => by
  show ∃ r : ℝ, 0 ≤ r ∧ init (Shape.Idx.first hu) + ∑ i ∈ Finset.univ.filter (fun i => h.drop i = j), x i = _
  obtain ⟨a, ha0, ha⟩ := hi (Shape.Idx.first hu)
  obtain ⟨r, hr0, hr⟩ := sum_nonneg_real (Finset.univ.filter (fun i => h.drop i = j)) x (fun i _ => hx i)
  exact ⟨a + r, add_nonneg ha0 hr0, by rw [ha, hr, EReal.coe_add]⟩

theorem isReal_scatterAdd {s si u : Shape} {φ : FTy} {w : Nat} (d : ScatterDims s si u) {x : FVec Ideal s φ}
    (idx : IVec si w) {upd : FVec Ideal u φ} (hx : IsReal x) (hu : IsReal upd) :
    IsReal (Host.scatterAdd d x idx upd) := fun i => by
  show ∃ r : ℝ, x i + ∑ j ∈ Finset.univ.filter (fun j => d.resultIdx? j idx = some i), upd j = _
  obtain ⟨a, ha⟩ := hx i
  obtain ⟨r, hr⟩ := sum_real (Finset.univ.filter (fun j => d.resultIdx? j idx = some i)) upd (fun j _ => hu j)
  exact ⟨a + r, by rw [ha, hr, EReal.coe_add]⟩

theorem isNonneg_scatterAdd {s si u : Shape} {φ : FTy} {w : Nat} (d : ScatterDims s si u) {x : FVec Ideal s φ}
    (idx : IVec si w) {upd : FVec Ideal u φ} (hx : IsNonneg x) (hu : IsNonneg upd) :
    IsNonneg (Host.scatterAdd d x idx upd) := fun i => by
  show ∃ r : ℝ, 0 ≤ r ∧ x i + ∑ j ∈ Finset.univ.filter (fun j => d.resultIdx? j idx = some i), upd j = _
  obtain ⟨a, ha0, ha⟩ := hx i
  obtain ⟨r, hr0, hr⟩ :=
    sum_nonneg_real (Finset.univ.filter (fun j => d.resultIdx? j idx = some i)) upd (fun j _ => hu j)
  exact ⟨a + r, add_nonneg ha0 hr0, by rw [ha, hr, EReal.coe_add]⟩

theorem zero_isNonneg : IsNonneg (constant (F := Ideal) S_ .f32 0x00000000#32) := fun _ => ⟨0, le_refl _, f32_zero⟩
theorem zero_isReal : IsReal (constant (F := Ideal) S_ .f32 0x00000000#32) := zero_isNonneg.isReal
theorem slope_isReal : IsReal (constant (F := Ideal) S_ .f32 0x3E4CCCCD#32) := fun _ => f32_slope
theorem epsAtt_isPos : IsPos (constant (F := Ideal) S_ .f32 0x24E69595#32) := fun _ => f32_epsAtt
theorem epsBn_isPos : IsPos (constant (F := Ideal) S_ .f32 0x3727C5AC#32) := fun _ => f32_epsBn
theorem count_isPos : IsPos (constant (F := Ideal) S_ .f32 0x47C35000#32) := fun _ => ⟨100000, by norm_num, f32_count⟩

theorem count_sub_zero (i : S_.Idx) :
    subf (constant (F := Ideal) S_ .f32 0x47C35000#32) (sitofp (F := Ideal) .f32 (constantI S_ 32 0#32)) i
      = ((100000 : ℝ) : EReal) := by
  show Ideal.ofBits .f32 0x47C35000#32 - (((0#32 : BitVec 32).toInt : ℝ) : EReal) = _
  rw [f32_count]
  simp

theorem count_sub_zero_isPos :
    IsPos (subf (constant (F := Ideal) S_ .f32 0x47C35000#32) (sitofp (F := Ideal) .f32 (constantI S_ 32 0#32))) :=
  fun i => ⟨100000, by norm_num, count_sub_zero i⟩

theorem varGuard (j : S128.Idx) :
    broadcastInDim S128 ![] bc_S_S128
      (cmpf (F := Ideal) .ogt
        (subf (constant S_ .f32 0x47C35000#32) (sitofp (F := Ideal) .f32 (constantI S_ 32 0#32)))
        (constant S_ .f32 0x00000000#32)) j = 1#1 := by
  show BitVec.ofBool (decide (Ideal.ofBits .f32 0x00000000#32
    < subf (constant (F := Ideal) S_ .f32 0x47C35000#32) (sitofp (F := Ideal) .f32 (constantI S_ 32 0#32)) _)) = 1#1
  rw [count_sub_zero, f32_zero]
  have : ((0 : ℝ) : EReal) < ((100000 : ℝ) : EReal) := by exact_mod_cast (by norm_num : (0 : ℝ) < 100000)
  simp [this]

section Pieces
variable {xd xs t hj : FVec Ideal SN128 .f32} {src dst : IVec SE 32} {sw cw rw w : FVec Ideal S128x128 .f32}
  {pw : FVec Ideal S256x1 .f32} {pb : FVec Ideal S1 .f32} {sb bias g b mean var : FVec Ideal S128 .f32}
  {s : FVec Ideal SE1 .f32} {x : FVec Ideal SN128 .f32}

theorem rows128_isReal (hb : IsReal b) : IsReal (rows128 (F := Ideal) b) :=
  isReal_broadcastInDim _ (isReal_broadcastInDim _ hb)

theorem dense_isReal (hx : IsReal x) (hw : IsReal w) (hb : IsReal b) : IsReal (dense (F := Ideal) x w b) :=
  isReal_addf (isReal_dotGeneral _ _ hx hw) (rows128_isReal hb)

theorem scoreR_isReal (hxd : IsReal xd) (hxs : IsReal xs) (hcw : IsReal cw) (hpw : IsReal pw) (hpb : IsReal pb) :
    IsReal (scoreR (F := Ideal) xd xs src dst cw pw pb) :=
  isReal_addf
    (isReal_addf
      (isReal_dotGeneral _ _ (isReal_gather _ _ (isReal_dotGeneral _ _ hxd hcw)) (isReal_extractStridedSlice _ hpw))
      (isReal_dotGeneral _ _ (isReal_gather _ _ (isReal_dotGeneral _ _ hxs hcw)) (isReal_extractStridedSlice _ hpw)))
    (isReal_broadcastInDim _ (isReal_broadcastInDim _ hpb))

theorem leaky_isReal (hs : IsReal s) :
    IsReal (select (cmpf .ogt s (broadcastInDim SE1 ![] bc_S_SE1 (constant S_ .f32 0x00000000#32))) s
      (mulf (broadcastInDim SE1 ![] bc_S_SE1 (constant S_ .f32 0x3E4CCCCD#32)) s)) :=
  isReal_select hs (isReal_mulf (isReal_broadcastInDim _ slope_isReal) hs)

theorem edgeAgg_isReal (hs : IsReal s) (hhj : IsReal hj) : IsReal (edgeAgg (F := Ideal) s hj src dst) := by
  have he := isPos_exp (φ := .f32) (leaky_isReal hs)
  have hD := isNonneg_scatterAdd (φ := .f32) sCol (broadcastInDim SE1 ![0] bc_SE_SE1 dst)
    (isNonneg_broadcastInDim bc_S_SN1 zero_isNonneg) he.isNonneg
  have hden := isPos_addf (φ := .f32) (isNonneg_gather gCol (normIdx src) hD) (isPos_broadcastInDim bc_S_SE1 epsAtt_isPos)
  have hatt := isReal_hostDivf (φ := .f32) he.isReal (fun i => by obtain ⟨r, h0, hr⟩ := hden i; exact ⟨r, h0.ne', hr⟩)
  exact isReal_scatterAdd sRow _ (isReal_broadcastInDim _ zero_isReal)
    (isReal_mulf (isReal_gather _ _ hhj) (isReal_broadcastInDim _ hatt))

theorem gatR_isReal (hxd : IsReal xd) (hxs : IsReal xs) (hcw : IsReal cw) (hpw : IsReal pw) (hpb : IsReal pb)
    (hrw : IsReal rw) (hbias : IsReal bias) : IsReal (gatR (F := Ideal) xd xs src dst cw pw pb rw bias) :=
  isReal_addf
    (isReal_addf (edgeAgg_isReal (scoreR_isReal hxd hxs hcw hpw hpb) (isReal_dotGeneral _ _ hxs hcw))
      (isReal_dotGeneral _ _ hxd hrw))
    (rows128_isReal hbias)

theorem meanOf_isReal (ht : IsReal t) : IsReal (meanOf (F := Ideal) t) :=
  isReal_hostDivf (isReal_reduceAdd _ _ ht zero_isReal)
    (fun i => by obtain ⟨r, h0, hr⟩ := isPos_broadcastInDim bc_S_S128 count_isPos i; exact ⟨r, h0.ne', hr⟩)

theorem varOf_isNonneg (ht : IsReal t) : IsNonneg (varOf (F := Ideal) t) := fun j => by
  have hsum := isReal_reduceAdd (φ := .f32) red_SN128_S128 h_S_ ht zero_isReal
  have hmean := isReal_broadcastInDim bc_S1x128_SN128
    (isReal_hostDivf (φ := .f32) (isReal_broadcastInDim bc_S128_S1x128 hsum)
      (fun i => by obtain ⟨r, h0, hr⟩ := isPos_broadcastInDim bc_S_S1x128 count_isPos i; exact ⟨r, h0.ne', hr⟩))
  have hq := isNonneg_hostDivf (φ := .f32)
    (isNonneg_reduceAdd (φ := .f32) red_SN128_S128 h_S_ (isNonneg_mulf_self (φ := .f32) (isReal_subf (φ := .f32) ht hmean)) zero_isNonneg)
    (isPos_broadcastInDim bc_S_S128 count_sub_zero_isPos)
  obtain ⟨r, hr0, hr⟩ := hq j
  refine ⟨r, hr0, ?_⟩
  rw [← hr]
  exact if_pos (varGuard j)

theorem bnRelu_isReal (ht : IsReal t) (hm : IsReal mean) (hv : IsNonneg var) (hg : IsReal g) (hb : IsReal b) :
    IsReal (bnRelu (F := Ideal) t mean var g b) :=
  isReal_maximumf
    (isReal_addf
      (isReal_mulf
        (isReal_mulf (isReal_subf ht (rows128_isReal hm))
          (rows128_isReal (isReal_hostRsqrt (isPos_addf hv (isPos_broadcastInDim bc_S_S128 epsBn_isPos)))))
        (rows128_isReal hg))
      (rows128_isReal hb))
    (isReal_broadcastInDim _ zero_isReal)

theorem rbnOf_isReal (ht : IsReal t) (hg : IsReal g) (hb : IsReal b) : IsReal (rbnOf (F := Ideal) t g b) :=
  bnRelu_isReal ht (meanOf_isReal ht) (varOf_isNonneg ht) hg hb

theorem rlayer_isReal (hxd : IsReal xd) (hxs : IsReal xs) (hsw : IsReal sw) (hsb : IsReal sb) (hcw : IsReal cw)
    (hpw : IsReal pw) (hpb : IsReal pb) (hrw : IsReal rw) (hbias : IsReal bias) (hg : IsReal g) (hb : IsReal b) :
    IsReal (rlayer (F := Ideal) xd xs src dst sw sb cw pw pb rw bias g b) :=
  rbnOf_isReal (isReal_addf (dense_isReal hxd hsw hsb) (gatR_isReal hxd hxs hcw hpw hpb hrw hbias)) hg hb

end Pieces

end Cert.Spec

end
-- ==== Proof.NetEq.lean ====
import proofs.«112494_j53025666237105_2_alg».proof.Proof.NetReal
import proofs.«112494_j53025666237105_2_alg».proof.Proof.SpecEq
import proofs.«112494_j53025666237105_2_alg».proof.Proof.SpecFin

noncomputable section

namespace Cert.Spec

open Idealize.ShloMosaic

variable (I : Inputs Ideal)

theorem kA0_eq (h : I.AllReal) : kA0 I = rA0 I :=
  klayer_eq h.x0 h.x1 (isReal_p4 h4_01 h.convW) (isReal_p5 h5_01 h.projW)
theorem kA1_eq (h : I.AllReal) : kA1 I = rA1 I :=
  klayer_eq h.x1 h.x0 (isReal_p4 h4_00 h.convW) (isReal_p5 h5_00 h.projW)

theorem rA0_isReal (h : I.AllReal) : IsReal (rA0 I) :=
  rlayer_isReal h.x0 h.x1 (isReal_p9 h9_0 h.skipW) (isReal_p10 h10_0 h.skipB) (isReal_p4 h4_01 h.convW)
    (isReal_p5 h5_01 h.projW) (isReal_p6 h6_01 h.projB) (isReal_p4 h4_01 h.resW) (isReal_p8 h8_01 h.gatB)
    (isReal_p10 h10_0 h.bnG) (isReal_p10 h10_0 h.bnB)
theorem rA1_isReal (h : I.AllReal) : IsReal (rA1 I) :=
  rlayer_isReal h.x1 h.x0 (isReal_p9 h9_0 h.skipW) (isReal_p10 h10_0 h.skipB) (isReal_p4 h4_00 h.convW)
    (isReal_p5 h5_00 h.projW) (isReal_p6 h6_00 h.projB) (isReal_p4 h4_00 h.resW) (isReal_p8 h8_00 h.gatB)
    (isReal_p10 h10_0 h.bnG) (isReal_p10 h10_0 h.bnB)

theorem kB0_eq (h : I.AllReal) : kB0 I = rB0 I := by
  unfold kB0 rB0
  rw [kA0_eq I h, kA1_eq I h]
  exact klayer_eq (rA0_isReal I h) (rA1_isReal I h) (isReal_p4 h4_11 h.convW) (isReal_p5 h5_11 h.projW)

theorem knet_eq_rnet (h : I.AllReal) : knet I = rnet I := by
  unfold knet rnet
  rw [kB0_eq I h]
  exact kmlp_eq _ _ _ _ _ _ _

end Cert.Spec

end
-- ==== Proof.PreFin.lean ====
import proofs.«112494_j53025666237105_2_alg».proof.Pre_finite_inputs
import proofs.«112494_j53025666237105_2_alg».proof.Proof.Gen.Pre_finite_inputs
import proofs.«112494_j53025666237105_2_alg».proof.Proof.Spec
import Idealize.ShloMosaic.Lib.ReduceAll
import Idealize.ShloMosaic.Lib.IdealHost

noncomputable section

namespace Cert.PreFin

open Idealize.ShloMosaic Idealize.ShloMosaic.ValueIdx

instance : Subsingleton (⟨0, ![]⟩ : Shape).Idx := ⟨fun a b => funext fun d => d.elim0⟩

theorem ofBits_inf : Ideal.ofBits .f32 0x7F800000#32 = (⊤ : EReal) := by
  simp [Ideal.ofBits, Ideal.ieee]

theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

theorem isReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) : Cert.Spec.IsReal x := by
  intro i
  have h := Host.reduce_andi_all _ _ hr hu ix0 e i
  rw [cmpf_apply, broadcastInDim_scalar_apply, constant_apply, ofBits_inf] at h
  exact real_of_abs_lt_top (x i) h

theorem andi_ix0 (x y : IVec (⟨0, ![]⟩ : Shape) 1) : andi x y ix0 = IntOp.andi (x ix0) (y ix0) := rfl

open Cert.Pre_finite_inputs in

theorem isReal_of_pre [Cert.Pre_finite_inputs.Facts]
    (a0 a1 : FVec Ideal S100000x128 .f32) (a2 a3 : IVec S2x500000 32)
    (a4 : FVec Ideal S2x2x128x128 .f32) (a5 : FVec Ideal S2x2x256x1 .f32) (a6 : FVec Ideal S2x2x1 .f32)
    (a7 : FVec Ideal S2x2x128x128 .f32) (a8 : FVec Ideal S2x2x128 .f32) (a9 : FVec Ideal S2x128x128 .f32)
    (a10 a11 a12 : FVec Ideal S2x128 .f32) (a13 : FVec Ideal S128x128 .f32)
    (a14 a15 a16 : FVec Ideal Cert.Pre_finite_inputs.S128 .f32) (a17 : FVec Ideal Cert.Pre_finite_inputs.S128x64 .f32)
    (a18 : FVec Ideal Cert.Pre_finite_inputs.S64 .f32)
    (h : Cert.Pre_finite_inputs.fn (F := Ideal) a0 a1 a2 a3 a4 a5 a6 a7 a8 a9 a10 a11 a12 a13 a14 a15 a16 a17 a18
      = (fun _ => 1#1)) :
    Cert.Spec.IsReal a0 ∧ Cert.Spec.IsReal a1 ∧ Cert.Spec.IsReal a4 ∧ Cert.Spec.IsReal a5 ∧ Cert.Spec.IsReal a6
      ∧ Cert.Spec.IsReal a7 ∧ Cert.Spec.IsReal a8 ∧ Cert.Spec.IsReal a9 ∧ Cert.Spec.IsReal a10 ∧ Cert.Spec.IsReal a11
      ∧ Cert.Spec.IsReal a12 ∧ Cert.Spec.IsReal a13 ∧ Cert.Spec.IsReal a14 ∧ Cert.Spec.IsReal a15
      ∧ Cert.Spec.IsReal a16 ∧ Cert.Spec.IsReal a17 ∧ Cert.Spec.IsReal a18 := by
  have e := congrFun h ix0
  dsimp only [Cert.Pre_finite_inputs.fn, Cert.Pre_finite_inputs.fn_part1, Cert.Pre_finite_inputs.fn_part2,
    Cert.Pre_finite_inputs.fn_part3, Cert.Pre_finite_inputs.fn_part4] at e
  simp only [andi_ix0, IntOp.andi_eq_one, and_assoc] at e
  obtain ⟨e0, e1, e4, e5, e6, e7, e8, e9, e10, e11, e12, e13, e14, e15, e16, e17, e18⟩ := e
  exact ⟨isReal_of_all a0 _ _ _ e0, isReal_of_all a1 _ _ _ e1, isReal_of_all a4 _ _ _ e4, isReal_of_all a5 _ _ _ e5,
    isReal_of_all a6 _ _ _ e6, isReal_of_all a7 _ _ _ e7, isReal_of_all a8 _ _ _ e8, isReal_of_all a9 _ _ _ e9,
    isReal_of_all a10 _ _ _ e10, isReal_of_all a11 _ _ _ e11, isReal_of_all a12 _ _ _ e12,
    isReal_of_all a13 _ _ _ e13, isReal_of_all a14 _ _ _ e14, isReal_of_all a15 _ _ _ e15,
    isReal_of_all a16 _ _ _ e16, isReal_of_all a17 _ _ _ e17, isReal_of_all a18 _ _ _ e18⟩

end Cert.PreFin

end
-- ==== Proof.lean ====
import proofs.«112494_j53025666237105_2_alg».proof.Defs
import proofs.«112494_j53025666237105_2_alg».proof.Proof.Gen.Kernel
import proofs.«112494_j53025666237105_2_alg».proof.Proof.Gen.Kernel.Frame
import proofs.«112494_j53025666237105_2_alg».proof.Proof.Gen.KernelIdeal
import proofs.«112494_j53025666237105_2_alg».proof.Proof.Gen.KernelIdeal.Frame
import proofs.«112494_j53025666237105_2_alg».proof.Proof.Gen.ReferenceIdeal
import proofs.«112494_j53025666237105_2_alg».proof.Proof.Gen.Pre_finite_inputs
import proofs.«112494_j53025666237105_2_alg».proof.Proof.KRun
import proofs.«112494_j53025666237105_2_alg».proof.Proof.KValue
import proofs.«112494_j53025666237105_2_alg».proof.Proof.RFinal
import proofs.«112494_j53025666237105_2_alg».proof.Proof.NetEq
import proofs.«112494_j53025666237105_2_alg».proof.Proof.PreFin
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RVal.run_value m ρ)

theorem allReal_of_pre (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.KVal.inputsOf m c).AllReal := by
  obtain ⟨h0, h1, h4, h5, h6, h7, h8, h9, h10, h11, h12, h13, h14, h15, h16, h17, h18⟩ :=
    Cert.PreFin.isReal_of_pre _ _ _ _ _ _ _ _ _ _ _ _ _ _ _ _ _ _ _ (h c)
  exact ⟨h0, h1, h4, h5, h6, h7, h8, h9, h10, h11, h12, h13, h14, h15, h16, h17, h18⟩

theorem algebraic : Cert.algebraic_KernelIdeal_ReferenceIdeal := by
  intro m ρ m' ρ' hpre hagree
  refine ⟨fun c => Cert.Spec.knet (Cert.KernelIdeal.KVal.inputsOf m c), ?_, ?_⟩
  · exact (θ_run Cert.KernelIdeal.defs _ _).mono
      (fun r h c => ⟨(h c).1.trans (Cert.KernelIdeal.KVal.kvalue m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.RVal.run_value m' ρ')
    have e : Cert.ReferenceIdeal.RVal.inputsOf m' c = Cert.KernelIdeal.KVal.inputsOf m c := by
      obtain ⟨a0, a1, a2, a3, a4, a5, a6, a7, a8, a9, a10, a11, a12, a13, a14, a15, a16, a17, a18⟩ := hagree c
      unfold Cert.ReferenceIdeal.RVal.inputsOf Cert.KernelIdeal.KVal.inputsOf
      rw [a0, a1, a2, a3, a4, a5, a6, a7, a8, a9, a10, a11, a12, a13, a14, a15, a16, a17, a18]
    rw [e]
    exact (Cert.Spec.knet_eq_rnet _ (allReal_of_pre m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
